-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24)) (m ((c.tc : Thread Cert.Kernel.nD Cert.Kernel.τ).loc Cert.Kernel.main_arg25)) (m ((c.tc : Thread Cert.Kernel.nD Cert.Kernel.τ).loc Cert.Kernel.main_arg26)) (m ((c.tc : Thread Cert.Kernel.nD Cert.Kernel.τ).loc Cert.Kernel.main_arg27)) (m ((c.tc : Thread Cert.Kernel.nD Cert.Kernel.τ).loc Cert.Kernel.main_arg28)) (m ((c.tc : Thread Cert.Kernel.nD Cert.Kernel.τ).loc Cert.Kernel.main_arg29)) (m ((c.tc : Thread Cert.Kernel.nD Cert.Kernel.τ).loc Cert.Kernel.main_arg30)) (m ((c.tc : Thread Cert.Kernel.nD Cert.Kernel.τ).loc Cert.Kernel.main_arg31)) (m ((c.tc : Thread Cert.Kernel.nD Cert.Kernel.τ).loc Cert.Kernel.main_arg32)) (m ((c.tc : Thread Cert.Kernel.nD Cert.Kernel.τ).loc Cert.Kernel.main_arg33)) (m ((c.tc : Thread Cert.Kernel.nD Cert.Kernel.τ).loc Cert.Kernel.main_arg34)) (m ((c.tc : Thread Cert.Kernel.nD Cert.Kernel.τ).loc Cert.Kernel.main_arg35)) (m ((c.tc : Thread Cert.Kernel.nD Cert.Kernel.τ).loc Cert.Kernel.main_arg36))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27)) (m ((c.tc : Thread Cert.KernelIdeal.nD Cert.KernelIdeal.τ).loc Cert.KernelIdeal.main_arg28)) (m ((c.tc : Thread Cert.KernelIdeal.nD Cert.KernelIdeal.τ).loc Cert.KernelIdeal.main_arg29)) (m ((c.tc : Thread Cert.KernelIdeal.nD Cert.KernelIdeal.τ).loc Cert.KernelIdeal.main_arg30)) (m ((c.tc : Thread Cert.KernelIdeal.nD Cert.KernelIdeal.τ).loc Cert.KernelIdeal.main_arg31)) (m ((c.tc : Thread Cert.KernelIdeal.nD Cert.KernelIdeal.τ).loc Cert.KernelIdeal.main_arg32)) (m ((c.tc : Thread Cert.KernelIdeal.nD Cert.KernelIdeal.τ).loc Cert.KernelIdeal.main_arg33)) (m ((c.tc : Thread Cert.KernelIdeal.nD Cert.KernelIdeal.τ).loc Cert.KernelIdeal.main_arg34)) (m ((c.tc : Thread Cert.KernelIdeal.nD Cert.KernelIdeal.τ).loc Cert.KernelIdeal.main_arg35)) (m ((c.tc : Thread Cert.KernelIdeal.nD Cert.KernelIdeal.τ).loc Cert.KernelIdeal.main_arg36))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26)) (m ((c.tc : Thread Cert.ReferenceIdeal.nD Cert.ReferenceIdeal.τ).loc Cert.ReferenceIdeal.main_arg27)) (m ((c.tc : Thread Cert.ReferenceIdeal.nD Cert.ReferenceIdeal.τ).loc Cert.ReferenceIdeal.main_arg28)) (m ((c.tc : Thread Cert.ReferenceIdeal.nD Cert.ReferenceIdeal.τ).loc Cert.ReferenceIdeal.main_arg29)) (m ((c.tc : Thread Cert.ReferenceIdeal.nD Cert.ReferenceIdeal.τ).loc Cert.ReferenceIdeal.main_arg30)) (m ((c.tc : Thread Cert.ReferenceIdeal.nD Cert.ReferenceIdeal.τ).loc Cert.ReferenceIdeal.main_arg31)) (m ((c.tc : Thread Cert.ReferenceIdeal.nD Cert.ReferenceIdeal.τ).loc Cert.ReferenceIdeal.main_arg32)) (m ((c.tc : Thread Cert.ReferenceIdeal.nD Cert.ReferenceIdeal.τ).loc Cert.ReferenceIdeal.main_arg33)) (m ((c.tc : Thread Cert.ReferenceIdeal.nD Cert.ReferenceIdeal.τ).loc Cert.ReferenceIdeal.main_arg34)) (m ((c.tc : Thread Cert.ReferenceIdeal.nD Cert.ReferenceIdeal.τ).loc Cert.ReferenceIdeal.main_arg35)) (m ((c.tc : Thread Cert.ReferenceIdeal.nD Cert.ReferenceIdeal.τ).loc Cert.ReferenceIdeal.main_arg36))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25)
      ∧ r.2.mem ((c.tc : Thread Cert.Kernel.nD Cert.Kernel.τ).loc Cert.Kernel.main_arg26) = m ((c.tc : Thread Cert.Kernel.nD Cert.Kernel.τ).loc Cert.Kernel.main_arg26)
      ∧ r.2.mem ((c.tc : Thread Cert.Kernel.nD Cert.Kernel.τ).loc Cert.Kernel.main_arg27) = m ((c.tc : Thread Cert.Kernel.nD Cert.Kernel.τ).loc Cert.Kernel.main_arg27)
      ∧ r.2.mem ((c.tc : Thread Cert.Kernel.nD Cert.Kernel.τ).loc Cert.Kernel.main_arg28) = m ((c.tc : Thread Cert.Kernel.nD Cert.Kernel.τ).loc Cert.Kernel.main_arg28)
      ∧ r.2.mem ((c.tc : Thread Cert.Kernel.nD Cert.Kernel.τ).loc Cert.Kernel.main_arg29) = m ((c.tc : Thread Cert.Kernel.nD Cert.Kernel.τ).loc Cert.Kernel.main_arg29)
      ∧ r.2.mem ((c.tc : Thread Cert.Kernel.nD Cert.Kernel.τ).loc Cert.Kernel.main_arg30) = m ((c.tc : Thread Cert.Kernel.nD Cert.Kernel.τ).loc Cert.Kernel.main_arg30)
      ∧ r.2.mem ((c.tc : Thread Cert.Kernel.nD Cert.Kernel.τ).loc Cert.Kernel.main_arg31) = m ((c.tc : Thread Cert.Kernel.nD Cert.Kernel.τ).loc Cert.Kernel.main_arg31)
      ∧ r.2.mem ((c.tc : Thread Cert.Kernel.nD Cert.Kernel.τ).loc Cert.Kernel.main_arg32) = m ((c.tc : Thread Cert.Kernel.nD Cert.Kernel.τ).loc Cert.Kernel.main_arg32)
      ∧ r.2.mem ((c.tc : Thread Cert.Kernel.nD Cert.Kernel.τ).loc Cert.Kernel.main_arg33) = m ((c.tc : Thread Cert.Kernel.nD Cert.Kernel.τ).loc Cert.Kernel.main_arg33)
      ∧ r.2.mem ((c.tc : Thread Cert.Kernel.nD Cert.Kernel.τ).loc Cert.Kernel.main_arg34) = m ((c.tc : Thread Cert.Kernel.nD Cert.Kernel.τ).loc Cert.Kernel.main_arg34)
      ∧ r.2.mem ((c.tc : Thread Cert.Kernel.nD Cert.Kernel.τ).loc Cert.Kernel.main_arg35) = m ((c.tc : Thread Cert.Kernel.nD Cert.Kernel.τ).loc Cert.Kernel.main_arg35)
      ∧ r.2.mem ((c.tc : Thread Cert.Kernel.nD Cert.Kernel.τ).loc Cert.Kernel.main_arg36) = m ((c.tc : Thread Cert.Kernel.nD Cert.Kernel.τ).loc Cert.Kernel.main_arg36))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
      ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
      ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
      ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28)
      ∧ r.2.mem ((c.tc : Thread Cert.KernelIdeal.nD Cert.KernelIdeal.τ).loc Cert.KernelIdeal.main_arg29) = m ((c.tc : Thread Cert.KernelIdeal.nD Cert.KernelIdeal.τ).loc Cert.KernelIdeal.main_arg29)
      ∧ r.2.mem ((c.tc : Thread Cert.KernelIdeal.nD Cert.KernelIdeal.τ).loc Cert.KernelIdeal.main_arg30) = m ((c.tc : Thread Cert.KernelIdeal.nD Cert.KernelIdeal.τ).loc Cert.KernelIdeal.main_arg30)
      ∧ r.2.mem ((c.tc : Thread Cert.KernelIdeal.nD Cert.KernelIdeal.τ).loc Cert.KernelIdeal.main_arg31) = m ((c.tc : Thread Cert.KernelIdeal.nD Cert.KernelIdeal.τ).loc Cert.KernelIdeal.main_arg31)
      ∧ r.2.mem ((c.tc : Thread Cert.KernelIdeal.nD Cert.KernelIdeal.τ).loc Cert.KernelIdeal.main_arg32) = m ((c.tc : Thread Cert.KernelIdeal.nD Cert.KernelIdeal.τ).loc Cert.KernelIdeal.main_arg32)
      ∧ r.2.mem ((c.tc : Thread Cert.KernelIdeal.nD Cert.KernelIdeal.τ).loc Cert.KernelIdeal.main_arg33) = m ((c.tc : Thread Cert.KernelIdeal.nD Cert.KernelIdeal.τ).loc Cert.KernelIdeal.main_arg33)
      ∧ r.2.mem ((c.tc : Thread Cert.KernelIdeal.nD Cert.KernelIdeal.τ).loc Cert.KernelIdeal.main_arg34) = m ((c.tc : Thread Cert.KernelIdeal.nD Cert.KernelIdeal.τ).loc Cert.KernelIdeal.main_arg34)
      ∧ r.2.mem ((c.tc : Thread Cert.KernelIdeal.nD Cert.KernelIdeal.τ).loc Cert.KernelIdeal.main_arg35) = m ((c.tc : Thread Cert.KernelIdeal.nD Cert.KernelIdeal.τ).loc Cert.KernelIdeal.main_arg35)
      ∧ r.2.mem ((c.tc : Thread Cert.KernelIdeal.nD Cert.KernelIdeal.τ).loc Cert.KernelIdeal.main_arg36) = m ((c.tc : Thread Cert.KernelIdeal.nD Cert.KernelIdeal.τ).loc Cert.KernelIdeal.main_arg36))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25)
      ∧ r.2.mem ((c.tc : Thread Cert.ReferenceIdeal.nD Cert.ReferenceIdeal.τ).loc Cert.ReferenceIdeal.main_arg26) = m ((c.tc : Thread Cert.ReferenceIdeal.nD Cert.ReferenceIdeal.τ).loc Cert.ReferenceIdeal.main_arg26)
      ∧ r.2.mem ((c.tc : Thread Cert.ReferenceIdeal.nD Cert.ReferenceIdeal.τ).loc Cert.ReferenceIdeal.main_arg27) = m ((c.tc : Thread Cert.ReferenceIdeal.nD Cert.ReferenceIdeal.τ).loc Cert.ReferenceIdeal.main_arg27)
      ∧ r.2.mem ((c.tc : Thread Cert.ReferenceIdeal.nD Cert.ReferenceIdeal.τ).loc Cert.ReferenceIdeal.main_arg28) = m ((c.tc : Thread Cert.ReferenceIdeal.nD Cert.ReferenceIdeal.τ).loc Cert.ReferenceIdeal.main_arg28)
      ∧ r.2.mem ((c.tc : Thread Cert.ReferenceIdeal.nD Cert.ReferenceIdeal.τ).loc Cert.ReferenceIdeal.main_arg29) = m ((c.tc : Thread Cert.ReferenceIdeal.nD Cert.ReferenceIdeal.τ).loc Cert.ReferenceIdeal.main_arg29)
      ∧ r.2.mem ((c.tc : Thread Cert.ReferenceIdeal.nD Cert.ReferenceIdeal.τ).loc Cert.ReferenceIdeal.main_arg30) = m ((c.tc : Thread Cert.ReferenceIdeal.nD Cert.ReferenceIdeal.τ).loc Cert.ReferenceIdeal.main_arg30)
      ∧ r.2.mem ((c.tc : Thread Cert.ReferenceIdeal.nD Cert.ReferenceIdeal.τ).loc Cert.ReferenceIdeal.main_arg31) = m ((c.tc : Thread Cert.ReferenceIdeal.nD Cert.ReferenceIdeal.τ).loc Cert.ReferenceIdeal.main_arg31)
      ∧ r.2.mem ((c.tc : Thread Cert.ReferenceIdeal.nD Cert.ReferenceIdeal.τ).loc Cert.ReferenceIdeal.main_arg32) = m ((c.tc : Thread Cert.ReferenceIdeal.nD Cert.ReferenceIdeal.τ).loc Cert.ReferenceIdeal.main_arg32)
      ∧ r.2.mem ((c.tc : Thread Cert.ReferenceIdeal.nD Cert.ReferenceIdeal.τ).loc Cert.ReferenceIdeal.main_arg33) = m ((c.tc : Thread Cert.ReferenceIdeal.nD Cert.ReferenceIdeal.τ).loc Cert.ReferenceIdeal.main_arg33)
      ∧ r.2.mem ((c.tc : Thread Cert.ReferenceIdeal.nD Cert.ReferenceIdeal.τ).loc Cert.ReferenceIdeal.main_arg34) = m ((c.tc : Thread Cert.ReferenceIdeal.nD Cert.ReferenceIdeal.τ).loc Cert.ReferenceIdeal.main_arg34)
      ∧ r.2.mem ((c.tc : Thread Cert.ReferenceIdeal.nD Cert.ReferenceIdeal.τ).loc Cert.ReferenceIdeal.main_arg35) = m ((c.tc : Thread Cert.ReferenceIdeal.nD Cert.ReferenceIdeal.τ).loc Cert.ReferenceIdeal.main_arg35)
      ∧ r.2.mem ((c.tc : Thread Cert.ReferenceIdeal.nD Cert.ReferenceIdeal.τ).loc Cert.ReferenceIdeal.main_arg36) = m ((c.tc : Thread Cert.ReferenceIdeal.nD Cert.ReferenceIdeal.τ).loc Cert.ReferenceIdeal.main_arg36))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
      ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)
      ∧ m' ((c.tc : Thread Cert.ReferenceIdeal.nD Cert.ReferenceIdeal.τ).loc Cert.ReferenceIdeal.main_arg27) = m ((c.tc : Thread Cert.KernelIdeal.nD Cert.KernelIdeal.τ).loc Cert.KernelIdeal.main_arg27)
      ∧ m' ((c.tc : Thread Cert.ReferenceIdeal.nD Cert.ReferenceIdeal.τ).loc Cert.ReferenceIdeal.main_arg28) = m ((c.tc : Thread Cert.KernelIdeal.nD Cert.KernelIdeal.τ).loc Cert.KernelIdeal.main_arg28)
      ∧ m' ((c.tc : Thread Cert.ReferenceIdeal.nD Cert.ReferenceIdeal.τ).loc Cert.ReferenceIdeal.main_arg29) = m ((c.tc : Thread Cert.KernelIdeal.nD Cert.KernelIdeal.τ).loc Cert.KernelIdeal.main_arg29)
      ∧ m' ((c.tc : Thread Cert.ReferenceIdeal.nD Cert.ReferenceIdeal.τ).loc Cert.ReferenceIdeal.main_arg30) = m ((c.tc : Thread Cert.KernelIdeal.nD Cert.KernelIdeal.τ).loc Cert.KernelIdeal.main_arg30)
      ∧ m' ((c.tc : Thread Cert.ReferenceIdeal.nD Cert.ReferenceIdeal.τ).loc Cert.ReferenceIdeal.main_arg31) = m ((c.tc : Thread Cert.KernelIdeal.nD Cert.KernelIdeal.τ).loc Cert.KernelIdeal.main_arg31)
      ∧ m' ((c.tc : Thread Cert.ReferenceIdeal.nD Cert.ReferenceIdeal.τ).loc Cert.ReferenceIdeal.main_arg32) = m ((c.tc : Thread Cert.KernelIdeal.nD Cert.KernelIdeal.τ).loc Cert.KernelIdeal.main_arg32)
      ∧ m' ((c.tc : Thread Cert.ReferenceIdeal.nD Cert.ReferenceIdeal.τ).loc Cert.ReferenceIdeal.main_arg33) = m ((c.tc : Thread Cert.KernelIdeal.nD Cert.KernelIdeal.τ).loc Cert.KernelIdeal.main_arg33)
      ∧ m' ((c.tc : Thread Cert.ReferenceIdeal.nD Cert.ReferenceIdeal.τ).loc Cert.ReferenceIdeal.main_arg34) = m ((c.tc : Thread Cert.KernelIdeal.nD Cert.KernelIdeal.τ).loc Cert.KernelIdeal.main_arg34)
      ∧ m' ((c.tc : Thread Cert.ReferenceIdeal.nD Cert.ReferenceIdeal.τ).loc Cert.ReferenceIdeal.main_arg35) = m ((c.tc : Thread Cert.KernelIdeal.nD Cert.KernelIdeal.τ).loc Cert.KernelIdeal.main_arg35)
      ∧ m' ((c.tc : Thread Cert.ReferenceIdeal.nD Cert.ReferenceIdeal.τ).loc Cert.ReferenceIdeal.main_arg36) = m ((c.tc : Thread Cert.KernelIdeal.nD Cert.KernelIdeal.τ).loc Cert.KernelIdeal.main_arg36)) →
    ∃ (v0 : (c : Dev Cert.KernelIdeal.nD) → Buf (Elt Ideal) ((c.tc : Thread Cert.KernelIdeal.nD Cert.KernelIdeal.τ).loc Cert.KernelIdeal.main_v16_0)) (v1 : (c : Dev Cert.KernelIdeal.nD) → Buf (Elt Ideal) ((c.tc : Thread Cert.KernelIdeal.nD Cert.KernelIdeal.τ).loc Cert.KernelIdeal.main_v16_1)) (v2 : (c : Dev Cert.KernelIdeal.nD) → Buf (Elt Ideal) ((c.tc : Thread Cert.KernelIdeal.nD Cert.KernelIdeal.τ).loc Cert.KernelIdeal.main_v16_2)) (v3 : (c : Dev Cert.KernelIdeal.nD) → Buf (Elt Ideal) ((c.tc : Thread Cert.KernelIdeal.nD Cert.KernelIdeal.τ).loc Cert.KernelIdeal.main_v16_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16_0) = v0 c
          ∧ r.2.mem ((c.tc : Thread Cert.KernelIdeal.nD Cert.KernelIdeal.τ).loc Cert.KernelIdeal.main_v16_1) = v1 c
          ∧ r.2.mem ((c.tc : Thread Cert.KernelIdeal.nD Cert.KernelIdeal.τ).loc Cert.KernelIdeal.main_v16_2) = v2 c
          ∧ r.2.mem ((c.tc : Thread Cert.KernelIdeal.nD Cert.KernelIdeal.τ).loc Cert.KernelIdeal.main_v16_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
          ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
          ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
          ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28)
          ∧ r.2.mem ((c.tc : Thread Cert.KernelIdeal.nD Cert.KernelIdeal.τ).loc Cert.KernelIdeal.main_arg29) = m ((c.tc : Thread Cert.KernelIdeal.nD Cert.KernelIdeal.τ).loc Cert.KernelIdeal.main_arg29)
          ∧ r.2.mem ((c.tc : Thread Cert.KernelIdeal.nD Cert.KernelIdeal.τ).loc Cert.KernelIdeal.main_arg30) = m ((c.tc : Thread Cert.KernelIdeal.nD Cert.KernelIdeal.τ).loc Cert.KernelIdeal.main_arg30)
          ∧ r.2.mem ((c.tc : Thread Cert.KernelIdeal.nD Cert.KernelIdeal.τ).loc Cert.KernelIdeal.main_arg31) = m ((c.tc : Thread Cert.KernelIdeal.nD Cert.KernelIdeal.τ).loc Cert.KernelIdeal.main_arg31)
          ∧ r.2.mem ((c.tc : Thread Cert.KernelIdeal.nD Cert.KernelIdeal.τ).loc Cert.KernelIdeal.main_arg32) = m ((c.tc : Thread Cert.KernelIdeal.nD Cert.KernelIdeal.τ).loc Cert.KernelIdeal.main_arg32)
          ∧ r.2.mem ((c.tc : Thread Cert.KernelIdeal.nD Cert.KernelIdeal.τ).loc Cert.KernelIdeal.main_arg33) = m ((c.tc : Thread Cert.KernelIdeal.nD Cert.KernelIdeal.τ).loc Cert.KernelIdeal.main_arg33)
          ∧ r.2.mem ((c.tc : Thread Cert.KernelIdeal.nD Cert.KernelIdeal.τ).loc Cert.KernelIdeal.main_arg34) = m ((c.tc : Thread Cert.KernelIdeal.nD Cert.KernelIdeal.τ).loc Cert.KernelIdeal.main_arg34)
          ∧ r.2.mem ((c.tc : Thread Cert.KernelIdeal.nD Cert.KernelIdeal.τ).loc Cert.KernelIdeal.main_arg35) = m ((c.tc : Thread Cert.KernelIdeal.nD Cert.KernelIdeal.τ).loc Cert.KernelIdeal.main_arg35)
          ∧ r.2.mem ((c.tc : Thread Cert.KernelIdeal.nD Cert.KernelIdeal.τ).loc Cert.KernelIdeal.main_arg36) = m ((c.tc : Thread Cert.KernelIdeal.nD Cert.KernelIdeal.τ).loc Cert.KernelIdeal.main_arg36))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v148) = v0 c
          ∧ r.2.mem ((c.tc : Thread Cert.ReferenceIdeal.nD Cert.ReferenceIdeal.τ).loc Cert.ReferenceIdeal.main_v150) = v1 c
          ∧ r.2.mem ((c.tc : Thread Cert.ReferenceIdeal.nD Cert.ReferenceIdeal.τ).loc Cert.ReferenceIdeal.main_v152) = v2 c
          ∧ r.2.mem ((c.tc : Thread Cert.ReferenceIdeal.nD Cert.ReferenceIdeal.τ).loc Cert.ReferenceIdeal.main_v154) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25)
          ∧ r.2.mem ((c.tc : Thread Cert.ReferenceIdeal.nD Cert.ReferenceIdeal.τ).loc Cert.ReferenceIdeal.main_arg26) = m' ((c.tc : Thread Cert.ReferenceIdeal.nD Cert.ReferenceIdeal.τ).loc Cert.ReferenceIdeal.main_arg26)
          ∧ r.2.mem ((c.tc : Thread Cert.ReferenceIdeal.nD Cert.ReferenceIdeal.τ).loc Cert.ReferenceIdeal.main_arg27) = m' ((c.tc : Thread Cert.ReferenceIdeal.nD Cert.ReferenceIdeal.τ).loc Cert.ReferenceIdeal.main_arg27)
          ∧ r.2.mem ((c.tc : Thread Cert.ReferenceIdeal.nD Cert.ReferenceIdeal.τ).loc Cert.ReferenceIdeal.main_arg28) = m' ((c.tc : Thread Cert.ReferenceIdeal.nD Cert.ReferenceIdeal.τ).loc Cert.ReferenceIdeal.main_arg28)
          ∧ r.2.mem ((c.tc : Thread Cert.ReferenceIdeal.nD Cert.ReferenceIdeal.τ).loc Cert.ReferenceIdeal.main_arg29) = m' ((c.tc : Thread Cert.ReferenceIdeal.nD Cert.ReferenceIdeal.τ).loc Cert.ReferenceIdeal.main_arg29)
          ∧ r.2.mem ((c.tc : Thread Cert.ReferenceIdeal.nD Cert.ReferenceIdeal.τ).loc Cert.ReferenceIdeal.main_arg30) = m' ((c.tc : Thread Cert.ReferenceIdeal.nD Cert.ReferenceIdeal.τ).loc Cert.ReferenceIdeal.main_arg30)
          ∧ r.2.mem ((c.tc : Thread Cert.ReferenceIdeal.nD Cert.ReferenceIdeal.τ).loc Cert.ReferenceIdeal.main_arg31) = m' ((c.tc : Thread Cert.ReferenceIdeal.nD Cert.ReferenceIdeal.τ).loc Cert.ReferenceIdeal.main_arg31)
          ∧ r.2.mem ((c.tc : Thread Cert.ReferenceIdeal.nD Cert.ReferenceIdeal.τ).loc Cert.ReferenceIdeal.main_arg32) = m' ((c.tc : Thread Cert.ReferenceIdeal.nD Cert.ReferenceIdeal.τ).loc Cert.ReferenceIdeal.main_arg32)
          ∧ r.2.mem ((c.tc : Thread Cert.ReferenceIdeal.nD Cert.ReferenceIdeal.τ).loc Cert.ReferenceIdeal.main_arg33) = m' ((c.tc : Thread Cert.ReferenceIdeal.nD Cert.ReferenceIdeal.τ).loc Cert.ReferenceIdeal.main_arg33)
          ∧ r.2.mem ((c.tc : Thread Cert.ReferenceIdeal.nD Cert.ReferenceIdeal.τ).loc Cert.ReferenceIdeal.main_arg34) = m' ((c.tc : Thread Cert.ReferenceIdeal.nD Cert.ReferenceIdeal.τ).loc Cert.ReferenceIdeal.main_arg34)
          ∧ r.2.mem ((c.tc : Thread Cert.ReferenceIdeal.nD Cert.ReferenceIdeal.τ).loc Cert.ReferenceIdeal.main_arg35) = m' ((c.tc : Thread Cert.ReferenceIdeal.nD Cert.ReferenceIdeal.τ).loc Cert.ReferenceIdeal.main_arg35)
          ∧ r.2.mem ((c.tc : Thread Cert.ReferenceIdeal.nD Cert.ReferenceIdeal.τ).loc Cert.ReferenceIdeal.main_arg36) = m' ((c.tc : Thread Cert.ReferenceIdeal.nD Cert.ReferenceIdeal.τ).loc Cert.ReferenceIdeal.main_arg36))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x256x256 : Shape := ⟨3, ![16, 256, 256]⟩
abbrev S16x129 : Shape := ⟨2, ![16, 129]⟩
abbrev S256x256 : Shape := ⟨2, ![256, 256]⟩
abbrev S256 : Shape := ⟨1, ![256]⟩
abbrev S256x128 : Shape := ⟨2, ![256, 128]⟩
abbrev S128 : Shape := ⟨1, ![128]⟩
abbrev S128x256 : Shape := ⟨2, ![128, 256]⟩
abbrev S256x1 : Shape := ⟨2, ![256, 1]⟩
abbrev S1 : Shape := ⟨1, ![1]⟩
abbrev S_ : Shape := ⟨0, ![]⟩

class Facts : Prop where
  bcast_S_S16x256x256 : S_.BroadcastsInDim S16x256x256 (![] : Fin 0 → Fin S16x256x256.rank)
  reducesTo_S16x256x256_S_d0_1_2 : S16x256x256.ReducesTo [0, 1, 2] S_
  h_S_ : 0 < S_.numel
  bcast_S_S16x129 : S_.BroadcastsInDim S16x129 (![] : Fin 0 → Fin S16x129.rank)
  reducesTo_S16x129_S_d0_1 : S16x129.ReducesTo [0, 1] S_
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x256 : S_.BroadcastsInDim S128x256 (![] : Fin 0 → Fin S128x256.rank)
  reducesTo_S128x256_S_d0_1 : S128x256.ReducesTo [0, 1] S_
  bcast_S_S256x1 : S_.BroadcastsInDim S256x1 (![] : Fin 0 → Fin S256x1.rank)
  reducesTo_S256x1_S_d0_1 : S256x1.ReducesTo [0, 1] S_
  bcast_S_S1 : S_.BroadcastsInDim S1 (![] : Fin 0 → Fin S1.rank)
  reducesTo_S1_S_d0 : S1.ReducesTo [0] S_

variable [Facts]

def fn_part10 {F : FTy → Type} [FloatOps F] (main_arg35 : FVec F S256x1 .f32) (main_arg36 : FVec F S1 .f32) (main_v168 : IVec S_ 1) (main_v169 : FVec F S256 .f32) (main_v170 : FVec F S256 .f32) : IVec S_ 1 :=
  let main_v171 : IVec S256 1 := cmpf .olt main_v169 main_v170
  let main_c_67 : IVec S_ 1 := constantI S_ 1 1#1
  let main_v172 : IVec S_ 1 := (fun x v => Host.reduce IntOp.andi x v reducesTo_S256_S_d0 h_S_) main_v171 main_c_67
  let main_v173 : IVec S_ 1 := andi main_v168 main_v172
  let main_v174 : FVec F S256x1 .f32 := Host.absf main_arg35
  let main_cst_68 : FVec F S_ .f32 := constant S_ .f32 0x7F800000#32
  let main_v175 : FVec F S256x1 .f32 := broadcastInDim S256x1 ![] bcast_S_S256x1 main_cst_68
  let main_v176 : IVec S256x1 1 := cmpf .olt main_v174 main_v175
  let main_c_69 : IVec S_ 1 := constantI S_ 1 1#1
  let main_v177 : IVec S_ 1 := (fun x v => Host.reduce IntOp.andi x v reducesTo_S256x1_S_d0_1 h_S_) main_v176 main_c_69
  let main_v178 : IVec S_ 1 := andi main_v173 main_v177
  let main_v179 : FVec F S1 .f32 := Host.absf main_arg36
  let main_cst_70 : FVec F S_ .f32 := constant S_ .f32 0x7F800000#32
  let main_v180 : FVec F S1 .f32 := broadcastInDim S1 ![] bcast_S_S1 main_cst_70
  let main_v181 : IVec S1 1 := cmpf .olt main_v179 main_v180
  let main_c_71 : IVec S_ 1 := constantI S_ 1 1#1
  let main_v182 : IVec S_ 1 := (fun x v => Host.reduce IntOp.andi x v reducesTo_S1_S_d0 h_S_) main_v181 main_c_71
  let main_v183 : IVec S_ 1 := andi main_v178 main_v182
  main_v183

def fn_part9 {F : FTy → Type} [FloatOps F] (main_arg31 : FVec F S256x1 .f32) (main_arg32 : FVec F S1 .f32) (main_arg33 : FVec F S128x256 .f32) (main_arg34 : FVec F S256 .f32) (main_arg35 : FVec F S256x1 .f32) (main_arg36 : FVec F S1 .f32) (main_v153 : IVec S_ 1) : IVec S_ 1 :=
  let main_v154 : FVec F S256x1 .f32 := Host.absf main_arg31
  let main_cst_60 : FVec F S_ .f32 := constant S_ .f32 0x7F800000#32
  let main_v155 : FVec F S256x1 .f32 := broadcastInDim S256x1 ![] bcast_S_S256x1 main_cst_60
  let main_v156 : IVec S256x1 1 := cmpf .olt main_v154 main_v155
  let main_c_61 : IVec S_ 1 := constantI S_ 1 1#1
  let main_v157 : IVec S_ 1 := (fun x v => Host.reduce IntOp.andi x v reducesTo_S256x1_S_d0_1 h_S_) main_v156 main_c_61
  let main_v158 : IVec S_ 1 := andi main_v153 main_v157
  let main_v159 : FVec F S1 .f32 := Host.absf main_arg32
  let main_cst_62 : FVec F S_ .f32 := constant S_ .f32 0x7F800000#32
  let main_v160 : FVec F S1 .f32 := broadcastInDim S1 ![] bcast_S_S1 main_cst_62
  let main_v161 : IVec S1 1 := cmpf .olt main_v159 main_v160
  let main_c_63 : IVec S_ 1 := constantI S_ 1 1#1
  let main_v162 : IVec S_ 1 := (fun x v => Host.reduce IntOp.andi x v reducesTo_S1_S_d0 h_S_) main_v161 main_c_63
  let main_v163 : IVec S_ 1 := andi main_v158 main_v162
  let main_v164 : FVec F S128x256 .f32 := Host.absf main_arg33
  let main_cst_64 : FVec F S_ .f32 := constant S_ .f32 0x7F800000#32
  let main_v165 : FVec F S128x256 .f32 := broadcastInDim S128x256 ![] bcast_S_S128x256 main_cst_64
  let main_v166 : IVec S128x256 1 := cmpf .olt main_v164 main_v165
  let main_c_65 : IVec S_ 1 := constantI S_ 1 1#1
  let main_v167 : IVec S_ 1 := (fun x v => Host.reduce IntOp.andi x v reducesTo_S128x256_S_d0_1 h_S_) main_v166 main_c_65
  let main_v168 : IVec S_ 1 := andi main_v163 main_v167
  let main_v169 : FVec F S256 .f32 := Host.absf main_arg34
  let main_cst_66 : FVec F S_ .f32 := constant S_ .f32 0x7F800000#32
  let main_v170 : FVec F S256 .f32 := broadcastInDim S256 ![] bcast_S_S256 main_cst_66
  fn_part10 (F := F) main_arg35 main_arg36 main_v168 main_v169 main_v170

def fn_part8 {F : FTy → Type} [FloatOps F] (main_arg28 : FVec F S128 .f32) (main_arg29 : FVec F S128x256 .f32) (main_arg30 : FVec F S256 .f32) (main_arg31 : FVec F S256x1 .f32) (main_arg32 : FVec F S1 .f32) (main_arg33 : FVec F S128x256 .f32) (main_arg34 : FVec F S256 .f32) (main_arg35 : FVec F S256x1 .f32) (main_arg36 : FVec F S1 .f32) (main_v133 : IVec S_ 1) (main_v136 : IVec S256x128 1) : IVec S_ 1 :=
  let main_c_53 : IVec S_ 1 := constantI S_ 1 1#1
  let main_v137 : IVec S_ 1 := (fun x v => Host.reduce IntOp.andi x v reducesTo_S256x128_S_d0_1 h_S_) main_v136 main_c_53
  let main_v138 : IVec S_ 1 := andi main_v133 main_v137
  let main_v139 : FVec F S128 .f32 := Host.absf main_arg28
  let main_cst_54 : FVec F S_ .f32 := constant S_ .f32 0x7F800000#32
  let main_v140 : FVec F S128 .f32 := broadcastInDim S128 ![] bcast_S_S128 main_cst_54
  let main_v141 : IVec S128 1 := cmpf .olt main_v139 main_v140
  let main_c_55 : IVec S_ 1 := constantI S_ 1 1#1
  let main_v142 : IVec S_ 1 := (fun x v => Host.reduce IntOp.andi x v reducesTo_S128_S_d0 h_S_) main_v141 main_c_55
  let main_v143 : IVec S_ 1 := andi main_v138 main_v142
  let main_v144 : FVec F S128x256 .f32 := Host.absf main_arg29
  let main_cst_56 : FVec F S_ .f32 := constant S_ .f32 0x7F800000#32
  let main_v145 : FVec F S128x256 .f32 := broadcastInDim S128x256 ![] bcast_S_S128x256 main_cst_56
  let main_v146 : IVec S128x256 1 := cmpf .olt main_v144 main_v145
  let main_c_57 : IVec S_ 1 := constantI S_ 1 1#1
  let main_v147 : IVec S_ 1 := (fun x v => Host.reduce IntOp.andi x v reducesTo_S128x256_S_d0_1 h_S_) main_v146 main_c_57
  let main_v148 : IVec S_ 1 := andi main_v143 main_v147
  let main_v149 : FVec F S256 .f32 := Host.absf main_arg30
  let main_cst_58 : FVec F S_ .f32 := constant S_ .f32 0x7F800000#32
  let main_v150 : FVec F S256 .f32 := broadcastInDim S256 ![] bcast_S_S256 main_cst_58
  let main_v151 : IVec S256 1 := cmpf .olt main_v149 main_v150
  let main_c_59 : IVec S_ 1 := constantI S_ 1 1#1
  let main_v152 : IVec S_ 1 := (fun x v => Host.reduce IntOp.andi x v reducesTo_S256_S_d0 h_S_) main_v151 main_c_59
  let main_v153 : IVec S_ 1 := andi main_v148 main_v152
  fn_part9 (F := F) main_arg31 main_arg32 main_arg33 main_arg34 main_arg35 main_arg36 main_v153

def fn_part7 {F : FTy → Type} [FloatOps F] (main_arg25 : FVec F S128x256 .f32) (main_arg26 : FVec F S256 .f32) (main_arg27 : FVec F S256x128 .f32) (main_arg28 : FVec F S128 .f32) (main_arg29 : FVec F S128x256 .f32) (main_arg30 : FVec F S256 .f32) (main_arg31 : FVec F S256x1 .f32) (main_arg32 : FVec F S1 .f32) (main_arg33 : FVec F S128x256 .f32) (main_arg34 : FVec F S256 .f32) (main_arg35 : FVec F S256x1 .f32) (main_arg36 : FVec F S1 .f32) (main_v118 : IVec S_ 1) (main_v119 : FVec F S128 .f32) : IVec S_ 1 :=
  let main_cst_46 : FVec F S_ .f32 := constant S_ .f32 0x7F800000#32
  let main_v120 : FVec F S128 .f32 := broadcastInDim S128 ![] bcast_S_S128 main_cst_46
  let main_v121 : IVec S128 1 := cmpf .olt main_v119 main_v120
  let main_c_47 : IVec S_ 1 := constantI S_ 1 1#1
  let main_v122 : IVec S_ 1 := (fun x v => Host.reduce IntOp.andi x v reducesTo_S128_S_d0 h_S_) main_v121 main_c_47
  let main_v123 : IVec S_ 1 := andi main_v118 main_v122
  let main_v124 : FVec F S128x256 .f32 := Host.absf main_arg25
  let main_cst_48 : FVec F S_ .f32 := constant S_ .f32 0x7F800000#32
  let main_v125 : FVec F S128x256 .f32 := broadcastInDim S128x256 ![] bcast_S_S128x256 main_cst_48
  let main_v126 : IVec S128x256 1 := cmpf .olt main_v124 main_v125
  let main_c_49 : IVec S_ 1 := constantI S_ 1 1#1
  let main_v127 : IVec S_ 1 := (fun x v => Host.reduce IntOp.andi x v reducesTo_S128x256_S_d0_1 h_S_) main_v126 main_c_49
  let main_v128 : IVec S_ 1 := andi main_v123 main_v127
  let main_v129 : FVec F S256 .f32 := Host.absf main_arg26
  let main_cst_50 : FVec F S_ .f32 := constant S_ .f32 0x7F800000#32
  let main_v130 : FVec F S256 .f32 := broadcastInDim S256 ![] bcast_S_S256 main_cst_50
  let main_v131 : IVec S256 1 := cmpf .olt main_v129 main_v130
  let main_c_51 : IVec S_ 1 := constantI S_ 1 1#1
  let main_v132 : IVec S_ 1 := (fun x v => Host.reduce IntOp.andi x v reducesTo_S256_S_d0 h_S_) main_v131 main_c_51
  let main_v133 : IVec S_ 1 := andi main_v128 main_v132
  let main_v134 : FVec F S256x128 .f32 := Host.absf main_arg27
  let main_cst_52 : FVec F S_ .f32 := constant S_ .f32 0x7F800000#32
  let main_v135 : FVec F S256x128 .f32 := broadcastInDim S256x128 ![] bcast_S_S256x128 main_cst_52
  let main_v136 : IVec S256x128 1 := cmpf .olt main_v134 main_v135
  fn_part8 (F := F) main_arg28 main_arg29 main_arg30 main_arg31 main_arg32 main_arg33 main_arg34 main_arg35 main_arg36 main_v133 main_v136

def fn_part6 {F : FTy → Type} [FloatOps F] (main_arg21 : FVec F S256x256 .f32) (main_arg22 : FVec F S256 .f32) (main_arg23 : FVec F S256x128 .f32) (main_arg24 : FVec F S128 .f32) (main_arg25 : FVec F S128x256 .f32) (main_arg26 : FVec F S256 .f32) (main_arg27 : FVec F S256x128 .f32) (main_arg28 : FVec F S128 .f32) (main_arg29 : FVec F S128x256 .f32) (main_arg30 : FVec F S256 .f32) (main_arg31 : FVec F S256x1 .f32) (main_arg32 : FVec F S1 .f32) (main_arg33 : FVec F S128x256 .f32) (main_arg34 : FVec F S256 .f32) (main_arg35 : FVec F S256x1 .f32) (main_arg36 : FVec F S1 .f32) (main_v98 : IVec S_ 1) (main_v101 : IVec S128 1) (main_c_39 : IVec S_ 1) : IVec S_ 1 :=
  let main_v102 : IVec S_ 1 := (fun x v => Host.reduce IntOp.andi x v reducesTo_S128_S_d0 h_S_) main_v101 main_c_39
  let main_v103 : IVec S_ 1 := andi main_v98 main_v102
  let main_v104 : FVec F S256x256 .f32 := Host.absf main_arg21
  let main_cst_40 : FVec F S_ .f32 := constant S_ .f32 0x7F800000#32
  let main_v105 : FVec F S256x256 .f32 := broadcastInDim S256x256 ![] bcast_S_S256x256 main_cst_40
  let main_v106 : IVec S256x256 1 := cmpf .olt main_v104 main_v105
  let main_c_41 : IVec S_ 1 := constantI S_ 1 1#1
  let main_v107 : IVec S_ 1 := (fun x v => Host.reduce IntOp.andi x v reducesTo_S256x256_S_d0_1 h_S_) main_v106 main_c_41
  let main_v108 : IVec S_ 1 := andi main_v103 main_v107
  let main_v109 : FVec F S256 .f32 := Host.absf main_arg22
  let main_cst_42 : FVec F S_ .f32 := constant S_ .f32 0x7F800000#32
  let main_v110 : FVec F S256 .f32 := broadcastInDim S256 ![] bcast_S_S256 main_cst_42
  let main_v111 : IVec S256 1 := cmpf .olt main_v109 main_v110
  let main_c_43 : IVec S_ 1 := constantI S_ 1 1#1
  let main_v112 : IVec S_ 1 := (fun x v => Host.reduce IntOp.andi x v reducesTo_S256_S_d0 h_S_) main_v111 main_c_43
  let main_v113 : IVec S_ 1 := andi main_v108 main_v112
  let main_v114 : FVec F S256x128 .f32 := Host.absf main_arg23
  let main_cst_44 : FVec F S_ .f32 := constant S_ .f32 0x7F800000#32
  let main_v115 : FVec F S256x128 .f32 := broadcastInDim S256x128 ![] bcast_S_S256x128 main_cst_44
  let main_v116 : IVec S256x128 1 := cmpf .olt main_v114 main_v115
  let main_c_45 : IVec S_ 1 := constantI S_ 1 1#1
  let main_v117 : IVec S_ 1 := (fun x v => Host.reduce IntOp.andi x v reducesTo_S256x128_S_d0_1 h_S_) main_v116 main_c_45
  let main_v118 : IVec S_ 1 := andi main_v113 main_v117
  let main_v119 : FVec F S128 .f32 := Host.absf main_arg24
  fn_part7 (F := F) main_arg25 main_arg26 main_arg27 main_arg28 main_arg29 main_arg30 main_arg31 main_arg32 main_arg33 main_arg34 main_arg35 main_arg36 main_v118 main_v119

def fn_part5 {F : FTy → Type} [FloatOps F] (main_arg18 : FVec F S256 .f32) (main_arg19 : FVec F S256x128 .f32) (main_arg20 : FVec F S128 .f32) (main_arg21 : FVec F S256x256 .f32) (main_arg22 : FVec F S256 .f32) (main_arg23 : FVec F S256x128 .f32) (main_arg24 : FVec F S128 .f32) (main_arg25 : FVec F S128x256 .f32) (main_arg26 : FVec F S256 .f32) (main_arg27 : FVec F S256x128 .f32) (main_arg28 : FVec F S128 .f32) (main_arg29 : FVec F S128x256 .f32) (main_arg30 : FVec F S256 .f32) (main_arg31 : FVec F S256x1 .f32) (main_arg32 : FVec F S1 .f32) (main_arg33 : FVec F S128x256 .f32) (main_arg34 : FVec F S256 .f32) (main_arg35 : FVec F S256x1 .f32) (main_arg36 : FVec F S1 .f32) (main_v83 : IVec S_ 1) (main_v84 : FVec F S128x256 .f32) (main_cst_32 : FVec F S_ .f32) : IVec S_ 1 :=
  let main_v85 : FVec F S128x256 .f32 := broadcastInDim S128x256 ![] bcast_S_S128x256 main_cst_32
  let main_v86 : IVec S128x256 1 := cmpf .olt main_v84 main_v85
  let main_c_33 : IVec S_ 1 := constantI S_ 1 1#1
  let main_v87 : IVec S_ 1 := (fun x v => Host.reduce IntOp.andi x v reducesTo_S128x256_S_d0_1 h_S_) main_v86 main_c_33
  let main_v88 : IVec S_ 1 := andi main_v83 main_v87
  let main_v89 : FVec F S256 .f32 := Host.absf main_arg18
  let main_cst_34 : FVec F S_ .f32 := constant S_ .f32 0x7F800000#32
  let main_v90 : FVec F S256 .f32 := broadcastInDim S256 ![] bcast_S_S256 main_cst_34
  let main_v91 : IVec S256 1 := cmpf .olt main_v89 main_v90
  let main_c_35 : IVec S_ 1 := constantI S_ 1 1#1
  let main_v92 : IVec S_ 1 := (fun x v => Host.reduce IntOp.andi x v reducesTo_S256_S_d0 h_S_) main_v91 main_c_35
  let main_v93 : IVec S_ 1 := andi main_v88 main_v92
  let main_v94 : FVec F S256x128 .f32 := Host.absf main_arg19
  let main_cst_36 : FVec F S_ .f32 := constant S_ .f32 0x7F800000#32
  let main_v95 : FVec F S256x128 .f32 := broadcastInDim S256x128 ![] bcast_S_S256x128 main_cst_36
  let main_v96 : IVec S256x128 1 := cmpf .olt main_v94 main_v95
  let main_c_37 : IVec S_ 1 := constantI S_ 1 1#1
  let main_v97 : IVec S_ 1 := (fun x v => Host.reduce IntOp.andi x v reducesTo_S256x128_S_d0_1 h_S_) main_v96 main_c_37
  let main_v98 : IVec S_ 1 := andi main_v93 main_v97
  let main_v99 : FVec F S128 .f32 := Host.absf main_arg20
  let main_cst_38 : FVec F S_ .f32 := constant S_ .f32 0x7F800000#32
  let main_v100 : FVec F S128 .f32 := broadcastInDim S128 ![] bcast_S_S128 main_cst_38
  let main_v101 : IVec S128 1 := cmpf .olt main_v99 main_v100
  let main_c_39 : IVec S_ 1 := constantI S_ 1 1#1
  fn_part6 (F := F) main_arg21 main_arg22 main_arg23 main_arg24 main_arg25 main_arg26 main_arg27 main_arg28 main_arg29 main_arg30 main_arg31 main_arg32 main_arg33 main_arg34 main_arg35 main_arg36 main_v98 main_v101 main_c_39

def fn_part4 {F : FTy → Type} [FloatOps F] (main_arg14 : FVec F S256 .f32) (main_arg15 : FVec F S256x128 .f32) (main_arg16 : FVec F S128 .f32) (main_arg17 : FVec F S128x256 .f32) (main_arg18 : FVec F S256 .f32) (main_arg19 : FVec F S256x128 .f32) (main_arg20 : FVec F S128 .f32) (main_arg21 : FVec F S256x256 .f32) (main_arg22 : FVec F S256 .f32) (main_arg23 : FVec F S256x128 .f32) (main_arg24 : FVec F S128 .f32) (main_arg25 : FVec F S128x256 .f32) (main_arg26 : FVec F S256 .f32) (main_arg27 : FVec F S256x128 .f32) (main_arg28 : FVec F S128 .f32) (main_arg29 : FVec F S128x256 .f32) (main_arg30 : FVec F S256 .f32) (main_arg31 : FVec F S256x1 .f32) (main_arg32 : FVec F S1 .f32) (main_arg33 : FVec F S128x256 .f32) (main_arg34 : FVec F S256 .f32) (main_arg35 : FVec F S256x1 .f32) (main_arg36 : FVec F S1 .f32) (main_v63 : IVec S_ 1) (main_v67 : IVec S_ 1) : IVec S_ 1 :=
  let main_v68 : IVec S_ 1 := andi main_v63 main_v67
  let main_v69 : FVec F S256 .f32 := Host.absf main_arg14
  let main_cst_26 : FVec F S_ .f32 := constant S_ .f32 0x7F800000#32
  let main_v70 : FVec F S256 .f32 := broadcastInDim S256 ![] bcast_S_S256 main_cst_26
  let main_v71 : IVec S256 1 := cmpf .olt main_v69 main_v70
  let main_c_27 : IVec S_ 1 := constantI S_ 1 1#1
  let main_v72 : IVec S_ 1 := (fun x v => Host.reduce IntOp.andi x v reducesTo_S256_S_d0 h_S_) main_v71 main_c_27
  let main_v73 : IVec S_ 1 := andi main_v68 main_v72
  let main_v74 : FVec F S256x128 .f32 := Host.absf main_arg15
  let main_cst_28 : FVec F S_ .f32 := constant S_ .f32 0x7F800000#32
  let main_v75 : FVec F S256x128 .f32 := broadcastInDim S256x128 ![] bcast_S_S256x128 main_cst_28
  let main_v76 : IVec S256x128 1 := cmpf .olt main_v74 main_v75
  let main_c_29 : IVec S_ 1 := constantI S_ 1 1#1
  let main_v77 : IVec S_ 1 := (fun x v => Host.reduce IntOp.andi x v reducesTo_S256x128_S_d0_1 h_S_) main_v76 main_c_29
  let main_v78 : IVec S_ 1 := andi main_v73 main_v77
  let main_v79 : FVec F S128 .f32 := Host.absf main_arg16
  let main_cst_30 : FVec F S_ .f32 := constant S_ .f32 0x7F800000#32
  let main_v80 : FVec F S128 .f32 := broadcastInDim S128 ![] bcast_S_S128 main_cst_30
  let main_v81 : IVec S128 1 := cmpf .olt main_v79 main_v80
  let main_c_31 : IVec S_ 1 := constantI S_ 1 1#1
  let main_v82 : IVec S_ 1 := (fun x v => Host.reduce IntOp.andi x v reducesTo_S128_S_d0 h_S_) main_v81 main_c_31
  let main_v83 : IVec S_ 1 := andi main_v78 main_v82
  let main_v84 : FVec F S128x256 .f32 := Host.absf main_arg17
  let main_cst_32 : FVec F S_ .f32 := constant S_ .f32 0x7F800000#32
  fn_part5 (F := F) main_arg18 main_arg19 main_arg20 main_arg21 main_arg22 main_arg23 main_arg24 main_arg25 main_arg26 main_arg27 main_arg28 main_arg29 main_arg30 main_arg31 main_arg32 main_arg33 main_arg34 main_arg35 main_arg36 main_v83 main_v84 main_cst_32

def fn_part3 {F : FTy → Type} [FloatOps F] (main_arg11 : FVec F S256x128 .f32) (main_arg12 : FVec F S128 .f32) (main_arg13 : FVec F S128x256 .f32) (main_arg14 : FVec F S256 .f32) (main_arg15 : FVec F S256x128 .f32) (main_arg16 : FVec F S128 .f32) (main_arg17 : FVec F S128x256 .f32) (main_arg18 : FVec F S256 .f32) (main_arg19 : FVec F S256x128 .f32) (main_arg20 : FVec F S128 .f32) (main_arg21 : FVec F S256x256 .f32) (main_arg22 : FVec F S256 .f32) (main_arg23 : FVec F S256x128 .f32) (main_arg24 : FVec F S128 .f32) (main_arg25 : FVec F S128x256 .f32) (main_arg26 : FVec F S256 .f32) (main_arg27 : FVec F S256x128 .f32) (main_arg28 : FVec F S128 .f32) (main_arg29 : FVec F S128x256 .f32) (main_arg30 : FVec F S256 .f32) (main_arg31 : FVec F S256x1 .f32) (main_arg32 : FVec F S1 .f32) (main_arg33 : FVec F S128x256 .f32) (main_arg34 : FVec F S256 .f32) (main_arg35 : FVec F S256x1 .f32) (main_arg36 : FVec F S1 .f32) (main_v48 : IVec S_ 1) (main_v49 : FVec F S256 .f32) (main_v50 : FVec F S256 .f32) : IVec S_ 1 :=
  let main_v51 : IVec S256 1 := cmpf .olt main_v49 main_v50
  let main_c_19 : IVec S_ 1 := constantI S_ 1 1#1
  let main_v52 : IVec S_ 1 := (fun x v => Host.reduce IntOp.andi x v reducesTo_S256_S_d0 h_S_) main_v51 main_c_19
  let main_v53 : IVec S_ 1 := andi main_v48 main_v52
  let main_v54 : FVec F S256x128 .f32 := Host.absf main_arg11
  let main_cst_20 : FVec F S_ .f32 := constant S_ .f32 0x7F800000#32
  let main_v55 : FVec F S256x128 .f32 := broadcastInDim S256x128 ![] bcast_S_S256x128 main_cst_20
  let main_v56 : IVec S256x128 1 := cmpf .olt main_v54 main_v55
  let main_c_21 : IVec S_ 1 := constantI S_ 1 1#1
  let main_v57 : IVec S_ 1 := (fun x v => Host.reduce IntOp.andi x v reducesTo_S256x128_S_d0_1 h_S_) main_v56 main_c_21
  let main_v58 : IVec S_ 1 := andi main_v53 main_v57
  let main_v59 : FVec F S128 .f32 := Host.absf main_arg12
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  let main_v64 : FVec F S128x256 .f32 := Host.absf main_arg13
  let main_cst_24 : FVec F S_ .f32 := constant S_ .f32 0x7F800000#32
  let main_v65 : FVec F S128x256 .f32 := broadcastInDim S128x256 ![] bcast_S_S128x256 main_cst_24
  let main_v66 : IVec S128x256 1 := cmpf .olt main_v64 main_v65
  let main_c_25 : IVec S_ 1 := constantI S_ 1 1#1
  let main_v67 : IVec S_ 1 := (fun x v => Host.reduce IntOp.andi x v reducesTo_S128x256_S_d0_1 h_S_) main_v66 main_c_25
  fn_part4 (F := F) main_arg14 main_arg15 main_arg16 main_arg17 main_arg18 main_arg19 main_arg20 main_arg21 main_arg22 main_arg23 main_arg24 main_arg25 main_arg26 main_arg27 main_arg28 main_arg29 main_arg30 main_arg31 main_arg32 main_arg33 main_arg34 main_arg35 main_arg36 main_v63 main_v67

def fn_part2 {F : FTy → Type} [FloatOps F] (main_arg7 : FVec F S256x128 .f32) (main_arg8 : FVec F S128 .f32) (main_arg9 : FVec F S256x256 .f32) (main_arg10 : FVec F S256 .f32) (main_arg11 : FVec F S256x128 .f32) (main_arg12 : FVec F S128 .f32) (main_arg13 : FVec F S128x256 .f32) (main_arg14 : FVec F S256 .f32) (main_arg15 : FVec F S256x128 .f32) (main_arg16 : FVec F S128 .f32) (main_arg17 : FVec F S128x256 .f32) (main_arg18 : FVec F S256 .f32) (main_arg19 : FVec F S256x128 .f32) (main_arg20 : FVec F S128 .f32) (main_arg21 : FVec F S256x256 .f32) (main_arg22 : FVec F S256 .f32) (main_arg23 : FVec F S256x128 .f32) (main_arg24 : FVec F S128 .f32) (main_arg25 : FVec F S128x256 .f32) (main_arg26 : FVec F S256 .f32) (main_arg27 : FVec F S256x128 .f32) (main_arg28 : FVec F S128 .f32) (main_arg29 : FVec F S128x256 .f32) (main_arg30 : FVec F S256 .f32) (main_arg31 : FVec F S256x1 .f32) (main_arg32 : FVec F S1 .f32) (main_arg33 : FVec F S128x256 .f32) (main_arg34 : FVec F S256 .f32) (main_arg35 : FVec F S256x1 .f32) (main_arg36 : FVec F S1 .f32) (main_v33 : IVec S_ 1) : IVec S_ 1 :=
  let main_v34 : FVec F S256x128 .f32 := Host.absf main_arg7
  let main_cst_12 : FVec F S_ .f32 := constant S_ .f32 0x7F800000#32
  let main_v35 : FVec F S256x128 .f32 := broadcastInDim S256x128 ![] bcast_S_S256x128 main_cst_12
  let main_v36 : IVec S256x128 1 := cmpf .olt main_v34 main_v35
  let main_c_13 : IVec S_ 1 := constantI S_ 1 1#1
  let main_v37 : IVec S_ 1 := (fun x v => Host.reduce IntOp.andi x v reducesTo_S256x128_S_d0_1 h_S_) main_v36 main_c_13
  let main_v38 : IVec S_ 1 := andi main_v33 main_v37
  let main_v39 : FVec F S128 .f32 := Host.absf main_arg8
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S256x256 .f32 := Host.absf main_arg9
  let main_cst_16 : FVec F S_ .f32 := constant S_ .f32 0x7F800000#32
  let main_v45 : FVec F S256x256 .f32 := broadcastInDim S256x256 ![] bcast_S_S256x256 main_cst_16
  let main_v46 : IVec S256x256 1 := cmpf .olt main_v44 main_v45
  let main_c_17 : IVec S_ 1 := constantI S_ 1 1#1
  let main_v47 : IVec S_ 1 := (fun x v => Host.reduce IntOp.andi x v reducesTo_S256x256_S_d0_1 h_S_) main_v46 main_c_17
  let main_v48 : IVec S_ 1 := andi main_v43 main_v47
  let main_v49 : FVec F S256 .f32 := Host.absf main_arg10
  let main_cst_18 : FVec F S_ .f32 := constant S_ .f32 0x7F800000#32
  let main_v50 : FVec F S256 .f32 := broadcastInDim S256 ![] bcast_S_S256 main_cst_18
  fn_part3 (F := F) main_arg11 main_arg12 main_arg13 main_arg14 main_arg15 main_arg16 main_arg17 main_arg18 main_arg19 main_arg20 main_arg21 main_arg22 main_arg23 main_arg24 main_arg25 main_arg26 main_arg27 main_arg28 main_arg29 main_arg30 main_arg31 main_arg32 main_arg33 main_arg34 main_arg35 main_arg36 main_v48 main_v49 main_v50

def fn_part1 {F : FTy → Type} [FloatOps F] (main_arg4 : FVec F S16x129 .f32) (main_arg5 : FVec F S256x256 .f32) (main_arg6 : FVec F S256 .f32) (main_arg7 : FVec F S256x128 .f32) (main_arg8 : FVec F S128 .f32) (main_arg9 : FVec F S256x256 .f32) (main_arg10 : FVec F S256 .f32) (main_arg11 : FVec F S256x128 .f32) (main_arg12 : FVec F S128 .f32) (main_arg13 : FVec F S128x256 .f32) (main_arg14 : FVec F S256 .f32) (main_arg15 : FVec F S256x128 .f32) (main_arg16 : FVec F S128 .f32) (main_arg17 : FVec F S128x256 .f32) (main_arg18 : FVec F S256 .f32) (main_arg19 : FVec F S256x128 .f32) (main_arg20 : FVec F S128 .f32) (main_arg21 : FVec F S256x256 .f32) (main_arg22 : FVec F S256 .f32) (main_arg23 : FVec F S256x128 .f32) (main_arg24 : FVec F S128 .f32) (main_arg25 : FVec F S128x256 .f32) (main_arg26 : FVec F S256 .f32) (main_arg27 : FVec F S256x128 .f32) (main_arg28 : FVec F S128 .f32) (main_arg29 : FVec F S128x256 .f32) (main_arg30 : FVec F S256 .f32) (main_arg31 : FVec F S256x1 .f32) (main_arg32 : FVec F S1 .f32) (main_arg33 : FVec F S128x256 .f32) (main_arg34 : FVec F S256 .f32) (main_arg35 : FVec F S256x1 .f32) (main_arg36 : FVec F S1 .f32) (main_v13 : IVec S_ 1) (main_v16 : IVec S16x256x256 1) : IVec S_ 1 :=
  let main_c_5 : IVec S_ 1 := constantI S_ 1 1#1
  let main_v17 : IVec S_ 1 := (fun x v => Host.reduce IntOp.andi x v reducesTo_S16x256x256_S_d0_1_2 h_S_) main_v16 main_c_5
  let main_v18 : IVec S_ 1 := andi main_v13 main_v17
  let main_v19 : FVec F S16x129 .f32 := Host.absf main_arg4
  let main_cst_6 : FVec F S_ .f32 := constant S_ .f32 0x7F800000#32
  let main_v20 : FVec F S16x129 .f32 := broadcastInDim S16x129 ![] bcast_S_S16x129 main_cst_6
  let main_v21 : IVec S16x129 1 := cmpf .olt main_v19 main_v20
  let main_c_7 : IVec S_ 1 := constantI S_ 1 1#1
  let main_v22 : IVec S_ 1 := (fun x v => Host.reduce IntOp.andi x v reducesTo_S16x129_S_d0_1 h_S_) main_v21 main_c_7
  let main_v23 : IVec S_ 1 := andi main_v18 main_v22
  let main_v24 : FVec F S256x256 .f32 := Host.absf main_arg5
  let main_cst_8 : FVec F S_ .f32 := constant S_ .f32 0x7F800000#32
  let main_v25 : FVec F S256x256 .f32 := broadcastInDim S256x256 ![] bcast_S_S256x256 main_cst_8
  let main_v26 : IVec S256x256 1 := cmpf .olt main_v24 main_v25
  let main_c_9 : IVec S_ 1 := constantI S_ 1 1#1
  let main_v27 : IVec S_ 1 := (fun x v => Host.reduce IntOp.andi x v reducesTo_S256x256_S_d0_1 h_S_) main_v26 main_c_9
  let main_v28 : IVec S_ 1 := andi main_v23 main_v27
  let main_v29 : FVec F S256 .f32 := Host.absf main_arg6
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_arg18 main_arg19 main_arg20 main_arg21 main_arg22 main_arg23 main_arg24 main_arg25 main_arg26 main_arg27 main_arg28 main_arg29 main_arg30 main_arg31 main_arg32 main_arg33 main_arg34 main_arg35 main_arg36 main_v33

def fn {F : FTy → Type} [FloatOps F] (main_arg0 : FVec F S16x256x256 .f32) (main_arg1 : FVec F S16x256x256 .f32) (main_arg2 : FVec F S16x256x256 .f32) (main_arg3 : FVec F S16x256x256 .f32) (main_arg4 : FVec F S16x129 .f32) (main_arg5 : FVec F S256x256 .f32) (main_arg6 : FVec F S256 .f32) (main_arg7 : FVec F S256x128 .f32) (main_arg8 : FVec F S128 .f32) (main_arg9 : FVec F S256x256 .f32) (main_arg10 : FVec F S256 .f32) (main_arg11 : FVec F S256x128 .f32) (main_arg12 : FVec F S128 .f32) (main_arg13 : FVec F S128x256 .f32) (main_arg14 : FVec F S256 .f32) (main_arg15 : FVec F S256x128 .f32) (main_arg16 : FVec F S128 .f32) (main_arg17 : FVec F S128x256 .f32) (main_arg18 : FVec F S256 .f32) (main_arg19 : FVec F S256x128 .f32) (main_arg20 : FVec F S128 .f32) (main_arg21 : FVec F S256x256 .f32) (main_arg22 : FVec F S256 .f32) (main_arg23 : FVec F S256x128 .f32) (main_arg24 : FVec F S128 .f32) (main_arg25 : FVec F S128x256 .f32) (main_arg26 : FVec F S256 .f32) (main_arg27 : FVec F S256x128 .f32) (main_arg28 : FVec F S128 .f32) (main_arg29 : FVec F S128x256 .f32) (main_arg30 : FVec F S256 .f32) (main_arg31 : FVec F S256x1 .f32) (main_arg32 : FVec F S1 .f32) (main_arg33 : FVec F S128x256 .f32) (main_arg34 : FVec F S256 .f32) (main_arg35 : FVec F S256x1 .f32) (main_arg36 : FVec F S1 .f32) : IVec S_ 1 :=
  let main_v0 : FVec F S16x256x256 .f32 := Host.absf main_arg0
  let main_cst : FVec F S_ .f32 := constant S_ .f32 0x7F800000#32
  let main_v1 : FVec F S16x256x256 .f32 := broadcastInDim S16x256x256 ![] bcast_S_S16x256x256 main_cst
  let main_v2 : IVec S16x256x256 1 := cmpf .olt main_v0 main_v1
  let main_c : IVec S_ 1 := constantI S_ 1 1#1
  let main_v3 : IVec S_ 1 := (fun x v => Host.reduce IntOp.andi x v reducesTo_S16x256x256_S_d0_1_2 h_S_) main_v2 main_c
  let main_v4 : FVec F S16x256x256 .f32 := Host.absf main_arg1
  let main_cst_0 : FVec F S_ .f32 := constant S_ .f32 0x7F800000#32
  let main_v5 : FVec F S16x256x256 .f32 := broadcastInDim S16x256x256 ![] bcast_S_S16x256x256 main_cst_0
  let main_v6 : IVec S16x256x256 1 := cmpf .olt main_v4 main_v5
  let main_c_1 : IVec S_ 1 := constantI S_ 1 1#1
  let main_v7 : IVec S_ 1 := (fun x v => Host.reduce IntOp.andi x v reducesTo_S16x256x256_S_d0_1_2 h_S_) main_v6 main_c_1
  let main_v8 : IVec S_ 1 := andi main_v3 main_v7
  let main_v9 : FVec F S16x256x256 .f32 := Host.absf main_arg2
  let main_cst_2 : FVec F S_ .f32 := constant S_ .f32 0x7F800000#32
  let main_v10 : FVec F S16x256x256 .f32 := broadcastInDim S16x256x256 ![] bcast_S_S16x256x256 main_cst_2
  let main_v11 : IVec S16x256x256 1 := cmpf .olt main_v9 main_v10
  let main_c_3 : IVec S_ 1 := constantI S_ 1 1#1
  let main_v12 : IVec S_ 1 := (fun x v => Host.reduce IntOp.andi x v reducesTo_S16x256x256_S_d0_1_2 h_S_) main_v11 main_c_3
  let main_v13 : IVec S_ 1 := andi main_v8 main_v12
  let main_v14 : FVec F S16x256x256 .f32 := Host.absf main_arg3
  let main_cst_4 : FVec F S_ .f32 := constant S_ .f32 0x7F800000#32
  let main_v15 : FVec F S16x256x256 .f32 := broadcastInDim S16x256x256 ![] bcast_S_S16x256x256 main_cst_4
  let main_v16 : IVec S16x256x256 1 := cmpf .olt main_v14 main_v15
  fn_part1 (F := F) main_arg4 main_arg5 main_arg6 main_arg7 main_arg8 main_arg9 main_arg10 main_arg11 main_arg12 main_arg13 main_arg14 main_arg15 main_arg16 main_arg17 main_arg18 main_arg19 main_arg20 main_arg21 main_arg22 main_arg23 main_arg24 main_arg25 main_arg26 main_arg27 main_arg28 main_arg29 main_arg30 main_arg31 main_arg32 main_arg33 main_arg34 main_arg35 main_arg36 main_v13 main_v16
-- ==== Kernel.lean ====
abbrev S16x256x256 : Shape := ⟨3, ![16, 256, 256]⟩
abbrev S16x129 : Shape := ⟨2, ![16, 129]⟩
abbrev S256x256 : Shape := ⟨2, ![256, 256]⟩
abbrev S256 : Shape := ⟨1, ![256]⟩
abbrev S256x128 : Shape := ⟨2, ![256, 128]⟩
abbrev S128 : Shape := ⟨1, ![128]⟩
abbrev S128x256 : Shape := ⟨2, ![128, 256]⟩
abbrev S256x1 : Shape := ⟨2, ![256, 1]⟩
abbrev S1 : Shape := ⟨1, ![1]⟩
abbrev S1x256 : Shape := ⟨2, ![1, 256]⟩
abbrev S1x128 : Shape := ⟨2, ![1, 128]⟩
abbrev S1x1 : Shape := ⟨2, ![1, 1]⟩
abbrev S8x256x256 : Shape := ⟨3, ![8, 256, 256]⟩
abbrev S8x129 : Shape := ⟨2, ![8, 129]⟩
abbrev S2048x256 : Shape := ⟨2, ![2048, 256]⟩
abbrev S2048x128 : Shape := ⟨2, ![2048, 128]⟩
abbrev S8x256x128 : Shape := ⟨3, ![8, 256, 128]⟩
abbrev S8x128x128 : Shape := ⟨3, ![8, 128, 128]⟩
abbrev S1024x128 : Shape := ⟨2, ![1024, 128]⟩
abbrev S1024x256 : Shape := ⟨2, ![1024, 256]⟩
abbrev S1024x1 : Shape := ⟨2, ![1024, 1]⟩
abbrev S8x128 : Shape := ⟨2, ![8, 128]⟩
abbrev S8x256 : Shape := ⟨2, ![8, 256]⟩
abbrev S8x1 : Shape := ⟨2, ![8, 1]⟩
abbrev S8 : Shape := ⟨1, ![8]⟩

abbrev nBuf : Space → Nat
  | .hbm => 57
  | .vmem => 50
  | .smem => 0
  | _ => 0

abbrev bufTy : (tb : Table) → Fin (tcTables nBuf tb) → BufTy
  | .hbm, ⟨0, _⟩ => ⟨S16x256x256, .f32⟩
  | .hbm, ⟨1, _⟩ => ⟨S16x256x256, .f32⟩
  | .hbm, ⟨2, _⟩ => ⟨S16x256x256, .f32⟩
  | .hbm, ⟨3, _⟩ => ⟨S16x256x256, .f32⟩
  | .hbm, ⟨4, _⟩ => ⟨S16x129, .f32⟩
  | .hbm, ⟨5, _⟩ => ⟨S256x256, .f32⟩
  | .hbm, ⟨6, _⟩ => ⟨S256, .f32⟩
  | .hbm, ⟨7, _⟩ => ⟨S256x128, .f32⟩
  | .hbm, ⟨8, _⟩ => ⟨S128, .f32⟩
  | .hbm, ⟨9, _⟩ => ⟨S256x256, .f32⟩
  | .hbm, ⟨10, _⟩ => ⟨S256, .f32⟩
  | .hbm, ⟨11, _⟩ => ⟨S256x128, .f32⟩
  | .hbm, ⟨12, _⟩ => ⟨S128, .f32⟩
  | .hbm, ⟨13, _⟩ => ⟨S128x256, .f32⟩
  | .hbm, ⟨14, _⟩ => ⟨S256, .f32⟩
  | .hbm, ⟨15, _⟩ => ⟨S256x128, .f32⟩
  | .hbm, ⟨16, _⟩ => ⟨S128, .f32⟩
  | .hbm, ⟨17, _⟩ => ⟨S128x256, .f32⟩
  | .hbm, ⟨18, _⟩ => ⟨S256, .f32⟩
  | .hbm, ⟨19, _⟩ => ⟨S256x128, .f32⟩
  | .hbm, ⟨20, _⟩ => ⟨S128, .f32⟩
  | .hbm, ⟨21, _⟩ => ⟨S256x256, .f32⟩
  | .hbm, ⟨22, _⟩ => ⟨S256, .f32⟩
  | .hbm, ⟨23, _⟩ => ⟨S256x128, .f32⟩
  | .hbm, ⟨24, _⟩ => ⟨S128, .f32⟩
  | .hbm, ⟨25, _⟩ => ⟨S128x256, .f32⟩
  | .hbm, ⟨26, _⟩ => ⟨S256, .f32⟩
  | .hbm, ⟨27, _⟩ => ⟨S256x128, .f32⟩
  | .hbm, ⟨28, _⟩ => ⟨S128, .f32⟩
  | .hbm, ⟨29, _⟩ => ⟨S128x256, .f32⟩
  | .hbm, ⟨30, _⟩ => ⟨S256, .f32⟩
  | .hbm, ⟨31, _⟩ => ⟨S256x1, .f32⟩
  | .hbm, ⟨32, _⟩ => ⟨S1, .f32⟩
  | .hbm, ⟨33, _⟩ => ⟨S128x256, .f32⟩
  | .hbm, ⟨34, _⟩ => ⟨S256, .f32⟩
  | .hbm, ⟨35, _⟩ => ⟨S256x1, .f32⟩
  | .hbm, ⟨36, _⟩ => ⟨S1, .f32⟩
  | .hbm, ⟨37, _⟩ => ⟨S1x256, .f32⟩
  | .hbm, ⟨38, _⟩ => ⟨S1x128, .f32⟩
  | .hbm, ⟨39, _⟩ => ⟨S1x256, .f32⟩
  | .hbm, ⟨40, _⟩ => ⟨S1x128, .f32⟩
  | .hbm, ⟨41, _⟩ => ⟨S1x256, .f32⟩
  | .hbm, ⟨42, _⟩ => ⟨S1x128, .f32⟩
  | .hbm, ⟨43, _⟩ => ⟨S1x256, .f32⟩
  | .hbm, ⟨44, _⟩ => ⟨S1x128, .f32⟩
  | .hbm, ⟨45, _⟩ => ⟨S1x256, .f32⟩
  | .hbm, ⟨46, _⟩ => ⟨S1x128, .f32⟩
  | .hbm, ⟨47, _⟩ => ⟨S1x256, .f32⟩
  | .hbm, ⟨48, _⟩ => ⟨S1x128, .f32⟩
  | .hbm, ⟨49, _⟩ => ⟨S1x256, .f32⟩
  | .hbm, ⟨50, _⟩ => ⟨S1x1, .f32⟩
  | .hbm, ⟨51, _⟩ => ⟨S1x256, .f32⟩
  | .hbm, ⟨52, _⟩ => ⟨S1x1, .f32⟩
  | .hbm, ⟨53, _⟩ => ⟨S16x129, .f32⟩
  | .hbm, ⟨54, _⟩ => ⟨S16x129, .f32⟩
  | .hbm, ⟨55, _⟩ => ⟨S16x129, .f32⟩
  | .hbm, ⟨56, _⟩ => ⟨S16x129, .f32⟩
  | .local _ .vmem, ⟨0, _⟩ => ⟨S8x256x256, .f32⟩
  | .local _ .vmem, ⟨1, _⟩ => ⟨S8x256x256, .f32⟩
  | .local _ .vmem, ⟨2, _⟩ => ⟨S8x256x256, .f32⟩
  | .local _ .vmem, ⟨3, _⟩ => ⟨S8x256x256, .f32⟩
  | .local _ .vmem, ⟨4, _⟩ => ⟨S8x256x256, .f32⟩
  | .local _ .vmem, ⟨5, _⟩ => ⟨S8x256x256, .f32⟩
  | .local _ .vmem, ⟨6, _⟩ => ⟨S8x256x256, .f32⟩
  | .local _ .vmem, ⟨7, _⟩ => ⟨S8x256x256, .f32⟩
  | .local _ .vmem, ⟨8, _⟩ => ⟨S8x129, .f32⟩
  | .local _ .vmem, ⟨9, _⟩ => ⟨S8x129, .f32⟩
  | .local _ .vmem, ⟨10, _⟩ => ⟨S256x256, .f32⟩
  | .local _ .vmem, ⟨11, _⟩ => ⟨S1x256, .f32⟩
  | .local _ .vmem, ⟨12, _⟩ => ⟨S256x128, .f32⟩
  | .local _ .vmem, ⟨13, _⟩ => ⟨S1x128, .f32⟩
  | .local _ .vmem, ⟨14, _⟩ => ⟨S256x256, .f32⟩
  | .local _ .vmem, ⟨15, _⟩ => ⟨S1x256, .f32⟩
  | .local _ .vmem, ⟨16, _⟩ => ⟨S256x128, .f32⟩
  | .local _ .vmem, ⟨17, _⟩ => ⟨S1x128, .f32⟩
  | .local _ .vmem, ⟨18, _⟩ => ⟨S128x256, .f32⟩
  | .local _ .vmem, ⟨19, _⟩ => ⟨S1x256, .f32⟩
  | .local _ .vmem, ⟨20, _⟩ => ⟨S256x128, .f32⟩
  | .local _ .vmem, ⟨21, _⟩ => ⟨S1x128, .f32⟩
  | .local _ .vmem, ⟨22, _⟩ => ⟨S128x256, .f32⟩
  | .local _ .vmem, ⟨23, _⟩ => ⟨S1x256, .f32⟩
  | .local _ .vmem, ⟨24, _⟩ => ⟨S256x128, .f32⟩
  | .local _ .vmem, ⟨25, _⟩ => ⟨S1x128, .f32⟩
  | .local _ .vmem, ⟨26, _⟩ => ⟨S256x256, .f32⟩
  | .local _ .vmem, ⟨27, _⟩ => ⟨S1x256, .f32⟩
  | .local _ .vmem, ⟨28, _⟩ => ⟨S256x128, .f32⟩
  | .local _ .vmem, ⟨29, _⟩ => ⟨S1x128, .f32⟩
  | .local _ .vmem, ⟨30, _⟩ => ⟨S128x256, .f32⟩
  | .local _ .vmem, ⟨31, _⟩ => ⟨S1x256, .f32⟩
  | .local _ .vmem, ⟨32, _⟩ => ⟨S256x128, .f32⟩
  | .local _ .vmem, ⟨33, _⟩ => ⟨S1x128, .f32⟩
  | .local _ .vmem, ⟨34, _⟩ => ⟨S128x256, .f32⟩
  | .local _ .vmem, ⟨35, _⟩ => ⟨S1x256, .f32⟩
  | .local _ .vmem, ⟨36, _⟩ => ⟨S256x1, .f32⟩
  | .local _ .vmem, ⟨37, _⟩ => ⟨S1x1, .f32⟩
  | .local _ .vmem, ⟨38, _⟩ => ⟨S128x256, .f32⟩
  | .local _ .vmem, ⟨39, _⟩ => ⟨S1x256, .f32⟩
  | .local _ .vmem, ⟨40, _⟩ => ⟨S256x1, .f32⟩
  | .local _ .vmem, ⟨41, _⟩ => ⟨S1x1, .f32⟩
  | .local _ .vmem, ⟨42, _⟩ => ⟨S8x129, .f32⟩
  | .local _ .vmem, ⟨43, _⟩ => ⟨S8x129, .f32⟩
  | .local _ .vmem, ⟨44, _⟩ => ⟨S8x129, .f32⟩
  | .local _ .vmem, ⟨45, _⟩ => ⟨S8x129, .f32⟩
  | .local _ .vmem, ⟨46, _⟩ => ⟨S8x129, .f32⟩
  | .local _ .vmem, ⟨47, _⟩ => ⟨S8x129, .f32⟩
  | .local _ .vmem, ⟨48, _⟩ => ⟨S8x129, .f32⟩
  | .local _ .vmem, ⟨49, _⟩ => ⟨S8x129, .f32⟩
  | _, _ => ⟨S16x256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | _, _ => false

abbrev semScoped : Fin 0 → Bool
  | ⟨_, h⟩ => absurd h (Nat.not_lt_zero _)

abbrev dmaSemScoped : Fin 50 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | _ => false

abbrev sig : RefSig :=
  ofTc nBuf bufTy 0 50 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_arg32 : Ref sig .tc := ⟨.hbm, 32, rfl⟩
abbrev main_arg33 : Ref sig .tc := ⟨.hbm, 33, rfl⟩
abbrev main_arg34 : Ref sig .tc := ⟨.hbm, 34, rfl⟩
abbrev main_arg35 : Ref sig .tc := ⟨.hbm, 35, rfl⟩
abbrev main_arg36 : Ref sig .tc := ⟨.hbm, 36, rfl⟩
abbrev main_v0 : Ref sig .tc := ⟨.hbm, 37, rfl⟩
abbrev main_v1 : Ref sig .tc := ⟨.hbm, 38, rfl⟩
abbrev main_v2 : Ref sig .tc := ⟨.hbm, 39, rfl⟩
abbrev main_v3 : Ref sig .tc := ⟨.hbm, 40, rfl⟩
abbrev main_v4 : Ref sig .tc := ⟨.hbm, 41, rfl⟩
abbrev main_v5 : Ref sig .tc := ⟨.hbm, 42, rfl⟩
abbrev main_v6 : Ref sig .tc := ⟨.hbm, 43, rfl⟩
abbrev main_v7 : Ref sig .tc := ⟨.hbm, 44, rfl⟩
abbrev main_v8 : Ref sig .tc := ⟨.hbm, 45, rfl⟩
abbrev main_v9 : Ref sig .tc := ⟨.hbm, 46, rfl⟩
abbrev main_v10 : Ref sig .tc := ⟨.hbm, 47, rfl⟩
abbrev main_v11 : Ref sig .tc := ⟨.hbm, 48, rfl⟩
abbrev main_v12 : Ref sig .tc := ⟨.hbm, 49, rfl⟩
abbrev main_v13 : Ref sig .tc := ⟨.hbm, 50, rfl⟩
abbrev main_v14 : Ref sig .tc := ⟨.hbm, 51, rfl⟩
abbrev main_v15 : Ref sig .tc := ⟨.hbm, 52, rfl⟩
abbrev main_v16_0 : Ref sig .tc := ⟨.hbm, 53, rfl⟩
abbrev main_v16_1 : Ref sig .tc := ⟨.hbm, 54, rfl⟩
abbrev main_v16_2 : Ref sig .tc := ⟨.hbm, 55, rfl⟩
abbrev main_v16_3 : Ref sig .tc := ⟨.hbm, 56, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg13_0 : Ref sig .tc := ⟨.vmem, 18, rfl⟩
abbrev cc0_stg14_0 : Ref sig .tc := ⟨.vmem, 19, rfl⟩
abbrev cc0_stg15_0 : Ref sig .tc := ⟨.vmem, 20, rfl⟩
abbrev cc0_stg16_0 : Ref sig .tc := ⟨.vmem, 21, rfl⟩
abbrev cc0_stg17_0 : Ref sig .tc := ⟨.vmem, 22, rfl⟩
abbrev cc0_stg18_0 : Ref sig .tc := ⟨.vmem, 23, rfl⟩
abbrev cc0_stg19_0 : Ref sig .tc := ⟨.vmem, 24, rfl⟩
abbrev cc0_stg20_0 : Ref sig .tc := ⟨.vmem, 25, rfl⟩
abbrev cc0_stg21_0 : Ref sig .tc := ⟨.vmem, 26, rfl⟩
abbrev cc0_stg22_0 : Ref sig .tc := ⟨.vmem, 27, rfl⟩
abbrev cc0_stg23_0 : Ref sig .tc := ⟨.vmem, 28, rfl⟩
abbrev cc0_stg24_0 : Ref sig .tc := ⟨.vmem, 29, rfl⟩
abbrev cc0_stg25_0 : Ref sig .tc := ⟨.vmem, 30, rfl⟩
abbrev cc0_stg26_0 : Ref sig .tc := ⟨.vmem, 31, rfl⟩
abbrev cc0_stg27_0 : Ref sig .tc := ⟨.vmem, 32, rfl⟩
abbrev cc0_stg28_0 : Ref sig .tc := ⟨.vmem, 33, rfl⟩
abbrev cc0_stg29_0 : Ref sig .tc := ⟨.vmem, 34, rfl⟩
abbrev cc0_stg30_0 : Ref sig .tc := ⟨.vmem, 35, rfl⟩
abbrev cc0_stg31_0 : Ref sig .tc := ⟨.vmem, 36, rfl⟩
abbrev cc0_stg32_0 : Ref sig .tc := ⟨.vmem, 37, rfl⟩
abbrev cc0_stg33_0 : Ref sig .tc := ⟨.vmem, 38, rfl⟩
abbrev cc0_stg34_0 : Ref sig .tc := ⟨.vmem, 39, rfl⟩
abbrev cc0_stg35_0 : Ref sig .tc := ⟨.vmem, 40, rfl⟩
abbrev cc0_stg36_0 : Ref sig .tc := ⟨.vmem, 41, rfl⟩
abbrev cc0_stg37_0 : Ref sig .tc := ⟨.vmem, 42, rfl⟩
abbrev cc0_stg37_1 : Ref sig .tc := ⟨.vmem, 43, rfl⟩
abbrev cc0_stg38_0 : Ref sig .tc := ⟨.vmem, 44, rfl⟩
abbrev cc0_stg38_1 : Ref sig .tc := ⟨.vmem, 45, rfl⟩
abbrev cc0_stg39_0 : Ref sig .tc := ⟨.vmem, 46, rfl⟩
abbrev cc0_stg39_1 : Ref sig .tc := ⟨.vmem, 47, rfl⟩
abbrev cc0_stg40_0 : Ref sig .tc := ⟨.vmem, 48, rfl⟩
abbrev cc0_stg40_1 : Ref sig .tc := ⟨.vmem, 49, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem12_0 : DmaSem sig := 17
abbrev cc0_sem13_0 : DmaSem sig := 18
abbrev cc0_sem14_0 : DmaSem sig := 19
abbrev cc0_sem15_0 : DmaSem sig := 20
abbrev cc0_sem16_0 : DmaSem sig := 21
abbrev cc0_sem17_0 : DmaSem sig := 22
abbrev cc0_sem18_0 : DmaSem sig := 23
abbrev cc0_sem19_0 : DmaSem sig := 24
abbrev cc0_sem20_0 : DmaSem sig := 25
abbrev cc0_sem21_0 : DmaSem sig := 26
abbrev cc0_sem22_0 : DmaSem sig := 27
abbrev cc0_sem23_0 : DmaSem sig := 28
abbrev cc0_sem24_0 : DmaSem sig := 29
abbrev cc0_sem25_0 : DmaSem sig := 30
abbrev cc0_sem26_0 : DmaSem sig := 31
abbrev cc0_sem27_0 : DmaSem sig := 32
abbrev cc0_sem28_0 : DmaSem sig := 33
abbrev cc0_sem29_0 : DmaSem sig := 34
abbrev cc0_sem30_0 : DmaSem sig := 35
abbrev cc0_sem31_0 : DmaSem sig := 36
abbrev cc0_sem32_0 : DmaSem sig := 37
abbrev cc0_sem33_0 : DmaSem sig := 38
abbrev cc0_sem34_0 : DmaSem sig := 39
abbrev cc0_sem35_0 : DmaSem sig := 40
abbrev cc0_sem36_0 : DmaSem sig := 41
abbrev cc0_sem37_0 : DmaSem sig := 42
abbrev cc0_sem37_1 : DmaSem sig := 43
abbrev cc0_sem38_0 : DmaSem sig := 44
abbrev cc0_sem38_1 : DmaSem sig := 45
abbrev cc0_sem39_0 : DmaSem sig := 46
abbrev cc0_sem39_1 : DmaSem sig := 47
abbrev cc0_sem40_0 : DmaSem sig := 48
abbrev cc0_sem40_1 : DmaSem sig := 49

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_21 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_22 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_23 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_24 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_25 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_26 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_27 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_28 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_29 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_30 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_31 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_32 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_33 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_34 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_35 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_36 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_37 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_38 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_39 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_40 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x129 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S256x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S256x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S256x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S128x256 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x256 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S256x128 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x128 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S128x256 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S1x256 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S256x128 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S1x128 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]

abbrev stage0_21 : Fin 1 → Memref sig .tc .vmem S256x256 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false]

abbrev stage0_22 : Fin 1 → Memref sig .tc .vmem S1x256 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))
abbrev reads0_22 : Fin grid0.rank → Bool := ![false]

abbrev stage0_23 : Fin 1 → Memref sig .tc .vmem S256x128 .f32 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))
abbrev reads0_23 : Fin grid0.rank → Bool := ![false]

abbrev stage0_24 : Fin 1 → Memref sig .tc .vmem S1x128 .f32 := fun | 0 => Memref.whole cc0_stg24_0 | ⟨_ + 1, h⟩ => absurd h (Nat.not_lt.2 (Nat.le_add_left _ _))
abbrev sem0_24 : Fin 1 → DmaSem sig := fun | 0 => cc0_sem24_0 | ⟨_ + 1, h⟩ => absurd h (Nat.not_lt.2 (Nat.le_add_left _ _))
abbrev reads0_24 : Fin grid0.rank → Bool := ![false]

abbrev stage0_25 : Fin 1 → Memref sig .tc .vmem S128x256 .f32 := fun | 0 => Memref.whole cc0_stg25_0 | ⟨_ + 1, h⟩ => absurd h (Nat.not_lt.2 (Nat.le_add_left _ _))
abbrev sem0_25 : Fin 1 → DmaSem sig := fun | 0 => cc0_sem25_0 | ⟨_ + 1, h⟩ => absurd h (Nat.not_lt.2 (Nat.le_add_left _ _))
abbrev reads0_25 : Fin grid0.rank → Bool := ![false]

abbrev stage0_26 : Fin 1 → Memref sig .tc .vmem S1x256 .f32 := fun | 0 => Memref.whole cc0_stg26_0 | ⟨_ + 1, h⟩ => absurd h (Nat.not_lt.2 (Nat.le_add_left _ _))
abbrev sem0_26 : Fin 1 → DmaSem sig := fun | 0 => cc0_sem26_0 | ⟨_ + 1, h⟩ => absurd h (Nat.not_lt.2 (Nat.le_add_left _ _))
abbrev reads0_26 : Fin grid0.rank → Bool := ![false]

abbrev stage0_27 : Fin 1 → Memref sig .tc .vmem S256x128 .f32 := fun | 0 => Memref.whole cc0_stg27_0 | ⟨_ + 1, h⟩ => absurd h (Nat.not_lt.2 (Nat.le_add_left _ _))
abbrev sem0_27 : Fin 1 → DmaSem sig := fun | 0 => cc0_sem27_0 | ⟨_ + 1, h⟩ => absurd h (Nat.not_lt.2 (Nat.le_add_left _ _))
abbrev reads0_27 : Fin grid0.rank → Bool := ![false]

abbrev stage0_28 : Fin 1 → Memref sig .tc .vmem S1x128 .f32 := fun | 0 => Memref.whole cc0_stg28_0 | ⟨_ + 1, h⟩ => absurd h (Nat.not_lt.2 (Nat.le_add_left _ _))
abbrev sem0_28 : Fin 1 → DmaSem sig := fun | 0 => cc0_sem28_0 | ⟨_ + 1, h⟩ => absurd h (Nat.not_lt.2 (Nat.le_add_left _ _))
abbrev reads0_28 : Fin grid0.rank → Bool := ![false]

abbrev stage0_29 : Fin 1 → Memref sig .tc .vmem S128x256 .f32 := fun | 0 => Memref.whole cc0_stg29_0 | ⟨_ + 1, h⟩ => absurd h (Nat.not_lt.2 (Nat.le_add_left _ _))
abbrev sem0_29 : Fin 1 → DmaSem sig := fun | 0 => cc0_sem29_0 | ⟨_ + 1, h⟩ => absurd h (Nat.not_lt.2 (Nat.le_add_left _ _))
abbrev reads0_29 : Fin grid0.rank → Bool := ![false]

abbrev stage0_30 : Fin 1 → Memref sig .tc .vmem S1x256 .f32 := fun | 0 => Memref.whole cc0_stg30_0 | ⟨_ + 1, h⟩ => absurd h (Nat.not_lt.2 (Nat.le_add_left _ _))
abbrev sem0_30 : Fin 1 → DmaSem sig := fun | 0 => cc0_sem30_0 | ⟨_ + 1, h⟩ => absurd h (Nat.not_lt.2 (Nat.le_add_left _ _))
abbrev reads0_30 : Fin grid0.rank → Bool := ![false]

abbrev stage0_31 : Fin 1 → Memref sig .tc .vmem S256x1 .f32 := fun | 0 => Memref.whole cc0_stg31_0 | ⟨_ + 1, h⟩ => absurd h (Nat.not_lt.2 (Nat.le_add_left _ _))
abbrev sem0_31 : Fin 1 → DmaSem sig := fun | 0 => cc0_sem31_0 | ⟨_ + 1, h⟩ => absurd h (Nat.not_lt.2 (Nat.le_add_left _ _))
abbrev reads0_31 : Fin grid0.rank → Bool := ![false]

abbrev stage0_32 : Fin 1 → Memref sig .tc .vmem S1x1 .f32 := fun | 0 => Memref.whole cc0_stg32_0 | ⟨_ + 1, h⟩ => absurd h (Nat.not_lt.2 (Nat.le_add_left _ _))
abbrev sem0_32 : Fin 1 → DmaSem sig := fun | 0 => cc0_sem32_0 | ⟨_ + 1, h⟩ => absurd h (Nat.not_lt.2 (Nat.le_add_left _ _))
abbrev reads0_32 : Fin grid0.rank → Bool := ![false]

abbrev stage0_33 : Fin 1 → Memref sig .tc .vmem S128x256 .f32 := fun | 0 => Memref.whole cc0_stg33_0 | ⟨_ + 1, h⟩ => absurd h (Nat.not_lt.2 (Nat.le_add_left _ _))
abbrev sem0_33 : Fin 1 → DmaSem sig := fun | 0 => cc0_sem33_0 | ⟨_ + 1, h⟩ => absurd h (Nat.not_lt.2 (Nat.le_add_left _ _))
abbrev reads0_33 : Fin grid0.rank → Bool := ![false]

abbrev stage0_34 : Fin 1 → Memref sig .tc .vmem S1x256 .f32 := fun | 0 => Memref.whole cc0_stg34_0 | ⟨_ + 1, h⟩ => absurd h (Nat.not_lt.2 (Nat.le_add_left _ _))
abbrev sem0_34 : Fin 1 → DmaSem sig := fun | 0 => cc0_sem34_0 | ⟨_ + 1, h⟩ => absurd h (Nat.not_lt.2 (Nat.le_add_left _ _))
abbrev reads0_34 : Fin grid0.rank → Bool := ![false]

abbrev stage0_35 : Fin 1 → Memref sig .tc .vmem S256x1 .f32 := fun | 0 => Memref.whole cc0_stg35_0 | ⟨_ + 1, h⟩ => absurd h (Nat.not_lt.2 (Nat.le_add_left _ _))
abbrev sem0_35 : Fin 1 → DmaSem sig := fun | 0 => cc0_sem35_0 | ⟨_ + 1, h⟩ => absurd h (Nat.not_lt.2 (Nat.le_add_left _ _))
abbrev reads0_35 : Fin grid0.rank → Bool := ![false]

abbrev stage0_36 : Fin 1 → Memref sig .tc .vmem S1x1 .f32 := fun | 0 => Memref.whole cc0_stg36_0 | ⟨_ + 1, h⟩ => absurd h (Nat.not_lt.2 (Nat.le_add_left _ _))
abbrev sem0_36 : Fin 1 → DmaSem sig := fun | 0 => cc0_sem36_0 | ⟨_ + 1, h⟩ => absurd h (Nat.not_lt.2 (Nat.le_add_left _ _))
abbrev reads0_36 : Fin grid0.rank → Bool := ![false]

abbrev stage0_37 : Fin 2 → Memref sig .tc .vmem S8x129 .f32 := fun | 0 => Memref.whole cc0_stg37_0 | 1 => Memref.whole cc0_stg37_1 | ⟨_ + 2, h⟩ => absurd h (Nat.not_lt.2 (Nat.le_add_left _ _))
abbrev sem0_37 : Fin 2 → DmaSem sig := fun | 0 => cc0_sem37_0 | 1 => cc0_sem37_1 | ⟨_ + 2, h⟩ => absurd h (Nat.not_lt.2 (Nat.le_add_left _ _))
abbrev reads0_37 : Fin grid0.rank → Bool := ![true]

abbrev stage0_38 : Fin 2 → Memref sig .tc .vmem S8x129 .f32 := fun | 0 => Memref.whole cc0_stg38_0 | 1 => Memref.whole cc0_stg38_1 | ⟨_ + 2, h⟩ => absurd h (Nat.not_lt.2 (Nat.le_add_left _ _))
abbrev sem0_38 : Fin 2 → DmaSem sig := fun | 0 => cc0_sem38_0 | 1 => cc0_sem38_1 | ⟨_ + 2, h⟩ => absurd h (Nat.not_lt.2 (Nat.le_add_left _ _))
abbrev reads0_38 : Fin grid0.rank → Bool := ![true]

abbrev stage0_39 : Fin 2 → Memref sig .tc .vmem S8x129 .f32 := fun | 0 => Memref.whole cc0_stg39_0 | 1 => Memref.whole cc0_stg39_1 | ⟨_ + 2, h⟩ => absurd h (Nat.not_lt.2 (Nat.le_add_left _ _))
abbrev sem0_39 : Fin 2 → DmaSem sig := fun | 0 => cc0_sem39_0 | 1 => cc0_sem39_1 | ⟨_ + 2, h⟩ => absurd h (Nat.not_lt.2 (Nat.le_add_left _ _))
abbrev reads0_39 : Fin grid0.rank → Bool := ![true]

abbrev stage0_40 : Fin 2 → Memref sig .tc .vmem S8x129 .f32 := fun | 0 => Memref.whole cc0_stg40_0 | 1 => Memref.whole cc0_stg40_1 | ⟨_ + 2, h⟩ => absurd h (Nat.not_lt.2 (Nat.le_add_left _ _))
abbrev sem0_40 : Fin 2 → DmaSem sig := fun | 0 => cc0_sem40_0 | 1 => cc0_sem40_1 | ⟨_ + 2, h⟩ => absurd h (Nat.not_lt.2 (Nat.le_add_left _ _))
abbrev reads0_40 : Fin grid0.rank → Bool := ![true]

class Facts₀ : Prop where
  shapeCasts_S256_S1x256 : S256.ShapeCasts S1x256
  shapeCasts_S128_S1x128 : S128.ShapeCasts S1x128
  shapeCasts_S1_S1x1 : S1.ShapeCasts S1x1
  inb_S8x256x256_S8x256x256_0_0_0 : ∀ a, (![0, 0, 0] : Fin 3 → Nat) a + S8x256x256.size a ≤ S8x256x256.size a
  h_S8x256x256 : 0 < S8x256x256.numel
  bitsLt_bf16_f32 : FTy.bits .bf16 < FTy.bits .f32
  shapeCasts_S8x256x256_S2048x256 : S8x256x256.ShapeCasts S2048x256
  inb_S256x256_S256x256_0_0 : ∀ a, (![0, 0] : Fin 2 → Nat) a + S256x256.size a ≤ S256x256.size a
  h_S256x256 : 0 < S256x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  inb_S256x128_S256x128_0_0 : ∀ a, (![0, 0] : Fin 2 → Nat) a + S256x128.size a ≤ S256x128.size a
  h_S256x128 : 0 < S256x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x256_S2048x256 : S1x256.Broadcasts S2048x256
  broadcasts_S1x128_S2048x128 : S1x128.Broadcasts S2048x128
  inb_S128x256_S128x256_0_0 : ∀ a, (![0, 0] : Fin 2 → Nat) a + S128x256.size a ≤ S128x256.size a
  h_S128x256 : 0 < S128x256.numel
  shapeCasts_S2048x128_S8x256x128 : S2048x128.ShapeCasts S8x256x128
  shapeCasts_S8x256x128_S2048x128 : S8x256x128.ShapeCasts S2048x128
  concatenates_S2048x128_S2048x128_S2048x256_d1 : Shape.Concatenates [S2048x128, S2048x128] S2048x256 1
  slices_S8x256x128_o0_0_0_S8x128x128 : S8x256x128.Slices ![0, 0, 0] S8x128x128
  shapeCasts_S8x128x128_S1024x128 : S8x128x128.ShapeCasts S1024x128
  broadcasts_S1x256_S1024x256 : S1x256.Broadcasts S1024x256
  broadcasts_S1x128_S1024x128 : S1x128.Broadcasts S1024x128
  inb_S256x1_S256x1_0_0 : ∀ a, (![0, 0] : Fin 2 → Nat) a + S256x1.size a ≤ S256x1.size a
  h_S256x1 : 0 < S256x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S1024x1 : S1x1.Broadcasts S1024x1
  shapeCasts_S1024x128_S8x128x128 : S1024x128.ShapeCasts S8x128x128
  reduces_S8x128x128_S8x128 : S8x128x128.Reduces [1] S8x128
  broadcasts_S1x256_S8x256 : S1x256.Broadcasts S8x256
  broadcasts_S1x1_S8x1 : S1x1.Broadcasts S8x1
  shapeCasts_S1024x1_S8x128 : S1024x1.ShapeCasts S8x128
  concatenates_S8x128_S8x1_S8x129_d1 : Shape.Concatenates [S8x128, S8x1] S8x129 1
  reduces_S8x129_S8 : S8x129.Reduces [1] S8
  shapeCasts_S8_S8x1 : S8.ShapeCasts S8x1
  broadcasts_S8x1_S8x129 : S8x1.Broadcasts S8x129
  inb_S8x129_S8x129_0_0 : ∀ a, (![0, 0] : Fin 2 → Nat) a + S8x129.size a ≤ S8x129.size a
  h_S8x129 : 0 < S8x129.numel
  dot_S2048x256_S256x256_S2048x256_1_0_0_1_n_n_wf : DotDims.WF S2048x256 S256x256 S2048x256 [1] [0] [0] [1] [] []
  dot_S2048x256_S256x128_S2048x128_1_0_0_1_n_n_wf : DotDims.WF S2048x256 S256x128 S2048x128 [1] [0] [0] [1] [] []
  dot_S2048x128_S128x256_S2048x256_1_0_0_1_n_n_wf : DotDims.WF S2048x128 S128x256 S2048x256 [1] [0] [0] [1] [] []
  dot_S8x256x256_S8x256x128_S8x256x128_2_1_1_2_0_0_wf : DotDims.WF S8x256x256 S8x256x128 S8x256x128 [2] [1] [1] [2] [0] [0]
  dot_S1024x128_S128x256_S1024x256_1_0_0_1_n_n_wf : DotDims.WF S1024x128 S128x256 S1024x256 [1] [0] [0] [1] [] []
  dot_S1024x256_S256x128_S1024x128_1_0_0_1_n_n_wf : DotDims.WF S1024x256 S256x128 S1024x128 [1] [0] [0] [1] [] []
  dot_S1024x256_S256x1_S1024x1_1_0_0_1_n_n_wf : DotDims.WF S1024x256 S256x1 S1024x1 [1] [0] [0] [1] [] []
  dot_S8x128_S128x256_S8x256_1_0_0_1_n_n_wf : DotDims.WF S8x128 S128x256 S8x256 [1] [0] [0] [1] [] []
  dot_S8x256_S256x1_S8x1_1_0_0_1_n_n_wf : DotDims.WF S8x256 S256x1 S8x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x256x256.size a ≤ S16x256x256.size a
  hwx0_0 : ∀ i : grid0.Coords, EltTy.bits .f32 = 32 ∨ (Rect.block (s := S16x256x256) S8x256x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x256x256.size a ≤ S16x256x256.size a
  hwx0_1 : ∀ i : grid0.Coords, EltTy.bits .f32 = 32 ∨ (Rect.block (s := S16x256x256) S8x256x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x256x256.size a ≤ S16x256x256.size a
  hwx0_2 : ∀ i : grid0.Coords, EltTy.bits .f32 = 32 ∨ (Rect.block (s := S16x256x256) S8x256x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8x256x256.size a ≤ S16x256x256.size a
  hwx0_3 : ∀ i : grid0.Coords, EltTy.bits .f32 = 32 ∨ (Rect.block (s := S16x256x256) S8x256x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S8x129.size a ≤ S16x129.size a
  hwx0_4 : ∀ i : grid0.Coords, EltTy.bits .f32 = 32 ∨ (Rect.block (s := S16x129) S8x129.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256x256.size a ≤ S256x256.size a
  hwx0_5 : ∀ i : grid0.Coords, EltTy.bits .f32 = 32 ∨ (Rect.block (s := S256x256) S256x256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x256.size a ≤ S1x256.size a
  hwx0_6 : ∀ i : grid0.Coords, EltTy.bits .f32 = 32 ∨ (Rect.block (s := S1x256) S1x256.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S256x128.size a ≤ S256x128.size a
  hwx0_7 : ∀ i : grid0.Coords, EltTy.bits .f32 = 32 ∨ (Rect.block (s := S256x128) S256x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x128.size a ≤ S1x128.size a
  hwx0_8 : ∀ i : grid0.Coords, EltTy.bits .f32 = 32 ∨ (Rect.block (s := S1x128) S1x128.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S256x256.size a ≤ S256x256.size a
  hwx0_9 : ∀ i : grid0.Coords, EltTy.bits .f32 = 32 ∨ (Rect.block (s := S256x256) S256x256.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x256.size a ≤ S1x256.size a
  hwx0_10 : ∀ i : grid0.Coords, EltTy.bits .f32 = 32 ∨ (Rect.block (s := S1x256) S1x256.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S256x128.size a ≤ S256x128.size a
  hwx0_11 : ∀ i : grid0.Coords, EltTy.bits .f32 = 32 ∨ (Rect.block (s := S256x128) S256x128.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S1x128.size a ≤ S1x128.size a
  hwx0_12 : ∀ i : grid0.Coords, EltTy.bits .f32 = 32 ∨ (Rect.block (s := S1x128) S1x128.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S128x256.size a ≤ S128x256.size a
  hwx0_13 : ∀ i : grid0.Coords, EltTy.bits .f32 = 32 ∨ (Rect.block (s := S128x256) S128x256.size (cc0_transform_13 i) (hinb0_13 i)).WholeWords (EltTy.packing .f32)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S1x256.size a ≤ S1x256.size a
  hwx0_14 : ∀ i : grid0.Coords, EltTy.bits .f32 = 32 ∨ (Rect.block (s := S1x256) S1x256.size (cc0_transform_14 i) (hinb0_14 i)).WholeWords (EltTy.packing .f32)
  hstage0_15 : ∀ j, (stage0_15 j).IsWhole
  nbuf0_15 : grid0.bufCount reads0_15 true = 1
  hreads0_15 : ∀ i i' : grid0.Coords, (∀ a, reads0_15 a = true → i a = i' a) → cc0_transform_15 i = cc0_transform_15 i'
  hinb0_15 : ∀ (i : grid0.Coords) a, (cc0_transform_15 i a + 1) * S256x128.size a ≤ S256x128.size a
  hwx0_15 : ∀ i : grid0.Coords, EltTy.bits .f32 = 32 ∨ (Rect.block (s := S256x128) S256x128.size (cc0_transform_15 i) (hinb0_15 i)).WholeWords (EltTy.packing .f32)
  hstage0_16 : ∀ j, (stage0_16 j).IsWhole
  nbuf0_16 : grid0.bufCount reads0_16 true = 1
  hreads0_16 : ∀ i i' : grid0.Coords, (∀ a, reads0_16 a = true → i a = i' a) → cc0_transform_16 i = cc0_transform_16 i'
  hinb0_16 : ∀ (i : grid0.Coords) a, (cc0_transform_16 i a + 1) * S1x128.size a ≤ S1x128.size a
  hwx0_16 : ∀ i : grid0.Coords, EltTy.bits .f32 = 32 ∨ (Rect.block (s := S1x128) S1x128.size (cc0_transform_16 i) (hinb0_16 i)).WholeWords (EltTy.packing .f32)
  hstage0_17 : ∀ j, (stage0_17 j).IsWhole
  nbuf0_17 : grid0.bufCount reads0_17 true = 1
  hreads0_17 : ∀ i i' : grid0.Coords, (∀ a, reads0_17 a = true → i a = i' a) → cc0_transform_17 i = cc0_transform_17 i'
  hinb0_17 : ∀ (i : grid0.Coords) a, (cc0_transform_17 i a + 1) * S128x256.size a ≤ S128x256.size a
  hwx0_17 : ∀ i : grid0.Coords, EltTy.bits .f32 = 32 ∨ (Rect.block (s := S128x256) S128x256.size (cc0_transform_17 i) (hinb0_17 i)).WholeWords (EltTy.packing .f32)
  hstage0_18 : ∀ j, (stage0_18 j).IsWhole
  nbuf0_18 : grid0.bufCount reads0_18 true = 1
  hreads0_18 : ∀ i i' : grid0.Coords, (∀ a, reads0_18 a = true → i a = i' a) → cc0_transform_18 i = cc0_transform_18 i'
  hinb0_18 : ∀ (i : grid0.Coords) a, (cc0_transform_18 i a + 1) * S1x256.size a ≤ S1x256.size a
  hwx0_18 : ∀ i : grid0.Coords, EltTy.bits .f32 = 32 ∨ (Rect.block (s := S1x256) S1x256.size (cc0_transform_18 i) (hinb0_18 i)).WholeWords (EltTy.packing .f32)
  hstage0_19 : ∀ j, (stage0_19 j).IsWhole
  nbuf0_19 : grid0.bufCount reads0_19 true = 1
  hreads0_19 : ∀ i i' : grid0.Coords, (∀ a, reads0_19 a = true → i a = i' a) → cc0_transform_19 i = cc0_transform_19 i'
  hinb0_19 : ∀ (i : grid0.Coords) a, (cc0_transform_19 i a + 1) * S256x128.size a ≤ S256x128.size a
  hwx0_19 : ∀ i : grid0.Coords, EltTy.bits .f32 = 32 ∨ (Rect.block (s := S256x128) S256x128.size (cc0_transform_19 i) (hinb0_19 i)).WholeWords (EltTy.packing .f32)
  hstage0_20 : ∀ j, (stage0_20 j).IsWhole
  nbuf0_20 : grid0.bufCount reads0_20 true = 1
  hreads0_20 : ∀ i i' : grid0.Coords, (∀ a, reads0_20 a = true → i a = i' a) → cc0_transform_20 i = cc0_transform_20 i'
  hinb0_20 : ∀ (i : grid0.Coords) a, (cc0_transform_20 i a + 1) * S1x128.size a ≤ S1x128.size a
  hwx0_20 : ∀ i : grid0.Coords, EltTy.bits .f32 = 32 ∨ (Rect.block (s := S1x128) S1x128.size (cc0_transform_20 i) (hinb0_20 i)).WholeWords (EltTy.packing .f32)
  hstage0_21 : ∀ j, (stage0_21 j).IsWhole
  nbuf0_21 : grid0.bufCount reads0_21 true = 1
  hreads0_21 : ∀ i i' : grid0.Coords, (∀ a, reads0_21 a = true → i a = i' a) → cc0_transform_21 i = cc0_transform_21 i'
  hinb0_21 : ∀ (i : grid0.Coords) a, (cc0_transform_21 i a + 1) * S256x256.size a ≤ S256x256.size a
  hwx0_21 : ∀ i : grid0.Coords, EltTy.bits .f32 = 32 ∨ (Rect.block (s := S256x256) S256x256.size (cc0_transform_21 i) (hinb0_21 i)).WholeWords (EltTy.packing .f32)
  hstage0_22 : ∀ j, (stage0_22 j).IsWhole
  nbuf0_22 : grid0.bufCount reads0_22 true = 1
  hreads0_22 : ∀ i i' : grid0.Coords, (∀ a, reads0_22 a = true → i a = i' a) → cc0_transform_22 i = cc0_transform_22 i'
  hinb0_22 : ∀ (i : grid0.Coords) a, (cc0_transform_22 i a + 1) * S1x256.size a ≤ S1x256.size a
  hwx0_22 : ∀ i : grid0.Coords, EltTy.bits .f32 = 32 ∨ (Rect.block (s := S1x256) S1x256.size (cc0_transform_22 i) (hinb0_22 i)).WholeWords (EltTy.packing .f32)
  hstage0_23 : ∀ j, (stage0_23 j).IsWhole
  nbuf0_23 : grid0.bufCount reads0_23 true = 1
  hreads0_23 : ∀ i i' : grid0.Coords, (∀ a, reads0_23 a = true → i a = i' a) → cc0_transform_23 i = cc0_transform_23 i'
  hinb0_23 : ∀ (i : grid0.Coords) a, (cc0_transform_23 i a + 1) * S256x128.size a ≤ S256x128.size a
  hwx0_23 : ∀ i : grid0.Coords, EltTy.bits .f32 = 32 ∨ (Rect.block (s := S256x128) S256x128.size (cc0_transform_23 i) (hinb0_23 i)).WholeWords (EltTy.packing .f32)
  hstage0_24 : ∀ j, (stage0_24 j).IsWhole
  nbuf0_24 : grid0.bufCount reads0_24 true = 1
  hreads0_24 : ∀ i i' : grid0.Coords, (∀ a, reads0_24 a = true → i a = i' a) → cc0_transform_24 i = cc0_transform_24 i'
  hinb0_24 : ∀ (i : grid0.Coords) a, (cc0_transform_24 i a + 1) * S1x128.size a ≤ S1x128.size a
  hwx0_24 : ∀ i : grid0.Coords, EltTy.bits .f32 = 32 ∨ (Rect.block (s := S1x128) S1x128.size (cc0_transform_24 i) (hinb0_24 i)).WholeWords (EltTy.packing .f32)
  hstage0_25 : ∀ j, (stage0_25 j).IsWhole
  nbuf0_25 : grid0.bufCount reads0_25 true = 1
  hreads0_25 : ∀ i i' : grid0.Coords, (∀ a, reads0_25 a = true → i a = i' a) → cc0_transform_25 i = cc0_transform_25 i'
  hinb0_25 : ∀ (i : grid0.Coords) a, (cc0_transform_25 i a + 1) * S128x256.size a ≤ S128x256.size a
  hwx0_25 : ∀ i : grid0.Coords, EltTy.bits .f32 = 32 ∨ (Rect.block (s := S128x256) S128x256.size (cc0_transform_25 i) (hinb0_25 i)).WholeWords (EltTy.packing .f32)
  hstage0_26 : ∀ j, (stage0_26 j).IsWhole
  nbuf0_26 : grid0.bufCount reads0_26 true = 1
  hreads0_26 : ∀ i i' : grid0.Coords, (∀ a, reads0_26 a = true → i a = i' a) → cc0_transform_26 i = cc0_transform_26 i'
  hinb0_26 : ∀ (i : grid0.Coords) a, (cc0_transform_26 i a + 1) * S1x256.size a ≤ S1x256.size a
  hwx0_26 : ∀ i : grid0.Coords, EltTy.bits .f32 = 32 ∨ (Rect.block (s := S1x256) S1x256.size (cc0_transform_26 i) (hinb0_26 i)).WholeWords (EltTy.packing .f32)
  hstage0_27 : ∀ j, (stage0_27 j).IsWhole
  nbuf0_27 : grid0.bufCount reads0_27 true = 1
  hreads0_27 : ∀ i i' : grid0.Coords, (∀ a, reads0_27 a = true → i a = i' a) → cc0_transform_27 i = cc0_transform_27 i'
  hinb0_27 : ∀ (i : grid0.Coords) a, (cc0_transform_27 i a + 1) * S256x128.size a ≤ S256x128.size a
  hwx0_27 : ∀ i : grid0.Coords, EltTy.bits .f32 = 32 ∨ (Rect.block (s := S256x128) S256x128.size (cc0_transform_27 i) (hinb0_27 i)).WholeWords (EltTy.packing .f32)
  hstage0_28 : ∀ j, (stage0_28 j).IsWhole
  nbuf0_28 : grid0.bufCount reads0_28 true = 1
  hreads0_28 : ∀ i i' : grid0.Coords, (∀ a, reads0_28 a = true → i a = i' a) → cc0_transform_28 i = cc0_transform_28 i'
  hinb0_28 : ∀ (i : grid0.Coords) a, (cc0_transform_28 i a + 1) * S1x128.size a ≤ S1x128.size a
  hwx0_28 : ∀ i : grid0.Coords, EltTy.bits .f32 = 32 ∨ (Rect.block (s := S1x128) S1x128.size (cc0_transform_28 i) (hinb0_28 i)).WholeWords (EltTy.packing .f32)
  hstage0_29 : ∀ j, (stage0_29 j).IsWhole
  nbuf0_29 : grid0.bufCount reads0_29 true = 1
  hreads0_29 : ∀ i i' : grid0.Coords, (∀ a, reads0_29 a = true → i a = i' a) → cc0_transform_29 i = cc0_transform_29 i'
  hinb0_29 : ∀ (i : grid0.Coords) a, (cc0_transform_29 i a + 1) * S128x256.size a ≤ S128x256.size a
  hwx0_29 : ∀ i : grid0.Coords, EltTy.bits .f32 = 32 ∨ (Rect.block (s := S128x256) S128x256.size (cc0_transform_29 i) (hinb0_29 i)).WholeWords (EltTy.packing .f32)
  hstage0_30 : ∀ j, (stage0_30 j).IsWhole
  nbuf0_30 : grid0.bufCount reads0_30 true = 1
  hreads0_30 : ∀ i i' : grid0.Coords, (∀ a, reads0_30 a = true → i a = i' a) → cc0_transform_30 i = cc0_transform_30 i'
  hinb0_30 : ∀ (i : grid0.Coords) a, (cc0_transform_30 i a + 1) * S1x256.size a ≤ S1x256.size a
  hwx0_30 : ∀ i : grid0.Coords, EltTy.bits .f32 = 32 ∨ (Rect.block (s := S1x256) S1x256.size (cc0_transform_30 i) (hinb0_30 i)).WholeWords (EltTy.packing .f32)
  hstage0_31 : ∀ j, (stage0_31 j).IsWhole
  nbuf0_31 : grid0.bufCount reads0_31 true = 1
  hreads0_31 : ∀ i i' : grid0.Coords, (∀ a, reads0_31 a = true → i a = i' a) → cc0_transform_31 i = cc0_transform_31 i'
  hinb0_31 : ∀ (i : grid0.Coords) a, (cc0_transform_31 i a + 1) * S256x1.size a ≤ S256x1.size a
  hwx0_31 : ∀ i : grid0.Coords, EltTy.bits .f32 = 32 ∨ (Rect.block (s := S256x1) S256x1.size (cc0_transform_31 i) (hinb0_31 i)).WholeWords (EltTy.packing .f32)
  hstage0_32 : ∀ j, (stage0_32 j).IsWhole
  nbuf0_32 : grid0.bufCount reads0_32 true = 1
  hreads0_32 : ∀ i i' : grid0.Coords, (∀ a, reads0_32 a = true → i a = i' a) → cc0_transform_32 i = cc0_transform_32 i'
  hinb0_32 : ∀ (i : grid0.Coords) a, (cc0_transform_32 i a + 1) * S1x1.size a ≤ S1x1.size a
  hwx0_32 : ∀ i : grid0.Coords, EltTy.bits .f32 = 32 ∨ (Rect.block (s := S1x1) S1x1.size (cc0_transform_32 i) (hinb0_32 i)).WholeWords (EltTy.packing .f32)
  hstage0_33 : ∀ j, (stage0_33 j).IsWhole
  nbuf0_33 : grid0.bufCount reads0_33 true = 1
  hreads0_33 : ∀ i i' : grid0.Coords, (∀ a, reads0_33 a = true → i a = i' a) → cc0_transform_33 i = cc0_transform_33 i'
  hinb0_33 : ∀ (i : grid0.Coords) a, (cc0_transform_33 i a + 1) * S128x256.size a ≤ S128x256.size a
  hwx0_33 : ∀ i : grid0.Coords, EltTy.bits .f32 = 32 ∨ (Rect.block (s := S128x256) S128x256.size (cc0_transform_33 i) (hinb0_33 i)).WholeWords (EltTy.packing .f32)
  hstage0_34 : ∀ j, (stage0_34 j).IsWhole
  nbuf0_34 : grid0.bufCount reads0_34 true = 1
  hreads0_34 : ∀ i i' : grid0.Coords, (∀ a, reads0_34 a = true → i a = i' a) → cc0_transform_34 i = cc0_transform_34 i'
  hinb0_34 : ∀ (i : grid0.Coords) a, (cc0_transform_34 i a + 1) * S1x256.size a ≤ S1x256.size a
  hwx0_34 : ∀ i : grid0.Coords, EltTy.bits .f32 = 32 ∨ (Rect.block (s := S1x256) S1x256.size (cc0_transform_34 i) (hinb0_34 i)).WholeWords (EltTy.packing .f32)
  hstage0_35 : ∀ j, (stage0_35 j).IsWhole
  nbuf0_35 : grid0.bufCount reads0_35 true = 1
  hreads0_35 : ∀ i i' : grid0.Coords, (∀ a, reads0_35 a = true → i a = i' a) → cc0_transform_35 i = cc0_transform_35 i'
  hinb0_35 : ∀ (i : grid0.Coords) a, (cc0_transform_35 i a + 1) * S256x1.size a ≤ S256x1.size a
  hwx0_35 : ∀ i : grid0.Coords, EltTy.bits .f32 = 32 ∨ (Rect.block (s := S256x1) S256x1.size (cc0_transform_35 i) (hinb0_35 i)).WholeWords (EltTy.packing .f32)
  hstage0_36 : ∀ j, (stage0_36 j).IsWhole
  nbuf0_36 : grid0.bufCount reads0_36 true = 1
  hreads0_36 : ∀ i i' : grid0.Coords, (∀ a, reads0_36 a = true → i a = i' a) → cc0_transform_36 i = cc0_transform_36 i'
  hinb0_36 : ∀ (i : grid0.Coords) a, (cc0_transform_36 i a + 1) * S1x1.size a ≤ S1x1.size a
  hwx0_36 : ∀ i : grid0.Coords, EltTy.bits .f32 = 32 ∨ (Rect.block (s := S1x1) S1x1.size (cc0_transform_36 i) (hinb0_36 i)).WholeWords (EltTy.packing .f32)
  hstage0_37 : ∀ j, (stage0_37 j).IsWhole
  nbuf0_37 : grid0.bufCount reads0_37 false = 2
  hreads0_37 : ∀ i i' : grid0.Coords, (∀ a, reads0_37 a = true → i a = i' a) → cc0_transform_37 i = cc0_transform_37 i'
  hinb0_37 : ∀ (i : grid0.Coords) a, (cc0_transform_37 i a + 1) * S8x129.size a ≤ S16x129.size a
  hwx0_37 : ∀ i : grid0.Coords, EltTy.bits .f32 = 32 ∨ (Rect.block (s := S16x129) S8x129.size (cc0_transform_37 i) (hinb0_37 i)).WholeWords (EltTy.packing .f32)
  hstage0_38 : ∀ j, (stage0_38 j).IsWhole
  nbuf0_38 : grid0.bufCount reads0_38 false = 2
  hreads0_38 : ∀ i i' : grid0.Coords, (∀ a, reads0_38 a = true → i a = i' a) → cc0_transform_38 i = cc0_transform_38 i'
  hinb0_38 : ∀ (i : grid0.Coords) a, (cc0_transform_38 i a + 1) * S8x129.size a ≤ S16x129.size a
  hwx0_38 : ∀ i : grid0.Coords, EltTy.bits .f32 = 32 ∨ (Rect.block (s := S16x129) S8x129.size (cc0_transform_38 i) (hinb0_38 i)).WholeWords (EltTy.packing .f32)
  hstage0_39 : ∀ j, (stage0_39 j).IsWhole
  nbuf0_39 : grid0.bufCount reads0_39 false = 2
  hreads0_39 : ∀ i i' : grid0.Coords, (∀ a, reads0_39 a = true → i a = i' a) → cc0_transform_39 i = cc0_transform_39 i'
  hinb0_39 : ∀ (i : grid0.Coords) a, (cc0_transform_39 i a + 1) * S8x129.size a ≤ S16x129.size a
  hwx0_39 : ∀ i : grid0.Coords, EltTy.bits .f32 = 32 ∨ (Rect.block (s := S16x129) S8x129.size (cc0_transform_39 i) (hinb0_39 i)).WholeWords (EltTy.packing .f32)
  hstage0_40 : ∀ j, (stage0_40 j).IsWhole
  nbuf0_40 : grid0.bufCount reads0_40 false = 2
  hreads0_40 : ∀ i i' : grid0.Coords, (∀ a, reads0_40 a = true → i a = i' a) → cc0_transform_40 i = cc0_transform_40 i'
  hinb0_40 : ∀ (i : grid0.Coords) a, (cc0_transform_40 i a + 1) * S8x129.size a ≤ S16x129.size a
  hwx0_40 : ∀ i : grid0.Coords, EltTy.bits .f32 = 32 ∨ (Rect.block (s := S16x129) S8x129.size (cc0_transform_40 i) (hinb0_40 i)).WholeWords (EltTy.packing .f32)

variable [Facts₀]

def dot_S2048x256_S256x256_S2048x256_1_0_0_1_n_n : DotDims S2048x256 S256x256 S2048x256 where
  lhsContracting := [1]
  rhsContracting := [0]
  lhsNonContracting := [0]
  rhsNonContracting := [1]
  lhsBatch := []
  rhsBatch := []
  wf := dot_S2048x256_S256x256_S2048x256_1_0_0_1_n_n_wf
def dot_S2048x256_S256x128_S2048x128_1_0_0_1_n_n : DotDims S2048x256 S256x128 S2048x128 where
  lhsContracting := [1]
  rhsContracting := [0]
  lhsNonContracting := [0]
  rhsNonContracting := [1]
  lhsBatch := []
  rhsBatch := []
  wf := dot_S2048x256_S256x128_S2048x128_1_0_0_1_n_n_wf
def dot_S2048x128_S128x256_S2048x256_1_0_0_1_n_n : DotDims S2048x128 S128x256 S2048x256 where
  lhsContracting := [1]
  rhsContracting := [0]
  lhsNonContracting := [0]
  rhsNonContracting := [1]
  lhsBatch := []
  rhsBatch := []
  wf := dot_S2048x128_S128x256_S2048x256_1_0_0_1_n_n_wf
def dot_S8x256x256_S8x256x128_S8x256x128_2_1_1_2_0_0 : DotDims S8x256x256 S8x256x128 S8x256x128 where
  lhsContracting := [2]
  rhsContracting := [1]
  lhsNonContracting := [1]
  rhsNonContracting := [2]
  lhsBatch := [0]
  rhsBatch := [0]
  wf := dot_S8x256x256_S8x256x128_S8x256x128_2_1_1_2_0_0_wf
def dot_S1024x128_S128x256_S1024x256_1_0_0_1_n_n : DotDims S1024x128 S128x256 S1024x256 where
  lhsContracting := [1]
  rhsContracting := [0]
  lhsNonContracting := [0]
  rhsNonContracting := [1]
  lhsBatch := []
  rhsBatch := []
  wf := dot_S1024x128_S128x256_S1024x256_1_0_0_1_n_n_wf
def dot_S1024x256_S256x128_S1024x128_1_0_0_1_n_n : DotDims S1024x256 S256x128 S1024x128 where
  lhsContracting := [1]
  rhsContracting := [0]
  lhsNonContracting := [0]
  rhsNonContracting := [1]
  lhsBatch := []
  rhsBatch := []
  wf := dot_S1024x256_S256x128_S1024x128_1_0_0_1_n_n_wf
def dot_S1024x256_S256x1_S1024x1_1_0_0_1_n_n : DotDims S1024x256 S256x1 S1024x1 where
  lhsContracting := [1]
  rhsContracting := [0]
  lhsNonContracting := [0]
  rhsNonContracting := [1]
  lhsBatch := []
  rhsBatch := []
  wf := dot_S1024x256_S256x1_S1024x1_1_0_0_1_n_n_wf
def dot_S8x128_S128x256_S8x256_1_0_0_1_n_n : DotDims S8x128 S128x256 S8x256 where
  lhsContracting := [1]
  rhsContracting := [0]
  lhsNonContracting := [0]
  rhsNonContracting := [1]
  lhsBatch := []
  rhsBatch := []
  wf := dot_S8x128_S128x256_S8x256_1_0_0_1_n_n_wf
def dot_S8x256_S256x1_S8x1_1_0_0_1_n_n : DotDims S8x256 S256x1 S8x1 where
  lhsContracting := [1]
  rhsContracting := [0]
  lhsNonContracting := [0]
  rhsNonContracting := [1]
  lhsBatch := []
  rhsBatch := []
  wf := dot_S8x256_S256x1_S8x1_1_0_0_1_n_n_wf

abbrev win0_0 : Pipeline.Window sig grid0 :=
  Pipeline.Window.ofSpec (Memref.whole main_arg0) S8x256x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S8x256x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S8x256x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S8x256x256.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S8x129.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S256x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v0) S1x256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S256x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v1) S1x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg9) S256x256.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v2) S1x256.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_arg11) S256x128.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v3) S1x128.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_arg13) S128x256.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_v4) S1x256.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_arg15) S256x128.size cc0_transform_15 reads0_15 false true 1 stage0_15 sem0_15
    hrank0 hreads0_15 hinb0_15 nbuf0_15 (Memref.isWhole_whole _) hwx0_15 hstage0_15

abbrev win0_16 : Pipeline.Window sig grid0 :=
  Pipeline.Window.ofSpec (Memref.whole main_v5) S1x128.size cc0_transform_16 reads0_16 false true 1 stage0_16 sem0_16
    hrank0 hreads0_16 hinb0_16 nbuf0_16 (Memref.isWhole_whole _) hwx0_16 hstage0_16

abbrev win0_17 : Pipeline.Window sig grid0 :=
  Pipeline.Window.ofSpec (Memref.whole main_arg17) S128x256.size cc0_transform_17 reads0_17 false true 1 stage0_17 sem0_17
    hrank0 hreads0_17 hinb0_17 nbuf0_17 (Memref.isWhole_whole _) hwx0_17 hstage0_17

abbrev win0_18 : Pipeline.Window sig grid0 :=
  Pipeline.Window.ofSpec (Memref.whole main_v6) S1x256.size cc0_transform_18 reads0_18 false true 1 stage0_18 sem0_18
    hrank0 hreads0_18 hinb0_18 nbuf0_18 (Memref.isWhole_whole _) hwx0_18 hstage0_18

abbrev win0_19 : Pipeline.Window sig grid0 :=
  Pipeline.Window.ofSpec (Memref.whole main_arg19) S256x128.size cc0_transform_19 reads0_19 false true 1 stage0_19 sem0_19
    hrank0 hreads0_19 hinb0_19 nbuf0_19 (Memref.isWhole_whole _) hwx0_19 hstage0_19

abbrev win0_20 : Pipeline.Window sig grid0 :=
  Pipeline.Window.ofSpec (Memref.whole main_v7) S1x128.size cc0_transform_20 reads0_20 false true 1 stage0_20 sem0_20
    hrank0 hreads0_20 hinb0_20 nbuf0_20 (Memref.isWhole_whole _) hwx0_20 hstage0_20

abbrev win0_21 : Pipeline.Window sig grid0 :=
  Pipeline.Window.ofSpec (Memref.whole main_arg21) S256x256.size cc0_transform_21 reads0_21 false true 1 stage0_21 sem0_21
    hrank0 hreads0_21 hinb0_21 nbuf0_21 (Memref.isWhole_whole _) hwx0_21 hstage0_21

abbrev win0_22 : Pipeline.Window sig grid0 :=
  Pipeline.Window.ofSpec (Memref.whole main_v8) S1x256.size cc0_transform_22 reads0_22 false true 1 stage0_22 sem0_22
    hrank0 hreads0_22 hinb0_22 nbuf0_22 (Memref.isWhole_whole _) hwx0_22 hstage0_22

abbrev win0_23 : Pipeline.Window sig grid0 :=
  Pipeline.Window.ofSpec (Memref.whole main_arg23) S256x128.size cc0_transform_23 reads0_23 false true 1 stage0_23 sem0_23
    hrank0 hreads0_23 hinb0_23 nbuf0_23 (Memref.isWhole_whole _) hwx0_23 hstage0_23

abbrev win0_24 : Pipeline.Window sig grid0 :=
  Pipeline.Window.ofSpec (Memref.whole main_v9) S1x128.size cc0_transform_24 reads0_24 false true 1 stage0_24 sem0_24
    hrank0 hreads0_24 hinb0_24 nbuf0_24 (Memref.isWhole_whole _) hwx0_24 hstage0_24

abbrev win0_25 : Pipeline.Window sig grid0 :=
  Pipeline.Window.ofSpec (Memref.whole main_arg25) S128x256.size cc0_transform_25 reads0_25 false true 1 stage0_25 sem0_25
    hrank0 hreads0_25 hinb0_25 nbuf0_25 (Memref.isWhole_whole _) hwx0_25 hstage0_25

abbrev win0_26 : Pipeline.Window sig grid0 :=
  Pipeline.Window.ofSpec (Memref.whole main_v10) S1x256.size cc0_transform_26 reads0_26 false true 1 stage0_26 sem0_26
    hrank0 hreads0_26 hinb0_26 nbuf0_26 (Memref.isWhole_whole _) hwx0_26 hstage0_26

abbrev win0_27 : Pipeline.Window sig grid0 :=
  Pipeline.Window.ofSpec (Memref.whole main_arg27) S256x128.size cc0_transform_27 reads0_27 false true 1 stage0_27 sem0_27
    hrank0 hreads0_27 hinb0_27 nbuf0_27 (Memref.isWhole_whole _) hwx0_27 hstage0_27

abbrev win0_28 : Pipeline.Window sig grid0 :=
  Pipeline.Window.ofSpec (Memref.whole main_v11) S1x128.size cc0_transform_28 reads0_28 false true 1 stage0_28 sem0_28
    hrank0 hreads0_28 hinb0_28 nbuf0_28 (Memref.isWhole_whole _) hwx0_28 hstage0_28

abbrev win0_29 : Pipeline.Window sig grid0 :=
  Pipeline.Window.ofSpec (Memref.whole main_arg29) S128x256.size cc0_transform_29 reads0_29 false true 1 stage0_29 sem0_29
    hrank0 hreads0_29 hinb0_29 nbuf0_29 (Memref.isWhole_whole _) hwx0_29 hstage0_29

abbrev win0_30 : Pipeline.Window sig grid0 :=
  Pipeline.Window.ofSpec (Memref.whole main_v12) S1x256.size cc0_transform_30 reads0_30 false true 1 stage0_30 sem0_30
    hrank0 hreads0_30 hinb0_30 nbuf0_30 (Memref.isWhole_whole _) hwx0_30 hstage0_30

abbrev win0_31 : Pipeline.Window sig grid0 :=
  Pipeline.Window.ofSpec (Memref.whole main_arg31) S256x1.size cc0_transform_31 reads0_31 false true 1 stage0_31 sem0_31
    hrank0 hreads0_31 hinb0_31 nbuf0_31 (Memref.isWhole_whole _) hwx0_31 hstage0_31

abbrev win0_32 : Pipeline.Window sig grid0 :=
  Pipeline.Window.ofSpec (Memref.whole main_v13) S1x1.size cc0_transform_32 reads0_32 false true 1 stage0_32 sem0_32
    hrank0 hreads0_32 hinb0_32 nbuf0_32 (Memref.isWhole_whole _) hwx0_32 hstage0_32

abbrev win0_33 : Pipeline.Window sig grid0 :=
  Pipeline.Window.ofSpec (Memref.whole main_arg33) S128x256.size cc0_transform_33 reads0_33 false true 1 stage0_33 sem0_33
    hrank0 hreads0_33 hinb0_33 nbuf0_33 (Memref.isWhole_whole _) hwx0_33 hstage0_33

abbrev win0_34 : Pipeline.Window sig grid0 :=
  Pipeline.Window.ofSpec (Memref.whole main_v14) S1x256.size cc0_transform_34 reads0_34 false true 1 stage0_34 sem0_34
    hrank0 hreads0_34 hinb0_34 nbuf0_34 (Memref.isWhole_whole _) hwx0_34 hstage0_34

abbrev win0_35 : Pipeline.Window sig grid0 :=
  Pipeline.Window.ofSpec (Memref.whole main_arg35) S256x1.size cc0_transform_35 reads0_35 false true 1 stage0_35 sem0_35
    hrank0 hreads0_35 hinb0_35 nbuf0_35 (Memref.isWhole_whole _) hwx0_35 hstage0_35

abbrev win0_36 : Pipeline.Window sig grid0 :=
  Pipeline.Window.ofSpec (Memref.whole main_v15) S1x1.size cc0_transform_36 reads0_36 false true 1 stage0_36 sem0_36
    hrank0 hreads0_36 hinb0_36 nbuf0_36 (Memref.isWhole_whole _) hwx0_36 hstage0_36

abbrev win0_37 : Pipeline.Window sig grid0 :=
  Pipeline.Window.ofSpec (Memref.whole main_v16_0) S8x129.size cc0_transform_37 reads0_37 true false 2 stage0_37 sem0_37
    hrank0 hreads0_37 hinb0_37 nbuf0_37 (Memref.isWhole_whole _) hwx0_37 hstage0_37

abbrev win0_38 : Pipeline.Window sig grid0 :=
  Pipeline.Window.ofSpec (Memref.whole main_v16_1) S8x129.size cc0_transform_38 reads0_38 true false 2 stage0_38 sem0_38
    hrank0 hreads0_38 hinb0_38 nbuf0_38 (Memref.isWhole_whole _) hwx0_38 hstage0_38

abbrev win0_39 : Pipeline.Window sig grid0 :=
  Pipeline.Window.ofSpec (Memref.whole main_v16_2) S8x129.size cc0_transform_39 reads0_39 true false 2 stage0_39 sem0_39
    hrank0 hreads0_39 hinb0_39 nbuf0_39 (Memref.isWhole_whole _) hwx0_39 hstage0_39

abbrev win0_40 : Pipeline.Window sig grid0 :=
  Pipeline.Window.ofSpec (Memref.whole main_v16_3) S8x129.size cc0_transform_40 reads0_40 true false 2 stage0_40 sem0_40
    hrank0 hreads0_40 hinb0_40 nbuf0_40 (Memref.isWhole_whole _) hwx0_40 hstage0_40

abbrev win0 : Fin 41 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | 17 => win0_17 | 18 => win0_18 | 19 => win0_19 | 20 => win0_20 | 21 => win0_21 | 22 => win0_22 | 23 => win0_23 | 24 => win0_24 | 25 => win0_25 | 26 => win0_26 | 27 => win0_27 | 28 => win0_28 | 29 => win0_29 | 30 => win0_30 | 31 => win0_31 | 32 => win0_32 | 33 => win0_33 | 34 => win0_34 | 35 => win0_35 | 36 => win0_36 | 37 => win0_37 | 38 => win0_38 | 39 => win0_39 | 40 => win0_40 | ⟨_ + 41, h⟩ => absurd h (Nat.not_lt.2 (Nat.le_add_left _ _))
abbrev spec0 : Fin 41 → Pipeline.WinSpec sig grid0.rank := fun w => (win0 w).toWinSpec

class Facts : Prop extends Facts₀ where

variable [Facts]
-- ==== ReferenceIdeal.lean ====
abbrev S16x256x256 : Shape := ⟨3, ![16, 256, 256]⟩
abbrev S16x129 : Shape := ⟨2, ![16, 129]⟩
abbrev S256x256 : Shape := ⟨2, ![256, 256]⟩
abbrev S256 : Shape := ⟨1, ![256]⟩
abbrev S256x128 : Shape := ⟨2, ![256, 128]⟩
abbrev S128 : Shape := ⟨1, ![128]⟩
abbrev S128x256 : Shape := ⟨2, ![128, 256]⟩
abbrev S256x1 : Shape := ⟨2, ![256, 1]⟩
abbrev S1 : Shape := ⟨1, ![1]⟩
abbrev S_ : Shape := ⟨0, ![]⟩
abbrev S512x512 : Shape := ⟨2, ![512, 512]⟩
abbrev S2 : Shape := ⟨1, ![2]⟩
abbrev S512 : Shape := ⟨1, ![512]⟩
abbrev S512x256 : Shape := ⟨2, ![512, 256]⟩
abbrev S256x512 : Shape := ⟨2, ![256, 512]⟩
abbrev S520x512 : Shape := ⟨2, ![520, 512]⟩
abbrev S264x512 : Shape := ⟨2, ![264, 512]⟩
abbrev S136x512 : Shape := ⟨2, ![136, 512]⟩
abbrev S3552x512 : Shape := ⟨2, ![3552, 512]⟩
abbrev S16x256x512 : Shape := ⟨3, ![16, 256, 512]⟩
abbrev S16x1x256x256 : Shape := ⟨4, ![16, 1, 256, 256]⟩
abbrev S16x2x256x256 : Shape := ⟨4, ![16, 2, 256, 256]⟩
abbrev S16x129x1 : Shape := ⟨3, ![16, 129, 1]⟩
abbrev S16x129x4 : Shape := ⟨3, ![16, 129, 4]⟩
abbrev S4096x512 : Shape := ⟨2, ![4096, 512]⟩
abbrev S1x512 : Shape := ⟨2, ![1, 512]⟩
abbrev S1x256 : Shape := ⟨2, ![1, 256]⟩
abbrev S4096x256 : Shape := ⟨2, ![4096, 256]⟩
abbrev S16x256x128 : Shape := ⟨3, ![16, 256, 128]⟩
abbrev S1x128 : Shape := ⟨2, ![1, 128]⟩
abbrev S4096x128 : Shape := ⟨2, ![4096, 128]⟩
abbrev S128x128 : Shape := ⟨2, ![128, 128]⟩
abbrev S2048x128 : Shape := ⟨2, ![2048, 128]⟩
abbrev S2048x256 : Shape := ⟨2, ![2048, 256]⟩
abbrev S1x1 : Shape := ⟨2, ![1, 1]⟩
abbrev S2048x1 : Shape := ⟨2, ![2048, 1]⟩
abbrev S128x1 : Shape := ⟨2, ![128, 1]⟩
abbrev S129x1 : Shape := ⟨2, ![129, 1]⟩
abbrev S1x129x1 : Shape := ⟨3, ![1, 129, 1]⟩
abbrev S129x4 : Shape := ⟨2, ![129, 4]⟩
abbrev S1x129x4 : Shape := ⟨3, ![1, 129, 4]⟩

abbrev nBuf : Space → Nat
  | .hbm => 268
  | .vmem => 5
  | .smem => 0
  | _ => 0

abbrev hbmTy0_0 (i : Nat) : BufTy := match i % 128 with
  | 0 => ⟨S16x256x256, .f32⟩
  | 1 => ⟨S16x256x256, .f32⟩
  | 2 => ⟨S16x256x256, .f32⟩
  | 3 => ⟨S16x256x256, .f32⟩
  | 4 => ⟨S16x129, .f32⟩
  | 5 => ⟨S256x256, .f32⟩
  | 6 => ⟨S256, .f32⟩
  | 7 => ⟨S256x128, .f32⟩
  | 8 => ⟨S128, .f32⟩
  | 9 => ⟨S256x256, .f32⟩
  | 10 => ⟨S256, .f32⟩
  | 11 => ⟨S256x128, .f32⟩
  | 12 => ⟨S128, .f32⟩
  | 13 => ⟨S128x256, .f32⟩
  | 14 => ⟨S256, .f32⟩
  | 15 => ⟨S256x128, .f32⟩
  | 16 => ⟨S128, .f32⟩
  | 17 => ⟨S128x256, .f32⟩
  | 18 => ⟨S256, .f32⟩
  | 19 => ⟨S256x128, .f32⟩
  | 20 => ⟨S128, .f32⟩
  | 21 => ⟨S256x256, .f32⟩
  | 22 => ⟨S256, .f32⟩
  | 23 => ⟨S256x128, .f32⟩
  | 24 => ⟨S128, .f32⟩
  | 25 => ⟨S128x256, .f32⟩
  | 26 => ⟨S256, .f32⟩
  | 27 => ⟨S256x128, .f32⟩
  | 28 => ⟨S128, .f32⟩
  | 29 => ⟨S128x256, .f32⟩
  | 30 => ⟨S256, .f32⟩
  | 31 => ⟨S256x1, .f32⟩
  | 32 => ⟨S1, .f32⟩
  | 33 => ⟨S128x256, .f32⟩
  | 34 => ⟨S256, .f32⟩
  | 35 => ⟨S256x1, .f32⟩
  | 36 => ⟨S1, .f32⟩
  | 37 => ⟨S_, .f32⟩
  | 38 => ⟨S512x512, .f32⟩
  | 39 => ⟨S_, .i32⟩
  | 40 => ⟨S1, .i32⟩
  | 41 => ⟨S_, .i32⟩
  | 42 => ⟨S1, .i32⟩
  | 43 => ⟨S2, .i32⟩
  | 44 => ⟨S512x512, .f32⟩
  | 45 => ⟨S_, .i32⟩
  | 46 => ⟨S1, .i32⟩
  | 47 => ⟨S_, .i32⟩
  | 48 => ⟨S1, .i32⟩
  | 49 => ⟨S2, .i32⟩
  | 50 => ⟨S512x512, .f32⟩
  | 51 => ⟨S512, .f32⟩
  | 52 => ⟨S_, .f32⟩
  | 53 => ⟨S512x256, .f32⟩
  | 54 => ⟨S_, .i32⟩
  | 55 => ⟨S1, .i32⟩
  | 56 => ⟨S_, .i32⟩
  | 57 => ⟨S1, .i32⟩
  | 58 => ⟨S2, .i32⟩
  | 59 => ⟨S512x256, .f32⟩
  | 60 => ⟨S_, .i32⟩
  | 61 => ⟨S1, .i32⟩
  | 62 => ⟨S_, .i32⟩
  | 63 => ⟨S1, .i32⟩
  | 64 => ⟨S2, .i32⟩
  | 65 => ⟨S512x256, .f32⟩
  | 66 => ⟨S256, .f32⟩
  | 67 => ⟨S_, .f32⟩
  | 68 => ⟨S256x512, .f32⟩
  | 69 => ⟨S_, .i32⟩
  | 70 => ⟨S1, .i32⟩
  | 71 => ⟨S_, .i32⟩
  | 72 => ⟨S1, .i32⟩
  | 73 => ⟨S2, .i32⟩
  | 74 => ⟨S256x512, .f32⟩
  | 75 => ⟨S_, .i32⟩
  | 76 => ⟨S1, .i32⟩
  | 77 => ⟨S_, .i32⟩
  | 78 => ⟨S1, .i32⟩
  | 79 => ⟨S2, .i32⟩
  | 80 => ⟨S256x512, .f32⟩
  | 81 => ⟨S512, .f32⟩
  | 82 => ⟨S_, .f32⟩
  | 83 => ⟨S512x256, .f32⟩
  | 84 => ⟨S_, .i32⟩
  | 85 => ⟨S1, .i32⟩
  | 86 => ⟨S_, .i32⟩
  | 87 => ⟨S1, .i32⟩
  | 88 => ⟨S2, .i32⟩
  | 89 => ⟨S512x256, .f32⟩
  | 90 => ⟨S_, .i32⟩
  | 91 => ⟨S1, .i32⟩
  | 92 => ⟨S_, .i32⟩
  | 93 => ⟨S1, .i32⟩
  | 94 => ⟨S2, .i32⟩
  | 95 => ⟨S512x256, .f32⟩
  | 96 => ⟨S256, .f32⟩
  | 97 => ⟨S_, .f32⟩
  | 98 => ⟨S520x512, .f32⟩
  | 99 => ⟨S_, .i32⟩
  | 100 => ⟨S1, .i32⟩
  | 101 => ⟨S520x512, .f32⟩
  | 102 => ⟨S_, .i32⟩
  | 103 => ⟨S1, .i32⟩
  | 104 => ⟨S520x512, .f32⟩
  | 105 => ⟨S_, .f32⟩
  | 106 => ⟨S520x512, .f32⟩
  | 107 => ⟨S_, .i32⟩
  | 108 => ⟨S1, .i32⟩
  | 109 => ⟨S_, .i32⟩
  | 110 => ⟨S1, .i32⟩
  | 111 => ⟨S2, .i32⟩
  | 112 => ⟨S520x512, .f32⟩
  | 113 => ⟨S_, .i32⟩
  | 114 => ⟨S1, .i32⟩
  | 115 => ⟨S_, .i32⟩
  | 116 => ⟨S1, .i32⟩
  | 117 => ⟨S2, .i32⟩
  | 118 => ⟨S520x512, .f32⟩
  | 119 => ⟨S_, .f32⟩
  | 120 => ⟨S264x512, .f32⟩
  | 121 => ⟨S_, .i32⟩
  | 122 => ⟨S1, .i32⟩
  | 123 => ⟨S264x512, .f32⟩
  | 124 => ⟨S_, .i32⟩
  | 125 => ⟨S1, .i32⟩
  | 126 => ⟨S264x512, .f32⟩
  | 127 => ⟨S_, .f32⟩
  | _ => ⟨S16x256x256, .f32⟩

abbrev hbmTy0_1 (i : Nat) : BufTy := match i % 128 with
  | 0 => ⟨S520x512, .f32⟩
  | 1 => ⟨S_, .i32⟩
  | 2 => ⟨S1, .i32⟩
  | 3 => ⟨S_, .i32⟩
  | 4 => ⟨S1, .i32⟩
  | 5 => ⟨S2, .i32⟩
  | 6 => ⟨S520x512, .f32⟩
  | 7 => ⟨S_, .i32⟩
  | 8 => ⟨S1, .i32⟩
  | 9 => ⟨S_, .i32⟩
  | 10 => ⟨S1, .i32⟩
  | 11 => ⟨S2, .i32⟩
  | 12 => ⟨S520x512, .f32⟩
  | 13 => ⟨S_, .f32⟩
  | 14 => ⟨S264x512, .f32⟩
  | 15 => ⟨S_, .i32⟩
  | 16 => ⟨S1, .i32⟩
  | 17 => ⟨S_, .i32⟩
  | 18 => ⟨S1, .i32⟩
  | 19 => ⟨S2, .i32⟩
  | 20 => ⟨S264x512, .f32⟩
  | 21 => ⟨S_, .i32⟩
  | 22 => ⟨S1, .i32⟩
  | 23 => ⟨S_, .i32⟩
  | 24 => ⟨S1, .i32⟩
  | 25 => ⟨S2, .i32⟩
  | 26 => ⟨S264x512, .f32⟩
  | 27 => ⟨S_, .f32⟩
  | 28 => ⟨S264x512, .f32⟩
  | 29 => ⟨S_, .i32⟩
  | 30 => ⟨S1, .i32⟩
  | 31 => ⟨S_, .i32⟩
  | 32 => ⟨S1, .i32⟩
  | 33 => ⟨S2, .i32⟩
  | 34 => ⟨S264x512, .f32⟩
  | 35 => ⟨S_, .i32⟩
  | 36 => ⟨S1, .i32⟩
  | 37 => ⟨S_, .i32⟩
  | 38 => ⟨S1, .i32⟩
  | 39 => ⟨S2, .i32⟩
  | 40 => ⟨S264x512, .f32⟩
  | 41 => ⟨S_, .f32⟩
  | 42 => ⟨S136x512, .f32⟩
  | 43 => ⟨S_, .i32⟩
  | 44 => ⟨S1, .i32⟩
  | 45 => ⟨S_, .i32⟩
  | 46 => ⟨S1, .i32⟩
  | 47 => ⟨S2, .i32⟩
  | 48 => ⟨S136x512, .f32⟩
  | 49 => ⟨S_, .i32⟩
  | 50 => ⟨S1, .i32⟩
  | 51 => ⟨S_, .i32⟩
  | 52 => ⟨S1, .i32⟩
  | 53 => ⟨S2, .i32⟩
  | 54 => ⟨S136x512, .f32⟩
  | 55 => ⟨S_, .f32⟩
  | 56 => ⟨S264x512, .f32⟩
  | 57 => ⟨S_, .i32⟩
  | 58 => ⟨S1, .i32⟩
  | 59 => ⟨S_, .i32⟩
  | 60 => ⟨S1, .i32⟩
  | 61 => ⟨S2, .i32⟩
  | 62 => ⟨S264x512, .f32⟩
  | 63 => ⟨S_, .i32⟩
  | 64 => ⟨S1, .i32⟩
  | 65 => ⟨S_, .i32⟩
  | 66 => ⟨S1, .i32⟩
  | 67 => ⟨S2, .i32⟩
  | 68 => ⟨S264x512, .f32⟩
  | 69 => ⟨S_, .f32⟩
  | 70 => ⟨S136x512, .f32⟩
  | 71 => ⟨S_, .i32⟩
  | 72 => ⟨S1, .i32⟩
  | 73 => ⟨S_, .i32⟩
  | 74 => ⟨S1, .i32⟩
  | 75 => ⟨S2, .i32⟩
  | 76 => ⟨S136x512, .f32⟩
  | 77 => ⟨S_, .i32⟩
  | 78 => ⟨S1, .i32⟩
  | 79 => ⟨S_, .i32⟩
  | 80 => ⟨S1, .i32⟩
  | 81 => ⟨S2, .i32⟩
  | 82 => ⟨S136x512, .f32⟩
  | 83 => ⟨S_, .f32⟩
  | 84 => ⟨S264x512, .f32⟩
  | 85 => ⟨S_, .i32⟩
  | 86 => ⟨S1, .i32⟩
  | 87 => ⟨S_, .i32⟩
  | 88 => ⟨S1, .i32⟩
  | 89 => ⟨S2, .i32⟩
  | 90 => ⟨S264x512, .f32⟩
  | 91 => ⟨S_, .i32⟩
  | 92 => ⟨S1, .i32⟩
  | 93 => ⟨S_, .i32⟩
  | 94 => ⟨S1, .i32⟩
  | 95 => ⟨S2, .i32⟩
  | 96 => ⟨S264x512, .f32⟩
  | 97 => ⟨S_, .f32⟩
  | 98 => ⟨S136x512, .f32⟩
  | 99 => ⟨S_, .i32⟩
  | 100 => ⟨S1, .i32⟩
  | 101 => ⟨S_, .i32⟩
  | 102 => ⟨S1, .i32⟩
  | 103 => ⟨S2, .i32⟩
  | 104 => ⟨S136x512, .f32⟩
  | 105 => ⟨S_, .i32⟩
  | 106 => ⟨S1, .i32⟩
  | 107 => ⟨S_, .i32⟩
  | 108 => ⟨S1, .i32⟩
  | 109 => ⟨S2, .i32⟩
  | 110 => ⟨S136x512, .f32⟩
  | 111 => ⟨S_, .f32⟩
  | 112 => ⟨S264x512, .f32⟩
  | 113 => ⟨S_, .i32⟩
  | 114 => ⟨S1, .i32⟩
  | 115 => ⟨S_, .i32⟩
  | 116 => ⟨S1, .i32⟩
  | 117 => ⟨S2, .i32⟩
  | 118 => ⟨S264x512, .f32⟩
  | 119 => ⟨S_, .i32⟩
  | 120 => ⟨S1, .i32⟩
  | 121 => ⟨S_, .i32⟩
  | 122 => ⟨S1, .i32⟩
  | 123 => ⟨S2, .i32⟩
  | 124 => ⟨S264x512, .f32⟩
  | 125 => ⟨S3552x512, .f32⟩
  | 126 => ⟨S16x256x512, .f32⟩
  | 127 => ⟨S16x1x256x256, .f32⟩
  | _ => ⟨S16x256x256, .f32⟩

abbrev hbmTy0_2 (i : Nat) : BufTy := match i % 128 with
  | 0 => ⟨S16x1x256x256, .f32⟩
  | 1 => ⟨S16x2x256x256, .f32⟩
  | 2 => ⟨S16x129x1, .f32⟩
  | 3 => ⟨S16x129x4, .f32⟩
  | 4 => ⟨S16x129x1, .f32⟩
  | 5 => ⟨S16x129, .f32⟩
  | 6 => ⟨S16x129x1, .f32⟩
  | 7 => ⟨S16x129, .f32⟩
  | 8 => ⟨S16x129x1, .f32⟩
  | 9 => ⟨S16x129, .f32⟩
  | 10 => ⟨S16x129x1, .f32⟩
  | 11 => ⟨S16x129, .f32⟩
  | _ => ⟨S16x256x256, .f32⟩

abbrev hbmTy (i : Nat) : BufTy := match i / 128 with
  | 0 => hbmTy0_0 i
  | 1 => hbmTy0_1 i
  | 2 => hbmTy0_2 i
  | _ => ⟨S16x256x256, .f32⟩

abbrev bufTy : (tb : Table) → Fin (tcTables nBuf tb) → BufTy
  | .hbm, ⟨i, _⟩ => hbmTy i
  | .local _ .vmem, ⟨0, _⟩ => ⟨S16x256x512, .f32⟩
  | .local _ .vmem, ⟨1, _⟩ => ⟨S16x2x256x256, .f32⟩
  | .local _ .vmem, ⟨2, _⟩ => ⟨S16x129x1, .f32⟩
  | .local _ .vmem, ⟨3, _⟩ => ⟨S3552x512, .f32⟩
  | .local _ .vmem, ⟨4, _⟩ => ⟨S16x129x4, .f32⟩
  | _, _ => ⟨S16x256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_arg32 : Ref sig .tc := ⟨.hbm, 32, rfl⟩
abbrev main_arg33 : Ref sig .tc := ⟨.hbm, 33, rfl⟩
abbrev main_arg34 : Ref sig .tc := ⟨.hbm, 34, rfl⟩
abbrev main_arg35 : Ref sig .tc := ⟨.hbm, 35, rfl⟩
abbrev main_arg36 : Ref sig .tc := ⟨.hbm, 36, rfl⟩
abbrev main_cst : Ref sig .tc := ⟨.hbm, 37, rfl⟩
abbrev main_v0 : Ref sig .tc := ⟨.hbm, 38, rfl⟩
abbrev main_c : Ref sig .tc := ⟨.hbm, 39, rfl⟩
abbrev main_v1 : Ref sig .tc := ⟨.hbm, 40, rfl⟩
abbrev main_c_0 : Ref sig .tc := ⟨.hbm, 41, rfl⟩
abbrev main_v2 : Ref sig .tc := ⟨.hbm, 42, rfl⟩
abbrev main_v3 : Ref sig .tc := ⟨.hbm, 43, rfl⟩
abbrev main_v4 : Ref sig .tc := ⟨.hbm, 44, rfl⟩
abbrev main_c_1 : Ref sig .tc := ⟨.hbm, 45, rfl⟩
abbrev main_v5 : Ref sig .tc := ⟨.hbm, 46, rfl⟩
abbrev main_c_2 : Ref sig .tc := ⟨.hbm, 47, rfl⟩
abbrev main_v6 : Ref sig .tc := ⟨.hbm, 48, rfl⟩
abbrev main_v7 : Ref sig .tc := ⟨.hbm, 49, rfl⟩
abbrev main_v8 : Ref sig .tc := ⟨.hbm, 50, rfl⟩
abbrev main_v9 : Ref sig .tc := ⟨.hbm, 51, rfl⟩
abbrev main_cst_3 : Ref sig .tc := ⟨.hbm, 52, rfl⟩
abbrev main_v10 : Ref sig .tc := ⟨.hbm, 53, rfl⟩
abbrev main_c_4 : Ref sig .tc := ⟨.hbm, 54, rfl⟩
abbrev main_v11 : Ref sig .tc := ⟨.hbm, 55, rfl⟩
abbrev main_c_5 : Ref sig .tc := ⟨.hbm, 56, rfl⟩
abbrev main_v12 : Ref sig .tc := ⟨.hbm, 57, rfl⟩
abbrev main_v13 : Ref sig .tc := ⟨.hbm, 58, rfl⟩
abbrev main_v14 : Ref sig .tc := ⟨.hbm, 59, rfl⟩
abbrev main_c_6 : Ref sig .tc := ⟨.hbm, 60, rfl⟩
abbrev main_v15 : Ref sig .tc := ⟨.hbm, 61, rfl⟩
abbrev main_c_7 : Ref sig .tc := ⟨.hbm, 62, rfl⟩
abbrev main_v16 : Ref sig .tc := ⟨.hbm, 63, rfl⟩
abbrev main_v17 : Ref sig .tc := ⟨.hbm, 64, rfl⟩
abbrev main_v18 : Ref sig .tc := ⟨.hbm, 65, rfl⟩
abbrev main_v19 : Ref sig .tc := ⟨.hbm, 66, rfl⟩
abbrev main_cst_8 : Ref sig .tc := ⟨.hbm, 67, rfl⟩
abbrev main_v20 : Ref sig .tc := ⟨.hbm, 68, rfl⟩
abbrev main_c_9 : Ref sig .tc := ⟨.hbm, 69, rfl⟩
abbrev main_v21 : Ref sig .tc := ⟨.hbm, 70, rfl⟩
abbrev main_c_10 : Ref sig .tc := ⟨.hbm, 71, rfl⟩
abbrev main_v22 : Ref sig .tc := ⟨.hbm, 72, rfl⟩
abbrev main_v23 : Ref sig .tc := ⟨.hbm, 73, rfl⟩
abbrev main_v24 : Ref sig .tc := ⟨.hbm, 74, rfl⟩
abbrev main_c_11 : Ref sig .tc := ⟨.hbm, 75, rfl⟩
abbrev main_v25 : Ref sig .tc := ⟨.hbm, 76, rfl⟩
abbrev main_c_12 : Ref sig .tc := ⟨.hbm, 77, rfl⟩
abbrev main_v26 : Ref sig .tc := ⟨.hbm, 78, rfl⟩
abbrev main_v27 : Ref sig .tc := ⟨.hbm, 79, rfl⟩
abbrev main_v28 : Ref sig .tc := ⟨.hbm, 80, rfl⟩
abbrev main_v29 : Ref sig .tc := ⟨.hbm, 81, rfl⟩
abbrev main_cst_13 : Ref sig .tc := ⟨.hbm, 82, rfl⟩
abbrev main_v30 : Ref sig .tc := ⟨.hbm, 83, rfl⟩
abbrev main_c_14 : Ref sig .tc := ⟨.hbm, 84, rfl⟩
abbrev main_v31 : Ref sig .tc := ⟨.hbm, 85, rfl⟩
abbrev main_c_15 : Ref sig .tc := ⟨.hbm, 86, rfl⟩
abbrev main_v32 : Ref sig .tc := ⟨.hbm, 87, rfl⟩
abbrev main_v33 : Ref sig .tc := ⟨.hbm, 88, rfl⟩
abbrev main_v34 : Ref sig .tc := ⟨.hbm, 89, rfl⟩
abbrev main_c_16 : Ref sig .tc := ⟨.hbm, 90, rfl⟩
abbrev main_v35 : Ref sig .tc := ⟨.hbm, 91, rfl⟩
abbrev main_c_17 : Ref sig .tc := ⟨.hbm, 92, rfl⟩
abbrev main_v36 : Ref sig .tc := ⟨.hbm, 93, rfl⟩
abbrev main_v37 : Ref sig .tc := ⟨.hbm, 94, rfl⟩
abbrev main_v38 : Ref sig .tc := ⟨.hbm, 95, rfl⟩
abbrev main_v39 : Ref sig .tc := ⟨.hbm, 96, rfl⟩
abbrev main_cst_18 : Ref sig .tc := ⟨.hbm, 97, rfl⟩
abbrev main_v40 : Ref sig .tc := ⟨.hbm, 98, rfl⟩
abbrev main_c_19 : Ref sig .tc := ⟨.hbm, 99, rfl⟩
abbrev main_v41 : Ref sig .tc := ⟨.hbm, 100, rfl⟩
abbrev main_v42 : Ref sig .tc := ⟨.hbm, 101, rfl⟩
abbrev main_c_20 : Ref sig .tc := ⟨.hbm, 102, rfl⟩
abbrev main_v43 : Ref sig .tc := ⟨.hbm, 103, rfl⟩
abbrev main_v44 : Ref sig .tc := ⟨.hbm, 104, rfl⟩
abbrev main_cst_21 : Ref sig .tc := ⟨.hbm, 105, rfl⟩
abbrev main_v45 : Ref sig .tc := ⟨.hbm, 106, rfl⟩
abbrev main_c_22 : Ref sig .tc := ⟨.hbm, 107, rfl⟩
abbrev main_v46 : Ref sig .tc := ⟨.hbm, 108, rfl⟩
abbrev main_c_23 : Ref sig .tc := ⟨.hbm, 109, rfl⟩
abbrev main_v47 : Ref sig .tc := ⟨.hbm, 110, rfl⟩
abbrev main_v48 : Ref sig .tc := ⟨.hbm, 111, rfl⟩
abbrev main_v49 : Ref sig .tc := ⟨.hbm, 112, rfl⟩
abbrev main_c_24 : Ref sig .tc := ⟨.hbm, 113, rfl⟩
abbrev main_v50 : Ref sig .tc := ⟨.hbm, 114, rfl⟩
abbrev main_c_25 : Ref sig .tc := ⟨.hbm, 115, rfl⟩
abbrev main_v51 : Ref sig .tc := ⟨.hbm, 116, rfl⟩
abbrev main_v52 : Ref sig .tc := ⟨.hbm, 117, rfl⟩
abbrev main_v53 : Ref sig .tc := ⟨.hbm, 118, rfl⟩
abbrev main_cst_26 : Ref sig .tc := ⟨.hbm, 119, rfl⟩
abbrev main_v54 : Ref sig .tc := ⟨.hbm, 120, rfl⟩
abbrev main_c_27 : Ref sig .tc := ⟨.hbm, 121, rfl⟩
abbrev main_v55 : Ref sig .tc := ⟨.hbm, 122, rfl⟩
abbrev main_v56 : Ref sig .tc := ⟨.hbm, 123, rfl⟩
abbrev main_c_28 : Ref sig .tc := ⟨.hbm, 124, rfl⟩
abbrev main_v57 : Ref sig .tc := ⟨.hbm, 125, rfl⟩
abbrev main_v58 : Ref sig .tc := ⟨.hbm, 126, rfl⟩
abbrev main_cst_29 : Ref sig .tc := ⟨.hbm, 127, rfl⟩
abbrev main_v59 : Ref sig .tc := ⟨.hbm, 128, rfl⟩
abbrev main_c_30 : Ref sig .tc := ⟨.hbm, 129, rfl⟩
abbrev main_v60 : Ref sig .tc := ⟨.hbm, 130, rfl⟩
abbrev main_c_31 : Ref sig .tc := ⟨.hbm, 131, rfl⟩
abbrev main_v61 : Ref sig .tc := ⟨.hbm, 132, rfl⟩
abbrev main_v62 : Ref sig .tc := ⟨.hbm, 133, rfl⟩
abbrev main_v63 : Ref sig .tc := ⟨.hbm, 134, rfl⟩
abbrev main_c_32 : Ref sig .tc := ⟨.hbm, 135, rfl⟩
abbrev main_v64 : Ref sig .tc := ⟨.hbm, 136, rfl⟩
abbrev main_c_33 : Ref sig .tc := ⟨.hbm, 137, rfl⟩
abbrev main_v65 : Ref sig .tc := ⟨.hbm, 138, rfl⟩
abbrev main_v66 : Ref sig .tc := ⟨.hbm, 139, rfl⟩
abbrev main_v67 : Ref sig .tc := ⟨.hbm, 140, rfl⟩
abbrev main_cst_34 : Ref sig .tc := ⟨.hbm, 141, rfl⟩
abbrev main_v68 : Ref sig .tc := ⟨.hbm, 142, rfl⟩
abbrev main_c_35 : Ref sig .tc := ⟨.hbm, 143, rfl⟩
abbrev main_v69 : Ref sig .tc := ⟨.hbm, 144, rfl⟩
abbrev main_c_36 : Ref sig .tc := ⟨.hbm, 145, rfl⟩
abbrev main_v70 : Ref sig .tc := ⟨.hbm, 146, rfl⟩
abbrev main_v71 : Ref sig .tc := ⟨.hbm, 147, rfl⟩
abbrev main_v72 : Ref sig .tc := ⟨.hbm, 148, rfl⟩
abbrev main_c_37 : Ref sig .tc := ⟨.hbm, 149, rfl⟩
abbrev main_v73 : Ref sig .tc := ⟨.hbm, 150, rfl⟩
abbrev main_c_38 : Ref sig .tc := ⟨.hbm, 151, rfl⟩
abbrev main_v74 : Ref sig .tc := ⟨.hbm, 152, rfl⟩
abbrev main_v75 : Ref sig .tc := ⟨.hbm, 153, rfl⟩
abbrev main_v76 : Ref sig .tc := ⟨.hbm, 154, rfl⟩
abbrev main_cst_39 : Ref sig .tc := ⟨.hbm, 155, rfl⟩
abbrev main_v77 : Ref sig .tc := ⟨.hbm, 156, rfl⟩
abbrev main_c_40 : Ref sig .tc := ⟨.hbm, 157, rfl⟩
abbrev main_v78 : Ref sig .tc := ⟨.hbm, 158, rfl⟩
abbrev main_c_41 : Ref sig .tc := ⟨.hbm, 159, rfl⟩
abbrev main_v79 : Ref sig .tc := ⟨.hbm, 160, rfl⟩
abbrev main_v80 : Ref sig .tc := ⟨.hbm, 161, rfl⟩
abbrev main_v81 : Ref sig .tc := ⟨.hbm, 162, rfl⟩
abbrev main_c_42 : Ref sig .tc := ⟨.hbm, 163, rfl⟩
abbrev main_v82 : Ref sig .tc := ⟨.hbm, 164, rfl⟩
abbrev main_c_43 : Ref sig .tc := ⟨.hbm, 165, rfl⟩
abbrev main_v83 : Ref sig .tc := ⟨.hbm, 166, rfl⟩
abbrev main_v84 : Ref sig .tc := ⟨.hbm, 167, rfl⟩
abbrev main_v85 : Ref sig .tc := ⟨.hbm, 168, rfl⟩
abbrev main_cst_44 : Ref sig .tc := ⟨.hbm, 169, rfl⟩
abbrev main_v86 : Ref sig .tc := ⟨.hbm, 170, rfl⟩
abbrev main_c_45 : Ref sig .tc := ⟨.hbm, 171, rfl⟩
abbrev main_v87 : Ref sig .tc := ⟨.hbm, 172, rfl⟩
abbrev main_c_46 : Ref sig .tc := ⟨.hbm, 173, rfl⟩
abbrev main_v88 : Ref sig .tc := ⟨.hbm, 174, rfl⟩
abbrev main_v89 : Ref sig .tc := ⟨.hbm, 175, rfl⟩
abbrev main_v90 : Ref sig .tc := ⟨.hbm, 176, rfl⟩
abbrev main_c_47 : Ref sig .tc := ⟨.hbm, 177, rfl⟩
abbrev main_v91 : Ref sig .tc := ⟨.hbm, 178, rfl⟩
abbrev main_c_48 : Ref sig .tc := ⟨.hbm, 179, rfl⟩
abbrev main_v92 : Ref sig .tc := ⟨.hbm, 180, rfl⟩
abbrev main_v93 : Ref sig .tc := ⟨.hbm, 181, rfl⟩
abbrev main_v94 : Ref sig .tc := ⟨.hbm, 182, rfl⟩
abbrev main_cst_49 : Ref sig .tc := ⟨.hbm, 183, rfl⟩
abbrev main_v95 : Ref sig .tc := ⟨.hbm, 184, rfl⟩
abbrev main_c_50 : Ref sig .tc := ⟨.hbm, 185, rfl⟩
abbrev main_v96 : Ref sig .tc := ⟨.hbm, 186, rfl⟩
abbrev main_c_51 : Ref sig .tc := ⟨.hbm, 187, rfl⟩
abbrev main_v97 : Ref sig .tc := ⟨.hbm, 188, rfl⟩
abbrev main_v98 : Ref sig .tc := ⟨.hbm, 189, rfl⟩
abbrev main_v99 : Ref sig .tc := ⟨.hbm, 190, rfl⟩
abbrev main_c_52 : Ref sig .tc := ⟨.hbm, 191, rfl⟩
abbrev main_v100 : Ref sig .tc := ⟨.hbm, 192, rfl⟩
abbrev main_c_53 : Ref sig .tc := ⟨.hbm, 193, rfl⟩
abbrev main_v101 : Ref sig .tc := ⟨.hbm, 194, rfl⟩
abbrev main_v102 : Ref sig .tc := ⟨.hbm, 195, rfl⟩
abbrev main_v103 : Ref sig .tc := ⟨.hbm, 196, rfl⟩
abbrev main_cst_54 : Ref sig .tc := ⟨.hbm, 197, rfl⟩
abbrev main_v104 : Ref sig .tc := ⟨.hbm, 198, rfl⟩
abbrev main_c_55 : Ref sig .tc := ⟨.hbm, 199, rfl⟩
abbrev main_v105 : Ref sig .tc := ⟨.hbm, 200, rfl⟩
abbrev main_c_56 : Ref sig .tc := ⟨.hbm, 201, rfl⟩
abbrev main_v106 : Ref sig .tc := ⟨.hbm, 202, rfl⟩
abbrev main_v107 : Ref sig .tc := ⟨.hbm, 203, rfl⟩
abbrev main_v108 : Ref sig .tc := ⟨.hbm, 204, rfl⟩
abbrev main_c_57 : Ref sig .tc := ⟨.hbm, 205, rfl⟩
abbrev main_v109 : Ref sig .tc := ⟨.hbm, 206, rfl⟩
abbrev main_c_58 : Ref sig .tc := ⟨.hbm, 207, rfl⟩
abbrev main_v110 : Ref sig .tc := ⟨.hbm, 208, rfl⟩
abbrev main_v111 : Ref sig .tc := ⟨.hbm, 209, rfl⟩
abbrev main_v112 : Ref sig .tc := ⟨.hbm, 210, rfl⟩
abbrev main_cst_59 : Ref sig .tc := ⟨.hbm, 211, rfl⟩
abbrev main_v113 : Ref sig .tc := ⟨.hbm, 212, rfl⟩
abbrev main_c_60 : Ref sig .tc := ⟨.hbm, 213, rfl⟩
abbrev main_v114 : Ref sig .tc := ⟨.hbm, 214, rfl⟩
abbrev main_c_61 : Ref sig .tc := ⟨.hbm, 215, rfl⟩
abbrev main_v115 : Ref sig .tc := ⟨.hbm, 216, rfl⟩
abbrev main_v116 : Ref sig .tc := ⟨.hbm, 217, rfl⟩
abbrev main_v117 : Ref sig .tc := ⟨.hbm, 218, rfl⟩
abbrev main_c_62 : Ref sig .tc := ⟨.hbm, 219, rfl⟩
abbrev main_v118 : Ref sig .tc := ⟨.hbm, 220, rfl⟩
abbrev main_c_63 : Ref sig .tc := ⟨.hbm, 221, rfl⟩
abbrev main_v119 : Ref sig .tc := ⟨.hbm, 222, rfl⟩
abbrev main_v120 : Ref sig .tc := ⟨.hbm, 223, rfl⟩
abbrev main_v121 : Ref sig .tc := ⟨.hbm, 224, rfl⟩
abbrev main_cst_64 : Ref sig .tc := ⟨.hbm, 225, rfl⟩
abbrev main_v122 : Ref sig .tc := ⟨.hbm, 226, rfl⟩
abbrev main_c_65 : Ref sig .tc := ⟨.hbm, 227, rfl⟩
abbrev main_v123 : Ref sig .tc := ⟨.hbm, 228, rfl⟩
abbrev main_c_66 : Ref sig .tc := ⟨.hbm, 229, rfl⟩
abbrev main_v124 : Ref sig .tc := ⟨.hbm, 230, rfl⟩
abbrev main_v125 : Ref sig .tc := ⟨.hbm, 231, rfl⟩
abbrev main_v126 : Ref sig .tc := ⟨.hbm, 232, rfl⟩
abbrev main_c_67 : Ref sig .tc := ⟨.hbm, 233, rfl⟩
abbrev main_v127 : Ref sig .tc := ⟨.hbm, 234, rfl⟩
abbrev main_c_68 : Ref sig .tc := ⟨.hbm, 235, rfl⟩
abbrev main_v128 : Ref sig .tc := ⟨.hbm, 236, rfl⟩
abbrev main_v129 : Ref sig .tc := ⟨.hbm, 237, rfl⟩
abbrev main_v130 : Ref sig .tc := ⟨.hbm, 238, rfl⟩
abbrev main_cst_69 : Ref sig .tc := ⟨.hbm, 239, rfl⟩
abbrev main_v131 : Ref sig .tc := ⟨.hbm, 240, rfl⟩
abbrev main_c_70 : Ref sig .tc := ⟨.hbm, 241, rfl⟩
abbrev main_v132 : Ref sig .tc := ⟨.hbm, 242, rfl⟩
abbrev main_c_71 : Ref sig .tc := ⟨.hbm, 243, rfl⟩
abbrev main_v133 : Ref sig .tc := ⟨.hbm, 244, rfl⟩
abbrev main_v134 : Ref sig .tc := ⟨.hbm, 245, rfl⟩
abbrev main_v135 : Ref sig .tc := ⟨.hbm, 246, rfl⟩
abbrev main_c_72 : Ref sig .tc := ⟨.hbm, 247, rfl⟩
abbrev main_v136 : Ref sig .tc := ⟨.hbm, 248, rfl⟩
abbrev main_c_73 : Ref sig .tc := ⟨.hbm, 249, rfl⟩
abbrev main_v137 : Ref sig .tc := ⟨.hbm, 250, rfl⟩
abbrev main_v138 : Ref sig .tc := ⟨.hbm, 251, rfl⟩
abbrev main_v139 : Ref sig .tc := ⟨.hbm, 252, rfl⟩
abbrev main_v140 : Ref sig .tc := ⟨.hbm, 253, rfl⟩
abbrev main_v141 : Ref sig .tc := ⟨.hbm, 254, rfl⟩
abbrev main_v142 : Ref sig .tc := ⟨.hbm, 255, rfl⟩
abbrev main_v143 : Ref sig .tc := ⟨.hbm, 256, rfl⟩
abbrev main_v144 : Ref sig .tc := ⟨.hbm, 257, rfl⟩
abbrev main_v145 : Ref sig .tc := ⟨.hbm, 258, rfl⟩
abbrev main_v146 : Ref sig .tc := ⟨.hbm, 259, rfl⟩
abbrev main_v147 : Ref sig .tc := ⟨.hbm, 260, rfl⟩
abbrev main_v148 : Ref sig .tc := ⟨.hbm, 261, rfl⟩
abbrev main_v149 : Ref sig .tc := ⟨.hbm, 262, rfl⟩
abbrev main_v150 : Ref sig .tc := ⟨.hbm, 263, rfl⟩
abbrev main_v151 : Ref sig .tc := ⟨.hbm, 264, rfl⟩
abbrev main_v152 : Ref sig .tc := ⟨.hbm, 265, rfl⟩
abbrev main_v153 : Ref sig .tc := ⟨.hbm, 266, rfl⟩
abbrev main_v154 : Ref sig .tc := ⟨.hbm, 267, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S16x256x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S16x2x256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S16x129x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S3552x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S16x129x4 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

class Facts₀ : Prop where
  bcast_S_S512x512 : S_.BroadcastsInDim S512x512 (![] : Fin 0 → Fin S512x512.rank)
  bcast_S_S1 : S_.BroadcastsInDim S1 (![] : Fin 0 → Fin S1.rank)
  concatenates_S1_S1_S2_d0 : Shape.Concatenates [S1, S1] S2 0
  concatenates_S256_S256_S512_d0 : Shape.Concatenates [S256, S256] S512 0
  bcast_S_S512x256 : S_.BroadcastsInDim S512x256 (![] : Fin 0 → Fin S512x256.rank)
  concatenates_S128_S128_S256_d0 : Shape.Concatenates [S128, S128] S256 0
  bcast_S_S256x512 : S_.BroadcastsInDim S256x512 (![] : Fin 0 → Fin S256x512.rank)
  bcast_S_S520x512 : S_.BroadcastsInDim S520x512 (![] : Fin 0 → Fin S520x512.rank)
  bcast_S_S264x512 : S_.BroadcastsInDim S264x512 (![] : Fin 0 → Fin S264x512.rank)
  bcast_S_S136x512 : S_.BroadcastsInDim S136x512 (![] : Fin 0 → Fin S136x512.rank)
  concatenates_S520x512_S520x512_S264x512_S520x512_S264x512_S264x512_S136x512_S264x512_S136x512_S264x512_S136x512_S264x512_S3552x512_d0 : Shape.Concatenates [S520x512, S520x512, S264x512, S520x512, S264x512, S264x512, S136x512, S264x512, S136x512, S264x512, S136x512, S264x512] S3552x512 0
  concatenates_S16x256x256_S16x256x256_S16x256x512_d2 : Shape.Concatenates [S16x256x256, S16x256x256] S16x256x512 2
  bcast_S16x256x256_S16x1x256x256_0_2_3 : S16x256x256.BroadcastsInDim S16x1x256x256 (![0, 2, 3] : Fin 3 → Fin S16x1x256x256.rank)
  concatenates_S16x1x256x256_S16x1x256x256_S16x2x256x256_d1 : Shape.Concatenates [S16x1x256x256, S16x1x256x256] S16x2x256x256 1
  shapeCasts_S16x129_S16x129x1 : S16x129.ShapeCasts S16x129x1
  inb_S16x256x512_S16x256x512_0_0_0 : ∀ a, (![0, 0, 0] : Fin 3 → Nat) a + S16x256x512.size a ≤ S16x256x512.size a
  h_S16x256x512 : 0 < S16x256x512.numel
  shapeCasts_S16x256x512_S16x256x512 : S16x256x512.ShapeCasts S16x256x512
  shapeCasts_S16x256x512_S4096x512 : S16x256x512.ShapeCasts S4096x512
  inb_S3552x512_S512x512_0_0 : ∀ a, (![0, 0] : Fin 2 → Nat) a + S512x512.size a ≤ S3552x512.size a
  h_S512x512 : 0 < S512x512.numel
  shapeCasts_S512x512_S512x512 : S512x512.ShapeCasts S512x512
  inb_S3552x512_S1x512_512_0 : ∀ a, (![512, 0] : Fin 2 → Nat) a + S1x512.size a ≤ S3552x512.size a
  h_S1x512 : 0 < S1x512.numel
  shapeCasts_S1x512_S1x512 : S1x512.ShapeCasts S1x512
  broadcasts_S1x512_S4096x512 : S1x512.Broadcasts S4096x512
  inb_S3552x512_S512x256_520_0 : ∀ a, (![520, 0] : Fin 2 → Nat) a + S512x256.size a ≤ S3552x512.size a
  h_S512x256 : 0 < S512x256.numel
  shapeCasts_S512x256_S512x256 : S512x256.ShapeCasts S512x256
  inb_S3552x512_S1x256_1032_0 : ∀ a, (![1032, 0] : Fin 2 → Nat) a + S1x256.size a ≤ S3552x512.size a
  h_S1x256 : 0 < S1x256.numel
  shapeCasts_S1x256_S1x256 : S1x256.ShapeCasts S1x256
  broadcasts_S1x256_S4096x256 : S1x256.Broadcasts S4096x256
  inb_S16x2x256x256_S16x2x256x256_0_0_0_0 : ∀ a, (![0, 0, 0, 0] : Fin 4 → Nat) a + S16x2x256x256.size a ≤ S16x2x256x256.size a
  h_S16x2x256x256 : 0 < S16x2x256x256.numel
  shapeCasts_S16x2x256x256_S16x2x256x256 : S16x2x256x256.ShapeCasts S16x2x256x256
  inb_S3552x512_S256x512_1040_0 : ∀ a, (![1040, 0] : Fin 2 → Nat) a + S256x512.size a ≤ S3552x512.size a
  h_S256x512 : 0 < S256x512.numel
  shapeCasts_S256x512_S256x512 : S256x512.ShapeCasts S256x512
  inb_S3552x512_S1x512_1296_0 : ∀ a, (![1296, 0] : Fin 2 → Nat) a + S1x512.size a ≤ S3552x512.size a
  inb_S3552x512_S512x256_1304_0 : ∀ a, (![1304, 0] : Fin 2 → Nat) a + S512x256.size a ≤ S3552x512.size a
  inb_S3552x512_S1x256_1816_0 : ∀ a, (![1816, 0] : Fin 2 → Nat) a + S1x256.size a ≤ S3552x512.size a
  shapeCasts_S4096x256_S16x256x256 : S4096x256.ShapeCasts S16x256x256
  slices_S16x2x256x256_o0_0_0_0_S16x1x256x256 : S16x2x256x256.Slices ![0, 0, 0, 0] S16x1x256x256
  shapeCasts_S16x1x256x256_S16x256x256 : S16x1x256x256.ShapeCasts S16x256x256
  slices_S16x256x256_o0_0_0_S16x256x128 : S16x256x256.Slices ![0, 0, 0] S16x256x128
  slices_S16x2x256x256_o0_1_0_0_S16x1x256x256 : S16x2x256x256.Slices ![0, 1, 0, 0] S16x1x256x256
  slices_S16x256x256_o0_0_128_S16x256x128 : S16x256x256.Slices ![0, 0, 128] S16x256x128
  concatenates_S16x256x128_S16x256x128_S16x256x256_d2 : Shape.Concatenates [S16x256x128, S16x256x128] S16x256x256 2
  shapeCasts_S16x256x256_S4096x256 : S16x256x256.ShapeCasts S4096x256
  inb_S3552x512_S256x256_1824_0 : ∀ a, (![1824, 0] : Fin 2 → Nat) a + S256x256.size a ≤ S3552x512.size a
  h_S256x256 : 0 < S256x256.numel
  shapeCasts_S256x256_S256x256 : S256x256.ShapeCasts S256x256
  inb_S3552x512_S1x256_2080_0 : ∀ a, (![2080, 0] : Fin 2 → Nat) a + S1x256.size a ≤ S3552x512.size a
  inb_S3552x512_S256x128_2088_0 : ∀ a, (![2088, 0] : Fin 2 → Nat) a + S256x128.size a ≤ S3552x512.size a
  h_S256x128 : 0 < S256x128.numel
  shapeCasts_S256x128_S256x128 : S256x128.ShapeCasts S256x128
  inb_S3552x512_S1x128_2344_0 : ∀ a, (![2344, 0] : Fin 2 → Nat) a + S1x128.size a ≤ S3552x512.size a
  h_S1x128 : 0 < S1x128.numel
  shapeCasts_S1x128_S1x128 : S1x128.ShapeCasts S1x128
  broadcasts_S1x128_S4096x128 : S1x128.Broadcasts S4096x128
  slices_S4096x128_o0_0_S128x128 : S4096x128.Slices ![0, 0] S128x128
  slices_S4096x128_o256_0_S128x128 : S4096x128.Slices ![256, 0] S128x128
  slices_S4096x128_o512_0_S128x128 : S4096x128.Slices ![512, 0] S128x128
  slices_S4096x128_o768_0_S128x128 : S4096x128.Slices ![768, 0] S128x128
  slices_S4096x128_o1024_0_S128x128 : S4096x128.Slices ![1024, 0] S128x128
  slices_S4096x128_o1280_0_S128x128 : S4096x128.Slices ![1280, 0] S128x128
  slices_S4096x128_o1536_0_S128x128 : S4096x128.Slices ![1536, 0] S128x128
  slices_S4096x128_o1792_0_S128x128 : S4096x128.Slices ![1792, 0] S128x128
  slices_S4096x128_o2048_0_S128x128 : S4096x128.Slices ![2048, 0] S128x128
  slices_S4096x128_o2304_0_S128x128 : S4096x128.Slices ![2304, 0] S128x128
  slices_S4096x128_o2560_0_S128x128 : S4096x128.Slices ![2560, 0] S128x128
  slices_S4096x128_o2816_0_S128x128 : S4096x128.Slices ![2816, 0] S128x128
  slices_S4096x128_o3072_0_S128x128 : S4096x128.Slices ![3072, 0] S128x128
  slices_S4096x128_o3328_0_S128x128 : S4096x128.Slices ![3328, 0] S128x128
  slices_S4096x128_o3584_0_S128x128 : S4096x128.Slices ![3584, 0] S128x128
  slices_S4096x128_o3840_0_S128x128 : S4096x128.Slices ![3840, 0] S128x128
  concatenates_S128x128_S128x128_S128x128_S128x128_S128x128_S128x128_S128x128_S128x128_S128x128_S128x128_S128x128_S128x128_S128x128_S128x128_S128x128_S128x128_S2048x128_d0 : Shape.Concatenates [S128x128, S128x128, S128x128, S128x128, S128x128, S128x128, S128x128, S128x128, S128x128, S128x128, S128x128, S128x128, S128x128, S128x128, S128x128, S128x128] S2048x128 0
  inb_S3552x512_S128x256_2352_0 : ∀ a, (![2352, 0] : Fin 2 → Nat) a + S128x256.size a ≤ S3552x512.size a
  h_S128x256 : 0 < S128x256.numel
  shapeCasts_S128x256_S128x256 : S128x256.ShapeCasts S128x256
  inb_S3552x512_S1x256_2480_0 : ∀ a, (![2480, 0] : Fin 2 → Nat) a + S1x256.size a ≤ S3552x512.size a
  broadcasts_S1x256_S2048x256 : S1x256.Broadcasts S2048x256
  inb_S3552x512_S256x128_2488_0 : ∀ a, (![2488, 0] : Fin 2 → Nat) a + S256x128.size a ≤ S3552x512.size a
  inb_S3552x512_S1x128_2744_0 : ∀ a, (![2744, 0] : Fin 2 → Nat) a + S1x128.size a ≤ S3552x512.size a
  broadcasts_S1x128_S2048x128 : S1x128.Broadcasts S2048x128
  inb_S3552x512_S128x256_2752_0 : ∀ a, (![2752, 0] : Fin 2 → Nat) a + S128x256.size a ≤ S3552x512.size a
  inb_S3552x512_S1x256_2880_0 : ∀ a, (![2880, 0] : Fin 2 → Nat) a + S1x256.size a ≤ S3552x512.size a
  inb_S3552x512_S256x1_2888_0 : ∀ a, (![2888, 0] : Fin 2 → Nat) a + S256x1.size a ≤ S3552x512.size a
  h_S256x1 : 0 < S256x1.numel
  shapeCasts_S256x1_S256x1 : S256x1.ShapeCasts S256x1
  inb_S3552x512_S1x1_3144_0 : ∀ a, (![3144, 0] : Fin 2 → Nat) a + S1x1.size a ≤ S3552x512.size a
  h_S1x1 : 0 < S1x1.numel
  shapeCasts_S1x1_S1x1 : S1x1.ShapeCasts S1x1
  broadcasts_S1x1_S2048x1 : S1x1.Broadcasts S2048x1
  slices_S2048x128_o0_0_S128x128 : S2048x128.Slices ![0, 0] S128x128
  slices_S2048x1_o0_0_S128x1 : S2048x1.Slices ![0, 0] S128x1
  reduces_S128x128_S128 : S128x128.Reduces [0] S128
  shapeCasts_S128_S1x128 : S128.ShapeCasts S1x128
  inb_S3552x512_S128x256_3152_0 : ∀ a, (![3152, 0] : Fin 2 → Nat) a + S128x256.size a ≤ S3552x512.size a
  inb_S3552x512_S1x256_3280_0 : ∀ a, (![3280, 0] : Fin 2 → Nat) a + S1x256.size a ≤ S3552x512.size a
  inb_S3552x512_S256x1_3288_0 : ∀ a, (![3288, 0] : Fin 2 → Nat) a + S256x1.size a ≤ S3552x512.size a
  inb_S3552x512_S1x1_3544_0 : ∀ a, (![3544, 0] : Fin 2 → Nat) a + S1x1.size a ≤ S3552x512.size a
  concatenates_S128x1_S1x1_S129x1_d0 : Shape.Concatenates [S128x1, S1x1] S129x1 0
  reduces_S129x1_S1 : S129x1.Reduces [0] S1
  shapeCasts_S1_S1x1 : S1.ShapeCasts S1x1
  broadcasts_S1x1_S129x1 : S1x1.Broadcasts S129x1
  inb_S16x129x1_S1x129x1_0_0_0 : ∀ a, (![0, 0, 0] : Fin 3 → Nat) a + S1x129x1.size a ≤ S16x129x1.size a
  h_S1x129x1 : 0 < S1x129x1.numel
  shapeCasts_S1x129x1_S129x1 : S1x129x1.ShapeCasts S129x1
  concatenates_S129x1_S129x1_S129x1_S129x1_S129x4_d1 : Shape.Concatenates [S129x1, S129x1, S129x1, S129x1] S129x4 1
  inb_S16x129x4_S1x129x4_0_0_0 : ∀ a, (![0, 0, 0] : Fin 3 → Nat) a + S1x129x4.size a ≤ S16x129x4.size a
  h_S1x129x4 : 0 < S1x129x4.numel
  shapeCasts_S1x129x4_S129x4 : S1x129x4.ShapeCasts S129x4
  shapeCasts_S129x4_S1x129x4 : S129x4.ShapeCasts S1x129x4
  slices_S2048x128_o128_0_S128x128 : S2048x128.Slices ![128, 0] S128x128
  slices_S2048x1_o128_0_S128x1 : S2048x1.Slices ![128, 0] S128x1
  inb_S16x129x1_S1x129x1_1_0_0 : ∀ a, (![1, 0, 0] : Fin 3 → Nat) a + S1x129x1.size a ≤ S16x129x1.size a
  inb_S16x129x4_S1x129x4_1_0_0 : ∀ a, (![1, 0, 0] : Fin 3 → Nat) a + S1x129x4.size a ≤ S16x129x4.size a
  slices_S2048x128_o256_0_S128x128 : S2048x128.Slices ![256, 0] S128x128
  slices_S2048x1_o256_0_S128x1 : S2048x1.Slices ![256, 0] S128x1
  inb_S16x129x1_S1x129x1_2_0_0 : ∀ a, (![2, 0, 0] : Fin 3 → Nat) a + S1x129x1.size a ≤ S16x129x1.size a
  inb_S16x129x4_S1x129x4_2_0_0 : ∀ a, (![2, 0, 0] : Fin 3 → Nat) a + S1x129x4.size a ≤ S16x129x4.size a
  slices_S2048x128_o384_0_S128x128 : S2048x128.Slices ![384, 0] S128x128
  slices_S2048x1_o384_0_S128x1 : S2048x1.Slices ![384, 0] S128x1
  inb_S16x129x1_S1x129x1_3_0_0 : ∀ a, (![3, 0, 0] : Fin 3 → Nat) a + S1x129x1.size a ≤ S16x129x1.size a
  inb_S16x129x4_S1x129x4_3_0_0 : ∀ a, (![3, 0, 0] : Fin 3 → Nat) a + S1x129x4.size a ≤ S16x129x4.size a
  slices_S2048x128_o512_0_S128x128 : S2048x128.Slices ![512, 0] S128x128
  slices_S2048x1_o512_0_S128x1 : S2048x1.Slices ![512, 0] S128x1
  inb_S16x129x1_S1x129x1_4_0_0 : ∀ a, (![4, 0, 0] : Fin 3 → Nat) a + S1x129x1.size a ≤ S16x129x1.size a
  inb_S16x129x4_S1x129x4_4_0_0 : ∀ a, (![4, 0, 0] : Fin 3 → Nat) a + S1x129x4.size a ≤ S16x129x4.size a
  slices_S2048x128_o640_0_S128x128 : S2048x128.Slices ![640, 0] S128x128
  slices_S2048x1_o640_0_S128x1 : S2048x1.Slices ![640, 0] S128x1
  inb_S16x129x1_S1x129x1_5_0_0 : ∀ a, (![5, 0, 0] : Fin 3 → Nat) a + S1x129x1.size a ≤ S16x129x1.size a
  inb_S16x129x4_S1x129x4_5_0_0 : ∀ a, (![5, 0, 0] : Fin 3 → Nat) a + S1x129x4.size a ≤ S16x129x4.size a
  slices_S2048x128_o768_0_S128x128 : S2048x128.Slices ![768, 0] S128x128
  slices_S2048x1_o768_0_S128x1 : S2048x1.Slices ![768, 0] S128x1
  inb_S16x129x1_S1x129x1_6_0_0 : ∀ a, (![6, 0, 0] : Fin 3 → Nat) a + S1x129x1.size a ≤ S16x129x1.size a
  inb_S16x129x4_S1x129x4_6_0_0 : ∀ a, (![6, 0, 0] : Fin 3 → Nat) a + S1x129x4.size a ≤ S16x129x4.size a
  slices_S2048x128_o896_0_S128x128 : S2048x128.Slices ![896, 0] S128x128
  slices_S2048x1_o896_0_S128x1 : S2048x1.Slices ![896, 0] S128x1
  inb_S16x129x1_S1x129x1_7_0_0 : ∀ a, (![7, 0, 0] : Fin 3 → Nat) a + S1x129x1.size a ≤ S16x129x1.size a
  inb_S16x129x4_S1x129x4_7_0_0 : ∀ a, (![7, 0, 0] : Fin 3 → Nat) a + S1x129x4.size a ≤ S16x129x4.size a
  slices_S2048x128_o1024_0_S128x128 : S2048x128.Slices ![1024, 0] S128x128
  slices_S2048x1_o1024_0_S128x1 : S2048x1.Slices ![1024, 0] S128x1
  inb_S16x129x1_S1x129x1_8_0_0 : ∀ a, (![8, 0, 0] : Fin 3 → Nat) a + S1x129x1.size a ≤ S16x129x1.size a
  inb_S16x129x4_S1x129x4_8_0_0 : ∀ a, (![8, 0, 0] : Fin 3 → Nat) a + S1x129x4.size a ≤ S16x129x4.size a
  slices_S2048x128_o1152_0_S128x128 : S2048x128.Slices ![1152, 0] S128x128
  slices_S2048x1_o1152_0_S128x1 : S2048x1.Slices ![1152, 0] S128x1
  inb_S16x129x1_S1x129x1_9_0_0 : ∀ a, (![9, 0, 0] : Fin 3 → Nat) a + S1x129x1.size a ≤ S16x129x1.size a
  inb_S16x129x4_S1x129x4_9_0_0 : ∀ a, (![9, 0, 0] : Fin 3 → Nat) a + S1x129x4.size a ≤ S16x129x4.size a
  slices_S2048x128_o1280_0_S128x128 : S2048x128.Slices ![1280, 0] S128x128
  slices_S2048x1_o1280_0_S128x1 : S2048x1.Slices ![1280, 0] S128x1
  inb_S16x129x1_S1x129x1_10_0_0 : ∀ a, (![10, 0, 0] : Fin 3 → Nat) a + S1x129x1.size a ≤ S16x129x1.size a
  inb_S16x129x4_S1x129x4_10_0_0 : ∀ a, (![10, 0, 0] : Fin 3 → Nat) a + S1x129x4.size a ≤ S16x129x4.size a
  slices_S2048x128_o1408_0_S128x128 : S2048x128.Slices ![1408, 0] S128x128
  slices_S2048x1_o1408_0_S128x1 : S2048x1.Slices ![1408, 0] S128x1
  inb_S16x129x1_S1x129x1_11_0_0 : ∀ a, (![11, 0, 0] : Fin 3 → Nat) a + S1x129x1.size a ≤ S16x129x1.size a
  inb_S16x129x4_S1x129x4_11_0_0 : ∀ a, (![11, 0, 0] : Fin 3 → Nat) a + S1x129x4.size a ≤ S16x129x4.size a
  slices_S2048x128_o1536_0_S128x128 : S2048x128.Slices ![1536, 0] S128x128
  slices_S2048x1_o1536_0_S128x1 : S2048x1.Slices ![1536, 0] S128x1
  inb_S16x129x1_S1x129x1_12_0_0 : ∀ a, (![12, 0, 0] : Fin 3 → Nat) a + S1x129x1.size a ≤ S16x129x1.size a
  inb_S16x129x4_S1x129x4_12_0_0 : ∀ a, (![12, 0, 0] : Fin 3 → Nat) a + S1x129x4.size a ≤ S16x129x4.size a
  slices_S2048x128_o1664_0_S128x128 : S2048x128.Slices ![1664, 0] S128x128
  slices_S2048x1_o1664_0_S128x1 : S2048x1.Slices ![1664, 0] S128x1
  inb_S16x129x1_S1x129x1_13_0_0 : ∀ a, (![13, 0, 0] : Fin 3 → Nat) a + S1x129x1.size a ≤ S16x129x1.size a
  inb_S16x129x4_S1x129x4_13_0_0 : ∀ a, (![13, 0, 0] : Fin 3 → Nat) a + S1x129x4.size a ≤ S16x129x4.size a
  slices_S2048x128_o1792_0_S128x128 : S2048x128.Slices ![1792, 0] S128x128
  slices_S2048x1_o1792_0_S128x1 : S2048x1.Slices ![1792, 0] S128x1
  inb_S16x129x1_S1x129x1_14_0_0 : ∀ a, (![14, 0, 0] : Fin 3 → Nat) a + S1x129x1.size a ≤ S16x129x1.size a
  inb_S16x129x4_S1x129x4_14_0_0 : ∀ a, (![14, 0, 0] : Fin 3 → Nat) a + S1x129x4.size a ≤ S16x129x4.size a
  slices_S2048x128_o1920_0_S128x128 : S2048x128.Slices ![1920, 0] S128x128
  slices_S2048x1_o1920_0_S128x1 : S2048x1.Slices ![1920, 0] S128x1
  inb_S16x129x1_S1x129x1_15_0_0 : ∀ a, (![15, 0, 0] : Fin 3 → Nat) a + S1x129x1.size a ≤ S16x129x1.size a
  inb_S16x129x4_S1x129x4_15_0_0 : ∀ a, (![15, 0, 0] : Fin 3 → Nat) a + S1x129x4.size a ≤ S16x129x4.size a
  slices_S16x129x4_S16x129x1_0_0_0 : S16x129x4.Slices ![0, 0, 0] S16x129x1
  shapeCasts_S16x129x1_S16x129 : S16x129x1.ShapeCasts S16x129
  slices_S16x129x4_S16x129x1_0_0_1 : S16x129x4.Slices ![0, 0, 1] S16x129x1
  slices_S16x129x4_S16x129x1_0_0_2 : S16x129x4.Slices ![0, 0, 2] S16x129x1
  slices_S16x129x4_S16x129x1_0_0_3 : S16x129x4.Slices ![0, 0, 3] S16x129x1
  scatter_S512x512_S2_S256x256_01_n_01_0_wf : ScatterDims.WF S512x512 S2 S256x256 [0, 1] [] [0, 1] 0
  scatter_S512x256_S2_S256x128_01_n_01_0_wf : ScatterDims.WF S512x256 S2 S256x128 [0, 1] [] [0, 1] 0
  scatter_S256x512_S2_S128x256_01_n_01_0_wf : ScatterDims.WF S256x512 S2 S128x256 [0, 1] [] [0, 1] 0
  scatter_S520x512_S1_S512x512_01_n_0_0_wf : ScatterDims.WF S520x512 S1 S512x512 [0, 1] [] [0] 0
  scatter_S520x512_S1_S512_0_0_0_0_wf : ScatterDims.WF S520x512 S1 S512 [0] [0] [0] 0
  scatter_S520x512_S2_S512x256_01_n_01_0_wf : ScatterDims.WF S520x512 S2 S512x256 [0, 1] [] [0, 1] 0
  scatter_S520x512_S2_S256_0_0_01_0_wf : ScatterDims.WF S520x512 S2 S256 [0] [0] [0, 1] 0
  scatter_S264x512_S1_S256x512_01_n_0_0_wf : ScatterDims.WF S264x512 S1 S256x512 [0, 1] [] [0] 0
  scatter_S264x512_S1_S512_0_0_0_0_wf : ScatterDims.WF S264x512 S1 S512 [0] [0] [0] 0
  scatter_S264x512_S2_S256x256_01_n_01_0_wf : ScatterDims.WF S264x512 S2 S256x256 [0, 1] [] [0, 1] 0
  scatter_S264x512_S2_S256_0_0_01_0_wf : ScatterDims.WF S264x512 S2 S256 [0] [0] [0, 1] 0
  scatter_S264x512_S2_S256x128_01_n_01_0_wf : ScatterDims.WF S264x512 S2 S256x128 [0, 1] [] [0, 1] 0
  scatter_S264x512_S2_S128_0_0_01_0_wf : ScatterDims.WF S264x512 S2 S128 [0] [0] [0, 1] 0
  scatter_S136x512_S2_S128x256_01_n_01_0_wf : ScatterDims.WF S136x512 S2 S128x256 [0, 1] [] [0, 1] 0
  scatter_S136x512_S2_S256_0_0_01_0_wf : ScatterDims.WF S136x512 S2 S256 [0] [0] [0, 1] 0
  scatter_S264x512_S2_S256x1_01_n_01_0_wf : ScatterDims.WF S264x512 S2 S256x1 [0, 1] [] [0, 1] 0
  scatter_S264x512_S2_S1_0_0_01_0_wf : ScatterDims.WF S264x512 S2 S1 [0] [0] [0, 1] 0
  dot_S4096x512_S512x512_S4096x512_1_0_0_1_n_n_wf : DotDims.WF S4096x512 S512x512 S4096x512 [1] [0] [0] [1] [] []
  dot_S4096x512_S512x256_S4096x256_1_0_0_1_n_n_wf : DotDims.WF S4096x512 S512x256 S4096x256 [1] [0] [0] [1] [] []
  dot_S4096x256_S256x512_S4096x512_1_0_0_1_n_n_wf : DotDims.WF S4096x256 S256x512 S4096x512 [1] [0] [0] [1] [] []
  dot_S16x256x256_S16x256x128_S16x256x128_2_1_1_2_0_0_wf : DotDims.WF S16x256x256 S16x256x128 S16x256x128 [2] [1] [1] [2] [0] [0]
  dot_S4096x256_S256x256_S4096x256_1_0_0_1_n_n_wf : DotDims.WF S4096x256 S256x256 S4096x256 [1] [0] [0] [1] [] []
  dot_S4096x256_S256x128_S4096x128_1_0_0_1_n_n_wf : DotDims.WF S4096x256 S256x128 S4096x128 [1] [0] [0] [1] [] []
  dot_S2048x128_S128x256_S2048x256_1_0_0_1_n_n_wf : DotDims.WF S2048x128 S128x256 S2048x256 [1] [0] [0] [1] [] []
  dot_S2048x256_S256x128_S2048x128_1_0_0_1_n_n_wf : DotDims.WF S2048x256 S256x128 S2048x128 [1] [0] [0] [1] [] []
  dot_S2048x256_S256x1_S2048x1_1_0_0_1_n_n_wf : DotDims.WF S2048x256 S256x1 S2048x1 [1] [0] [0] [1] [] []
  dot_S1x128_S128x256_S1x256_1_0_0_1_n_n_wf : DotDims.WF S1x128 S128x256 S1x256 [1] [0] [0] [1] [] []
  dot_S1x256_S256x1_S1x1_1_0_0_1_n_n_wf : DotDims.WF S1x256 S256x1 S1x1 [1] [0] [0] [1] [] []
  hrank0 : 0 < grid0.rank
  hstage0_0 : ∀ j, (stage0_0 j).IsWhole
  nbuf0_0 : grid0.bufCount reads0_0 false = 1
  hreads0_0 : ∀ i i' : grid0.Coords, (∀ a, reads0_0 a = true → i a = i' a) → cc0_transform_0 i = cc0_transform_0 i'
  hinb0_0 : ∀ (i : grid0.Coords) a, (cc0_transform_0 i a + 1) * S16x256x512.size a ≤ S16x256x512.size a
  hwx0_0 : ∀ i : grid0.Coords, EltTy.bits .f32 = 32 ∨ (Rect.block (s := S16x256x512) S16x256x512.size (cc0_transform_0 i) (hinb0_0 i)).WholeWords (EltTy.packing .f32)
  hstage0_1 : ∀ j, (stage0_1 j).IsWhole
  nbuf0_1 : grid0.bufCount reads0_1 false = 1
  hreads0_1 : ∀ i i' : grid0.Coords, (∀ a, reads0_1 a = true → i a = i' a) → cc0_transform_1 i = cc0_transform_1 i'
  hinb0_1 : ∀ (i : grid0.Coords) a, (cc0_transform_1 i a + 1) * S16x2x256x256.size a ≤ S16x2x256x256.size a
  hwx0_1 : ∀ i : grid0.Coords, EltTy.bits .f32 = 32 ∨ (Rect.block (s := S16x2x256x256) S16x2x256x256.size (cc0_transform_1 i) (hinb0_1 i)).WholeWords (EltTy.packing .f32)
  hstage0_2 : ∀ j, (stage0_2 j).IsWhole
  nbuf0_2 : grid0.bufCount reads0_2 false = 1
  hreads0_2 : ∀ i i' : grid0.Coords, (∀ a, reads0_2 a = true → i a = i' a) → cc0_transform_2 i = cc0_transform_2 i'
  hinb0_2 : ∀ (i : grid0.Coords) a, (cc0_transform_2 i a + 1) * S16x129x1.size a ≤ S16x129x1.size a
  hwx0_2 : ∀ i : grid0.Coords, EltTy.bits .f32 = 32 ∨ (Rect.block (s := S16x129x1) S16x129x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S3552x512.size a ≤ S3552x512.size a
  hwx0_3 : ∀ i : grid0.Coords, EltTy.bits .f32 = 32 ∨ (Rect.block (s := S3552x512) S3552x512.size (cc0_transform_3 i) (hinb0_3 i)).WholeWords (EltTy.packing .f32)
  hstage0_4 : ∀ j, (stage0_4 j).IsWhole
  nbuf0_4 : grid0.bufCount reads0_4 false = 1
  hreads0_4 : ∀ i i' : grid0.Coords, (∀ a, reads0_4 a = true → i a = i' a) → cc0_transform_4 i = cc0_transform_4 i'
  hinb0_4 : ∀ (i : grid0.Coords) a, (cc0_transform_4 i a + 1) * S16x129x4.size a ≤ S16x129x4.size a
  hwx0_4 : ∀ i : grid0.Coords, EltTy.bits .f32 = 32 ∨ (Rect.block (s := S16x129x4) S16x129x4.size (cc0_transform_4 i) (hinb0_4 i)).WholeWords (EltTy.packing .f32)

variable [Facts₀]

def scatter_S512x512_S2_S256x256_01_n_01_0 : ScatterDims S512x512 S2 S256x256 where
  updateWindowDims := [0, 1]
  insertedWindowDims := []
  scatterDimsToOperandDims := [0, 1]
  indexVectorDim := 0
  wf := scatter_S512x512_S2_S256x256_01_n_01_0_wf
def scatter_S512x256_S2_S256x128_01_n_01_0 : ScatterDims S512x256 S2 S256x128 where
  updateWindowDims := [0, 1]
  insertedWindowDims := []
  scatterDimsToOperandDims := [0, 1]
  indexVectorDim := 0
  wf := scatter_S512x256_S2_S256x128_01_n_01_0_wf
def scatter_S256x512_S2_S128x256_01_n_01_0 : ScatterDims S256x512 S2 S128x256 where
  updateWindowDims := [0, 1]
  insertedWindowDims := []
  scatterDimsToOperandDims := [0, 1]
  indexVectorDim := 0
  wf := scatter_S256x512_S2_S128x256_01_n_01_0_wf
def scatter_S520x512_S1_S512x512_01_n_0_0 : ScatterDims S520x512 S1 S512x512 where
  updateWindowDims := [0, 1]
  insertedWindowDims := []
  scatterDimsToOperandDims := [0]
  indexVectorDim := 0
  wf := scatter_S520x512_S1_S512x512_01_n_0_0_wf
def scatter_S520x512_S1_S512_0_0_0_0 : ScatterDims S520x512 S1 S512 where
  updateWindowDims := [0]
  insertedWindowDims := [0]
  scatterDimsToOperandDims := [0]
  indexVectorDim := 0
  wf := scatter_S520x512_S1_S512_0_0_0_0_wf
def scatter_S520x512_S2_S512x256_01_n_01_0 : ScatterDims S520x512 S2 S512x256 where
  updateWindowDims := [0, 1]
  insertedWindowDims := []
  scatterDimsToOperandDims := [0, 1]
  indexVectorDim := 0
  wf := scatter_S520x512_S2_S512x256_01_n_01_0_wf
def scatter_S520x512_S2_S256_0_0_01_0 : ScatterDims S520x512 S2 S256 where
  updateWindowDims := [0]
  insertedWindowDims := [0]
  scatterDimsToOperandDims := [0, 1]
  indexVectorDim := 0
  wf := scatter_S520x512_S2_S256_0_0_01_0_wf
def scatter_S264x512_S1_S256x512_01_n_0_0 : ScatterDims S264x512 S1 S256x512 where
  updateWindowDims := [0, 1]
  insertedWindowDims := []
  scatterDimsToOperandDims := [0]
  indexVectorDim := 0
  wf := scatter_S264x512_S1_S256x512_01_n_0_0_wf
def scatter_S264x512_S1_S512_0_0_0_0 : ScatterDims S264x512 S1 S512 where
  updateWindowDims := [0]
  insertedWindowDims := [0]
  scatterDimsToOperandDims := [0]
  indexVectorDim := 0
  wf := scatter_S264x512_S1_S512_0_0_0_0_wf
def scatter_S264x512_S2_S256x256_01_n_01_0 : ScatterDims S264x512 S2 S256x256 where
  updateWindowDims := [0, 1]
  insertedWindowDims := []
  scatterDimsToOperandDims := [0, 1]
  indexVectorDim := 0
  wf := scatter_S264x512_S2_S256x256_01_n_01_0_wf
def scatter_S264x512_S2_S256_0_0_01_0 : ScatterDims S264x512 S2 S256 where
  updateWindowDims := [0]
  insertedWindowDims := [0]
  scatterDimsToOperandDims := [0, 1]
  indexVectorDim := 0
  wf := scatter_S264x512_S2_S256_0_0_01_0_wf
def scatter_S264x512_S2_S256x128_01_n_01_0 : ScatterDims S264x512 S2 S256x128 where
  updateWindowDims := [0, 1]
  insertedWindowDims := []
  scatterDimsToOperandDims := [0, 1]
  indexVectorDim := 0
  wf := scatter_S264x512_S2_S256x128_01_n_01_0_wf
def scatter_S264x512_S2_S128_0_0_01_0 : ScatterDims S264x512 S2 S128 where
  updateWindowDims := [0]
  insertedWindowDims := [0]
  scatterDimsToOperandDims := [0, 1]
  indexVectorDim := 0
  wf := scatter_S264x512_S2_S128_0_0_01_0_wf
def scatter_S136x512_S2_S128x256_01_n_01_0 : ScatterDims S136x512 S2 S128x256 where
  updateWindowDims := [0, 1]
  insertedWindowDims := []
  scatterDimsToOperandDims := [0, 1]
  indexVectorDim := 0
  wf := scatter_S136x512_S2_S128x256_01_n_01_0_wf
def scatter_S136x512_S2_S256_0_0_01_0 : ScatterDims S136x512 S2 S256 where
  updateWindowDims := [0]
  insertedWindowDims := [0]
  scatterDimsToOperandDims := [0, 1]
  indexVectorDim := 0
  wf := scatter_S136x512_S2_S256_0_0_01_0_wf
def scatter_S264x512_S2_S256x1_01_n_01_0 : ScatterDims S264x512 S2 S256x1 where
  updateWindowDims := [0, 1]
  insertedWindowDims := []
  scatterDimsToOperandDims := [0, 1]
  indexVectorDim := 0
  wf := scatter_S264x512_S2_S256x1_01_n_01_0_wf
def scatter_S264x512_S2_S1_0_0_01_0 : ScatterDims S264x512 S2 S1 where
  updateWindowDims := [0]
  insertedWindowDims := [0]
  scatterDimsToOperandDims := [0, 1]
  indexVectorDim := 0
  wf := scatter_S264x512_S2_S1_0_0_01_0_wf
def dot_S4096x512_S512x512_S4096x512_1_0_0_1_n_n : DotDims S4096x512 S512x512 S4096x512 where
  lhsContracting := [1]
  rhsContracting := [0]
  lhsNonContracting := [0]
  rhsNonContracting := [1]
  lhsBatch := []
  rhsBatch := []
  wf := dot_S4096x512_S512x512_S4096x512_1_0_0_1_n_n_wf
def dot_S4096x512_S512x256_S4096x256_1_0_0_1_n_n : DotDims S4096x512 S512x256 S4096x256 where
  lhsContracting := [1]
  rhsContracting := [0]
  lhsNonContracting := [0]
  rhsNonContracting := [1]
  lhsBatch := []
  rhsBatch := []
  wf := dot_S4096x512_S512x256_S4096x256_1_0_0_1_n_n_wf
def dot_S4096x256_S256x512_S4096x512_1_0_0_1_n_n : DotDims S4096x256 S256x512 S4096x512 where
  lhsContracting := [1]
  rhsContracting := [0]
  lhsNonContracting := [0]
  rhsNonContracting := [1]
  lhsBatch := []
  rhsBatch := []
  wf := dot_S4096x256_S256x512_S4096x512_1_0_0_1_n_n_wf
def dot_S16x256x256_S16x256x128_S16x256x128_2_1_1_2_0_0 : DotDims S16x256x256 S16x256x128 S16x256x128 where
  lhsContracting := [2]
  rhsContracting := [1]
  lhsNonContracting := [1]
  rhsNonContracting := [2]
  lhsBatch := [0]
  rhsBatch := [0]
  wf := dot_S16x256x256_S16x256x128_S16x256x128_2_1_1_2_0_0_wf
def dot_S4096x256_S256x256_S4096x256_1_0_0_1_n_n : DotDims S4096x256 S256x256 S4096x256 where
  lhsContracting := [1]
  rhsContracting := [0]
  lhsNonContracting := [0]
  rhsNonContracting := [1]
  lhsBatch := []
  rhsBatch := []
  wf := dot_S4096x256_S256x256_S4096x256_1_0_0_1_n_n_wf
def dot_S4096x256_S256x128_S4096x128_1_0_0_1_n_n : DotDims S4096x256 S256x128 S4096x128 where
  lhsContracting := [1]
  rhsContracting := [0]
  lhsNonContracting := [0]
  rhsNonContracting := [1]
  lhsBatch := []
  rhsBatch := []
  wf := dot_S4096x256_S256x128_S4096x128_1_0_0_1_n_n_wf
def dot_S2048x128_S128x256_S2048x256_1_0_0_1_n_n : DotDims S2048x128 S128x256 S2048x256 where
  lhsContracting := [1]
  rhsContracting := [0]
  lhsNonContracting := [0]
  rhsNonContracting := [1]
  lhsBatch := []
  rhsBatch := []
  wf := dot_S2048x128_S128x256_S2048x256_1_0_0_1_n_n_wf
def dot_S2048x256_S256x128_S2048x128_1_0_0_1_n_n : DotDims S2048x256 S256x128 S2048x128 where
  lhsContracting := [1]
  rhsContracting := [0]
  lhsNonContracting := [0]
  rhsNonContracting := [1]
  lhsBatch := []
  rhsBatch := []
  wf := dot_S2048x256_S256x128_S2048x128_1_0_0_1_n_n_wf
def dot_S2048x256_S256x1_S2048x1_1_0_0_1_n_n : DotDims S2048x256 S256x1 S2048x1 where
  lhsContracting := [1]
  rhsContracting := [0]
  lhsNonContracting := [0]
  rhsNonContracting := [1]
  lhsBatch := []
  rhsBatch := []
  wf := dot_S2048x256_S256x1_S2048x1_1_0_0_1_n_n_wf
def dot_S1x128_S128x256_S1x256_1_0_0_1_n_n : DotDims S1x128 S128x256 S1x256 where
  lhsContracting := [1]
  rhsContracting := [0]
  lhsNonContracting := [0]
  rhsNonContracting := [1]
  lhsBatch := []
  rhsBatch := []
  wf := dot_S1x128_S128x256_S1x256_1_0_0_1_n_n_wf
def dot_S1x256_S256x1_S1x1_1_0_0_1_n_n : DotDims S1x256 S256x1 S1x1 where
  lhsContracting := [1]
  rhsContracting := [0]
  lhsNonContracting := [0]
  rhsNonContracting := [1]
  lhsBatch := []
  rhsBatch := []
  wf := dot_S1x256_S256x1_S1x1_1_0_0_1_n_n_wf

abbrev win0_0 : Pipeline.Window sig grid0 :=
  Pipeline.Window.ofSpec (Memref.whole main_v141) S16x256x512.size cc0_transform_0 reads0_0 false false 1 stage0_0 sem0_0
    hrank0 hreads0_0 hinb0_0 nbuf0_0 (Memref.isWhole_whole _) hwx0_0 hstage0_0

abbrev win0_1 : Pipeline.Window sig grid0 :=
  Pipeline.Window.ofSpec (Memref.whole main_v144) S16x2x256x256.size cc0_transform_1 reads0_1 false false 1 stage0_1 sem0_1
    hrank0 hreads0_1 hinb0_1 nbuf0_1 (Memref.isWhole_whole _) hwx0_1 hstage0_1

abbrev win0_2 : Pipeline.Window sig grid0 :=
  Pipeline.Window.ofSpec (Memref.whole main_v145) S16x129x1.size cc0_transform_2 reads0_2 false false 1 stage0_2 sem0_2
    hrank0 hreads0_2 hinb0_2 nbuf0_2 (Memref.isWhole_whole _) hwx0_2 hstage0_2

abbrev win0_3 : Pipeline.Window sig grid0 :=
  Pipeline.Window.ofSpec (Memref.whole main_v140) S3552x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v146) S16x129x4.size cc0_transform_4 reads0_4 true false 1 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== Proof.Spec.lean ====
/- The network both programs compute, as plain functions on the extended reals. -/
import Idealize.ShloMosaic.PureOps.Ideal.Laws

noncomputable section

namespace Cert.Spec

open Idealize.ShloMosaic

abbrev E := EReal

def dense {r k n : ℕ} (x : Fin r → Fin k → E) (w : Fin k → Fin n → E) (b : Fin n → E) : Fin r → Fin n → E :=
  fun i j => (∑ l : Fin k, x i l * w l j) + b j

def leaky (c : E) {r n : ℕ} (x : Fin r → Fin n → E) : Fin r → Fin n → E :=
  fun i j => max (x i j) (x i j * c)

def mlp (c : E) {r k h n : ℕ} (x : Fin r → Fin k → E) (w0 : Fin k → Fin h → E) (b0 : Fin h → E)
    (w1 : Fin h → Fin n → E) (b1 : Fin n → E) : Fin r → Fin n → E :=
  leaky c (dense (leaky c (dense x w0 b0)) w1 b1)

def mlpLin (c : E) {r k h n : ℕ} (x : Fin r → Fin k → E) (w0 : Fin k → Fin h → E) (b0 : Fin h → E)
    (w1 : Fin h → Fin n → E) (b1 : Fin n → E) : Fin r → Fin n → E :=
  dense (leaky c (dense x w0 b0)) w1 b1

def spread {n h : ℕ} (a : Fin n → Fin n → E) (m : Fin n → Fin h → E) : Fin n → Fin h → E :=
  fun i j => ∑ l : Fin n, a i l * m l j

def slope : E := Ideal.ofBits .f32 0x3C23D70A#32

def half : E := Ideal.ofBits .f32 0x3F000000#32

def zero : E := Ideal.ofBits .f32 0x00000000#32

def logEps : E := Ideal.ofBits .f32 0xC2CF3B8F#32

def negInf : E := Ideal.ofBits .f32 0xFF800000#32

structure Args where
  node0 : Fin 16 → Fin 256 → Fin 256 → E
  node1 : Fin 16 → Fin 256 → Fin 256 → E
  adj0 : Fin 16 → Fin 256 → Fin 256 → E
  adj1 : Fin 16 → Fin 256 → Fin 256 → E
  mask : Fin 16 → Fin 129 → E
  wf00 : Fin 256 → Fin 256 → E
  bf00 : Fin 256 → E
  wf01 : Fin 256 → Fin 128 → E
  bf01 : Fin 128 → E
  wf10 : Fin 256 → Fin 256 → E
  bf10 : Fin 256 → E
  wf11 : Fin 256 → Fin 128 → E
  bf11 : Fin 128 → E
  wm00 : Fin 128 → Fin 256 → E
  bm00 : Fin 256 → E
  wm01 : Fin 256 → Fin 128 → E
  bm01 : Fin 128 → E
  wm10 : Fin 128 → Fin 256 → E
  bm10 : Fin 256 → E
  wm11 : Fin 256 → Fin 128 → E
  bm11 : Fin 128 → E
  wg0 : Fin 256 → Fin 256 → E
  bg0 : Fin 256 → E
  wg1 : Fin 256 → Fin 128 → E
  bg1 : Fin 128 → E
  wo0 : Fin 128 → Fin 256 → E
  bo0 : Fin 256 → E
  wo1 : Fin 256 → Fin 128 → E
  bo1 : Fin 128 → E
  wp0 : Fin 128 → Fin 256 → E
  bp0 : Fin 256 → E
  wp1 : Fin 256 → Fin 1 → E
  bp1 : Fin 1 → E
  wa0 : Fin 128 → Fin 256 → E
  ba0 : Fin 256 → E
  wa1 : Fin 256 → Fin 1 → E
  ba1 : Fin 1 → E

variable (A : Args)

def h0 : ℕ → Fin 16 → Fin 256 → Fin 128 → E
  | 0, b => mlp slope (A.node0 b) A.wf00 A.bf00 A.wf01 A.bf01
  | s + 1, b => fun i j => h0 s b i j + spread (A.adj0 b) (mlp slope (h0 s b) A.wm00 A.bm00 A.wm01 A.bm01) i j

def h1 : ℕ → Fin 16 → Fin 256 → Fin 128 → E
  | 0, b => mlp slope (A.node1 b) A.wf10 A.bf10 A.wf11 A.bf11
  | s + 1, b => fun i j => h1 s b i j + spread (A.adj1 b) (mlp slope (h1 s b) A.wm10 A.bm10 A.wm11 A.bm11) i j

def side {r a b N : ℕ} (hN : N = a + b) (x : Fin r → Fin a → E) (y : Fin r → Fin b → E) : Fin r → Fin N → E :=
  fun i j => if h : j.val < a then x i ⟨j.val, h⟩ else y i ⟨j.val - a, by omega⟩

def cat {a b N : ℕ} (hN : N = a + b) (x : Fin a → E) (y : Fin b → E) : Fin N → E :=
  fun j => if h : j.val < a then x ⟨j.val, h⟩ else y ⟨j.val - a, by omega⟩

def bdiag {a b c d K N : ℕ} (hK : K = a + c) (hN : N = b + d) (w0 : Fin a → Fin b → E) (w1 : Fin c → Fin d → E) :
    Fin K → Fin N → E :=
  fun k j =>
    if hk : k.val < a then (if hj : j.val < b then w0 ⟨k.val, hk⟩ ⟨j.val, hj⟩ else 0)
    else (if hj : j.val < b then 0 else w1 ⟨k.val - a, by omega⟩ ⟨j.val - b, by omega⟩)

def gcn (b : Fin 16) : Fin 256 → Fin 128 → E :=
  mlp slope (side (N := 256) (by norm_num) (h0 A 4 b) (h1 A 4 b)) A.wg0 A.bg0 A.wg1 A.bg1

def sw (b : Fin 16) : Fin 128 → Fin 128 → E :=
  mlp slope (fun (s : Fin 128) j => gcn A b ⟨s.val, by omega⟩ j) A.wo0 A.bo0 A.wo1 A.bo1

def sp (b : Fin 16) : Fin 128 → E :=
  fun s => mlpLin slope (sw A b) A.wp0 A.bp0 A.wp1 A.bp1 s 0

def agg (b : Fin 16) : Fin 1 → Fin 128 → E := fun _ j => ∑ s : Fin 128, sw A b s j

def tp (b : Fin 16) : E := mlpLin slope (agg A b) A.wa0 A.ba0 A.wa1 A.ba1 0 0

def pv (b : Fin 16) : Fin 129 → E :=
  fun s => if h : s.val < 128 then sp A b ⟨s.val, h⟩ else tp A b

def lsm (v : Fin 129 → E) : Fin 129 → E :=
  fun s => (v s - (Finset.univ : Finset (Fin 129)).fold max negInf v)
    - Ideal.log (∑ k : Fin 129, Ideal.exp (v k - (Finset.univ : Finset (Fin 129)).fold max negInf v))

def lmask (b : Fin 16) (s : Fin 129) : E := Scalar.select (Ideal.cmp .ogt (A.mask b s) half) zero logEps

def logPi (b : Fin 16) : Fin 129 → E := lsm (pv A b)
def pi (b : Fin 16) : Fin 129 → E := fun s => Ideal.exp (logPi A b s)
def mlogPi (b : Fin 16) : Fin 129 → E := lsm (fun s => pv A b s + lmask A b s)
def mpi (b : Fin 16) : Fin 129 → E := fun s => Ideal.exp (mlogPi A b s)

end Cert.Spec

end
-- ==== Proof.KerEntry.lean ====
/- The kernel program's arguments of core c as functions of their coordinates. -/
import proofs.«144052_g2000204636238536_pallasbulk_491_38_alg».proof.Proof.Gen.KernelIdeal.Launch
import proofs.«144052_g2000204636238536_pallasbulk_491_38_alg».proof.Proof.Spec
import Idealize.ShloMosaic.Lib.ValueIdx

noncomputable section

namespace Cert.KernelIdeal.KV

open Idealize.ShloMosaic Idealize.ShloMosaic.TcCoe Idealize.ShloMosaic.ValueIdx
open Cert.KernelIdeal Cert.KernelIdeal.Gen

def kerArgs (m : (ℓ : Loc nD τ sig) → Buf (Elt Ideal) ℓ) (c : Dev nD) : Cert.Spec.Args where
  node0 := fun i0 i1 i2 => m ((c.tc : Thread nD τ).loc main_arg0) (ix3 i0 i1 i2)
  node1 := fun i0 i1 i2 => m ((c.tc : Thread nD τ).loc main_arg1) (ix3 i0 i1 i2)
  adj0 := fun i0 i1 i2 => m ((c.tc : Thread nD τ).loc main_arg2) (ix3 i0 i1 i2)
  adj1 := fun i0 i1 i2 => m ((c.tc : Thread nD τ).loc main_arg3) (ix3 i0 i1 i2)
  mask := fun i0 i1 => m ((c.tc : Thread nD τ).loc main_arg4) (ix2 i0 i1)
  wf00 := fun i0 i1 => m ((c.tc : Thread nD τ).loc main_arg5) (ix2 i0 i1)
  bf00 := fun i0 => m ((c.tc : Thread nD τ).loc main_arg6) (ix1 i0)
  wf01 := fun i0 i1 => m ((c.tc : Thread nD τ).loc main_arg7) (ix2 i0 i1)
  bf01 := fun i0 => m ((c.tc : Thread nD τ).loc main_arg8) (ix1 i0)
  wf10 := fun i0 i1 => m ((c.tc : Thread nD τ).loc main_arg9) (ix2 i0 i1)
  bf10 := fun i0 => m ((c.tc : Thread nD τ).loc main_arg10) (ix1 i0)
  wf11 := fun i0 i1 => m ((c.tc : Thread nD τ).loc main_arg11) (ix2 i0 i1)
  bf11 := fun i0 => m ((c.tc : Thread nD τ).loc main_arg12) (ix1 i0)
  wm00 := fun i0 i1 => m ((c.tc : Thread nD τ).loc main_arg13) (ix2 i0 i1)
  bm00 := fun i0 => m ((c.tc : Thread nD τ).loc main_arg14) (ix1 i0)
  wm01 := fun i0 i1 => m ((c.tc : Thread nD τ).loc main_arg15) (ix2 i0 i1)
  bm01 := fun i0 => m ((c.tc : Thread nD τ).loc main_arg16) (ix1 i0)
  wm10 := fun i0 i1 => m ((c.tc : Thread nD τ).loc main_arg17) (ix2 i0 i1)
  bm10 := fun i0 => m ((c.tc : Thread nD τ).loc main_arg18) (ix1 i0)
  wm11 := fun i0 i1 => m ((c.tc : Thread nD τ).loc main_arg19) (ix2 i0 i1)
  bm11 := fun i0 => m ((c.tc : Thread nD τ).loc main_arg20) (ix1 i0)
  wg0 := fun i0 i1 => m ((c.tc : Thread nD τ).loc main_arg21) (ix2 i0 i1)
  bg0 := fun i0 => m ((c.tc : Thread nD τ).loc main_arg22) (ix1 i0)
  wg1 := fun i0 i1 => m ((c.tc : Thread nD τ).loc main_arg23) (ix2 i0 i1)
  bg1 := fun i0 => m ((c.tc : Thread nD τ).loc main_arg24) (ix1 i0)
  wo0 := fun i0 i1 => m ((c.tc : Thread nD τ).loc main_arg25) (ix2 i0 i1)
  bo0 := fun i0 => m ((c.tc : Thread nD τ).loc main_arg26) (ix1 i0)
  wo1 := fun i0 i1 => m ((c.tc : Thread nD τ).loc main_arg27) (ix2 i0 i1)
  bo1 := fun i0 => m ((c.tc : Thread nD τ).loc main_arg28) (ix1 i0)
  wp0 := fun i0 i1 => m ((c.tc : Thread nD τ).loc main_arg29) (ix2 i0 i1)
  bp0 := fun i0 => m ((c.tc : Thread nD τ).loc main_arg30) (ix1 i0)
  wp1 := fun i0 i1 => m ((c.tc : Thread nD τ).loc main_arg31) (ix2 i0 i1)
  bp1 := fun i0 => m ((c.tc : Thread nD τ).loc main_arg32) (ix1 i0)
  wa0 := fun i0 i1 => m ((c.tc : Thread nD τ).loc main_arg33) (ix2 i0 i1)
  ba0 := fun i0 => m ((c.tc : Thread nD τ).loc main_arg34) (ix1 i0)
  wa1 := fun i0 i1 => m ((c.tc : Thread nD τ).loc main_arg35) (ix2 i0 i1)
  ba1 := fun i0 => m ((c.tc : Thread nD τ).loc main_arg36) (ix1 i0)

end Cert.KernelIdeal.KV

end
-- ==== Proof.Rows.lean ====
/- Row b·256 + n of a tall table is node n of batch element b; row b·128 + s is selected node s. -/
import Idealize.ShloMosaic.Lib.ValueIdx
import proofs.«144052_g2000204636238536_pallasbulk_491_38_alg».proof.Proof.Spec

noncomputable section

namespace Cert.Rows

open Idealize.ShloMosaic

def gb (T : Fin 2) (b : Fin 8) : Fin 16 := ⟨8 * T.val + b.val, by omega⟩

def row8 (b : Fin 8) (n : Fin 256) : Fin 2048 := ⟨b.val * 256 + n.val, by omega⟩

def row16 (b : Fin 16) (n : Fin 256) : Fin 4096 := ⟨b.val * 256 + n.val, by omega⟩

def srow8 (b : Fin 8) (s : Fin 128) : Fin 1024 := ⟨b.val * 128 + s.val, by omega⟩

def srow16 (b : Fin 16) (s : Fin 128) : Fin 2048 := ⟨b.val * 128 + s.val, by omega⟩

theorem row8_surj (r : Fin 2048) : ∃ b n, r = row8 b n :=
  ⟨⟨r.val / 256, by omega⟩, ⟨r.val % 256, by omega⟩, Fin.ext (by simp only [row8]; omega)⟩
theorem row16_surj (r : Fin 4096) : ∃ b n, r = row16 b n :=
  ⟨⟨r.val / 256, by omega⟩, ⟨r.val % 256, by omega⟩, Fin.ext (by simp only [row16]; omega)⟩
theorem srow8_surj (r : Fin 1024) : ∃ b s, r = srow8 b s :=
  ⟨⟨r.val / 128, by omega⟩, ⟨r.val % 128, by omega⟩, Fin.ext (by simp only [srow8]; omega)⟩
theorem srow16_surj (r : Fin 2048) : ∃ b s, r = srow16 b s :=
  ⟨⟨r.val / 128, by omega⟩, ⟨r.val % 128, by omega⟩, Fin.ext (by simp only [srow16]; omega)⟩

end Cert.Rows

end
-- ==== Proof.KerBlocks.lean ====
/- What the kernel's input windows hold at a grid point, in terms of the argument arrays. -/
import proofs.«144052_g2000204636238536_pallasbulk_491_38_alg».proof.Proof.KernelIdealFrameP
import proofs.«144052_g2000204636238536_pallasbulk_491_38_alg».proof.Proof.KerEntry
import proofs.«144052_g2000204636238536_pallasbulk_491_38_alg».proof.Proof.Rows
import Idealize.ShloMosaic.Lib.ValueIdx
import Idealize.ShloMosaic.Lib.Pipeline.Value
import Idealize.ShloMosaic.Lib.Tactic

set_option maxRecDepth 16384

noncomputable section

namespace Cert.KernelIdeal.KV

open Idealize.ShloMosaic Idealize.ShloMosaic.TcCoe Idealize.ShloMosaic.ValueIdx Idealize.ShloMosaic.Tactic
open Cert.KernelIdeal Cert.KernelIdeal.Gen Cert.Rows

variable (m : (ℓ : Loc nD τ sig) → Buf (Elt Ideal) ℓ)

abbrev pt (T : Fin cfg0.N) : Fin 2 := ⟨T.val, lt_of_lt_of_eq T.isLt Gen.N_0⟩

theorem read_at2 {n0 n1 : ℕ} (f : (⟨2, ![n0, n1]⟩ : Shape).Idx → EReal) (i : (⟨2, ![n0, n1]⟩ : Shape).Idx)
    (k : Fin n0) (j : Fin n1) (h0 : (i 0).val = k.val) (h1 : (i 1).val = j.val) : f i = f (ix2 k j) := by
  refine congrArg f (funext fun a => Fin.ext ?_)
  match a with
  | ⟨0, _⟩ => exact h0
  | ⟨1, _⟩ => exact h1

theorem read_at3 {n0 n1 n2 : ℕ} (f : (⟨3, ![n0, n1, n2]⟩ : Shape).Idx → EReal) (i : (⟨3, ![n0, n1, n2]⟩ : Shape).Idx)
    (b : Fin n0) (n : Fin n1) (k : Fin n2) (h0 : (i 0).val = b.val) (h1 : (i 1).val = n.val) (h2 : (i 2).val = k.val) :
    f i = f (ix3 b n k) := by
  refine congrArg f (funext fun a => Fin.ext ?_)
  match a with
  | ⟨0, _⟩ => exact h0
  | ⟨1, _⟩ => exact h1
  | ⟨2, _⟩ => exact h2

theorem row_of_array {n : ℕ} (x : (⟨1, ![n]⟩ : Shape).Idx → EReal)
    (h : (⟨1, ![n]⟩ : Shape).ShapeCasts ⟨2, ![1, n]⟩) (j : Fin n) :
    shapeCast ⟨2, ![1, n]⟩ x h (ix2 0 j) = x (ix1 j) := by
  refine shapeCast_apply x h (ix2 0 j) (ix1 j) ?_
  rw [Shape.rowMajor_val_one, Shape.rowMajor_val_two]
  show j.val = 0 * n + j.val
  omega

local macro "whole2 " w:ident T:ident k:term:max j:term:max : tactic => `(tactic| (
  obtain ⟨e0, e1⟩ := (by decide +kernel : ∀ t : Fin grid0.N,
    Pipeline.Window.index $w t (0 : Fin 2) = 0 ∧ Pipeline.Window.index $w t (1 : Fin 2) = 0) $T
  refine read_at2 _ _ $k $j ?_ ?_
  · show Pipeline.Window.index $w $T (0 : Fin 2) * _ + 1 * Fin.val $k = Fin.val $k
    rw [e0]; omega
  · show Pipeline.Window.index $w $T (1 : Fin 2) * _ + 1 * Fin.val $j = Fin.val $j
    rw [e1]; omega))

local macro "batch3 " w:ident T:ident b:term:max n:term:max k:term:max : tactic => `(tactic| (
  obtain ⟨e0, e1, e2⟩ := (by decide +kernel : ∀ t : Fin grid0.N,
    Pipeline.Window.index $w t (0 : Fin 3) = t.val ∧ Pipeline.Window.index $w t (1 : Fin 3) = 0
      ∧ Pipeline.Window.index $w t (2 : Fin 3) = 0) $T
  refine read_at3 _ _ (gb (pt $T) $b) $n $k ?_ ?_ ?_
  · show Pipeline.Window.index $w $T (0 : Fin 3) * 8 + 1 * Fin.val $b = 8 * Fin.val $T + Fin.val $b
    omega
  · show Pipeline.Window.index $w $T (1 : Fin 3) * 256 + 1 * Fin.val $n = Fin.val $n
    omega
  · show Pipeline.Window.index $w $T (2 : Fin 3) * 256 + 1 * Fin.val $k = Fin.val $k
    omega))

theorem blk0 (c : Dev nD) (T : Fin cfg0.N) : ∀ b n k,
    (Gen.iblk m c 0 T : S8x256x256.Idx → EReal) (ix3 b n k) = (kerArgs m c).node0 (gb (pt T) b) n k := fun b n k => by
  show Gen.V m c main_arg0 (((cfg0.win 0).blk T).view.emb (ix3 b n k))
    = m ((c.tc : Thread nD τ).loc main_arg0) (ix3 (gb (pt T) b) n k)
  rw [Gen.V_main_arg0]; batch3 win0_0 T b n k

theorem blk1 (c : Dev nD) (T : Fin cfg0.N) : ∀ b n k,
    (Gen.iblk m c 1 T : S8x256x256.Idx → EReal) (ix3 b n k) = (kerArgs m c).node1 (gb (pt T) b) n k := fun b n k => by
  show Gen.V m c main_arg1 (((cfg0.win 1).blk T).view.emb (ix3 b n k))
    = m ((c.tc : Thread nD τ).loc main_arg1) (ix3 (gb (pt T) b) n k)
  rw [Gen.V_main_arg1]; batch3 win0_1 T b n k

theorem blk2 (c : Dev nD) (T : Fin cfg0.N) : ∀ b n k,
    (Gen.iblk m c 2 T : S8x256x256.Idx → EReal) (ix3 b n k) = (kerArgs m c).adj0 (gb (pt T) b) n k := fun b n k => by
  show Gen.V m c main_arg2 (((cfg0.win 2).blk T).view.emb (ix3 b n k))
    = m ((c.tc : Thread nD τ).loc main_arg2) (ix3 (gb (pt T) b) n k)
  rw [Gen.V_main_arg2]; batch3 win0_2 T b n k

theorem blk3 (c : Dev nD) (T : Fin cfg0.N) : ∀ b n k,
    (Gen.iblk m c 3 T : S8x256x256.Idx → EReal) (ix3 b n k) = (kerArgs m c).adj1 (gb (pt T) b) n k := fun b n k => by
  show Gen.V m c main_arg3 (((cfg0.win 3).blk T).view.emb (ix3 b n k))
    = m ((c.tc : Thread nD τ).loc main_arg3) (ix3 (gb (pt T) b) n k)
  rw [Gen.V_main_arg3]; batch3 win0_3 T b n k

theorem blk4 (c : Dev nD) (T : Fin cfg0.N) : ∀ b s,
    (Gen.iblk m c 4 T : S8x129.Idx → EReal) (ix2 b s) = (kerArgs m c).mask (gb (pt T) b) s := fun b s => by
  show Gen.V m c main_arg4 (((cfg0.win 4).blk T).view.emb (ix2 b s))
    = m ((c.tc : Thread nD τ).loc main_arg4) (ix2 (gb (pt T) b) s)
  rw [Gen.V_main_arg4]
  obtain ⟨e0, e1⟩ := (by decide +kernel : ∀ t : Fin grid0.N,
    win0_4.index t (0 : Fin 2) = t.val ∧ win0_4.index t (1 : Fin 2) = 0) T
  refine read_at2 _ _ (gb (pt T) b) s ?_ ?_
  · show win0_4.index T (0 : Fin 2) * 8 + 1 * b.val = 8 * T.val + b.val
    omega
  · show win0_4.index T (1 : Fin 2) * 129 + 1 * s.val = s.val
    omega

theorem blk5 (c : Dev nD) (T : Fin cfg0.N) : ∀ k j,
    (Gen.iblk m c 5 T : S256x256.Idx → EReal) (ix2 k j) = (kerArgs m c).wf00 k j := fun k j => by
  show Gen.V m c main_arg5 (((cfg0.win 5).blk T).view.emb (ix2 k j)) = m ((c.tc : Thread nD τ).loc main_arg5) (ix2 k j)
  rw [Gen.V_main_arg5]; whole2 win0_5 T k j

theorem blk7 (c : Dev nD) (T : Fin cfg0.N) : ∀ k j,
    (Gen.iblk m c 7 T : S256x128.Idx → EReal) (ix2 k j) = (kerArgs m c).wf01 k j := fun k j => by
  show Gen.V m c main_arg7 (((cfg0.win 7).blk T).view.emb (ix2 k j)) = m ((c.tc : Thread nD τ).loc main_arg7) (ix2 k j)
  rw [Gen.V_main_arg7]; whole2 win0_7 T k j

theorem blk9 (c : Dev nD) (T : Fin cfg0.N) : ∀ k j,
    (Gen.iblk m c 9 T : S256x256.Idx → EReal) (ix2 k j) = (kerArgs m c).wf10 k j := fun k j => by
  show Gen.V m c main_arg9 (((cfg0.win 9).blk T).view.emb (ix2 k j)) = m ((c.tc : Thread nD τ).loc main_arg9) (ix2 k j)
  rw [Gen.V_main_arg9]; whole2 win0_9 T k j

theorem blk11 (c : Dev nD) (T : Fin cfg0.N) : ∀ k j,
    (Gen.iblk m c 11 T : S256x128.Idx → EReal) (ix2 k j) = (kerArgs m c).wf11 k j := fun k j => by
  show Gen.V m c main_arg11 (((cfg0.win 11).blk T).view.emb (ix2 k j)) = m ((c.tc : Thread nD τ).loc main_arg11) (ix2 k j)
  rw [Gen.V_main_arg11]; whole2 win0_11 T k j

theorem blk13 (c : Dev nD) (T : Fin cfg0.N) : ∀ k j,
    (Gen.iblk m c 13 T : S128x256.Idx → EReal) (ix2 k j) = (kerArgs m c).wm00 k j := fun k j => by
  show Gen.V m c main_arg13 (((cfg0.win 13).blk T).view.emb (ix2 k j)) = m ((c.tc : Thread nD τ).loc main_arg13) (ix2 k j)
  rw [Gen.V_main_arg13]; whole2 win0_13 T k j

theorem blk15 (c : Dev nD) (T : Fin cfg0.N) : ∀ k j,
    (Gen.iblk m c 15 T : S256x128.Idx → EReal) (ix2 k j) = (kerArgs m c).wm01 k j := fun k j => by
  show Gen.V m c main_arg15 (((cfg0.win 15).blk T).view.emb (ix2 k j)) = m ((c.tc : Thread nD τ).loc main_arg15) (ix2 k j)
  rw [Gen.V_main_arg15]; whole2 win0_15 T k j

theorem blk17 (c : Dev nD) (T : Fin cfg0.N) : ∀ k j,
    (Gen.iblk m c 17 T : S128x256.Idx → EReal) (ix2 k j) = (kerArgs m c).wm10 k j := fun k j => by
  show Gen.V m c main_arg17 (((cfg0.win 17).blk T).view.emb (ix2 k j)) = m ((c.tc : Thread nD τ).loc main_arg17) (ix2 k j)
  rw [Gen.V_main_arg17]; whole2 win0_17 T k j

theorem blk19 (c : Dev nD) (T : Fin cfg0.N) : ∀ k j,
    (Gen.iblk m c 19 T : S256x128.Idx → EReal) (ix2 k j) = (kerArgs m c).wm11 k j := fun k j => by
  show Gen.V m c main_arg19 (((cfg0.win 19).blk T).view.emb (ix2 k j)) = m ((c.tc : Thread nD τ).loc main_arg19) (ix2 k j)
  rw [Gen.V_main_arg19]; whole2 win0_19 T k j

theorem blk21 (c : Dev nD) (T : Fin cfg0.N) : ∀ k j,
    (Gen.iblk m c 21 T : S256x256.Idx → EReal) (ix2 k j) = (kerArgs m c).wg0 k j := fun k j => by
  show Gen.V m c main_arg21 (((cfg0.win 21).blk T).view.emb (ix2 k j)) = m ((c.tc : Thread nD τ).loc main_arg21) (ix2 k j)
  rw [Gen.V_main_arg21]; whole2 win0_21 T k j

theorem blk23 (c : Dev nD) (T : Fin cfg0.N) : ∀ k j,
    (Gen.iblk m c 23 T : S256x128.Idx → EReal) (ix2 k j) = (kerArgs m c).wg1 k j := fun k j => by
  show Gen.V m c main_arg23 (((cfg0.win 23).blk T).view.emb (ix2 k j)) = m ((c.tc : Thread nD τ).loc main_arg23) (ix2 k j)
  rw [Gen.V_main_arg23]; whole2 win0_23 T k j

theorem blk25 (c : Dev nD) (T : Fin cfg0.N) : ∀ k j,
    (Gen.iblk m c 25 T : S128x256.Idx → EReal) (ix2 k j) = (kerArgs m c).wo0 k j := fun k j => by
  show Gen.V m c main_arg25 (((cfg0.win 25).blk T).view.emb (ix2 k j)) = m ((c.tc : Thread nD τ).loc main_arg25) (ix2 k j)
  rw [Gen.V_main_arg25]; whole2 win0_25 T k j

theorem blk27 (c : Dev nD) (T : Fin cfg0.N) : ∀ k j,
    (Gen.iblk m c 27 T : S256x128.Idx → EReal) (ix2 k j) = (kerArgs m c).wo1 k j := fun k j => by
  show Gen.V m c main_arg27 (((cfg0.win 27).blk T).view.emb (ix2 k j)) = m ((c.tc : Thread nD τ).loc main_arg27) (ix2 k j)
  rw [Gen.V_main_arg27]; whole2 win0_27 T k j

theorem blk29 (c : Dev nD) (T : Fin cfg0.N) : ∀ k j,
    (Gen.iblk m c 29 T : S128x256.Idx → EReal) (ix2 k j) = (kerArgs m c).wp0 k j := fun k j => by
  show Gen.V m c main_arg29 (((cfg0.win 29).blk T).view.emb (ix2 k j)) = m ((c.tc : Thread nD τ).loc main_arg29) (ix2 k j)
  rw [Gen.V_main_arg29]; whole2 win0_29 T k j

theorem blk31 (c : Dev nD) (T : Fin cfg0.N) : ∀ k,
    (Gen.iblk m c 31 T : S256x1.Idx → EReal) (ix2 k (0 : Fin 1)) = (kerArgs m c).wp1 k 0 := fun k => by
  show Gen.V m c main_arg31 (((cfg0.win 31).blk T).view.emb (ix2 k (0 : Fin 1)))
    = m ((c.tc : Thread nD τ).loc main_arg31) (ix2 k (0 : Fin 1))
  rw [Gen.V_main_arg31]; whole2 win0_31 T k (0 : Fin 1)

theorem blk33 (c : Dev nD) (T : Fin cfg0.N) : ∀ k j,
    (Gen.iblk m c 33 T : S128x256.Idx → EReal) (ix2 k j) = (kerArgs m c).wa0 k j := fun k j => by
  show Gen.V m c main_arg33 (((cfg0.win 33).blk T).view.emb (ix2 k j)) = m ((c.tc : Thread nD τ).loc main_arg33) (ix2 k j)
  rw [Gen.V_main_arg33]; whole2 win0_33 T k j

theorem blk35 (c : Dev nD) (T : Fin cfg0.N) : ∀ k,
    (Gen.iblk m c 35 T : S256x1.Idx → EReal) (ix2 k (0 : Fin 1)) = (kerArgs m c).wa1 k 0 := fun k => by
  show Gen.V m c main_arg35 (((cfg0.win 35).blk T).view.emb (ix2 k (0 : Fin 1)))
    = m ((c.tc : Thread nD τ).loc main_arg35) (ix2 k (0 : Fin 1))
  rw [Gen.V_main_arg35]; whole2 win0_35 T k (0 : Fin 1)

theorem V_main_v0 (c : Dev nD) (j : Fin 256) : (Gen.V m c main_v0 : S1x256.Idx → EReal) (ix2 (0 : Fin 1) j)
    = m ((c.tc : Thread nD τ).loc main_arg6) (ix1 j) := by
  have e : (Gen.V m c main_v0 : S1x256.Idx → EReal)
      = shapeCast S1x256 (m ((c.tc : Thread nD τ).loc main_arg6) : S256.Idx → EReal) shapeCasts_S256_S1x256 := by
    dsimp only [Gen.V, Gen.hostOps0]; after_results; rfl
  rw [e]; exact row_of_array _ _ j
theorem V_main_v1 (c : Dev nD) (j : Fin 128) : (Gen.V m c main_v1 : S1x128.Idx → EReal) (ix2 (0 : Fin 1) j)
    = m ((c.tc : Thread nD τ).loc main_arg8) (ix1 j) := by
  have e : (Gen.V m c main_v1 : S1x128.Idx → EReal)
      = shapeCast S1x128 (m ((c.tc : Thread nD τ).loc main_arg8) : S128.Idx → EReal) shapeCasts_S128_S1x128 := by
    dsimp only [Gen.V, Gen.hostOps0]; after_results; rfl
  rw [e]; exact row_of_array _ _ j
theorem V_main_v2 (c : Dev nD) (j : Fin 256) : (Gen.V m c main_v2 : S1x256.Idx → EReal) (ix2 (0 : Fin 1) j)
    = m ((c.tc : Thread nD τ).loc main_arg10) (ix1 j) := by
  have e : (Gen.V m c main_v2 : S1x256.Idx → EReal)
      = shapeCast S1x256 (m ((c.tc : Thread nD τ).loc main_arg10) : S256.Idx → EReal) shapeCasts_S256_S1x256 := by
    dsimp only [Gen.V, Gen.hostOps0]; after_results; rfl
  rw [e]; exact row_of_array _ _ j
theorem V_main_v3 (c : Dev nD) (j : Fin 128) : (Gen.V m c main_v3 : S1x128.Idx → EReal) (ix2 (0 : Fin 1) j)
    = m ((c.tc : Thread nD τ).loc main_arg12) (ix1 j) := by
  have e : (Gen.V m c main_v3 : S1x128.Idx → EReal)
      = shapeCast S1x128 (m ((c.tc : Thread nD τ).loc main_arg12) : S128.Idx → EReal) shapeCasts_S128_S1x128 := by
    dsimp only [Gen.V, Gen.hostOps0]; after_results; rfl
  rw [e]; exact row_of_array _ _ j
theorem V_main_v4 (c : Dev nD) (j : Fin 256) : (Gen.V m c main_v4 : S1x256.Idx → EReal) (ix2 (0 : Fin 1) j)
    = m ((c.tc : Thread nD τ).loc main_arg14) (ix1 j) := by
  have e : (Gen.V m c main_v4 : S1x256.Idx → EReal)
      = shapeCast S1x256 (m ((c.tc : Thread nD τ).loc main_arg14) : S256.Idx → EReal) shapeCasts_S256_S1x256 := by
    dsimp only [Gen.V, Gen.hostOps0]; after_results; rfl
  rw [e]; exact row_of_array _ _ j
theorem V_main_v5 (c : Dev nD) (j : Fin 128) : (Gen.V m c main_v5 : S1x128.Idx → EReal) (ix2 (0 : Fin 1) j)
    = m ((c.tc : Thread nD τ).loc main_arg16) (ix1 j) := by
  have e : (Gen.V m c main_v5 : S1x128.Idx → EReal)
      = shapeCast S1x128 (m ((c.tc : Thread nD τ).loc main_arg16) : S128.Idx → EReal) shapeCasts_S128_S1x128 := by
    dsimp only [Gen.V, Gen.hostOps0]; after_results; rfl
  rw [e]; exact row_of_array _ _ j
theorem V_main_v6 (c : Dev nD) (j : Fin 256) : (Gen.V m c main_v6 : S1x256.Idx → EReal) (ix2 (0 : Fin 1) j)
    = m ((c.tc : Thread nD τ).loc main_arg18) (ix1 j) := by
  have e : (Gen.V m c main_v6 : S1x256.Idx → EReal)
      = shapeCast S1x256 (m ((c.tc : Thread nD τ).loc main_arg18) : S256.Idx → EReal) shapeCasts_S256_S1x256 := by
    dsimp only [Gen.V, Gen.hostOps0]; after_results; rfl
  rw [e]; exact row_of_array _ _ j
theorem V_main_v7 (c : Dev nD) (j : Fin 128) : (Gen.V m c main_v7 : S1x128.Idx → EReal) (ix2 (0 : Fin 1) j)
    = m ((c.tc : Thread nD τ).loc main_arg20) (ix1 j) := by
  have e : (Gen.V m c main_v7 : S1x128.Idx → EReal)
      = shapeCast S1x128 (m ((c.tc : Thread nD τ).loc main_arg20) : S128.Idx → EReal) shapeCasts_S128_S1x128 := by
    dsimp only [Gen.V, Gen.hostOps0]; after_results; rfl
  rw [e]; exact row_of_array _ _ j
theorem V_main_v8 (c : Dev nD) (j : Fin 256) : (Gen.V m c main_v8 : S1x256.Idx → EReal) (ix2 (0 : Fin 1) j)
    = m ((c.tc : Thread nD τ).loc main_arg22) (ix1 j) := by
  have e : (Gen.V m c main_v8 : S1x256.Idx → EReal)
      = shapeCast S1x256 (m ((c.tc : Thread nD τ).loc main_arg22) : S256.Idx → EReal) shapeCasts_S256_S1x256 := by
    dsimp only [Gen.V, Gen.hostOps0]; after_results; rfl
  rw [e]; exact row_of_array _ _ j
theorem V_main_v9 (c : Dev nD) (j : Fin 128) : (Gen.V m c main_v9 : S1x128.Idx → EReal) (ix2 (0 : Fin 1) j)
    = m ((c.tc : Thread nD τ).loc main_arg24) (ix1 j) := by
  have e : (Gen.V m c main_v9 : S1x128.Idx → EReal)
      = shapeCast S1x128 (m ((c.tc : Thread nD τ).loc main_arg24) : S128.Idx → EReal) shapeCasts_S128_S1x128 := by
    dsimp only [Gen.V, Gen.hostOps0]; after_results; rfl
  rw [e]; exact row_of_array _ _ j
theorem V_main_v10 (c : Dev nD) (j : Fin 256) : (Gen.V m c main_v10 : S1x256.Idx → EReal) (ix2 (0 : Fin 1) j)
    = m ((c.tc : Thread nD τ).loc main_arg26) (ix1 j) := by
  have e : (Gen.V m c main_v10 : S1x256.Idx → EReal)
      = shapeCast S1x256 (m ((c.tc : Thread nD τ).loc main_arg26) : S256.Idx → EReal) shapeCasts_S256_S1x256 := by
    dsimp only [Gen.V, Gen.hostOps0]; after_results; rfl
  rw [e]; exact row_of_array _ _ j
theorem V_main_v11 (c : Dev nD) (j : Fin 128) : (Gen.V m c main_v11 : S1x128.Idx → EReal) (ix2 (0 : Fin 1) j)
    = m ((c.tc : Thread nD τ).loc main_arg28) (ix1 j) := by
  have e : (Gen.V m c main_v11 : S1x128.Idx → EReal)
      = shapeCast S1x128 (m ((c.tc : Thread nD τ).loc main_arg28) : S128.Idx → EReal) shapeCasts_S128_S1x128 := by
    dsimp only [Gen.V, Gen.hostOps0]; after_results; rfl
  rw [e]; exact row_of_array _ _ j
theorem V_main_v12 (c : Dev nD) (j : Fin 256) : (Gen.V m c main_v12 : S1x256.Idx → EReal) (ix2 (0 : Fin 1) j)
    = m ((c.tc : Thread nD τ).loc main_arg30) (ix1 j) := by
  have e : (Gen.V m c main_v12 : S1x256.Idx → EReal)
      = shapeCast S1x256 (m ((c.tc : Thread nD τ).loc main_arg30) : S256.Idx → EReal) shapeCasts_S256_S1x256 := by
    dsimp only [Gen.V, Gen.hostOps0]; after_results; rfl
  rw [e]; exact row_of_array _ _ j
theorem V_main_v13 (c : Dev nD) (j : Fin 1) : (Gen.V m c main_v13 : S1x1.Idx → EReal) (ix2 (0 : Fin 1) j)
    = m ((c.tc : Thread nD τ).loc main_arg32) (ix1 j) := by
  have e : (Gen.V m c main_v13 : S1x1.Idx → EReal)
      = shapeCast S1x1 (m ((c.tc : Thread nD τ).loc main_arg32) : S1.Idx → EReal) shapeCasts_S1_S1x1 := by
    dsimp only [Gen.V, Gen.hostOps0]; after_results; rfl
  rw [e]; exact row_of_array _ _ j
theorem V_main_v14 (c : Dev nD) (j : Fin 256) : (Gen.V m c main_v14 : S1x256.Idx → EReal) (ix2 (0 : Fin 1) j)
    = m ((c.tc : Thread nD τ).loc main_arg34) (ix1 j) := by
  have e : (Gen.V m c main_v14 : S1x256.Idx → EReal)
      = shapeCast S1x256 (m ((c.tc : Thread nD τ).loc main_arg34) : S256.Idx → EReal) shapeCasts_S256_S1x256 := by
    dsimp only [Gen.V, Gen.hostOps0]; after_results; rfl
  rw [e]; exact row_of_array _ _ j
theorem V_main_v15 (c : Dev nD) (j : Fin 1) : (Gen.V m c main_v15 : S1x1.Idx → EReal) (ix2 (0 : Fin 1) j)
    = m ((c.tc : Thread nD τ).loc main_arg36) (ix1 j) := by
  have e : (Gen.V m c main_v15 : S1x1.Idx → EReal)
      = shapeCast S1x1 (m ((c.tc : Thread nD τ).loc main_arg36) : S1.Idx → EReal) shapeCasts_S1_S1x1 := by
    dsimp only [Gen.V, Gen.hostOps0]; after_results; rfl
  rw [e]; exact row_of_array _ _ j

theorem blk6 (c : Dev nD) (T : Fin cfg0.N) : ∀ j,
    (Gen.iblk m c 6 T : S1x256.Idx → EReal) (ix2 (0 : Fin 1) j) = (kerArgs m c).bf00 j := fun j => by
  refine Eq.trans ?_ (V_main_v0 m c j)
  show (Gen.V m c main_v0 : S1x256.Idx → EReal) (((cfg0.win 6).blk T).view.emb (ix2 (0 : Fin 1) j))
    = (Gen.V m c main_v0 : S1x256.Idx → EReal) (ix2 (0 : Fin 1) j)
  whole2 win0_6 T (0 : Fin 1) j

theorem blk8 (c : Dev nD) (T : Fin cfg0.N) : ∀ j,
    (Gen.iblk m c 8 T : S1x128.Idx → EReal) (ix2 (0 : Fin 1) j) = (kerArgs m c).bf01 j := fun j => by
  refine Eq.trans ?_ (V_main_v1 m c j)
  show (Gen.V m c main_v1 : S1x128.Idx → EReal) (((cfg0.win 8).blk T).view.emb (ix2 (0 : Fin 1) j))
    = (Gen.V m c main_v1 : S1x128.Idx → EReal) (ix2 (0 : Fin 1) j)
  whole2 win0_8 T (0 : Fin 1) j

theorem blk10 (c : Dev nD) (T : Fin cfg0.N) : ∀ j,
    (Gen.iblk m c 10 T : S1x256.Idx → EReal) (ix2 (0 : Fin 1) j) = (kerArgs m c).bf10 j := fun j => by
  refine Eq.trans ?_ (V_main_v2 m c j)
  show (Gen.V m c main_v2 : S1x256.Idx → EReal) (((cfg0.win 10).blk T).view.emb (ix2 (0 : Fin 1) j))
    = (Gen.V m c main_v2 : S1x256.Idx → EReal) (ix2 (0 : Fin 1) j)
  whole2 win0_10 T (0 : Fin 1) j

theorem blk12 (c : Dev nD) (T : Fin cfg0.N) : ∀ j,
    (Gen.iblk m c 12 T : S1x128.Idx → EReal) (ix2 (0 : Fin 1) j) = (kerArgs m c).bf11 j := fun j => by
  refine Eq.trans ?_ (V_main_v3 m c j)
  show (Gen.V m c main_v3 : S1x128.Idx → EReal) (((cfg0.win 12).blk T).view.emb (ix2 (0 : Fin 1) j))
    = (Gen.V m c main_v3 : S1x128.Idx → EReal) (ix2 (0 : Fin 1) j)
  whole2 win0_12 T (0 : Fin 1) j

theorem blk14 (c : Dev nD) (T : Fin cfg0.N) : ∀ j,
    (Gen.iblk m c 14 T : S1x256.Idx → EReal) (ix2 (0 : Fin 1) j) = (kerArgs m c).bm00 j := fun j => by
  refine Eq.trans ?_ (V_main_v4 m c j)
  show (Gen.V m c main_v4 : S1x256.Idx → EReal) (((cfg0.win 14).blk T).view.emb (ix2 (0 : Fin 1) j))
    = (Gen.V m c main_v4 : S1x256.Idx → EReal) (ix2 (0 : Fin 1) j)
  whole2 win0_14 T (0 : Fin 1) j

theorem blk16 (c : Dev nD) (T : Fin cfg0.N) : ∀ j,
    (Gen.iblk m c 16 T : S1x128.Idx → EReal) (ix2 (0 : Fin 1) j) = (kerArgs m c).bm01 j := fun j => by
  refine Eq.trans ?_ (V_main_v5 m c j)
  show (Gen.V m c main_v5 : S1x128.Idx → EReal) (((cfg0.win 16).blk T).view.emb (ix2 (0 : Fin 1) j))
    = (Gen.V m c main_v5 : S1x128.Idx → EReal) (ix2 (0 : Fin 1) j)
  whole2 win0_16 T (0 : Fin 1) j

theorem blk18 (c : Dev nD) (T : Fin cfg0.N) : ∀ j,
    (Gen.iblk m c 18 T : S1x256.Idx → EReal) (ix2 (0 : Fin 1) j) = (kerArgs m c).bm10 j := fun j => by
  refine Eq.trans ?_ (V_main_v6 m c j)
  show (Gen.V m c main_v6 : S1x256.Idx → EReal) (((cfg0.win 18).blk T).view.emb (ix2 (0 : Fin 1) j))
    = (Gen.V m c main_v6 : S1x256.Idx → EReal) (ix2 (0 : Fin 1) j)
  whole2 win0_18 T (0 : Fin 1) j

theorem blk20 (c : Dev nD) (T : Fin cfg0.N) : ∀ j,
    (Gen.iblk m c 20 T : S1x128.Idx → EReal) (ix2 (0 : Fin 1) j) = (kerArgs m c).bm11 j := fun j => by
  refine Eq.trans ?_ (V_main_v7 m c j)
  show (Gen.V m c main_v7 : S1x128.Idx → EReal) (((cfg0.win 20).blk T).view.emb (ix2 (0 : Fin 1) j))
    = (Gen.V m c main_v7 : S1x128.Idx → EReal) (ix2 (0 : Fin 1) j)
  whole2 win0_20 T (0 : Fin 1) j

theorem blk22 (c : Dev nD) (T : Fin cfg0.N) : ∀ j,
    (Gen.iblk m c 22 T : S1x256.Idx → EReal) (ix2 (0 : Fin 1) j) = (kerArgs m c).bg0 j := fun j => by
  refine Eq.trans ?_ (V_main_v8 m c j)
  show (Gen.V m c main_v8 : S1x256.Idx → EReal) (((cfg0.win 22).blk T).view.emb (ix2 (0 : Fin 1) j))
    = (Gen.V m c main_v8 : S1x256.Idx → EReal) (ix2 (0 : Fin 1) j)
  whole2 win0_22 T (0 : Fin 1) j

theorem blk24 (c : Dev nD) (T : Fin cfg0.N) : ∀ j,
    (Gen.iblk m c 24 T : S1x128.Idx → EReal) (ix2 (0 : Fin 1) j) = (kerArgs m c).bg1 j := fun j => by
  refine Eq.trans ?_ (V_main_v9 m c j)
  show (Gen.V m c main_v9 : S1x128.Idx → EReal) (((cfg0.win 24).blk T).view.emb (ix2 (0 : Fin 1) j))
    = (Gen.V m c main_v9 : S1x128.Idx → EReal) (ix2 (0 : Fin 1) j)
  whole2 win0_24 T (0 : Fin 1) j

theorem blk26 (c : Dev nD) (T : Fin cfg0.N) : ∀ j,
    (Gen.iblk m c 26 T : S1x256.Idx → EReal) (ix2 (0 : Fin 1) j) = (kerArgs m c).bo0 j := fun j => by
  refine Eq.trans ?_ (V_main_v10 m c j)
  show (Gen.V m c main_v10 : S1x256.Idx → EReal) (((cfg0.win 26).blk T).view.emb (ix2 (0 : Fin 1) j))
    = (Gen.V m c main_v10 : S1x256.Idx → EReal) (ix2 (0 : Fin 1) j)
  whole2 win0_26 T (0 : Fin 1) j

theorem blk28 (c : Dev nD) (T : Fin cfg0.N) : ∀ j,
    (Gen.iblk m c 28 T : S1x128.Idx → EReal) (ix2 (0 : Fin 1) j) = (kerArgs m c).bo1 j := fun j => by
  refine Eq.trans ?_ (V_main_v11 m c j)
  show (Gen.V m c main_v11 : S1x128.Idx → EReal) (((cfg0.win 28).blk T).view.emb (ix2 (0 : Fin 1) j))
    = (Gen.V m c main_v11 : S1x128.Idx → EReal) (ix2 (0 : Fin 1) j)
  whole2 win0_28 T (0 : Fin 1) j

theorem blk30 (c : Dev nD) (T : Fin cfg0.N) : ∀ j,
    (Gen.iblk m c 30 T : S1x256.Idx → EReal) (ix2 (0 : Fin 1) j) = (kerArgs m c).bp0 j := fun j => by
  refine Eq.trans ?_ (V_main_v12 m c j)
  show (Gen.V m c main_v12 : S1x256.Idx → EReal) (((cfg0.win 30).blk T).view.emb (ix2 (0 : Fin 1) j))
    = (Gen.V m c main_v12 : S1x256.Idx → EReal) (ix2 (0 : Fin 1) j)
  whole2 win0_30 T (0 : Fin 1) j

theorem blk32 (c : Dev nD) (T : Fin cfg0.N) :
    (Gen.iblk m c 32 T : S1x1.Idx → EReal) (ix2 (0 : Fin 1) (0 : Fin 1)) = (kerArgs m c).bp1 0 := by
  refine Eq.trans ?_ (V_main_v13 m c (0 : Fin 1))
  show (Gen.V m c main_v13 : S1x1.Idx → EReal) (((cfg0.win 32).blk T).view.emb (ix2 (0 : Fin 1) (0 : Fin 1)))
    = (Gen.V m c main_v13 : S1x1.Idx → EReal) (ix2 (0 : Fin 1) (0 : Fin 1))
  whole2 win0_32 T (0 : Fin 1) (0 : Fin 1)

theorem blk34 (c : Dev nD) (T : Fin cfg0.N) : ∀ j,
    (Gen.iblk m c 34 T : S1x256.Idx → EReal) (ix2 (0 : Fin 1) j) = (kerArgs m c).ba0 j := fun j => by
  refine Eq.trans ?_ (V_main_v14 m c j)
  show (Gen.V m c main_v14 : S1x256.Idx → EReal) (((cfg0.win 34).blk T).view.emb (ix2 (0 : Fin 1) j))
    = (Gen.V m c main_v14 : S1x256.Idx → EReal) (ix2 (0 : Fin 1) j)
  whole2 win0_34 T (0 : Fin 1) j

theorem blk36 (c : Dev nD) (T : Fin cfg0.N) :
    (Gen.iblk m c 36 T : S1x1.Idx → EReal) (ix2 (0 : Fin 1) (0 : Fin 1)) = (kerArgs m c).ba1 0 := by
  refine Eq.trans ?_ (V_main_v15 m c (0 : Fin 1))
  show (Gen.V m c main_v15 : S1x1.Idx → EReal) (((cfg0.win 36).blk T).view.emb (ix2 (0 : Fin 1) (0 : Fin 1)))
    = (Gen.V m c main_v15 : S1x1.Idx → EReal) (ix2 (0 : Fin 1) (0 : Fin 1))
  whole2 win0_36 T (0 : Fin 1) (0 : Fin 1)

end Cert.KernelIdeal.KV

end
-- ==== Proof.KerLayers.lean ====
import Idealize.ShloMosaic.PureOps.Ideal.Laws
import Idealize.ShloMosaic.Lib.ValueIdx
import Idealize.ShloMosaic.Lib.Pipeline.Value
import Idealize.ShloMosaic.Lib.ValueLayout
import Idealize.ShloMosaic.Lib.StackMember
import proofs.«144052_g2000204636238536_pallasbulk_491_38_alg».proof.Proof.Spec
import proofs.«144052_g2000204636238536_pallasbulk_491_38_alg».proof.Proof.Rows

noncomputable section
namespace Cert.KernelIdeal.KV
open Idealize.ShloMosaic Idealize.ShloMosaic.ValueIdx Cert.Spec

-- A rows-by-columns product into the zero table is, entry by entry, the sum over the shared axis.
theorem plain_matmul_apply {r k n : ℕ} {φ₁ φ₂ : FTy} (D : DotDims ⟨2, ![r, k]⟩ ⟨2, ![k, n]⟩ ⟨2, ![r, n]⟩)
    (hD : D = DotDims.plain r k n) (x : FVec Ideal ⟨2, ![r, k]⟩ φ₁) (w : FVec Ideal ⟨2, ![k, n]⟩ φ₂) (i : Fin r) (j : Fin n) :
    matmul D none x w (constant ⟨2, ![r, n]⟩ .f32 0x00000000#32) (ix2 i j) = ∑ l : Fin k, x (ix2 i l) * w (ix2 l j) := by
  subst hD
  show FloatOps.matmul _ none x w _ (ix2 i j) = _
  rw [Ideal.matmul_constant_zero_apply, ← StackMember.dotGeneral_plain_apply none x w i j]
  show _ = FloatOps.dotGeneral _ none _ x w (ix2 i j)
  rw [Ideal.dotGeneral_apply]

-- The same with a shared leading batch axis: batch element b's product.
theorem batched_matmul_apply {B n k h : ℕ} {φ₁ φ₂ : FTy} (D : DotDims ⟨3, ![B, n, k]⟩ ⟨3, ![B, k, h]⟩ ⟨3, ![B, n, h]⟩)
    {wf : DotDims.WF ⟨3, ![B, n, k]⟩ ⟨3, ![B, k, h]⟩ ⟨3, ![B, n, h]⟩ [2] [1] [1] [2] [0] [0]}
    (hD : D = ⟨[2], [1], [1], [2], [0], [0], wf⟩) (x : FVec Ideal ⟨3, ![B, n, k]⟩ φ₁) (w : FVec Ideal ⟨3, ![B, k, h]⟩ φ₂)
    (b : Fin B) (i : Fin n) (j : Fin h) :
    matmul D none x w (constant ⟨3, ![B, n, h]⟩ .f32 0x00000000#32) (ix3 b i j) = ∑ l : Fin k, x (ix3 b i l) * w (ix3 b l j) := by
  subst hD
  show FloatOps.matmul _ none x w _ (ix3 b i j) = _
  rw [Ideal.matmul_constant_zero_apply, ← StackMember.dotGeneral_stack_apply wf none x w b i j]
  show _ = FloatOps.dotGeneral _ none _ x w (ix3 b i j)
  rw [Ideal.dotGeneral_apply]

section Reshape
variable {α : Type} {B n k R : ℕ}

theorem flatten_apply (x : (⟨3, ![B, n, k]⟩ : Shape).Idx → α) (h : (⟨3, ![B, n, k]⟩ : Shape).ShapeCasts ⟨2, ![R, k]⟩)
    (b : Fin B) (i : Fin n) (l : Fin k) (r : Fin R) (hr : r.val = b.val * n + i.val) :
    shapeCast ⟨2, ![R, k]⟩ x h (ix2 r l) = x (ix3 b i l) :=
  shapeCast_apply x h _ _ (by rw [Shape.rowMajor_val_three, Shape.rowMajor_val_two]; exact congrArg (· * k + l.val) hr.symm)

theorem unflatten_apply (y : (⟨2, ![R, k]⟩ : Shape).Idx → α) (h : (⟨2, ![R, k]⟩ : Shape).ShapeCasts ⟨3, ![B, n, k]⟩)
    (b : Fin B) (i : Fin n) (l : Fin k) (r : Fin R) (hr : r.val = b.val * n + i.val) :
    shapeCast ⟨3, ![B, n, k]⟩ y h (ix3 b i l) = y (ix2 r l) :=
  shapeCast_apply y h _ _ (by rw [Shape.rowMajor_val_three, Shape.rowMajor_val_two]; exact congrArg (· * k + l.val) hr)

end Reshape

theorem selfCast_apply {s : Shape} {α : Type} (v : s.Idx → α) (h : s.ShapeCasts s) (i : s.Idx) : shapeCast s v h i = v i :=
  congrFun (shapeCast_self v h) i

section Dense
variable {r k n r' : ℕ} {φ₁ φ₂ : FTy} (D : DotDims ⟨2, ![r, k]⟩ ⟨2, ![k, n]⟩ ⟨2, ![r, n]⟩) (hD : D = DotDims.plain r k n)
  (x : FVec Ideal ⟨2, ![r, k]⟩ φ₁) (w : FVec Ideal ⟨2, ![k, n]⟩ φ₂)
  (X : Fin r' → Fin k → E) (W : Fin k → Fin n → E) (i : Fin r) (i' : Fin r')
  (hx : ∀ l, x (ix2 i l) = X i' l) (hw : ∀ l j, w (ix2 l j) = W l j)
include hD hx hw

theorem matmul_at (j : Fin n) :
    matmul D none x w (constant ⟨2, ![r, n]⟩ .f32 0x00000000#32) (ix2 i j) = ∑ l : Fin k, X i' l * W l j := by
  rw [plain_matmul_apply D hD]
  exact Finset.sum_congr rfl fun l _ => by rw [hx l, hw l j]

theorem dense_at (bias : FVec Ideal ⟨2, ![1, n]⟩ .f32) (hb : (⟨2, ![1, n]⟩ : Shape).Broadcasts ⟨2, ![r, n]⟩)
    (Bv : Fin n → E) (hbias : ∀ j, bias (ix2 (0 : Fin 1) j) = Bv j) (j : Fin n) :
    addf (matmul D none x w (constant ⟨2, ![r, n]⟩ .f32 0x00000000#32)) (broadcastTo ⟨2, ![r, n]⟩ bias hb) (ix2 i j)
      = dense X W Bv i' j := by
  rw [addf_apply, matmul_at D hD x w X W i i' hx hw j, broadcastTo_1b_ab_apply, hbias]
  rfl

end Dense

theorem leaky_at {r n r' : ℕ} (y s : FVec Ideal ⟨2, ![r, n]⟩ .f32) (c : E) (Y : Fin r' → Fin n → E)
    (i : Fin r) (i' : Fin r') (j : Fin n) (hy : y (ix2 i j) = Y i' j) (hs : s (ix2 i j) = c) :
    maximumf y (mulf y s) (ix2 i j) = leaky c Y i' j := by
  rw [maximumf_apply, mulf_apply, hy, hs]
  rfl

-- Rectifier, second dense layer, rectifier, at row i, given what the first layer's sums plus bias hold there.
theorem mlp2_at {r k n r' : ℕ} {φ₂ : FTy} (D : DotDims ⟨2, ![r, k]⟩ ⟨2, ![k, n]⟩ ⟨2, ![r, n]⟩) (hD : D = DotDims.plain r k n)
    (p s : FVec Ideal ⟨2, ![r, k]⟩ .f32) (w : FVec Ideal ⟨2, ![k, n]⟩ φ₂)
    (bias : FVec Ideal ⟨2, ![1, n]⟩ .f32) (hb : (⟨2, ![1, n]⟩ : Shape).Broadcasts ⟨2, ![r, n]⟩)
    (P : Fin r' → Fin k → E) (W : Fin k → Fin n → E) (Bv : Fin n → E) (i : Fin r) (i' : Fin r')
    (hp : ∀ l, p (ix2 i l) = P i' l) (hs : ∀ l, s (ix2 i l) = slope) (hw : ∀ l j, w (ix2 l j) = W l j)
    (hbias : ∀ j, bias (ix2 (0 : Fin 1) j) = Bv j) (j : Fin n) :
    (let y := addf (matmul D none (truncf .bf16 (maximumf p (mulf p s))) w (constant ⟨2, ![r, n]⟩ .f32 0x00000000#32))
        (broadcastTo ⟨2, ![r, n]⟩ bias hb)
     maximumf y (mulf y (broadcast ⟨2, ![r, n]⟩ (Scalar.ofBits .f32 0x3C23D70A#32)))) (ix2 i j)
      = leaky slope (dense (leaky slope P) W Bv) i' j :=
  leaky_at _ _ _ _ i i' j (dense_at D hD _ w (leaky slope P) W i i'
    (fun l => leaky_at p s slope P i i' l (hp l) (hs l)) hw bias hb Bv hbias j) rfl

section Spread
variable {B n h R : ℕ} {φ₁ φ₂ : FTy} (D : DotDims ⟨3, ![B, n, n]⟩ ⟨3, ![B, n, h]⟩ ⟨3, ![B, n, h]⟩)
  {wf : DotDims.WF ⟨3, ![B, n, n]⟩ ⟨3, ![B, n, h]⟩ ⟨3, ![B, n, h]⟩ [2] [1] [1] [2] [0] [0]}
  (hD : D = ⟨[2], [1], [1], [2], [0], [0], wf⟩) (adj : FVec Ideal ⟨3, ![B, n, n]⟩ φ₁)
  (hc1 : (⟨2, ![R, h]⟩ : Shape).ShapeCasts ⟨3, ![B, n, h]⟩) (hc2 : (⟨3, ![B, n, h]⟩ : Shape).ShapeCasts ⟨2, ![R, h]⟩)
  (Adj : Fin n → Fin n → E) (b : Fin B) (i : Fin n) (j : Fin h) (row : Fin n → Fin R)
  (hrow : ∀ l, (row l).val = b.val * n + l.val) (hadj : ∀ l, adj (ix3 b i l) = Adj i l)
include hD hrow hadj

theorem spread_at (m : FVec Ideal ⟨2, ![R, h]⟩ φ₂) (M : Fin n → Fin h → E) (hm : ∀ l, m (ix2 (row l) j) = M l j) :
    shapeCast ⟨2, ![R, h]⟩ (matmul D none adj (shapeCast ⟨3, ![B, n, h]⟩ m hc1)
        (constant ⟨3, ![B, n, h]⟩ .f32 0x00000000#32)) hc2 (ix2 (row i) j) = spread Adj M i j := by
  rw [flatten_apply _ hc2 b i j (row i) (hrow i), batched_matmul_apply D hD]
  exact Finset.sum_congr rfl fun l _ => by rw [hadj l, unflatten_apply m hc1 b l j (row l) (hrow l), hm l]

-- One message at row b·n + i: rectifier, second layer, rectifier on the first layer's sums plus bias p, then the adjacency row.
theorem msg_at {k : ℕ} (D1 : DotDims ⟨2, ![R, k]⟩ ⟨2, ![k, h]⟩ ⟨2, ![R, h]⟩) (hD1 : D1 = DotDims.plain R k h)
    (p s : FVec Ideal ⟨2, ![R, k]⟩ .f32) (w1 : FVec Ideal ⟨2, ![k, h]⟩ φ₂)
    (b1 : FVec Ideal ⟨2, ![1, h]⟩ .f32) (hb : (⟨2, ![1, h]⟩ : Shape).Broadcasts ⟨2, ![R, h]⟩)
    (P : Fin n → Fin k → E) (W1 : Fin k → Fin h → E) (B1 : Fin h → E)
    (hp : ∀ l q, p (ix2 (row l) q) = P l q) (hs : ∀ l q, s (ix2 (row l) q) = slope)
    (hw1 : ∀ l j, w1 (ix2 l j) = W1 l j) (hb1 : ∀ j, b1 (ix2 (0 : Fin 1) j) = B1 j) :
    shapeCast ⟨2, ![R, h]⟩ (matmul D none adj (shapeCast ⟨3, ![B, n, h]⟩ (truncf .bf16
        (let y := addf (matmul D1 none (truncf .bf16 (maximumf p (mulf p s))) w1 (constant ⟨2, ![R, h]⟩ .f32 0x00000000#32))
            (broadcastTo ⟨2, ![R, h]⟩ b1 hb)
         maximumf y (mulf y (broadcast ⟨2, ![R, h]⟩ (Scalar.ofBits .f32 0x3C23D70A#32))))) hc1)
        (constant ⟨3, ![B, n, h]⟩ .f32 0x00000000#32)) hc2 (ix2 (row i) j)
      = spread Adj (leaky slope (dense (leaky slope P) W1 B1)) i j :=
  spread_at D hD adj hc1 hc2 Adj b i j row hrow hadj _ _
    fun l => mlp2_at D1 hD1 p s w1 b1 hb P W1 B1 (row l) l (hp l) (hs l) hw1 hb1 j

end Spread

end Cert.KernelIdeal.KV

end
-- ==== Proof.KerPayA.lean ====
import Idealize.ShloMosaic.PureOps.Ideal.Laws
import Idealize.ShloMosaic.Lib.ValueIdx
import Idealize.ShloMosaic.Lib.Pipeline.Value
import Idealize.ShloMosaic.Lib.ValueLayout
import proofs.«144052_g2000204636238536_pallasbulk_491_38_alg».proof.Proof.Gen.KernelIdeal.Skeleton
import proofs.«144052_g2000204636238536_pallasbulk_491_38_alg».proof.Proof.Spec
import proofs.«144052_g2000204636238536_pallasbulk_491_38_alg».proof.Proof.Rows
import proofs.«144052_g2000204636238536_pallasbulk_491_38_alg».proof.Proof.KerLayers

noncomputable section
namespace Cert.KernelIdeal.KV
open Cert.KernelIdeal Cert.KernelIdeal.Gen Cert.Rows Cert.Spec Idealize.ShloMosaic Idealize.ShloMosaic.ValueIdx

variable (A : Args) (T : Fin 2)

theorem pay2_eq (v3 : Vec Ideal S8x256x256 .f32) (g3 : ∀ b n k, v3 (ix3 b n k) = A.node1 (gb T b) n k) :
    ∀ (b : Fin 8) (n : Fin 256) (k : Fin 256), k0_pay2 (F := Ideal) v3 (ix2 (row8 b n) k) = A.node1 (gb T b) n k :=
  fun b n k => (flatten_apply _ _ b n k (row8 b n) rfl).trans (g3 b n k)

theorem pay4_eq (v27 : Vec Ideal S256x256 .f32) (g27 : ∀ k j, v27 (ix2 k j) = A.wf10 k j) :
    ∀ (k : Fin 256) (j : Fin 256), k0_pay4 (F := Ideal) v27 (ix2 k j) = A.wf10 k j := g27

theorem pay5_eq (v29 : Vec Ideal S1x256 .f32) (g29 : ∀ j, v29 (ix2 (0 : Fin 1) j) = A.bf10 j) :
    ∀ (j : Fin 256), k0_pay5 (F := Ideal) v29 (ix2 (0 : Fin 1) j) = A.bf10 j := fun j => (selfCast_apply v29 _ _).trans (g29 j)

theorem pay6_eq (v31 : Vec Ideal S256x128 .f32) (g31 : ∀ k j, v31 (ix2 k j) = A.wf11 k j) :
    ∀ (k : Fin 256) (j : Fin 128), k0_pay6 (F := Ideal) v31 (ix2 k j) = A.wf11 k j := g31

theorem pay8_eq (v48 : Vec Ideal S8x256x256 .f32) (g48 : ∀ b n k, v48 (ix3 b n k) = A.adj0 (gb T b) n k) :
    ∀ (b : Fin 8) (n : Fin 256) (k : Fin 256), k0_pay8 (F := Ideal) v48 (ix3 b n k) = A.adj0 (gb T b) n k := g48

theorem pay9_eq (v50 : Vec Ideal S8x256x256 .f32) (g50 : ∀ b n k, v50 (ix3 b n k) = A.adj1 (gb T b) n k) :
    ∀ (b : Fin 8) (n : Fin 256) (k : Fin 256), k0_pay9 (F := Ideal) v50 (ix3 b n k) = A.adj1 (gb T b) n k := g50

theorem pay10_eq (v52 : Vec Ideal S128x256 .f32) (g52 : ∀ k j, v52 (ix2 k j) = A.wm00 k j) :
    ∀ (k : Fin 128) (j : Fin 256), k0_pay10 (F := Ideal) v52 (ix2 k j) = A.wm00 k j := g52

theorem pay11_eq (v54 : Vec Ideal S256x128 .f32) (g54 : ∀ k j, v54 (ix2 k j) = A.wm01 k j) :
    ∀ (k : Fin 256) (j : Fin 128), k0_pay11 (F := Ideal) v54 (ix2 k j) = A.wm01 k j := g54

theorem pay12_eq (v56 : Vec Ideal S128x256 .f32) (g56 : ∀ k j, v56 (ix2 k j) = A.wm10 k j) :
    ∀ (k : Fin 128) (j : Fin 256), k0_pay12 (F := Ideal) v56 (ix2 k j) = A.wm10 k j := g56

theorem pay13_eq (v58 : Vec Ideal S256x128 .f32) (g58 : ∀ k j, v58 (ix2 k j) = A.wm11 k j) :
    ∀ (k : Fin 256) (j : Fin 128), k0_pay13 (F := Ideal) v58 (ix2 k j) = A.wm11 k j := g58

theorem pay14_eq (v63 : Vec Ideal S1x128 .f32) (g63 : ∀ j, v63 (ix2 (0 : Fin 1) j) = A.bm01 j) :
    ∀ (j : Fin 128), k0_pay14 (F := Ideal) v63 (ix2 (0 : Fin 1) j) = A.bm01 j := fun j => (selfCast_apply v63 _ _).trans (g63 j)

theorem pay16_eq : ∀ (r : Fin 2048) (j : Fin 256), k0_pay16 (F := Ideal) (ix2 r j) = slope := fun _ _ => rfl

-- A two-layer perceptron with both rectifiers, at row 256 b + n, on tables held batch element by batch element.
theorem pay7_at (v5 : FVec Ideal S2048x256 .bf16) (v28 : FVec Ideal S256x256 .bf16) (v30 : FVec Ideal S1x256 .f32)
    (v32 : FVec Ideal S256x128 .bf16) (v33 : Vec Ideal S1x128 .f32)
    (X : Fin 8 → Fin 256 → Fin 256 → E) (W0 : Fin 256 → Fin 256 → E) (B0 : Fin 256 → E) (W1 : Fin 256 → Fin 128 → E)
    (B1 : Fin 128 → E) (g5 : ∀ b n k, v5 (ix2 (row8 b n) k) = X b n k) (g28 : ∀ k j, v28 (ix2 k j) = W0 k j)
    (g30 : ∀ j, v30 (ix2 (0 : Fin 1) j) = B0 j) (g32 : ∀ k j, v32 (ix2 k j) = W1 k j)
    (g33 : ∀ j, v33 (ix2 (0 : Fin 1) j) = B1 j) (b : Fin 8) (n : Fin 256) (j : Fin 128) :
    k0_pay7 (F := Ideal) v5 v28 v30 v32 v33 (ix2 (row8 b n) j) = mlp slope (X b) W0 B0 W1 B1 n j := by
  unfold k0_pay7
  exact mlp2_at dot_S2048x256_S256x128_S2048x128_1_0_0_1_n_n rfl _ _ v32 _ _ (dense (X b) W0 B0) W1 B1 (row8 b n) n
    (fun l => dense_at dot_S2048x256_S256x256_S2048x256_1_0_0_1_n_n rfl v5 v28 (X b) W0 (row8 b n) n (g5 b n) g28 v30 _ B0 g30 l)
    (fun _ => rfl) g32 (fun j => (selfCast_apply v33 _ _).trans (g33 j)) j

theorem pay3_eq (v0 : Vec Ideal S8x256x256 .f32) (v6 : Vec Ideal S256x256 .f32) (v8 : Vec Ideal S1x256 .f32)
    (v10 : Vec Ideal S256x128 .f32) (v12 : Vec Ideal S1x128 .f32)
    (g0 : ∀ b n k, v0 (ix3 b n k) = A.node0 (gb T b) n k) (g6 : ∀ k j, v6 (ix2 k j) = A.wf00 k j)
    (g8 : ∀ j, v8 (ix2 (0 : Fin 1) j) = A.bf00 j) (g10 : ∀ k j, v10 (ix2 k j) = A.wf01 k j)
    (g12 : ∀ j, v12 (ix2 (0 : Fin 1) j) = A.bf01 j) :
    ∀ (b : Fin 8) (n : Fin 256) (j : Fin 128),
      k0_pay3 (F := Ideal) v0 v6 v8 v10 v12 (ix2 (row8 b n) j) = h0 A 0 (gb T b) n j :=
  pay7_at (k0_pay2 v0) (k0_pay4 v6) (k0_pay5 v8) (k0_pay6 v10) v12 (fun b => A.node0 (gb T b)) A.wf00 A.bf00 A.wf01 A.bf01
    (fun b n k => (flatten_apply _ _ b n k (row8 b n) rfl).trans (g0 b n k)) g6
    (fun j => (selfCast_apply v8 _ _).trans (g8 j)) g10 g12

theorem pay7_eq (v5 : FVec Ideal S2048x256 .bf16) (v28 : FVec Ideal S256x256 .bf16) (v30 : FVec Ideal S1x256 .f32)
    (v32 : FVec Ideal S256x128 .bf16) (v33 : Vec Ideal S1x128 .f32)
    (g5 : ∀ b n k, v5 (ix2 (row8 b n) k) = A.node1 (gb T b) n k) (g28 : ∀ k j, v28 (ix2 k j) = A.wf10 k j)
    (g30 : ∀ j, v30 (ix2 (0 : Fin 1) j) = A.bf10 j) (g32 : ∀ k j, v32 (ix2 k j) = A.wf11 k j)
    (g33 : ∀ j, v33 (ix2 (0 : Fin 1) j) = A.bf11 j) :
    ∀ (b : Fin 8) (n : Fin 256) (j : Fin 128),
      k0_pay7 (F := Ideal) v5 v28 v30 v32 v33 (ix2 (row8 b n) j) = h1 A 0 (gb T b) n j :=
  pay7_at v5 v28 v30 v32 v33 (fun b => A.node1 (gb T b)) A.wf10 A.bf10 A.wf11 A.bf11 g5 g28 g30 g32 g33

end Cert.KernelIdeal.KV

end
-- ==== Proof.KerPayB.lean ====
import Idealize.ShloMosaic.Lib.ValueIdx
import Idealize.ShloMosaic.Lib.ValueLayout
import Idealize.ShloMosaic.Lib.Pipeline.Value
import Idealize.ShloMosaic.PureOps.Ideal.Laws
import proofs.«144052_g2000204636238536_pallasbulk_491_38_alg».proof.Proof.Gen.KernelIdeal.Skeleton
import proofs.«144052_g2000204636238536_pallasbulk_491_38_alg».proof.Proof.Spec
import proofs.«144052_g2000204636238536_pallasbulk_491_38_alg».proof.Proof.Rows
import proofs.«144052_g2000204636238536_pallasbulk_491_38_alg».proof.Proof.KerLayers

noncomputable section

namespace Cert.KernelIdeal.KV

open Cert.KernelIdeal Cert.KernelIdeal.Gen Cert.Rows Cert.Spec Idealize.ShloMosaic Idealize.ShloMosaic.ValueIdx

variable (A : Args) (T : Fin 2)

theorem pay19_eq (v107 : Vec Ideal S1x256 .f32) (g107 : ∀ j, v107 (ix2 (0 : Fin 1) j) = A.bm00 j) :
    ∀ j : Fin 256, k0_pay19 (F := Ideal) v107 (ix2 (0 : Fin 1) j) = A.bm00 j := fun j => (selfCast_apply v107 _ _).trans (g107 j)

theorem pay20_eq (v109 : Vec Ideal S1x128 .f32) (g109 : ∀ j, v109 (ix2 (0 : Fin 1) j) = A.bm01 j) :
    ∀ j : Fin 128, k0_pay20 (F := Ideal) v109 (ix2 (0 : Fin 1) j) = A.bm01 j := fun j => (selfCast_apply v109 _ _).trans (g109 j)

theorem pay25_eq (v153 : Vec Ideal S1x256 .f32) (g153 : ∀ j, v153 (ix2 (0 : Fin 1) j) = A.bm00 j) :
    ∀ j : Fin 256, k0_pay25 (F := Ideal) v153 (ix2 (0 : Fin 1) j) = A.bm00 j := fun j => (selfCast_apply v153 _ _).trans (g153 j)

-- One message step at row 256 b + n, given the first layer's sums plus bias p; every later step is this one on other operands.
theorem pay17_at (prev : FVec Ideal S2048x128 .f32) (adj : FVec Ideal S8x256x256 .bf16) (w1 : FVec Ideal S256x128 .bf16)
    (b1 : FVec Ideal S1x128 .f32) (p s : FVec Ideal S2048x256 .f32)
    (Hp : Fin 8 → Fin 256 → Fin 128 → E) (a P : Fin 8 → Fin 256 → Fin 256 → E) (W1 : Fin 256 → Fin 128 → E) (B1 : Fin 128 → E)
    (gprev : ∀ b n j, prev (ix2 (row8 b n) j) = Hp b n j) (gadj : ∀ b n k, adj (ix3 b n k) = a b n k)
    (gw1 : ∀ k j, w1 (ix2 k j) = W1 k j) (gb1 : ∀ j, b1 (ix2 (0 : Fin 1) j) = B1 j)
    (gp : ∀ b n k, p (ix2 (row8 b n) k) = P b n k) (gs : ∀ r k, s (ix2 r k) = slope) (b : Fin 8) (n : Fin 256) (j : Fin 128) :
    k0_pay17 (F := Ideal) prev adj w1 b1 p s (ix2 (row8 b n) j)
      = Hp b n j + spread (a b) (leaky slope (dense (leaky slope (P b)) W1 B1)) n j := by
  unfold k0_pay17
  show prev _ + _ = _
  exact congrArg₂ (· + ·) (gprev b n j) (msg_at dot_S8x256x256_S8x256x128_S8x256x128_2_1_1_2_0_0 rfl adj _ _ (a b) b n j (row8 b) (fun _ => rfl) (gadj b n)
    dot_S2048x256_S256x128_S2048x128_1_0_0_1_n_n rfl p s w1 b1 _ (P b) W1 B1 (gp b) (fun _ _ => gs _ _) gw1 gb1)

section G0
variable (v49 : FVec Ideal S8x256x256 .bf16) (v53 : FVec Ideal S128x256 .bf16) (v55 : FVec Ideal S256x128 .bf16)
  (g49 : ∀ b n k, v49 (ix3 b n k) = A.adj0 (gb T b) n k) (g53 : ∀ k j, v53 (ix2 k j) = A.wm00 k j)
  (g55 : ∀ k j, v55 (ix2 k j) = A.wm01 k j)

theorem pay15_eq (v26 : FVec Ideal S2048x128 .f32) (v52 : Vec Ideal S128x256 .f32) (v61 : Vec Ideal S1x256 .f32)
    (g26 : ∀ b n j, v26 (ix2 (row8 b n) j) = h0 A 0 (gb T b) n j) (g52 : ∀ k j, v52 (ix2 k j) = A.wm00 k j)
    (g61 : ∀ j, v61 (ix2 (0 : Fin 1) j) = A.bm00 j) :
    ∀ (b : Fin 8) (n : Fin 256) (j : Fin 256),
      k0_pay15 (F := Ideal) v26 v52 v61 (ix2 (row8 b n) j) = dense (h0 A 0 (gb T b)) A.wm00 A.bm00 n j := by
  intro b n j
  unfold k0_pay15
  exact dense_at dot_S2048x128_S128x256_S2048x256_1_0_0_1_n_n rfl (φ₁ := .bf16) (φ₂ := .bf16) _ _ (h0 A 0 (gb T b)) A.wm00 (row8 b n) n (g26 b n) g52 _ _ A.bm00
    (fun j => (selfCast_apply v61 _ _).trans (g61 j)) j

include g49 g55

theorem pay17_eq (v26 : FVec Ideal S2048x128 .f32) (v64 : FVec Ideal S1x128 .f32) (v67 v68 : FVec Ideal S2048x256 .f32)
    (g26 : ∀ b n j, v26 (ix2 (row8 b n) j) = h0 A 0 (gb T b) n j) (g64 : ∀ j, v64 (ix2 (0 : Fin 1) j) = A.bm01 j)
    (g67 : ∀ b n j, v67 (ix2 (row8 b n) j) = dense (h0 A 0 (gb T b)) A.wm00 A.bm00 n j)
    (g68 : ∀ r j, v68 (ix2 r j) = slope) :
    ∀ (b : Fin 8) (n : Fin 256) (j : Fin 128),
      k0_pay17 (F := Ideal) v26 v49 v55 v64 v67 v68 (ix2 (row8 b n) j) = h0 A 1 (gb T b) n j :=
  pay17_at v26 v49 v55 v64 v67 v68 _ _ _ _ _ g26 g49 g55 g64 g67 g68

-- The second step's first product, taken ahead of its bias row.
theorem pay21_eq (v26 : FVec Ideal S2048x128 .f32) (v64 : FVec Ideal S1x128 .f32) (v67 v68 : FVec Ideal S2048x256 .f32)
    (g26 : ∀ b n j, v26 (ix2 (row8 b n) j) = h0 A 0 (gb T b) n j) (g64 : ∀ j, v64 (ix2 (0 : Fin 1) j) = A.bm01 j)
    (g67 : ∀ b n j, v67 (ix2 (row8 b n) j) = dense (h0 A 0 (gb T b)) A.wm00 A.bm00 n j)
    (g68 : ∀ r j, v68 (ix2 r j) = slope) (g53 : ∀ k j, v53 (ix2 k j) = A.wm00 k j) :
    ∀ (b : Fin 8) (n : Fin 256) (j : Fin 256),
      k0_pay21 (F := Ideal) v26 v49 v53 v55 v64 v67 v68 (ix2 (row8 b n) j) = ∑ l : Fin 128, h0 A 1 (gb T b) n l * A.wm00 l j := by
  intro b n j
  unfold k0_pay21
  exact matmul_at dot_S2048x128_S128x256_S2048x256_1_0_0_1_n_n rfl (φ₁ := .bf16) _ v53 (h0 A 1 (gb T b)) A.wm00 (row8 b n) n
    (pay17_eq A T v49 v55 g49 g55 v26 v64 v67 v68 g26 g64 g67 g68 b n) g53 j

-- A later step of graph 0 on the table after s steps: the table for the sum, the first layer's sums plus bias computed apart.
theorem step0_at (s : ℕ) (prev : FVec Ideal S2048x128 .f32) (b1 : FVec Ideal S1x128 .f32) (p : FVec Ideal S2048x256 .f32)
    (gprev : ∀ b n j, prev (ix2 (row8 b n) j) = h0 A s (gb T b) n j) (gb1 : ∀ j, b1 (ix2 (0 : Fin 1) j) = A.bm01 j)
    (gp : ∀ b n k, p (ix2 (row8 b n) k) = dense (h0 A s (gb T b)) A.wm00 A.bm00 n k) :
    ∀ (b : Fin 8) (n : Fin 256) (j : Fin 128),
      k0_pay17 (F := Ideal) prev v49 v55 b1 p k0_pay16 (ix2 (row8 b n) j) = h0 A (s + 1) (gb T b) n j :=
  pay17_at prev v49 v55 b1 p k0_pay16 _ _ _ _ _ gprev g49 g55 gb1 gp fun _ _ => rfl

theorem pay22_eq (v103 : FVec Ideal S2048x128 .f32) (v108 : FVec Ideal S1x256 .f32) (v110 : FVec Ideal S1x128 .f32)
    (v111 : FVec Ideal S2048x256 .f32) (g103 : ∀ b n j, v103 (ix2 (row8 b n) j) = h0 A 1 (gb T b) n j)
    (g108 : ∀ j, v108 (ix2 (0 : Fin 1) j) = A.bm00 j) (g110 : ∀ j, v110 (ix2 (0 : Fin 1) j) = A.bm01 j)
    (g111 : ∀ b n j, v111 (ix2 (row8 b n) j) = ∑ l : Fin 128, h0 A 1 (gb T b) n l * A.wm00 l j) :
    ∀ (b : Fin 8) (n : Fin 256) (j : Fin 128),
      k0_pay22 (F := Ideal) v49 v55 v103 v108 v110 v111 (ix2 (row8 b n) j) = h0 A 2 (gb T b) n j :=
  step0_at A T v49 v55 g49 g55 1 v103 v110 (addf v111 (broadcastTo S2048x256 v108 broadcasts_S1x256_S2048x256)) g103 g110
    fun b n k => by rw [addf_apply, broadcastTo_1b_ab_apply, g111, g108]; rfl

include g53

-- Steps three and four: the table arrives twice, once narrowed for the product.
theorem pay26_at (s : ℕ) (v149 : FVec Ideal S2048x128 .f32) (v152 : FVec Ideal S2048x128 .bf16) (v154 : FVec Ideal S1x256 .f32)
    (v155 : Vec Ideal S1x128 .f32) (g149 : ∀ b n j, v149 (ix2 (row8 b n) j) = h0 A s (gb T b) n j)
    (g152 : ∀ b n j, v152 (ix2 (row8 b n) j) = h0 A s (gb T b) n j)
    (g154 : ∀ j, v154 (ix2 (0 : Fin 1) j) = A.bm00 j) (g155 : ∀ j, v155 (ix2 (0 : Fin 1) j) = A.bm01 j) :
    ∀ (b : Fin 8) (n : Fin 256) (j : Fin 128),
      k0_pay26 (F := Ideal) v49 v53 v55 v149 v152 v154 v155 (ix2 (row8 b n) j) = h0 A (s + 1) (gb T b) n j :=
  step0_at A T v49 v55 g49 g55 s v149 (shapeCast S1x128 v155 shapeCasts_S1x128_S1x128) _ g149
    (fun j => (selfCast_apply v155 _ _).trans (g155 j))
    fun b n k => dense_at dot_S2048x128_S128x256_S2048x256_1_0_0_1_n_n rfl v152 v53 (h0 A s (gb T b)) A.wm00 (row8 b n) n (g152 b n) g53 v154 _ A.bm00 g154 k

end G0

section G1
variable (v51 : FVec Ideal S8x256x256 .bf16) (v57 : FVec Ideal S128x256 .bf16) (v59 : FVec Ideal S256x128 .bf16)
  (g51 : ∀ b n k, v51 (ix3 b n k) = A.adj1 (gb T b) n k) (g57 : ∀ k j, v57 (ix2 k j) = A.wm10 k j)
  (g59 : ∀ k j, v59 (ix2 k j) = A.wm11 k j)
  (s : ℕ) (v47 : FVec Ideal S2048x128 .f32) (v80 : Vec Ideal S1x256 .f32) (v82 : Vec Ideal S1x128 .f32)
  (g47 : ∀ b n j, v47 (ix2 (row8 b n) j) = h1 A s (gb T b) n j) (g80 : ∀ j, v80 (ix2 (0 : Fin 1) j) = A.bm10 j)
  (g82 : ∀ j, v82 (ix2 (0 : Fin 1) j) = A.bm11 j)
include g51 g57 g59 g47 g80 g82

-- Graph 1's message on the table after s steps.
theorem pay30_eq : ∀ (b : Fin 8) (n : Fin 256) (j : Fin 128),
    k0_pay30 (F := Ideal) v51 v57 v59 v47 v80 v82 (ix2 (row8 b n) j)
      = spread (A.adj1 (gb T b)) (mlp slope (h1 A s (gb T b)) A.wm10 A.bm10 A.wm11 A.bm11) n j := by
  intro b n j
  unfold k0_pay30
  exact msg_at dot_S8x256x256_S8x256x128_S8x256x128_2_1_1_2_0_0 rfl v51 _ _ (A.adj1 (gb T b)) b n j (row8 b) (fun _ => rfl) (g51 b n)
    dot_S2048x256_S256x128_S2048x128_1_0_0_1_n_n rfl _ _ v59 _ _ (dense (h1 A s (gb T b)) A.wm10 A.bm10) A.wm11 A.bm11
    (fun l k => dense_at dot_S2048x128_S128x256_S2048x256_1_0_0_1_n_n rfl (φ₁ := .bf16) _ v57 (h1 A s (gb T b)) A.wm10 (row8 b l) l (g47 b l) g57 _ _ A.bm10
      (fun j => (selfCast_apply v80 _ _).trans (g80 j)) k)
    (fun _ _ => rfl) g59 (fun j => (selfCast_apply v82 _ _).trans (g82 j))

-- Graph 1's step: the table plus that message. The kernel's three full steps of graph 1 are this one function.
theorem pay18_eq : ∀ (b : Fin 8) (n : Fin 256) (j : Fin 128),
    k0_pay18 (F := Ideal) v47 v51 v57 v59 v80 v82 (ix2 (row8 b n) j) = h1 A (s + 1) (gb T b) n j := by
  intro b n j
  show v47 _ + k0_pay30 (F := Ideal) v51 v57 v59 v47 v80 v82 _ = h1 A s (gb T b) n j + _
  rw [g47, pay30_eq A T v51 v57 v59 g51 g57 g59 s v47 v80 v82 g47 g80 g82]

end G1

end Cert.KernelIdeal.KV

end
-- ==== Proof.KerPayC.lean ====
import Idealize.ShloMosaic.Lib.ValueIdx
import Idealize.ShloMosaic.Lib.ValueLayout
import Idealize.ShloMosaic.PureOps.Ideal.Laws
import proofs.«144052_g2000204636238536_pallasbulk_491_38_alg».proof.Proof.Gen.KernelIdeal.Skeleton
import proofs.«144052_g2000204636238536_pallasbulk_491_38_alg».proof.Proof.Spec
import proofs.«144052_g2000204636238536_pallasbulk_491_38_alg».proof.Proof.Rows
import proofs.«144052_g2000204636238536_pallasbulk_491_38_alg».proof.Proof.KerLayers
import proofs.«144052_g2000204636238536_pallasbulk_491_38_alg».proof.Proof.KerPayA

noncomputable section

namespace Cert.KernelIdeal.KV.Tail

open Cert.KernelIdeal Cert.KernelIdeal.Gen Cert.Rows Idealize.ShloMosaic Idealize.ShloMosaic.ValueIdx

section Layout
variable {α : Type}

theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

theorem lanes_left {a p q N : ℕ} (x₁ : (⟨2, ![a, p]⟩ : Shape).Idx → α) (x₂ : (⟨2, ![a, q]⟩ : Shape).Idx → α)
    (h : Shape.Concatenates [⟨2, ![a, p]⟩, ⟨2, ![a, q]⟩] ⟨2, ![a, N]⟩ 1) (b : Fin a) (s : Fin N) (hs : s.val < p) :
    concatenate ⟨2, ![a, N]⟩ 1 [⟨⟨2, ![a, p]⟩, x₁⟩, ⟨⟨2, ![a, q]⟩, x₂⟩] h (ix2 b s) = x₁ (ix2 b ⟨s.val, hs⟩) :=
  concatenate_pair_apply_left 1 x₁ x₂ h (ix2 b s) rfl (ix2 b ⟨s.val, hs⟩) (fun c => by
    match c with
    | ⟨0, _⟩ => rfl
    | ⟨1, _⟩ => rfl)

theorem lanes_right {a p q N : ℕ} (x₁ : (⟨2, ![a, p]⟩ : Shape).Idx → α) (x₂ : (⟨2, ![a, q]⟩ : Shape).Idx → α)
    (h : Shape.Concatenates [⟨2, ![a, p]⟩, ⟨2, ![a, q]⟩] ⟨2, ![a, N]⟩ 1) (b : Fin a) (s : Fin N) (t : Fin q)
    (hs : t.val + p = s.val) :
    concatenate ⟨2, ![a, N]⟩ 1 [⟨⟨2, ![a, p]⟩, x₁⟩, ⟨⟨2, ![a, q]⟩, x₂⟩] h (ix2 b s) = x₂ (ix2 b t) :=
  concatenate_pair_apply_right 1 x₁ x₂ h (ix2 b s) rfl rfl (ix2 b t) (fun c hc => by
    match c with
    | ⟨0, _⟩ => rfl
    | ⟨1, _⟩ => exact absurd rfl hc) hs

end Layout

theorem rowMax_apply {a n : ℕ} (x : FVec Ideal ⟨2, ![a, n]⟩ .f32) (h : (⟨2, ![a, n]⟩ : Shape).Reduces [1] ⟨1, ![a]⟩)
    (hφ : FKind.Formats .f32) (hacc : (0xFF800000#32 : BitVec 32) = 0xFF800000#32) (b : Fin a) :
    multiReduction .maximumf [1] ⟨1, ![a]⟩ x 0xFF800000#32 h hφ hacc (ix1 b)
      = (Finset.univ : Finset (Fin n)).fold max (Ideal.ofBits .f32 0xFF800000#32) (fun s => x (ix2 b s)) := by
  refine (Ideal.multiReduction_maximumf_single x _ h hφ hacc (ix1 b)).trans ?_
  have hl : (x ∘ h.lift (ix1 b)) = fun s : Fin n => x (ix2 b s) :=
    funext fun s => congrArg x (funext fun c => Fin.ext (by
      match c with
      | ⟨0, _⟩ => rfl
      | ⟨1, _⟩ => rfl))
  rw [hl]; rfl

theorem rowSum_apply {a n : ℕ} (x : FVec Ideal ⟨2, ![a, n]⟩ .f32) (h : (⟨2, ![a, n]⟩ : Shape).Reduces [1] ⟨1, ![a]⟩)
    (hφ : FKind.Formats .f32) (hacc : (0x00000000#32 : BitVec 32) = 0x00000000#32) (b : Fin a) :
    multiReduction .add [1] ⟨1, ![a]⟩ x 0x00000000#32 h hφ hacc (ix1 b) = ∑ s : Fin n, x (ix2 b s) := by
  refine (Ideal.multiReduction_add_single x _ h hφ hacc (ix1 b)).trans ?_
  exact Finset.sum_congr rfl fun s _ => congrArg x (funext fun c => Fin.ext (by
    match c with
    | ⟨0, _⟩ => rfl
    | ⟨1, _⟩ => rfl))

theorem midSum_apply {a m n : ℕ} (x : FVec Ideal ⟨3, ![a, m, n]⟩ .f32)
    (h : (⟨3, ![a, m, n]⟩ : Shape).Reduces [1] ⟨2, ![a, n]⟩)
    (hφ : FKind.Formats .f32) (hacc : (0x00000000#32 : BitVec 32) = 0x00000000#32) (b : Fin a) (j : Fin n) :
    multiReduction .add [1] ⟨2, ![a, n]⟩ x 0x00000000#32 h hφ hacc (ix2 b j) = ∑ s : Fin m, x (ix3 b s j) := by
  refine (Ideal.multiReduction_add_single x _ h hφ hacc (ix2 b j)).trans ?_
  exact Finset.sum_congr rfl fun s _ => congrArg x (funext fun c => Fin.ext (by
    match c with
    | ⟨0, _⟩ => rfl
    | ⟨1, _⟩ => rfl
    | ⟨2, _⟩ => rfl))

def rowMaxB (x : FVec Ideal S8x129 .f32) : FVec Ideal S8x129 .f32 :=
  broadcastTo S8x129 (shapeCast S8x1 (multiReduction .maximumf [1] S8 x 0xFF800000#32 reduces_S8x129_S8 (.inl rfl) rfl)
    shapeCasts_S8_S8x1) broadcasts_S8x1_S8x129

theorem rowMaxB_apply (x : FVec Ideal S8x129 .f32) (b : Fin 8) (c : Fin 129) :
    rowMaxB x (ix2 b c) = (Finset.univ : Finset (Fin 129)).fold max Cert.Spec.negInf (fun s => x (ix2 b s)) := by
  unfold rowMaxB
  rw [broadcastTo_a1_ab_apply, shapeCast_a_a1_apply, rowMax_apply]
  rfl

def rowLseB (y : FVec Ideal S8x129 .f32) : FVec Ideal S8x129 .f32 :=
  broadcastTo S8x129 (log (shapeCast S8x1 (multiReduction .add [1] S8 (exp y) 0x00000000#32 reduces_S8x129_S8 (.inl rfl) rfl)
    shapeCasts_S8_S8x1)) broadcasts_S8x1_S8x129

theorem rowLseB_apply (y : FVec Ideal S8x129 .f32) (b : Fin 8) (c : Fin 129) :
    rowLseB y (ix2 b c) = Ideal.log (∑ k : Fin 129, Ideal.exp (y (ix2 b k))) := by
  unfold rowLseB
  rw [broadcastTo_a1_ab_apply]
  show Ideal.log (shapeCast S8x1 (multiReduction .add [1] S8 (exp y) 0x00000000#32 reduces_S8x129_S8 (.inl rfl) rfl)
    shapeCasts_S8_S8x1 (ix2 b (0 : Fin 1))) = _
  rw [shapeCast_a_a1_apply, rowSum_apply]
  rfl

def lsmBlock (x : FVec Ideal S8x129 .f32) : FVec Ideal S8x129 .f32 :=
  subf (subf x (rowMaxB x)) (rowLseB (subf x (rowMaxB x)))

theorem lsmBlock_apply (x : FVec Ideal S8x129 .f32) (b : Fin 8) (s : Fin 129) :
    lsmBlock x (ix2 b s) = Cert.Spec.lsm (fun s => x (ix2 b s)) s := by
  unfold lsmBlock Cert.Spec.lsm
  rw [subf_apply, subf_apply, rowLseB_apply, rowMaxB_apply]
  simp only [subf_apply, rowMaxB_apply]

def maskTerm (v : Vec Ideal S8x129 .f32) : FVec Ideal S8x129 .f32 :=
  select (cmpf .ogt v (broadcast S8x129 (Scalar.ofBits (F := Ideal) .f32 0x3F000000#32)))
    (broadcast S8x129 (Scalar.ofBits (F := Ideal) .f32 0x00000000#32))
    (broadcast S8x129 (Scalar.ofBits (F := Ideal) .f32 0xC2CF3B8F#32))

theorem maskTerm_apply (v : Vec Ideal S8x129 .f32) (i : S8x129.Idx) :
    maskTerm v i = Scalar.select (Ideal.cmp .ogt (v i) Cert.Spec.half) Cert.Spec.zero Cert.Spec.logEps := rfl

end Cert.KernelIdeal.KV.Tail

namespace Cert.KernelIdeal.KV

open Cert.KernelIdeal Cert.KernelIdeal.Gen Cert.Rows Cert.Spec Idealize.ShloMosaic Idealize.ShloMosaic.ValueIdx
open Cert.KernelIdeal.KV.Tail

variable (A : Args) (T : Fin 2)

theorem pay31_eq (v275 : Vec Ideal S256x128 .f32) (g275 : ∀ k j, v275 (ix2 k j) = A.wo1 k j) :
    ∀ (k : Fin 256) (j : Fin 128), k0_pay31 (F := Ideal) v275 (ix2 k j) = A.wo1 k j := g275

theorem pay32_eq (v277 : Vec Ideal S1x128 .f32) (g277 : ∀ j, v277 (ix2 (0 : Fin 1) j) = A.bo1 j) :
    ∀ (j : Fin 128), k0_pay32 (F := Ideal) v277 (ix2 (0 : Fin 1) j) = A.bo1 j := fun j => (selfCast_apply v277 _ _).trans (g277 j)

-- The merge perceptron is the feature perceptron's function on the two tables side by side; then the first output layer.
theorem pay33_eq (v197 v241 v242 : FVec Ideal S2048x128 .f32)
    (v246 : Vec Ideal S256x256 .f32) (v248 : Vec Ideal S1x256 .f32) (v250 : Vec Ideal S256x128 .f32)
    (v252 : Vec Ideal S1x128 .f32) (v271 : Vec Ideal S128x256 .f32) (v273 : Vec Ideal S1x256 .f32)
    (g197 : ∀ b n j, v197 (ix2 (row8 b n) j) = h1 A 3 (gb T b) n j)
    (g241 : ∀ b n j, v241 (ix2 (row8 b n) j) = h0 A 4 (gb T b) n j)
    (g242 : ∀ b n j, v242 (ix2 (row8 b n) j)
      = spread (A.adj1 (gb T b)) (mlp slope (h1 A 3 (gb T b)) A.wm10 A.bm10 A.wm11 A.bm11) n j)
    (g246 : ∀ k j, v246 (ix2 k j) = A.wg0 k j) (g248 : ∀ j, v248 (ix2 (0 : Fin 1) j) = A.bg0 j)
    (g250 : ∀ k j, v250 (ix2 k j) = A.wg1 k j) (g252 : ∀ j, v252 (ix2 (0 : Fin 1) j) = A.bg1 j)
    (g271 : ∀ k j, v271 (ix2 k j) = A.wo0 k j) (g273 : ∀ j, v273 (ix2 (0 : Fin 1) j) = A.bo0 j) :
    ∀ (b : Fin 8) (s : Fin 128) (j : Fin 256),
      k0_pay33 (F := Ideal) v197 v241 v242 v246 v248 v250 v252 v271 v273 (ix2 (srow8 b s) j)
        = dense (fun (s : Fin 128) j => gcn A (gb T b) ⟨s.val, by omega⟩ j) A.wo0 A.bo0 s j := by
  intro b s j
  unfold k0_pay33
  refine dense_at dot_S1024x128_S128x256_S1024x256_1_0_0_1_n_n rfl (φ₁ := .bf16) (φ₂ := .bf16) _ _
    (fun (s : Fin 128) j => gcn A (gb T b) ⟨s.val, by omega⟩ j) A.wo0 (srow8 b s) s (fun l => ?_) g271 _ _ A.bo0
    (fun j => (selfCast_apply _ _ _).trans (g273 j)) j
  rw [truncf_apply, flatten_apply _ _ b s l (srow8 b s) rfl,
    slice3_axis1_apply 0 _ _ b s l (⟨s.val, by omega⟩ : Fin 256) (Nat.zero_add _).symm,
    unflatten_apply _ _ b (⟨s.val, by omega⟩ : Fin 256) l (row8 b ⟨s.val, by omega⟩) rfl]
  refine pay7_at _ _ _ _ v252 (fun b => side (N := 256) (by norm_num) (h0 A 4 (gb T b)) (h1 A 4 (gb T b)))
    A.wg0 A.bg0 A.wg1 A.bg1 (fun b n p => ?_) g246 (fun j => (selfCast_apply _ _ _).trans (g248 j)) g250 g252
    b ⟨s.val, by omega⟩ l
  rw [truncf_apply]
  unfold side
  by_cases hp : p.val < 128
  · rw [lanes_left _ _ _ (row8 b n) p hp, g241, dif_pos hp]
  · rw [lanes_right _ _ _ (row8 b n) p (⟨p.val - 128, by omega⟩ : Fin 128)
      (by show p.val - 128 + 128 = p.val; omega), addf_apply, g197, g242, dif_neg hp]
    rfl

section Out
variable (v276 : FVec Ideal S256x128 .bf16) (v278 : FVec Ideal S1x128 .f32) (v281 : FVec Ideal S1024x256 .f32)
  (g276 : ∀ k j, v276 (ix2 k j) = A.wo1 k j) (g278 : ∀ j, v278 (ix2 (0 : Fin 1) j) = A.bo1 j)
  (g281 : ∀ b s j, v281 (ix2 (srow8 b s) j)
    = dense (fun (s : Fin 128) j => gcn A (gb T b) ⟨s.val, by omega⟩ j) A.wo0 A.bo0 s j)
include g276 g278 g281

-- The output perceptron from its first layer's sums plus bias on.
theorem pay34_eq : ∀ (b : Fin 8) (s : Fin 128) (j : Fin 128),
    k0_pay34 (F := Ideal) v276 v278 v281 (ix2 (srow8 b s) j) = sw A (gb T b) s j := by
  intro b s j
  unfold k0_pay34
  exact mlp2_at dot_S1024x256_S256x128_S1024x128_1_0_0_1_n_n rfl v281 _ v276 v278 _
    (dense (fun (s : Fin 128) j => gcn A (gb T b) ⟨s.val, by omega⟩ j) A.wo0 A.bo0) A.wo1 A.bo1 (srow8 b s) s
    (g281 b s) (fun _ => rfl) g276 g278 j

theorem pay35_eq (v293 : Vec Ideal S128x256 .f32) (v296 : Vec Ideal S1x256 .f32) (v303 : Vec Ideal S256x1 .f32)
    (v306 : Vec Ideal S1x1 .f32) (g293 : ∀ k j, v293 (ix2 k j) = A.wp0 k j) (g296 : ∀ j, v296 (ix2 (0 : Fin 1) j) = A.bp0 j)
    (g303 : ∀ k, v303 (ix2 k (0 : Fin 1)) = A.wp1 k 0) (g306 : v306 (ix2 (0 : Fin 1) (0 : Fin 1)) = A.bp1 0) :
    ∀ (b : Fin 8) (s : Fin 128),
      k0_pay35 (F := Ideal) v276 v278 v281 v293 v296 v303 v306 (ix2 (srow8 b s) (0 : Fin 1)) = sp A (gb T b) s := by
  intro b s
  unfold k0_pay35
  refine dense_at dot_S1024x256_S256x1_S1024x1_1_0_0_1_n_n rfl (φ₁ := .f32) (φ₂ := .bf16) _ _ (leaky slope (dense (sw A (gb T b)) A.wp0 A.bp0)) A.wp1
    (srow8 b s) s (fun l => ?_) (fun k j => by obtain rfl : j = 0 := Subsingleton.elim _ _; exact g303 k) _ _ A.bp1
    (fun j => by obtain rfl : j = 0 := Subsingleton.elim _ _; exact (selfCast_apply _ _ _).trans g306) 0
  exact leaky_at _ _ _ _ (srow8 b s) s l (dense_at dot_S1024x128_S128x256_S1024x256_1_0_0_1_n_n rfl (φ₁ := .bf16) (φ₂ := .bf16) _ _ (sw A (gb T b)) A.wp0
    (srow8 b s) s (pay34_eq A T v276 v278 v281 g276 g278 g281 b s) g293 _ _ A.bp0
    (fun j => (selfCast_apply _ _ _).trans (g296 j)) l) rfl

theorem pay36_eq (v312 : Vec Ideal S128x256 .f32) (v314 : Vec Ideal S1x256 .f32)
    (g312 : ∀ k j, v312 (ix2 k j) = A.wa0 k j) (g314 : ∀ j, v314 (ix2 (0 : Fin 1) j) = A.ba0 j) :
    ∀ (b : Fin 8) (j : Fin 256),
      k0_pay36 (F := Ideal) v276 v278 v281 v312 v314 (ix2 b j) = leaky slope (dense (agg A (gb T b)) A.wa0 A.ba0) 0 j := by
  intro b j
  unfold k0_pay36
  refine leaky_at _ _ _ _ b (0 : Fin 1) j (dense_at dot_S8x128_S128x256_S8x256_1_0_0_1_n_n rfl (φ₁ := .f32) (φ₂ := .f32) _ _ (agg A (gb T b)) A.wa0
    b (0 : Fin 1) (fun l => ?_) g312 _ _ A.ba0 (fun j => (selfCast_apply _ _ _).trans (g314 j)) j) rfl
  rw [midSum_apply]
  exact Finset.sum_congr rfl fun s _ => (unflatten_apply _ _ b s l (srow8 b s) rfl).trans
    (pay34_eq A T v276 v278 v281 g276 g278 g281 b s l)

end Out

section Heads
variable (v309 : FVec Ideal S1024x1 .f32) (v320 : FVec Ideal S8x256 .f32) (v321 : Vec Ideal S256x1 .f32) (v323 : Vec Ideal S1x1 .f32)
  (g309 : ∀ b s, v309 (ix2 (srow8 b s) (0 : Fin 1)) = sp A (gb T b) s)
  (g320 : ∀ b j, v320 (ix2 b j) = leaky slope (dense (agg A (gb T b)) A.wa0 A.ba0) 0 j)
  (g321 : ∀ k, v321 (ix2 k (0 : Fin 1)) = A.wa1 k 0) (g323 : v323 (ix2 (0 : Fin 1) (0 : Fin 1)) = A.ba1 0)
include g309 g320 g321 g323

theorem pay37_eq : ∀ (b : Fin 8) (s : Fin 129), k0_pay37 (F := Ideal) v309 v320 v321 v323 (ix2 b s) = pv A (gb T b) s := by
  intro b s
  unfold k0_pay37 pv
  by_cases hs : s.val < 128
  · rw [lanes_left _ _ _ b s hs, shapeCast_apply v309 _ (ix2 b (⟨s.val, hs⟩ : Fin 128)) (ix2 (srow8 b ⟨s.val, hs⟩) (0 : Fin 1)) (by
      rw [Shape.rowMajor_val_two, Shape.rowMajor_val_two]
      show (b.val * 128 + s.val) * 1 + 0 = b.val * 128 + s.val
      omega), g309, dif_pos hs]
  · rw [lanes_right _ _ _ b s (0 : Fin 1) (by show 0 + 128 = s.val; have := s.isLt; omega), addf_apply,
      plain_matmul_apply dot_S8x256_S256x1_S8x1_1_0_0_1_n_n rfl (φ₁ := .f32) (φ₂ := .f32), broadcastTo_1b_ab_apply, selfCast_apply, g323, dif_neg hs]
    simp only [g320, g321]
    rfl

theorem pay38_eq : ∀ (b : Fin 8) (s : Fin 129), k0_pay38 (F := Ideal) v309 v320 v321 v323 (ix2 b s) = logPi A (gb T b) s := by
  intro b s
  show lsmBlock (k0_pay37 (F := Ideal) v309 v320 v321 v323) (ix2 b s) = _
  rw [lsmBlock_apply]
  exact congrArg (fun f => lsm f s) (funext (pay37_eq A T v309 v320 v321 v323 g309 g320 g321 g323 b))

theorem pay39_eq (v339 : Vec Ideal S8x129 .f32) (g339 : ∀ b s, v339 (ix2 b s) = A.mask (gb T b) s) :
    ∀ (b : Fin 8) (s : Fin 129), k0_pay39 (F := Ideal) v309 v320 v321 v323 v339 (ix2 b s) = mlogPi A (gb T b) s := by
  intro b s
  show lsmBlock (addf (k0_pay37 (F := Ideal) v309 v320 v321 v323) (maskTerm v339)) (ix2 b s) = _
  rw [lsmBlock_apply]
  refine congrArg (fun f => lsm f s) (funext fun s' => ?_)
  rw [addf_apply, pay37_eq A T v309 v320 v321 v323 g309 g320 g321 g323 b s', maskTerm_apply, g339]
  rfl

theorem pay40_eq : ∀ (b : Fin 8) (s : Fin 129), k0_pay40 (F := Ideal) v309 v320 v321 v323 (ix2 b s) = pi A (gb T b) s :=
  fun b s => congrArg Ideal.exp (pay38_eq A T v309 v320 v321 v323 g309 g320 g321 g323 b s)

end Heads

theorem pay1_eq (v355 : FVec Ideal S8x129 .f32) (g355 : ∀ b s, v355 (ix2 b s) = mlogPi A (gb T b) s) :
    ∀ (b : Fin 8) (s : Fin 129), k0_pay1 (F := Ideal) v355 (ix2 b s) = mpi A (gb T b) s :=
  fun b s => congrArg Ideal.exp (g355 b s)

end Cert.KernelIdeal.KV

end
-- ==== Proof.KerValueBody.lean ====
import proofs.«144052_g2000204636238536_pallasbulk_491_38_alg».proof.Proof.KernelIdealFrameP
import proofs.«144052_g2000204636238536_pallasbulk_491_38_alg».proof.Proof.KerPayA
import proofs.«144052_g2000204636238536_pallasbulk_491_38_alg».proof.Proof.KerPayB
import proofs.«144052_g2000204636238536_pallasbulk_491_38_alg».proof.Proof.KerPayC
import Idealize.ShloMosaic.Lib.Pipeline.Value

noncomputable section

namespace Cert.KernelIdeal.KV

open Cert.KernelIdeal Cert.KernelIdeal.Gen Cert.Rows Idealize.ShloMosaic Idealize.ShloMosaic.ValueIdx

theorem hz2 : (![0, 0] : Fin 2 → Nat) = fun _ => 0 := funext fun a => by fin_cases a <;> rfl
theorem hz3 : (![0, 0, 0] : Fin 3 → Nat) = fun _ => 0 := funext fun a => by fin_cases a <;> rfl

section
variable (A : Cert.Spec.Args) (T : Fin 2)
  (x0 : Vec Ideal S8x256x256 .f32) (x1 : Vec Ideal S8x256x256 .f32) (x2 : Vec Ideal S8x256x256 .f32) (x3 : Vec Ideal S8x256x256 .f32) (x4 : Vec Ideal S8x129 .f32) (x5 : Vec Ideal S256x256 .f32) (x6 : Vec Ideal S1x256 .f32) (x7 : Vec Ideal S256x128 .f32) (x8 : Vec Ideal S1x128 .f32) (x9 : Vec Ideal S256x256 .f32) (x10 : Vec Ideal S1x256 .f32) (x11 : Vec Ideal S256x128 .f32) (x12 : Vec Ideal S1x128 .f32) (x13 : Vec Ideal S128x256 .f32) (x14 : Vec Ideal S1x256 .f32) (x15 : Vec Ideal S256x128 .f32) (x16 : Vec Ideal S1x128 .f32) (x17 : Vec Ideal S128x256 .f32) (x18 : Vec Ideal S1x256 .f32) (x19 : Vec Ideal S256x128 .f32) (x20 : Vec Ideal S1x128 .f32) (x21 : Vec Ideal S256x256 .f32) (x22 : Vec Ideal S1x256 .f32) (x23 : Vec Ideal S256x128 .f32) (x24 : Vec Ideal S1x128 .f32) (x25 : Vec Ideal S128x256 .f32) (x26 : Vec Ideal S1x256 .f32) (x27 : Vec Ideal S256x128 .f32) (x28 : Vec Ideal S1x128 .f32) (x29 : Vec Ideal S128x256 .f32) (x30 : Vec Ideal S1x256 .f32) (x31 : Vec Ideal S256x1 .f32) (x32 : Vec Ideal S1x1 .f32) (x33 : Vec Ideal S128x256 .f32) (x34 : Vec Ideal S1x256 .f32) (x35 : Vec Ideal S256x1 .f32) (x36 : Vec Ideal S1x1 .f32)
    (hx0 : ∀ b n k, x0 (ix3 b n k) = A.node0 (gb T b) n k)
    (hx1 : ∀ b n k, x1 (ix3 b n k) = A.node1 (gb T b) n k)
    (hx2 : ∀ b n k, x2 (ix3 b n k) = A.adj0 (gb T b) n k)
    (hx3 : ∀ b n k, x3 (ix3 b n k) = A.adj1 (gb T b) n k)
    (hx4 : ∀ b s, x4 (ix2 b s) = A.mask (gb T b) s)
    (hx5 : ∀ k j, x5 (ix2 k j) = A.wf00 k j)
    (hx6 : ∀ j, x6 (ix2 (0 : Fin 1) j) = A.bf00 j)
    (hx7 : ∀ k j, x7 (ix2 k j) = A.wf01 k j)
    (hx8 : ∀ j, x8 (ix2 (0 : Fin 1) j) = A.bf01 j)
    (hx9 : ∀ k j, x9 (ix2 k j) = A.wf10 k j)
    (hx10 : ∀ j, x10 (ix2 (0 : Fin 1) j) = A.bf10 j)
    (hx11 : ∀ k j, x11 (ix2 k j) = A.wf11 k j)
    (hx12 : ∀ j, x12 (ix2 (0 : Fin 1) j) = A.bf11 j)
    (hx13 : ∀ k j, x13 (ix2 k j) = A.wm00 k j)
    (hx14 : ∀ j, x14 (ix2 (0 : Fin 1) j) = A.bm00 j)
    (hx15 : ∀ k j, x15 (ix2 k j) = A.wm01 k j)
    (hx16 : ∀ j, x16 (ix2 (0 : Fin 1) j) = A.bm01 j)
    (hx17 : ∀ k j, x17 (ix2 k j) = A.wm10 k j)
    (hx18 : ∀ j, x18 (ix2 (0 : Fin 1) j) = A.bm10 j)
    (hx19 : ∀ k j, x19 (ix2 k j) = A.wm11 k j)
    (hx20 : ∀ j, x20 (ix2 (0 : Fin 1) j) = A.bm11 j)
    (hx21 : ∀ k j, x21 (ix2 k j) = A.wg0 k j)
    (hx22 : ∀ j, x22 (ix2 (0 : Fin 1) j) = A.bg0 j)
    (hx23 : ∀ k j, x23 (ix2 k j) = A.wg1 k j)
    (hx24 : ∀ j, x24 (ix2 (0 : Fin 1) j) = A.bg1 j)
    (hx25 : ∀ k j, x25 (ix2 k j) = A.wo0 k j)
    (hx26 : ∀ j, x26 (ix2 (0 : Fin 1) j) = A.bo0 j)
    (hx27 : ∀ k j, x27 (ix2 k j) = A.wo1 k j)
    (hx28 : ∀ j, x28 (ix2 (0 : Fin 1) j) = A.bo1 j)
    (hx29 : ∀ k j, x29 (ix2 k j) = A.wp0 k j)
    (hx30 : ∀ j, x30 (ix2 (0 : Fin 1) j) = A.bp0 j)
    (hx31 : ∀ k, x31 (ix2 k (0 : Fin 1)) = A.wp1 k 0)
    (hx32 : x32 (ix2 (0 : Fin 1) (0 : Fin 1)) = A.bp1 0)
    (hx33 : ∀ k j, x33 (ix2 k j) = A.wa0 k j)
    (hx34 : ∀ j, x34 (ix2 (0 : Fin 1) j) = A.ba0 j)
    (hx35 : ∀ k, x35 (ix2 k (0 : Fin 1)) = A.wa1 k 0)
    (hx36 : x36 (ix2 (0 : Fin 1) (0 : Fin 1)) = A.ba1 0)
include hx0 hx1 hx2 hx3 hx4 hx5 hx6 hx7 hx8 hx9 hx10 hx11 hx12 hx13 hx14 hx15 hx16 hx17 hx18 hx19 hx20 hx21 hx22 hx23 hx24 hx25 hx26 hx27 hx28 hx29 hx30 hx31 hx32 hx33 hx34 hx35 hx36

-- The four stored values share the whole network up to the two heads; each stage holds the specification's stage.
theorem outs_body :
    (∀ (b : Fin 8) (s : Fin 129), out0_37 (F := Ideal) x0 x1 x2 x3 x4 x5 x6 x7 x8 x9 x10 x11 x12 x13 x14 x15 x16 x17 x18 x19 x20 x21 x22 x23 x24 x25 x26 x27 x28 x29 x30 x31 x32 x33 x34 x35 x36 (ix2 b s) = Cert.Spec.logPi A (gb T b) s)
    ∧ (∀ (b : Fin 8) (s : Fin 129), out0_38 (F := Ideal) x0 x1 x2 x3 x4 x5 x6 x7 x8 x9 x10 x11 x12 x13 x14 x15 x16 x17 x18 x19 x20 x21 x22 x23 x24 x25 x26 x27 x28 x29 x30 x31 x32 x33 x34 x35 x36 (ix2 b s) = Cert.Spec.pi A (gb T b) s)
    ∧ (∀ (b : Fin 8) (s : Fin 129), out0_39 (F := Ideal) x0 x1 x2 x3 x4 x5 x6 x7 x8 x9 x10 x11 x12 x13 x14 x15 x16 x17 x18 x19 x20 x21 x22 x23 x24 x25 x26 x27 x28 x29 x30 x31 x32 x33 x34 x35 x36 (ix2 b s) = Cert.Spec.mlogPi A (gb T b) s)
    ∧ (∀ (b : Fin 8) (s : Fin 129), out0_40 (F := Ideal) x0 x1 x2 x3 x4 x5 x6 x7 x8 x9 x10 x11 x12 x13 x14 x15 x16 x17 x18 x19 x20 x21 x22 x23 x24 x25 x26 x27 x28 x29 x30 x31 x32 x33 x34 x35 x36 (ix2 b s) = Cert.Spec.mpi A (gb T b) s) := by
  have H5 := pay2_eq A T x1 hx1
  have H26 := pay3_eq A T x0 x5 x6 x7 x8 hx0 hx5 hx6 hx7 hx8
  have H47 := pay7_eq A T _ _ _ _ x12 H5 (pay4_eq A x9 hx9) (pay5_eq A x10 hx10) (pay6_eq A x11 hx11) hx12
  have H49 := pay8_eq A T x2 hx2
  have H51 := pay9_eq A T x3 hx3
  have H53 := pay10_eq A x13 hx13
  have H55 := pay11_eq A x15 hx15
  have H57 := pay12_eq A x17 hx17
  have H59 := pay13_eq A x19 hx19
  have H64 := pay14_eq A x16 hx16
  have H67 := pay15_eq A T _ x13 x14 H26 hx13 hx14
  have H103 := pay17_eq A T _ _ H49 H55 _ _ _ _ H26 H64 H67 pay16_eq
  have H105 := pay18_eq A T _ _ _ H51 H57 H59 0 _ x18 x20 H47 hx18 hx20
  have H108 := pay19_eq A x14 hx14
  have H110 := pay20_eq A x16 hx16
  have H149 := pay22_eq A T _ _ H49 H55 _ _ _ _ H103 H108 H110
    (pay21_eq A T _ _ _ H49 H55 _ _ _ _ H26 H64 H67 pay16_eq H53)
  have H151 : ∀ b n j, k0_pay23 (F := Ideal) _ _ _ _ _ _ (ix2 (row8 b n) j) = Cert.Spec.h1 A 2 (gb T b) n j :=
    pay18_eq A T _ _ _ H51 H57 H59 1 _ x18 x20 H105 hx18 hx20
  have H152 : ∀ b n j, k0_pay24 (F := Ideal) _ _ _ _ _ _ (ix2 (row8 b n) j) = Cert.Spec.h0 A 2 (gb T b) n j := H149
  have H195 := pay26_at A T _ _ _ H49 H53 H55 2 _ _ _ x16 H149 H152 (pay25_eq A x14 hx14) hx16
  have H197 : ∀ b n j, k0_pay27 (F := Ideal) _ _ _ _ _ _ (ix2 (row8 b n) j) = Cert.Spec.h1 A 3 (gb T b) n j :=
    pay18_eq A T _ _ _ H51 H57 H59 2 _ x18 x20 H151 hx18 hx20
  have H198 : ∀ b n j, k0_pay28 (F := Ideal) _ _ _ _ _ _ _ (ix2 (row8 b n) j) = Cert.Spec.h0 A 3 (gb T b) n j := H195
  have H241 : ∀ b n j, k0_pay29 (F := Ideal) _ _ _ _ _ _ _ (ix2 (row8 b n) j) = Cert.Spec.h0 A 4 (gb T b) n j :=
    pay26_at A T _ _ _ H49 H53 H55 3 _ _ _ x16 H195 H198 H108 hx16
  have H242 := pay30_eq A T _ _ _ H51 H57 H59 3 _ x18 x20 H197 hx18 hx20
  have H276 := pay31_eq A x27 hx27
  have H278 := pay32_eq A x28 hx28
  have H281 := pay33_eq A T _ _ _ x21 x22 x23 x24 x25 x26 H197 H241 H242 hx21 hx22 hx23 hx24 hx25 hx26
  have H309 := pay35_eq A T _ _ _ H276 H278 H281 x29 x30 x31 x32 hx29 hx30 hx31 hx32
  have H320 := pay36_eq A T _ _ _ H276 H278 H281 x33 x34 hx33 hx34
  have H355 := pay39_eq A T _ _ x35 x36 H309 H320 hx35 hx36 x4 hx4
  unfold out0_37 out0_38 out0_39 out0_40
  simp only [View.canon_unit_zero (S := S8x129) hz2, View.ld_unit_zero (S := S8x256x256) hz3, View.ld_unit_zero (S := S8x129) hz2, View.ld_unit_zero (S := S256x256) hz2, View.ld_unit_zero (S := S1x256) hz2, View.ld_unit_zero (S := S256x128) hz2, View.ld_unit_zero (S := S1x128) hz2, View.ld_unit_zero (S := S128x256) hz2, View.ld_unit_zero (S := S256x1) hz2, View.ld_unit_zero (S := S1x1) hz2]
  exact ⟨pay38_eq A T _ _ x35 x36 H309 H320 hx35 hx36, pay40_eq A T _ _ x35 x36 H309 H320 hx35 hx36, H355, pay1_eq A T _ H355⟩

theorem out37_body : ∀ (b : Fin 8) (s : Fin 129),
    out0_37 (F := Ideal) x0 x1 x2 x3 x4 x5 x6 x7 x8 x9 x10 x11 x12 x13 x14 x15 x16 x17 x18 x19 x20 x21 x22 x23 x24 x25 x26 x27 x28 x29 x30 x31 x32 x33 x34 x35 x36 (ix2 b s) = Cert.Spec.logPi A (gb T b) s :=
  (outs_body A T x0 x1 x2 x3 x4 x5 x6 x7 x8 x9 x10 x11 x12 x13 x14 x15 x16 x17 x18 x19 x20 x21 x22 x23 x24 x25 x26 x27 x28 x29 x30 x31 x32 x33 x34 x35 x36 hx0 hx1 hx2 hx3 hx4 hx5 hx6 hx7 hx8 hx9 hx10 hx11 hx12 hx13 hx14 hx15 hx16 hx17 hx18 hx19 hx20 hx21 hx22 hx23 hx24 hx25 hx26 hx27 hx28 hx29 hx30 hx31 hx32 hx33 hx34 hx35 hx36).1

theorem out38_body : ∀ (b : Fin 8) (s : Fin 129),
    out0_38 (F := Ideal) x0 x1 x2 x3 x4 x5 x6 x7 x8 x9 x10 x11 x12 x13 x14 x15 x16 x17 x18 x19 x20 x21 x22 x23 x24 x25 x26 x27 x28 x29 x30 x31 x32 x33 x34 x35 x36 (ix2 b s) = Cert.Spec.pi A (gb T b) s :=
  (outs_body A T x0 x1 x2 x3 x4 x5 x6 x7 x8 x9 x10 x11 x12 x13 x14 x15 x16 x17 x18 x19 x20 x21 x22 x23 x24 x25 x26 x27 x28 x29 x30 x31 x32 x33 x34 x35 x36 hx0 hx1 hx2 hx3 hx4 hx5 hx6 hx7 hx8 hx9 hx10 hx11 hx12 hx13 hx14 hx15 hx16 hx17 hx18 hx19 hx20 hx21 hx22 hx23 hx24 hx25 hx26 hx27 hx28 hx29 hx30 hx31 hx32 hx33 hx34 hx35 hx36).2.1

theorem out39_body : ∀ (b : Fin 8) (s : Fin 129),
    out0_39 (F := Ideal) x0 x1 x2 x3 x4 x5 x6 x7 x8 x9 x10 x11 x12 x13 x14 x15 x16 x17 x18 x19 x20 x21 x22 x23 x24 x25 x26 x27 x28 x29 x30 x31 x32 x33 x34 x35 x36 (ix2 b s) = Cert.Spec.mlogPi A (gb T b) s :=
  (outs_body A T x0 x1 x2 x3 x4 x5 x6 x7 x8 x9 x10 x11 x12 x13 x14 x15 x16 x17 x18 x19 x20 x21 x22 x23 x24 x25 x26 x27 x28 x29 x30 x31 x32 x33 x34 x35 x36 hx0 hx1 hx2 hx3 hx4 hx5 hx6 hx7 hx8 hx9 hx10 hx11 hx12 hx13 hx14 hx15 hx16 hx17 hx18 hx19 hx20 hx21 hx22 hx23 hx24 hx25 hx26 hx27 hx28 hx29 hx30 hx31 hx32 hx33 hx34 hx35 hx36).2.2.1

theorem out40_body : ∀ (b : Fin 8) (s : Fin 129),
    out0_40 (F := Ideal) x0 x1 x2 x3 x4 x5 x6 x7 x8 x9 x10 x11 x12 x13 x14 x15 x16 x17 x18 x19 x20 x21 x22 x23 x24 x25 x26 x27 x28 x29 x30 x31 x32 x33 x34 x35 x36 (ix2 b s) = Cert.Spec.mpi A (gb T b) s :=
  (outs_body A T x0 x1 x2 x3 x4 x5 x6 x7 x8 x9 x10 x11 x12 x13 x14 x15 x16 x17 x18 x19 x20 x21 x22 x23 x24 x25 x26 x27 x28 x29 x30 x31 x32 x33 x34 x35 x36 hx0 hx1 hx2 hx3 hx4 hx5 hx6 hx7 hx8 hx9 hx10 hx11 hx12 hx13 hx14 hx15 hx16 hx17 hx18 hx19 hx20 hx21 hx22 hx23 hx24 hx25 hx26 hx27 hx28 hx29 hx30 hx31 hx32 hx33 hx34 hx35 hx36).2.2.2

end

end Cert.KernelIdeal.KV

end
-- ==== Proof.KerValueRun.lean ====
/- After the kernel program's run each result array holds the specification's result of the arguments. -/
import proofs.«144052_g2000204636238536_pallasbulk_491_38_alg».proof.Proof.KernelIdealValueP
import proofs.«144052_g2000204636238536_pallasbulk_491_38_alg».proof.Proof.KerEntry
import proofs.«144052_g2000204636238536_pallasbulk_491_38_alg».proof.Proof.KerBlocks
import proofs.«144052_g2000204636238536_pallasbulk_491_38_alg».proof.Proof.KerValueBody
import Idealize.ShloMosaic.Lib.Pipeline.Value

set_option maxRecDepth 16384

noncomputable section

namespace Cert.KernelIdeal.KV

open Cert.KernelIdeal Cert.KernelIdeal.Gen Cert.Rows
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

theorem out_idx37 : ∀ t : Fin cfg0.N, win0_37.index t (0 : Fin 2) = t.val ∧ win0_37.index t (1 : Fin 2) = 0 :=
  (by decide +kernel : ∀ t : Fin grid0.N, win0_37.index t (0 : Fin 2) = t.val ∧ win0_37.index t (1 : Fin 2) = 0)

theorem flushed37_eq (c : Dev nD) (t : Fin cfg0.N) :
    (dats m 0 c).flushed 37 t = ((cfg0.win 37).blk t).view.read (Elt Ideal)
      (fun i : S16x129.Idx => Cert.Spec.logPi (kerArgs m c) (i 0) (i 1)) := by
  rw [Value.flushed37 m c t]
  obtain ⟨e0, e1⟩ := out_idx37 t
  funext y
  rw [View.read_apply]
  have h0 : gb (pt t) (y 0) = (((cfg0.win 37).blk t).view.emb y) 0 := Fin.ext (by
    show 8 * t.val + (y 0).val = win0_37.index t (0 : Fin 2) * 8 + 1 * (y 0).val
    rw [e0]; omega)
  have h1 : (y 1) = (((cfg0.win 37).blk t).view.emb y) 1 := Fin.ext (by
    show (y 1).val = win0_37.index t (1 : Fin 2) * 129 + 1 * (y 1).val
    rw [e1]; omega)
  refine Eq.trans ?_ (congrArg₂ (Cert.Spec.logPi (kerArgs m c)) h0 h1)
  rw [eq_ix2 y]
  exact out37_body (kerArgs m c) (pt t) _ _ _ _ _ _ _ _ _ _ _ _ _ _ _ _ _ _ _ _ _ _ _ _ _ _ _ _ _ _ _ _ _ _ _ _ _
    (blk0 m c t) (blk1 m c t) (blk2 m c t) (blk3 m c t) (blk4 m c t) (blk5 m c t) (blk6 m c t) (blk7 m c t) (blk8 m c t) (blk9 m c t) (blk10 m c t) (blk11 m c t) (blk12 m c t) (blk13 m c t) (blk14 m c t) (blk15 m c t) (blk16 m c t) (blk17 m c t) (blk18 m c t) (blk19 m c t) (blk20 m c t) (blk21 m c t) (blk22 m c t) (blk23 m c t) (blk24 m c t) (blk25 m c t) (blk26 m c t) (blk27 m c t) (blk28 m c t) (blk29 m c t) (blk30 m c t) (blk31 m c t) (blk32 m c t) (blk33 m c t) (blk34 m c t) (blk35 m c t) (blk36 m c t) (y 0) (y 1)

theorem mem_blk37 (t : Fin cfg0.N) (i : S16x129.Idx) :
    i ∈ ((cfg0.win 37).blk t).view.set ↔ ∀ a : Fin 2, win0_37.index t a * S8x129.size a ≤ (i a).val
      ∧ (i a).val < win0_37.index t a * S8x129.size a + S8x129.size a := by
  show i ∈ ((View.whole main_v16_0).slice (win0_37.rect t)).set ↔ _
  rw [View.set_slice_whole, Rect.mem_set_unit]
  exact Iff.rfl

theorem cover37 (i : S16x129.Idx) :
    ∃ t : Fin cfg0.N, (cfg0.win 37).flush t = true ∧ i ∈ ((cfg0.win 37).blk t).view.set := by
  have hi0 : (i 0).val < 16 := (i 0).isLt
  have hi1 : (i 1).val < 129 := (i 1).isLt
  obtain ⟨t, ht⟩ : ∃ t : Fin cfg0.N, t.val = (i 0).val / 8 :=
    ⟨⟨(i 0).val / 8, by rw [show cfg0.N = 2 from N_0]; omega⟩, rfl⟩
  obtain ⟨e0, e1⟩ := out_idx37 t
  refine ⟨t, flush0_37 t, ?_⟩
  rw [mem_blk37]
  intro a
  match a with
  | ⟨0, _⟩ =>
    show win0_37.index t (0 : Fin 2) * 8 ≤ (i 0).val ∧ (i 0).val < win0_37.index t (0 : Fin 2) * 8 + 8
    rw [e0, ht]; omega
  | ⟨1, _⟩ =>
    show win0_37.index t (1 : Fin 2) * 129 ≤ (i 1).val ∧ (i 1).val < win0_37.index t (1 : Fin 2) * 129 + 129
    rw [e1]; omega

theorem final37 (c : Dev nD) :
    (dats m 0 c).arrAt 37 cfg0.N = (fun i : S16x129.Idx => Cert.Spec.logPi (kerArgs m c) (i 0) (i 1)) :=
  (dats m 0 c).arrAt_eq_of_cover 37 _ (fun t _ => flushed37_eq m c t) (cover37)

theorem out_idx38 : ∀ t : Fin cfg0.N, win0_38.index t (0 : Fin 2) = t.val ∧ win0_38.index t (1 : Fin 2) = 0 :=
  (by decide +kernel : ∀ t : Fin grid0.N, win0_38.index t (0 : Fin 2) = t.val ∧ win0_38.index t (1 : Fin 2) = 0)

theorem flushed38_eq (c : Dev nD) (t : Fin cfg0.N) :
    (dats m 0 c).flushed 38 t = ((cfg0.win 38).blk t).view.read (Elt Ideal)
      (fun i : S16x129.Idx => Cert.Spec.pi (kerArgs m c) (i 0) (i 1)) := by
  rw [Value.flushed38 m c t]
  obtain ⟨e0, e1⟩ := out_idx38 t
  funext y
  rw [View.read_apply]
  have h0 : gb (pt t) (y 0) = (((cfg0.win 38).blk t).view.emb y) 0 := Fin.ext (by
    show 8 * t.val + (y 0).val = win0_38.index t (0 : Fin 2) * 8 + 1 * (y 0).val
    rw [e0]; omega)
  have h1 : (y 1) = (((cfg0.win 38).blk t).view.emb y) 1 := Fin.ext (by
    show (y 1).val = win0_38.index t (1 : Fin 2) * 129 + 1 * (y 1).val
    rw [e1]; omega)
  refine Eq.trans ?_ (congrArg₂ (Cert.Spec.pi (kerArgs m c)) h0 h1)
  rw [eq_ix2 y]
  exact out38_body (kerArgs m c) (pt t) _ _ _ _ _ _ _ _ _ _ _ _ _ _ _ _ _ _ _ _ _ _ _ _ _ _ _ _ _ _ _ _ _ _ _ _ _
    (blk0 m c t) (blk1 m c t) (blk2 m c t) (blk3 m c t) (blk4 m c t) (blk5 m c t) (blk6 m c t) (blk7 m c t) (blk8 m c t) (blk9 m c t) (blk10 m c t) (blk11 m c t) (blk12 m c t) (blk13 m c t) (blk14 m c t) (blk15 m c t) (blk16 m c t) (blk17 m c t) (blk18 m c t) (blk19 m c t) (blk20 m c t) (blk21 m c t) (blk22 m c t) (blk23 m c t) (blk24 m c t) (blk25 m c t) (blk26 m c t) (blk27 m c t) (blk28 m c t) (blk29 m c t) (blk30 m c t) (blk31 m c t) (blk32 m c t) (blk33 m c t) (blk34 m c t) (blk35 m c t) (blk36 m c t) (y 0) (y 1)

theorem final38 (c : Dev nD) :
    (dats m 0 c).arrAt 38 cfg0.N = (fun i : S16x129.Idx => Cert.Spec.pi (kerArgs m c) (i 0) (i 1)) :=
  (dats m 0 c).arrAt_eq_of_cover 38 _ (fun t _ => flushed38_eq m c t) cover37

theorem out_idx39 : ∀ t : Fin cfg0.N, win0_39.index t (0 : Fin 2) = t.val ∧ win0_39.index t (1 : Fin 2) = 0 :=
  (by decide +kernel : ∀ t : Fin grid0.N, win0_39.index t (0 : Fin 2) = t.val ∧ win0_39.index t (1 : Fin 2) = 0)

theorem flushed39_eq (c : Dev nD) (t : Fin cfg0.N) :
    (dats m 0 c).flushed 39 t = ((cfg0.win 39).blk t).view.read (Elt Ideal)
      (fun i : S16x129.Idx => Cert.Spec.mlogPi (kerArgs m c) (i 0) (i 1)) := by
  rw [Value.flushed39 m c t]
  obtain ⟨e0, e1⟩ := out_idx39 t
  funext y
  rw [View.read_apply]
  have h0 : gb (pt t) (y 0) = (((cfg0.win 39).blk t).view.emb y) 0 := Fin.ext (by
    show 8 * t.val + (y 0).val = win0_39.index t (0 : Fin 2) * 8 + 1 * (y 0).val
    rw [e0]; omega)
  have h1 : (y 1) = (((cfg0.win 39).blk t).view.emb y) 1 := Fin.ext (by
    show (y 1).val = win0_39.index t (1 : Fin 2) * 129 + 1 * (y 1).val
    rw [e1]; omega)
  refine Eq.trans ?_ (congrArg₂ (Cert.Spec.mlogPi (kerArgs m c)) h0 h1)
  rw [eq_ix2 y]
  exact out39_body (kerArgs m c) (pt t) _ _ _ _ _ _ _ _ _ _ _ _ _ _ _ _ _ _ _ _ _ _ _ _ _ _ _ _ _ _ _ _ _ _ _ _ _
    (blk0 m c t) (blk1 m c t) (blk2 m c t) (blk3 m c t) (blk4 m c t) (blk5 m c t) (blk6 m c t) (blk7 m c t) (blk8 m c t) (blk9 m c t) (blk10 m c t) (blk11 m c t) (blk12 m c t) (blk13 m c t) (blk14 m c t) (blk15 m c t) (blk16 m c t) (blk17 m c t) (blk18 m c t) (blk19 m c t) (blk20 m c t) (blk21 m c t) (blk22 m c t) (blk23 m c t) (blk24 m c t) (blk25 m c t) (blk26 m c t) (blk27 m c t) (blk28 m c t) (blk29 m c t) (blk30 m c t) (blk31 m c t) (blk32 m c t) (blk33 m c t) (blk34 m c t) (blk35 m c t) (blk36 m c t) (y 0) (y 1)

theorem final39 (c : Dev nD) :
    (dats m 0 c).arrAt 39 cfg0.N = (fun i : S16x129.Idx => Cert.Spec.mlogPi (kerArgs m c) (i 0) (i 1)) :=
  (dats m 0 c).arrAt_eq_of_cover 39 _ (fun t _ => flushed39_eq m c t) cover37

theorem out_idx40 : ∀ t : Fin cfg0.N, win0_40.index t (0 : Fin 2) = t.val ∧ win0_40.index t (1 : Fin 2) = 0 :=
  (by decide +kernel : ∀ t : Fin grid0.N, win0_40.index t (0 : Fin 2) = t.val ∧ win0_40.index t (1 : Fin 2) = 0)

theorem flushed40_eq (c : Dev nD) (t : Fin cfg0.N) :
    (dats m 0 c).flushed 40 t = ((cfg0.win 40).blk t).view.read (Elt Ideal)
      (fun i : S16x129.Idx => Cert.Spec.mpi (kerArgs m c) (i 0) (i 1)) := by
  rw [Value.flushed40 m c t]
  obtain ⟨e0, e1⟩ := out_idx40 t
  funext y
  rw [View.read_apply]
  have h0 : gb (pt t) (y 0) = (((cfg0.win 40).blk t).view.emb y) 0 := Fin.ext (by
    show 8 * t.val + (y 0).val = win0_40.index t (0 : Fin 2) * 8 + 1 * (y 0).val
    rw [e0]; omega)
  have h1 : (y 1) = (((cfg0.win 40).blk t).view.emb y) 1 := Fin.ext (by
    show (y 1).val = win0_40.index t (1 : Fin 2) * 129 + 1 * (y 1).val
    rw [e1]; omega)
  refine Eq.trans ?_ (congrArg₂ (Cert.Spec.mpi (kerArgs m c)) h0 h1)
  rw [eq_ix2 y]
  exact out40_body (kerArgs m c) (pt t) _ _ _ _ _ _ _ _ _ _ _ _ _ _ _ _ _ _ _ _ _ _ _ _ _ _ _ _ _ _ _ _ _ _ _ _ _
    (blk0 m c t) (blk1 m c t) (blk2 m c t) (blk3 m c t) (blk4 m c t) (blk5 m c t) (blk6 m c t) (blk7 m c t) (blk8 m c t) (blk9 m c t) (blk10 m c t) (blk11 m c t) (blk12 m c t) (blk13 m c t) (blk14 m c t) (blk15 m c t) (blk16 m c t) (blk17 m c t) (blk18 m c t) (blk19 m c t) (blk20 m c t) (blk21 m c t) (blk22 m c t) (blk23 m c t) (blk24 m c t) (blk25 m c t) (blk26 m c t) (blk27 m c t) (blk28 m c t) (blk29 m c t) (blk30 m c t) (blk31 m c t) (blk32 m c t) (blk33 m c t) (blk34 m c t) (blk35 m c t) (blk36 m c t) (y 0) (y 1)

theorem final40 (c : Dev nD) :
    (dats m 0 c).arrAt 40 cfg0.N = (fun i : S16x129.Idx => Cert.Spec.mpi (kerArgs m c) (i 0) (i 1)) :=
  (dats m 0 c).arrAt_eq_of_cover 40 _ (fun t _ => flushed40_eq m c t) cover37

end Cert.KernelIdeal.KV

end
-- ==== Proof.RefEntry.lean ====
/- Core c's arrays where the reference's region is entered, and its arguments as functions of their coordinates. -/
import proofs.«144052_g2000204636238536_pallasbulk_491_38_alg».proof.Proof.Gen.ReferenceIdeal.Launch
import proofs.«144052_g2000204636238536_pallasbulk_491_38_alg».proof.Proof.Spec
import Idealize.ShloMosaic.Lib.ValueIdx

noncomputable section

namespace Cert.ReferenceIdeal.Hand

open Idealize.ShloMosaic Idealize.ShloMosaic.TcCoe Idealize.ShloMosaic.ValueIdx
open Cert.ReferenceIdeal Cert.ReferenceIdeal.Gen

variable {F : FTy → Type} [FloatOps F]

abbrev Vpre (m : (ℓ : Loc nD τ sig) → Buf (Elt F) ℓ) (c : Dev nD) (b : Ref sig .tc) :
    Buf (Elt F) ((c : Thread nD τ).loc b) :=
  StableHlo.after hostOps0 (fun b => m (c, b)) b

def refArgs (m : (ℓ : Loc nD τ sig) → Buf (Elt Ideal) ℓ) (c : Dev nD) : Cert.Spec.Args where
  node0 := fun i0 i1 i2 => m ((c.tc : Thread nD τ).loc main_arg0) (ix3 i0 i1 i2)
  node1 := fun i0 i1 i2 => m ((c.tc : Thread nD τ).loc main_arg1) (ix3 i0 i1 i2)
  adj0 := fun i0 i1 i2 => m ((c.tc : Thread nD τ).loc main_arg2) (ix3 i0 i1 i2)
  adj1 := fun i0 i1 i2 => m ((c.tc : Thread nD τ).loc main_arg3) (ix3 i0 i1 i2)
  mask := fun i0 i1 => m ((c.tc : Thread nD τ).loc main_arg4) (ix2 i0 i1)
  wf00 := fun i0 i1 => m ((c.tc : Thread nD τ).loc main_arg5) (ix2 i0 i1)
  bf00 := fun i0 => m ((c.tc : Thread nD τ).loc main_arg6) (ix1 i0)
  wf01 := fun i0 i1 => m ((c.tc : Thread nD τ).loc main_arg7) (ix2 i0 i1)
  bf01 := fun i0 => m ((c.tc : Thread nD τ).loc main_arg8) (ix1 i0)
  wf10 := fun i0 i1 => m ((c.tc : Thread nD τ).loc main_arg9) (ix2 i0 i1)
  bf10 := fun i0 => m ((c.tc : Thread nD τ).loc main_arg10) (ix1 i0)
  wf11 := fun i0 i1 => m ((c.tc : Thread nD τ).loc main_arg11) (ix2 i0 i1)
  bf11 := fun i0 => m ((c.tc : Thread nD τ).loc main_arg12) (ix1 i0)
  wm00 := fun i0 i1 => m ((c.tc : Thread nD τ).loc main_arg13) (ix2 i0 i1)
  bm00 := fun i0 => m ((c.tc : Thread nD τ).loc main_arg14) (ix1 i0)
  wm01 := fun i0 i1 => m ((c.tc : Thread nD τ).loc main_arg15) (ix2 i0 i1)
  bm01 := fun i0 => m ((c.tc : Thread nD τ).loc main_arg16) (ix1 i0)
  wm10 := fun i0 i1 => m ((c.tc : Thread nD τ).loc main_arg17) (ix2 i0 i1)
  bm10 := fun i0 => m ((c.tc : Thread nD τ).loc main_arg18) (ix1 i0)
  wm11 := fun i0 i1 => m ((c.tc : Thread nD τ).loc main_arg19) (ix2 i0 i1)
  bm11 := fun i0 => m ((c.tc : Thread nD τ).loc main_arg20) (ix1 i0)
  wg0 := fun i0 i1 => m ((c.tc : Thread nD τ).loc main_arg21) (ix2 i0 i1)
  bg0 := fun i0 => m ((c.tc : Thread nD τ).loc main_arg22) (ix1 i0)
  wg1 := fun i0 i1 => m ((c.tc : Thread nD τ).loc main_arg23) (ix2 i0 i1)
  bg1 := fun i0 => m ((c.tc : Thread nD τ).loc main_arg24) (ix1 i0)
  wo0 := fun i0 i1 => m ((c.tc : Thread nD τ).loc main_arg25) (ix2 i0 i1)
  bo0 := fun i0 => m ((c.tc : Thread nD τ).loc main_arg26) (ix1 i0)
  wo1 := fun i0 i1 => m ((c.tc : Thread nD τ).loc main_arg27) (ix2 i0 i1)
  bo1 := fun i0 => m ((c.tc : Thread nD τ).loc main_arg28) (ix1 i0)
  wp0 := fun i0 i1 => m ((c.tc : Thread nD τ).loc main_arg29) (ix2 i0 i1)
  bp0 := fun i0 => m ((c.tc : Thread nD τ).loc main_arg30) (ix1 i0)
  wp1 := fun i0 i1 => m ((c.tc : Thread nD τ).loc main_arg31) (ix2 i0 i1)
  bp1 := fun i0 => m ((c.tc : Thread nD τ).loc main_arg32) (ix1 i0)
  wa0 := fun i0 i1 => m ((c.tc : Thread nD τ).loc main_arg33) (ix2 i0 i1)
  ba0 := fun i0 => m ((c.tc : Thread nD τ).loc main_arg34) (ix1 i0)
  wa1 := fun i0 i1 => m ((c.tc : Thread nD τ).loc main_arg35) (ix2 i0 i1)
  ba1 := fun i0 => m ((c.tc : Thread nD τ).loc main_arg36) (ix1 i0)

end Cert.ReferenceIdeal.Hand

end
-- ==== Proof.RefFrameLaunch.lean ====
/- The reference program around its one region: the host operations before it, and the launch. -/
import proofs.«144052_g2000204636238536_pallasbulk_491_38_alg».proof.Proof.Gen.ReferenceIdeal.Launch
import proofs.«144052_g2000204636238536_pallasbulk_491_38_alg».proof.Proof.Gen.ReferenceIdeal.Points
import proofs.«144052_g2000204636238536_pallasbulk_491_38_alg».proof.Proof.RefEntry
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.ReferenceIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ReferenceIdeal Cert.ReferenceIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev V0 (c : Dev nD) : Valuation τ sig (Elt F) := StableHlo.after (List.flatten [hostOps0]) (fun b => m (c, b))

abbrev V (c : Dev nD) (b : Ref sig .tc) : Buf (Elt F) ((c : Thread nD τ).loc b) := V0 m c (Proc.devRef .tc b)

theorem flatten_hostOps0 : List.flatten [(hostOps0 : List (HloOp τ sig (Elt F)))] = hostOps0 := by
  simp only [List.flatten_cons, List.flatten_nil, List.append_nil]

theorem V_eq_Vpre (c : Dev nD) (b : Ref sig .tc) : V m c b = Vpre m c b :=
  congrArg (fun ops => StableHlo.after ops (fun b => m (c, b)) (Proc.devRef .tc b)) flatten_hostOps0

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)

theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop

theorem hostOps0_writes_ge : (hostOps0 : List (HloOp τ sig (Elt F))).Forall fun op =>
    ∀ d ∈ op.writes, ∃ y : Ref sig .tc, d = Proc.devRef .tc y ∧ 37 ≤ y.idx.val := by
  simp only [List.Forall]
  repeat' apply And.intro
  all_goals exact fun d hd => ⟨_, Finset.mem_singleton.mp hd, by decide⟩

theorem hostOps1_writes_ge : (hostOps1 : List (HloOp τ sig (Elt F))).Forall fun op =>
    ∀ d ∈ op.writes, ∃ y : Ref sig .tc, d = Proc.devRef .tc y ∧ 260 ≤ y.idx.val := by
  simp only [List.Forall]
  repeat' apply And.intro
  all_goals exact fun d hd => ⟨_, Finset.mem_singleton.mp hd, by decide⟩

theorem arrRef_idx : ∀ w : Fin 5, 253 ≤ (Pipeline.arrRef spec0 w).idx.val ∧ (Pipeline.arrRef spec0 w).idx.val ≤ 259 := by decide

theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  intro w hw
  obtain ⟨y, hy, hge⟩ := (List.forall_iff_forall_mem.mp hostOps1_writes_ge) op hop _ hw
  obtain rfl : Pipeline.arrRef spec0 w = y := Proc.devRef_injective _ hy
  have := (arrRef_idx w).2
  omega

theorem V_of_lt (c : Dev nD) (r : Ref sig .tc) (hr : r.idx.val < 37) : V m c r = m ((c : Thread nD τ).loc r) :=
  StableHlo.after_of_forall_not_mem (b := Proc.devRef .tc r) _ _ fun op hop hb => by
    rw [flatten_hostOps0] at hop
    obtain ⟨y, hy, hge⟩ := (List.forall_iff_forall_mem.mp hostOps0_writes_ge) op hop _ hb
    obtain rfl : r = y := Proc.devRef_injective _ hy
    omega

theorem tail_of_lt (dats : (p : Fin 1) → (c : Dev nD) → Dat τ (Elt F) Unit ℕ (UR sig nD τ) ℕ (cfgs p) c) (c : Dev nD)
    (r : Ref sig .tc) (hr : r.idx.val < 37) :
    Pipeline.afterTail₀ cfgs dats 0 (V0 m) [hostOps1] c r = m ((c : Thread nD τ).loc r) := by
  unfold Pipeline.afterTail₀
  rw [StableHlo.after_of_forall_not_mem (b := Proc.devRef .tc r) _ _ (fun op hop hb => by
      simp only [List.flatten_cons, List.flatten_nil, List.append_nil] at hop
      obtain ⟨y, hy, hge⟩ := (List.forall_iff_forall_mem.mp hostOps1_writes_ge) op hop _ hb
      obtain rfl : r = y := Proc.devRef_injective _ hy
      omega),
    Pipeline.withArrays_of_ne _ c (V0 m c) _ r (fun w e => by
      have := (arrRef_idx w).1
      rw [e] at this
      omega)]
  exact V_of_lt m c r hr

def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

theorem arg_kept (dats : (p : Fin 1) → (c : Dev nD) → Dat τ (Elt F) Unit ℕ (UR sig nD τ) ℕ (cfgs p) c)
    {r : PUnit × MemSt nD τ sig (Elt F)}
    (h : Pipeline.FramePost cfgs dats 0 (Pipeline.afterTail₀ cfgs dats 0 (V0 m) [hostOps1]) r) (c : Dev nD)
    (b : Ref sig .tc) (hs : b.isScoped = false) (hb : b.idx.val < 37) :
    r.2.mem ((c.tc : Thread nD τ).loc b) = m ((c.tc : Thread nD τ).loc b) :=
  ((h c).2 b (Pipeline.mem_restRefs_of b hs (fun w e => by
      have h1 := (arrRef_idx w).1
      have e' : Pipeline.arrRef spec0 w = b := e
      rw [e'] at h1
      omega))).trans (tail_of_lt m dats c b hb)

/-- Core `c`'s 37 argument arrays are as launched. -/
abbrev Kept (mem : (ℓ : Loc nD τ sig) → Buf (Elt F) ℓ) (c : Dev nD) : Prop :=
  mem ((c.tc : Thread nD τ).loc main_arg0) = m ((c.tc : Thread nD τ).loc main_arg0)
  ∧ mem ((c.tc : Thread nD τ).loc main_arg1) = m ((c.tc : Thread nD τ).loc main_arg1)
  ∧ mem ((c.tc : Thread nD τ).loc main_arg2) = m ((c.tc : Thread nD τ).loc main_arg2)
  ∧ mem ((c.tc : Thread nD τ).loc main_arg3) = m ((c.tc : Thread nD τ).loc main_arg3)
  ∧ mem ((c.tc : Thread nD τ).loc main_arg4) = m ((c.tc : Thread nD τ).loc main_arg4)
  ∧ mem ((c.tc : Thread nD τ).loc main_arg5) = m ((c.tc : Thread nD τ).loc main_arg5)
  ∧ mem ((c.tc : Thread nD τ).loc main_arg6) = m ((c.tc : Thread nD τ).loc main_arg6)
  ∧ mem ((c.tc : Thread nD τ).loc main_arg7) = m ((c.tc : Thread nD τ).loc main_arg7)
  ∧ mem ((c.tc : Thread nD τ).loc main_arg8) = m ((c.tc : Thread nD τ).loc main_arg8)
  ∧ mem ((c.tc : Thread nD τ).loc main_arg9) = m ((c.tc : Thread nD τ).loc main_arg9)
  ∧ mem ((c.tc : Thread nD τ).loc main_arg10) = m ((c.tc : Thread nD τ).loc main_arg10)
  ∧ mem ((c.tc : Thread nD τ).loc main_arg11) = m ((c.tc : Thread nD τ).loc main_arg11)
  ∧ mem ((c.tc : Thread nD τ).loc main_arg12) = m ((c.tc : Thread nD τ).loc main_arg12)
  ∧ mem ((c.tc : Thread nD τ).loc main_arg13) = m ((c.tc : Thread nD τ).loc main_arg13)
  ∧ mem ((c.tc : Thread nD τ).loc main_arg14) = m ((c.tc : Thread nD τ).loc main_arg14)
  ∧ mem ((c.tc : Thread nD τ).loc main_arg15) = m ((c.tc : Thread nD τ).loc main_arg15)
  ∧ mem ((c.tc : Thread nD τ).loc main_arg16) = m ((c.tc : Thread nD τ).loc main_arg16)
  ∧ mem ((c.tc : Thread nD τ).loc main_arg17) = m ((c.tc : Thread nD τ).loc main_arg17)
  ∧ mem ((c.tc : Thread nD τ).loc main_arg18) = m ((c.tc : Thread nD τ).loc main_arg18)
  ∧ mem ((c.tc : Thread nD τ).loc main_arg19) = m ((c.tc : Thread nD τ).loc main_arg19)
  ∧ mem ((c.tc : Thread nD τ).loc main_arg20) = m ((c.tc : Thread nD τ).loc main_arg20)
  ∧ mem ((c.tc : Thread nD τ).loc main_arg21) = m ((c.tc : Thread nD τ).loc main_arg21)
  ∧ mem ((c.tc : Thread nD τ).loc main_arg22) = m ((c.tc : Thread nD τ).loc main_arg22)
  ∧ mem ((c.tc : Thread nD τ).loc main_arg23) = m ((c.tc : Thread nD τ).loc main_arg23)
  ∧ mem ((c.tc : Thread nD τ).loc main_arg24) = m ((c.tc : Thread nD τ).loc main_arg24)
  ∧ mem ((c.tc : Thread nD τ).loc main_arg25) = m ((c.tc : Thread nD τ).loc main_arg25)
  ∧ mem ((c.tc : Thread nD τ).loc main_arg26) = m ((c.tc : Thread nD τ).loc main_arg26)
  ∧ mem ((c.tc : Thread nD τ).loc main_arg27) = m ((c.tc : Thread nD τ).loc main_arg27)
  ∧ mem ((c.tc : Thread nD τ).loc main_arg28) = m ((c.tc : Thread nD τ).loc main_arg28)
  ∧ mem ((c.tc : Thread nD τ).loc main_arg29) = m ((c.tc : Thread nD τ).loc main_arg29)
  ∧ mem ((c.tc : Thread nD τ).loc main_arg30) = m ((c.tc : Thread nD τ).loc main_arg30)
  ∧ mem ((c.tc : Thread nD τ).loc main_arg31) = m ((c.tc : Thread nD τ).loc main_arg31)
  ∧ mem ((c.tc : Thread nD τ).loc main_arg32) = m ((c.tc : Thread nD τ).loc main_arg32)
  ∧ mem ((c.tc : Thread nD τ).loc main_arg33) = m ((c.tc : Thread nD τ).loc main_arg33)
  ∧ mem ((c.tc : Thread nD τ).loc main_arg34) = m ((c.tc : Thread nD τ).loc main_arg34)
  ∧ mem ((c.tc : Thread nD τ).loc main_arg35) = m ((c.tc : Thread nD τ).loc main_arg35)
  ∧ mem ((c.tc : Thread nD τ).loc main_arg36) = m ((c.tc : Thread nD τ).loc main_arg36)

set_option maxHeartbeats 4000000 in
theorem kept_of (dats : (p : Fin 1) → (c : Dev nD) → Dat τ (Elt F) Unit ℕ (UR sig nD τ) ℕ (cfgs p) c)
    {r : PUnit × MemSt nD τ sig (Elt F)} (h : Pipeline.FramePost cfgs dats 0 (Pipeline.afterTail₀ cfgs dats 0 (V0 m) [hostOps1]) r) (c : Dev nD) : Kept m r.2.mem c :=
  ⟨arg_kept m dats h c main_arg0 rfl (by decide),
    arg_kept m dats h c main_arg1 rfl (by decide),
    arg_kept m dats h c main_arg2 rfl (by decide),
    arg_kept m dats h c main_arg3 rfl (by decide),
    arg_kept m dats h c main_arg4 rfl (by decide),
    arg_kept m dats h c main_arg5 rfl (by decide),
    arg_kept m dats h c main_arg6 rfl (by decide),
    arg_kept m dats h c main_arg7 rfl (by decide),
    arg_kept m dats h c main_arg8 rfl (by decide),
    arg_kept m dats h c main_arg9 rfl (by decide),
    arg_kept m dats h c main_arg10 rfl (by decide),
    arg_kept m dats h c main_arg11 rfl (by decide),
    arg_kept m dats h c main_arg12 rfl (by decide),
    arg_kept m dats h c main_arg13 rfl (by decide),
    arg_kept m dats h c main_arg14 rfl (by decide),
    arg_kept m dats h c main_arg15 rfl (by decide),
    arg_kept m dats h c main_arg16 rfl (by decide),
    arg_kept m dats h c main_arg17 rfl (by decide),
    arg_kept m dats h c main_arg18 rfl (by decide),
    arg_kept m dats h c main_arg19 rfl (by decide),
    arg_kept m dats h c main_arg20 rfl (by decide),
    arg_kept m dats h c main_arg21 rfl (by decide),
    arg_kept m dats h c main_arg22 rfl (by decide),
    arg_kept m dats h c main_arg23 rfl (by decide),
    arg_kept m dats h c main_arg24 rfl (by decide),
    arg_kept m dats h c main_arg25 rfl (by decide),
    arg_kept m dats h c main_arg26 rfl (by decide),
    arg_kept m dats h c main_arg27 rfl (by decide),
    arg_kept m dats h c main_arg28 rfl (by decide),
    arg_kept m dats h c main_arg29 rfl (by decide),
    arg_kept m dats h c main_arg30 rfl (by decide),
    arg_kept m dats h c main_arg31 rfl (by decide),
    arg_kept m dats h c main_arg32 rfl (by decide),
    arg_kept m dats h c main_arg33 rfl (by decide),
    arg_kept m dats h c main_arg34 rfl (by decide),
    arg_kept m dats h c main_arg35 rfl (by decide),
    arg_kept m dats h c main_arg36 rfl (by decide)⟩

theorem frame_of (dats : (p : Fin 1) → (c : Dev nD) → Dat τ (Elt F) Unit ℕ (UR sig nD τ) ℕ (cfgs p) c)
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD, Kept m r.2.mem c) :=
  (θ_run defs _ _).mono (fun _ h c => kept_of m dats h c) h

end Cert.ReferenceIdeal.Hand

end
-- ==== Proof.RefOut.lean ====
/- The dataflow of the reference body as definitions: what it loads, the value each stretch hands to the next, the sixteen stored pieces, and the output block they fill. -/
import proofs.«144052_g2000204636238536_pallasbulk_491_38_alg».proof.Proof.Gen.ReferenceIdeal.Skeleton
import Idealize.ShloMosaic.Lib.Pipeline.FrameBody

noncomputable section

namespace Cert.ReferenceIdeal.Hand

open Idealize.ShloMosaic
open Cert.ReferenceIdeal Cert.ReferenceIdeal.Gen

variable {F : FTy → Type} [FloatOps F]
  (x0 : Vec F S16x256x512 .f32) (x1 : Vec F S16x2x256x256 .f32) (x2 : Vec F S16x129x1 .f32) (x3 : Vec F S3552x512 .f32)

abbrev r_nodes : Rect S16x256x512 := Rect.unit (s := S16x256x512) ![0, 0, 0] S16x256x512.size inb_S16x256x512_S16x256x512_0_0_0
def nodes : Vec F S16x256x512 .f32 := View.ld x0 r_nodes

abbrev r_feat_w0 : Rect S3552x512 := Rect.unit (s := S3552x512) ![0, 0] S512x512.size inb_S3552x512_S512x512_0_0
def feat_w0 : Vec F S512x512 .f32 := View.ld x3 r_feat_w0

abbrev r_feat_b0 : Rect S3552x512 := Rect.unit (s := S3552x512) ![512, 0] S1x512.size inb_S3552x512_S1x512_512_0
def feat_b0 : Vec F S1x512 .f32 := View.ld x3 r_feat_b0

abbrev r_feat_w1 : Rect S3552x512 := Rect.unit (s := S3552x512) ![520, 0] S512x256.size inb_S3552x512_S512x256_520_0
def feat_w1 : Vec F S512x256 .f32 := View.ld x3 r_feat_w1

abbrev r_feat_b1 : Rect S3552x512 := Rect.unit (s := S3552x512) ![1032, 0] S1x256.size inb_S3552x512_S1x256_1032_0
def feat_b1 : Vec F S1x256 .f32 := View.ld x3 r_feat_b1

abbrev r_adjs : Rect S16x2x256x256 := Rect.unit (s := S16x2x256x256) ![0, 0, 0, 0] S16x2x256x256.size inb_S16x2x256x256_S16x2x256x256_0_0_0_0
def adjs : Vec F S16x2x256x256 .f32 := View.ld x1 r_adjs

abbrev r_msg_w0 : Rect S3552x512 := Rect.unit (s := S3552x512) ![1040, 0] S256x512.size inb_S3552x512_S256x512_1040_0
def msg_w0 : Vec F S256x512 .f32 := View.ld x3 r_msg_w0

abbrev r_msg_b0 : Rect S3552x512 := Rect.unit (s := S3552x512) ![1296, 0] S1x512.size inb_S3552x512_S1x512_1296_0
def msg_b0 : Vec F S1x512 .f32 := View.ld x3 r_msg_b0

def v22 : FVec F S4096x256 .f32 := k0_pay2 (nodes x0) (feat_w0 x3) (feat_b0 x3) (feat_w1 x3) (feat_b1 x3)

def v24 : FVec F S16x2x256x256 .f32 := k0_pay3 (adjs x1)

def v31 : FVec F S4096x512 .f32 := k0_pay4 (nodes x0) (feat_w0 x3) (feat_b0 x3) (feat_w1 x3) (feat_b1 x3) (msg_w0 x3) (msg_b0 x3)

def v33 : FVec F S4096x512 .f32 := k0_pay5 (nodes x0) (feat_w0 x3) (feat_b0 x3) (feat_w1 x3) (feat_b1 x3) (msg_w0 x3) (msg_b0 x3)

abbrev r_msg_w1 : Rect S3552x512 := Rect.unit (s := S3552x512) ![1304, 0] S512x256.size inb_S3552x512_S512x256_1304_0
def msg_w1 : Vec F S512x256 .f32 := View.ld x3 r_msg_w1

abbrev r_msg_b1 : Rect S3552x512 := Rect.unit (s := S3552x512) ![1816, 0] S1x256.size inb_S3552x512_S1x256_1816_0
def msg_b1 : Vec F S1x256 .f32 := View.ld x3 r_msg_b1

def c_cst_35 : F .f32 := Scalar.ofBits .f32 0x3C23D70A#32

def v56 : FVec F S4096x256 .f32 := k0_pay6 (v22 x0 x3) (v24 x1) (v31 x0 x3) (v33 x0 x3) (msg_w1 x3) (msg_b1 x3)

def v73 : FVec F S4096x256 .f32 := k0_pay7 (v22 x0 x3) (v24 x1) (v31 x0 x3) (v33 x0 x3) (msg_w1 x3) (msg_b1 x3) (msg_w0 x3) (msg_b0 x3) (msg_w1 x3) (msg_b1 x3)

def v88 : FVec F S4096x256 .f32 := k0_pay8 (v24 x1) (v56 x0 x1 x3) (v73 x0 x1 x3) c_cst_35

def v113 : FVec F S16x256x128 .f32 := k0_pay10 (v24 x1) (v56 x0 x1 x3) (v73 x0 x1 x3) c_cst_35 (msg_w0 x3) (msg_b0 x3) (msg_w1 x3) (msg_b1 x3)

def v117 : FVec F S16x256x128 .f32 := k0_pay11 (v24 x1) (v56 x0 x1 x3) (v73 x0 x1 x3) c_cst_35 (msg_w0 x3) (msg_b0 x3) (msg_w1 x3) (msg_b1 x3)

abbrev r_merge_w0 : Rect S3552x512 := Rect.unit (s := S3552x512) ![1824, 0] S256x256.size inb_S3552x512_S256x256_1824_0
def merge_w0 : Vec F S256x256 .f32 := View.ld x3 r_merge_w0

abbrev r_merge_b0 : Rect S3552x512 := Rect.unit (s := S3552x512) ![2080, 0] S1x256.size inb_S3552x512_S1x256_2080_0
def merge_b0 : Vec F S1x256 .f32 := View.ld x3 r_merge_b0

def v157 : FVec F S4096x256 .f32 := k0_pay12 (v24 x1) (v88 x0 x1 x3) (v113 x0 x1 x3) (v117 x0 x1 x3) (msg_w0 x3) (msg_b0 x3) (msg_w1 x3) (msg_b1 x3) (merge_w0 x3)

def v158 : FVec F S4096x256 .f32 := k0_pay13 (merge_b0 x3)

abbrev r_merge_w1 : Rect S3552x512 := Rect.unit (s := S3552x512) ![2088, 0] S256x128.size inb_S3552x512_S256x128_2088_0
def merge_w1 : Vec F S256x128 .f32 := View.ld x3 r_merge_w1

abbrev r_merge_b1 : Rect S3552x512 := Rect.unit (s := S3552x512) ![2344, 0] S1x128.size inb_S3552x512_S1x128_2344_0
def merge_b1 : Vec F S1x128 .f32 := View.ld x3 r_merge_b1

abbrev r_fout_w0 : Rect S3552x512 := Rect.unit (s := S3552x512) ![2352, 0] S128x256.size inb_S3552x512_S128x256_2352_0
def fout_w0 : Vec F S128x256 .f32 := View.ld x3 r_fout_w0

abbrev r_fout_b0 : Rect S3552x512 := Rect.unit (s := S3552x512) ![2480, 0] S1x256.size inb_S3552x512_S1x256_2480_0
def fout_b0 : Vec F S1x256 .f32 := View.ld x3 r_fout_b0

abbrev r_fout_w1 : Rect S3552x512 := Rect.unit (s := S3552x512) ![2488, 0] S256x128.size inb_S3552x512_S256x128_2488_0
def fout_w1 : Vec F S256x128 .f32 := View.ld x3 r_fout_w1

def v199 : FVec F S2048x256 .f32 := k0_pay14 (v157 x0 x1 x3) (v158 x3) (merge_w1 x3) (merge_b1 x3) (fout_w0 x3) (fout_b0 x3)

def v201 : FVec F S256x128 .f32 := k0_pay15 (fout_w1 x3)

abbrev r_fout_b1 : Rect S3552x512 := Rect.unit (s := S3552x512) ![2744, 0] S1x128.size inb_S3552x512_S1x128_2744_0
def fout_b1 : Vec F S1x128 .f32 := View.ld x3 r_fout_b1

abbrev r_prio_w0 : Rect S3552x512 := Rect.unit (s := S3552x512) ![2752, 0] S128x256.size inb_S3552x512_S128x256_2752_0
def prio_w0 : Vec F S128x256 .f32 := View.ld x3 r_prio_w0

abbrev r_prio_b0 : Rect S3552x512 := Rect.unit (s := S3552x512) ![2880, 0] S1x256.size inb_S3552x512_S1x256_2880_0
def prio_b0 : Vec F S1x256 .f32 := View.ld x3 r_prio_b0

abbrev r_prio_w1 : Rect S3552x512 := Rect.unit (s := S3552x512) ![2888, 0] S256x1.size inb_S3552x512_S256x1_2888_0
def prio_w1 : Vec F S256x1 .f32 := View.ld x3 r_prio_w1

abbrev r_prio_b1 : Rect S3552x512 := Rect.unit (s := S3552x512) ![3144, 0] S1x1.size inb_S3552x512_S1x1_3144_0
def prio_b1 : Vec F S1x1 .f32 := View.ld x3 r_prio_b1

abbrev r_aggp_w0 : Rect S3552x512 := Rect.unit (s := S3552x512) ![3152, 0] S128x256.size inb_S3552x512_S128x256_3152_0
def aggp_w0 : Vec F S128x256 .f32 := View.ld x3 r_aggp_w0

abbrev r_aggp_b0 : Rect S3552x512 := Rect.unit (s := S3552x512) ![3280, 0] S1x256.size inb_S3552x512_S1x256_3280_0
def aggp_b0 : Vec F S1x256 .f32 := View.ld x3 r_aggp_b0

def v209 : FVec F S2048x128 .f32 := k0_pay16 (v199 x0 x1 x3) (v201 x3) (fout_b1 x3)

def v226 : FVec F S2048x1 .f32 := k0_pay17 (v199 x0 x1 x3) (v201 x3) (fout_b1 x3) (prio_w0 x3) (prio_b0 x3) (prio_w1 x3) (prio_b1 x3)

def v228 : FVec F S128x1 .f32 := k0_pay18 (v199 x0 x1 x3) (v201 x3) (fout_b1 x3) (prio_w0 x3) (prio_b0 x3) (prio_w1 x3) (prio_b1 x3)

def v239 : FVec F S1x256 .f32 := k0_pay19 (v199 x0 x1 x3) (v201 x3) (fout_b1 x3) (aggp_w0 x3) (aggp_b0 x3)

abbrev r_aggp_w1 : Rect S3552x512 := Rect.unit (s := S3552x512) ![3288, 0] S256x1.size inb_S3552x512_S256x1_3288_0
def aggp_w1 : Vec F S256x1 .f32 := View.ld x3 r_aggp_w1

abbrev r_aggp_b1 : Rect S3552x512 := Rect.unit (s := S3552x512) ![3544, 0] S1x1.size inb_S3552x512_S1x1_3544_0
def aggp_b1 : Vec F S1x1 .f32 := View.ld x3 r_aggp_b1

abbrev r_mask0 : Rect S16x129x1 := Rect.unit (s := S16x129x1) ![0, 0, 0] S1x129x1.size inb_S16x129x1_S1x129x1_0_0_0
def mask0 : Vec F S1x129x1 .f32 := View.ld x2 r_mask0

def piece0 : FVec F S1x129x4 .f32 := k0_pay20 (v228 x0 x1 x3) (v239 x0 x1 x3) (aggp_w1 x3) (aggp_b1 x3) (mask0 x2)

def v281 : FVec F S128x128 .f32 := k0_pay21 (v209 x0 x1 x3)

def v282 : FVec F S128x1 .f32 := k0_pay22 (v226 x0 x1 x3)

abbrev r_mask1 : Rect S16x129x1 := Rect.unit (s := S16x129x1) ![1, 0, 0] S1x129x1.size inb_S16x129x1_S1x129x1_1_0_0
def mask1 : Vec F S1x129x1 .f32 := View.ld x2 r_mask1

def v310 : FVec F S129x1 .f32 := k0_pay24 (v281 x0 x1 x3) (v282 x0 x1 x3) (aggp_w0 x3) (aggp_b0 x3) (aggp_w1 x3) (aggp_b1 x3)

def v311 : FVec F S129x1 .f32 := k0_pay25 (v281 x0 x1 x3) (v282 x0 x1 x3) (aggp_w0 x3) (aggp_b0 x3) (aggp_w1 x3) (aggp_b1 x3)

def v319 : FVec F S129x1 .f32 := k0_pay26 (v281 x0 x1 x3) (v282 x0 x1 x3) (aggp_w0 x3) (aggp_b0 x3) (aggp_w1 x3) (aggp_b1 x3) (mask1 x2)

def v321 : FVec F S1x1 .f32 := k0_pay27 (v281 x0 x1 x3) (v282 x0 x1 x3) (aggp_w0 x3) (aggp_b0 x3) (aggp_w1 x3) (aggp_b1 x3) (mask1 x2)

def piece1 : FVec F S1x129x4 .f32 := k0_pay28 (v310 x0 x1 x3) (v311 x0 x1 x3) (v319 x0 x1 x2 x3) (v321 x0 x1 x2 x3)

def v354 : FVec F S129x1 .f32 := k0_pay29 (v209 x0 x1 x3) (v226 x0 x1 x3) (aggp_w0 x3) (aggp_b0 x3) (aggp_w1 x3) (aggp_b1 x3)

def v358 : FVec F S129x1 .f32 := k0_pay30 (v209 x0 x1 x3) (v226 x0 x1 x3) (aggp_w0 x3) (aggp_b0 x3) (aggp_w1 x3) (aggp_b1 x3)

def v362 : FVec F S1x1 .f32 := k0_pay31 (v209 x0 x1 x3) (v226 x0 x1 x3) (aggp_w0 x3) (aggp_b0 x3) (aggp_w1 x3) (aggp_b1 x3)

abbrev r_mask2 : Rect S16x129x1 := Rect.unit (s := S16x129x1) ![2, 0, 0] S1x129x1.size inb_S16x129x1_S1x129x1_2_0_0
def mask2 : Vec F S1x129x1 .f32 := View.ld x2 r_mask2

def piece2 : FVec F S1x129x4 .f32 := k0_pay32 (v354 x0 x1 x3) (v358 x0 x1 x3) (v362 x0 x1 x3) (mask2 x2)

def v390 : FVec F S128x1 .f32 := k0_pay33 (v226 x0 x1 x3)

def v401 : FVec F S1x256 .f32 := k0_pay34 (v209 x0 x1 x3) (aggp_w0 x3) (aggp_b0 x3)

abbrev r_mask3 : Rect S16x129x1 := Rect.unit (s := S16x129x1) ![3, 0, 0] S1x129x1.size inb_S16x129x1_S1x129x1_3_0_0
def mask3 : Vec F S1x129x1 .f32 := View.ld x2 r_mask3

def piece3 : FVec F S1x129x4 .f32 := k0_pay35 (v390 x0 x1 x3) (v401 x0 x1 x3) (aggp_w1 x3) (aggp_b1 x3) (mask3 x2)

def v443 : FVec F S128x128 .f32 := k0_pay36 (v209 x0 x1 x3)

def v444 : FVec F S128x1 .f32 := k0_pay37 (v226 x0 x1 x3)

abbrev r_mask4 : Rect S16x129x1 := Rect.unit (s := S16x129x1) ![4, 0, 0] S1x129x1.size inb_S16x129x1_S1x129x1_4_0_0
def mask4 : Vec F S1x129x1 .f32 := View.ld x2 r_mask4

def v472 : FVec F S129x1 .f32 := k0_pay39 (v443 x0 x1 x3) (v444 x0 x1 x3) (aggp_w0 x3) (aggp_b0 x3) (aggp_w1 x3) (aggp_b1 x3)

def v473 : FVec F S129x1 .f32 := k0_pay40 (v443 x0 x1 x3) (v444 x0 x1 x3) (aggp_w0 x3) (aggp_b0 x3) (aggp_w1 x3) (aggp_b1 x3)

def v481 : FVec F S129x1 .f32 := k0_pay41 (v443 x0 x1 x3) (v444 x0 x1 x3) (aggp_w0 x3) (aggp_b0 x3) (aggp_w1 x3) (aggp_b1 x3) (mask4 x2)

def v483 : FVec F S1x1 .f32 := k0_pay42 (v443 x0 x1 x3) (v444 x0 x1 x3) (aggp_w0 x3) (aggp_b0 x3) (aggp_w1 x3) (aggp_b1 x3) (mask4 x2)

def piece4 : FVec F S1x129x4 .f32 := k0_pay43 (v472 x0 x1 x3) (v473 x0 x1 x3) (v481 x0 x1 x2 x3) (v483 x0 x1 x2 x3)

def v516 : FVec F S129x1 .f32 := k0_pay44 (v209 x0 x1 x3) (v226 x0 x1 x3) (aggp_w0 x3) (aggp_b0 x3) (aggp_w1 x3) (aggp_b1 x3)

def v520 : FVec F S129x1 .f32 := k0_pay45 (v209 x0 x1 x3) (v226 x0 x1 x3) (aggp_w0 x3) (aggp_b0 x3) (aggp_w1 x3) (aggp_b1 x3)

def v524 : FVec F S1x1 .f32 := k0_pay46 (v209 x0 x1 x3) (v226 x0 x1 x3) (aggp_w0 x3) (aggp_b0 x3) (aggp_w1 x3) (aggp_b1 x3)

abbrev r_mask5 : Rect S16x129x1 := Rect.unit (s := S16x129x1) ![5, 0, 0] S1x129x1.size inb_S16x129x1_S1x129x1_5_0_0
def mask5 : Vec F S1x129x1 .f32 := View.ld x2 r_mask5

def piece5 : FVec F S1x129x4 .f32 := k0_pay47 (v516 x0 x1 x3) (v520 x0 x1 x3) (v524 x0 x1 x3) (mask5 x2)

def v552 : FVec F S128x1 .f32 := k0_pay48 (v226 x0 x1 x3)

def v563 : FVec F S1x256 .f32 := k0_pay49 (v209 x0 x1 x3) (aggp_w0 x3) (aggp_b0 x3)

abbrev r_mask6 : Rect S16x129x1 := Rect.unit (s := S16x129x1) ![6, 0, 0] S1x129x1.size inb_S16x129x1_S1x129x1_6_0_0
def mask6 : Vec F S1x129x1 .f32 := View.ld x2 r_mask6

def piece6 : FVec F S1x129x4 .f32 := k0_pay50 (v552 x0 x1 x3) (v563 x0 x1 x3) (aggp_w1 x3) (aggp_b1 x3) (mask6 x2)

def v605 : FVec F S128x128 .f32 := k0_pay51 (v209 x0 x1 x3)

def v606 : FVec F S128x1 .f32 := k0_pay52 (v226 x0 x1 x3)

abbrev r_mask7 : Rect S16x129x1 := Rect.unit (s := S16x129x1) ![7, 0, 0] S1x129x1.size inb_S16x129x1_S1x129x1_7_0_0
def mask7 : Vec F S1x129x1 .f32 := View.ld x2 r_mask7

def v634 : FVec F S129x1 .f32 := k0_pay54 (v605 x0 x1 x3) (v606 x0 x1 x3) (aggp_w0 x3) (aggp_b0 x3) (aggp_w1 x3) (aggp_b1 x3)

def v635 : FVec F S129x1 .f32 := k0_pay55 (v605 x0 x1 x3) (v606 x0 x1 x3) (aggp_w0 x3) (aggp_b0 x3) (aggp_w1 x3) (aggp_b1 x3)

def v643 : FVec F S129x1 .f32 := k0_pay56 (v605 x0 x1 x3) (v606 x0 x1 x3) (aggp_w0 x3) (aggp_b0 x3) (aggp_w1 x3) (aggp_b1 x3) (mask7 x2)

def v645 : FVec F S1x1 .f32 := k0_pay57 (v605 x0 x1 x3) (v606 x0 x1 x3) (aggp_w0 x3) (aggp_b0 x3) (aggp_w1 x3) (aggp_b1 x3) (mask7 x2)

def piece7 : FVec F S1x129x4 .f32 := k0_pay58 (v634 x0 x1 x3) (v635 x0 x1 x3) (v643 x0 x1 x2 x3) (v645 x0 x1 x2 x3)

def v678 : FVec F S129x1 .f32 := k0_pay59 (v209 x0 x1 x3) (v226 x0 x1 x3) (aggp_w0 x3) (aggp_b0 x3) (aggp_w1 x3) (aggp_b1 x3)

def v682 : FVec F S129x1 .f32 := k0_pay60 (v209 x0 x1 x3) (v226 x0 x1 x3) (aggp_w0 x3) (aggp_b0 x3) (aggp_w1 x3) (aggp_b1 x3)

def v686 : FVec F S1x1 .f32 := k0_pay61 (v209 x0 x1 x3) (v226 x0 x1 x3) (aggp_w0 x3) (aggp_b0 x3) (aggp_w1 x3) (aggp_b1 x3)

abbrev r_mask8 : Rect S16x129x1 := Rect.unit (s := S16x129x1) ![8, 0, 0] S1x129x1.size inb_S16x129x1_S1x129x1_8_0_0
def mask8 : Vec F S1x129x1 .f32 := View.ld x2 r_mask8

def piece8 : FVec F S1x129x4 .f32 := k0_pay62 (v678 x0 x1 x3) (v682 x0 x1 x3) (v686 x0 x1 x3) (mask8 x2)

def v714 : FVec F S128x1 .f32 := k0_pay63 (v226 x0 x1 x3)

def v725 : FVec F S1x256 .f32 := k0_pay64 (v209 x0 x1 x3) (aggp_w0 x3) (aggp_b0 x3)

abbrev r_mask9 : Rect S16x129x1 := Rect.unit (s := S16x129x1) ![9, 0, 0] S1x129x1.size inb_S16x129x1_S1x129x1_9_0_0
def mask9 : Vec F S1x129x1 .f32 := View.ld x2 r_mask9

def piece9 : FVec F S1x129x4 .f32 := k0_pay65 (v714 x0 x1 x3) (v725 x0 x1 x3) (aggp_w1 x3) (aggp_b1 x3) (mask9 x2)

def v767 : FVec F S128x128 .f32 := k0_pay66 (v209 x0 x1 x3)

def v768 : FVec F S128x1 .f32 := k0_pay67 (v226 x0 x1 x3)

abbrev r_mask10 : Rect S16x129x1 := Rect.unit (s := S16x129x1) ![10, 0, 0] S1x129x1.size inb_S16x129x1_S1x129x1_10_0_0
def mask10 : Vec F S1x129x1 .f32 := View.ld x2 r_mask10

def v796 : FVec F S129x1 .f32 := k0_pay69 (v767 x0 x1 x3) (v768 x0 x1 x3) (aggp_w0 x3) (aggp_b0 x3) (aggp_w1 x3) (aggp_b1 x3)

def v797 : FVec F S129x1 .f32 := k0_pay70 (v767 x0 x1 x3) (v768 x0 x1 x3) (aggp_w0 x3) (aggp_b0 x3) (aggp_w1 x3) (aggp_b1 x3)

def v805 : FVec F S129x1 .f32 := k0_pay71 (v767 x0 x1 x3) (v768 x0 x1 x3) (aggp_w0 x3) (aggp_b0 x3) (aggp_w1 x3) (aggp_b1 x3) (mask10 x2)

def v807 : FVec F S1x1 .f32 := k0_pay72 (v767 x0 x1 x3) (v768 x0 x1 x3) (aggp_w0 x3) (aggp_b0 x3) (aggp_w1 x3) (aggp_b1 x3) (mask10 x2)

def piece10 : FVec F S1x129x4 .f32 := k0_pay73 (v796 x0 x1 x3) (v797 x0 x1 x3) (v805 x0 x1 x2 x3) (v807 x0 x1 x2 x3)

def v840 : FVec F S129x1 .f32 := k0_pay74 (v209 x0 x1 x3) (v226 x0 x1 x3) (aggp_w0 x3) (aggp_b0 x3) (aggp_w1 x3) (aggp_b1 x3)

def v844 : FVec F S129x1 .f32 := k0_pay75 (v209 x0 x1 x3) (v226 x0 x1 x3) (aggp_w0 x3) (aggp_b0 x3) (aggp_w1 x3) (aggp_b1 x3)

def v848 : FVec F S1x1 .f32 := k0_pay76 (v209 x0 x1 x3) (v226 x0 x1 x3) (aggp_w0 x3) (aggp_b0 x3) (aggp_w1 x3) (aggp_b1 x3)

abbrev r_mask11 : Rect S16x129x1 := Rect.unit (s := S16x129x1) ![11, 0, 0] S1x129x1.size inb_S16x129x1_S1x129x1_11_0_0
def mask11 : Vec F S1x129x1 .f32 := View.ld x2 r_mask11

def piece11 : FVec F S1x129x4 .f32 := k0_pay77 (v840 x0 x1 x3) (v844 x0 x1 x3) (v848 x0 x1 x3) (mask11 x2)

def v876 : FVec F S128x1 .f32 := k0_pay78 (v226 x0 x1 x3)

def v887 : FVec F S1x256 .f32 := k0_pay79 (v209 x0 x1 x3) (aggp_w0 x3) (aggp_b0 x3)

abbrev r_mask12 : Rect S16x129x1 := Rect.unit (s := S16x129x1) ![12, 0, 0] S1x129x1.size inb_S16x129x1_S1x129x1_12_0_0
def mask12 : Vec F S1x129x1 .f32 := View.ld x2 r_mask12

def piece12 : FVec F S1x129x4 .f32 := k0_pay80 (v876 x0 x1 x3) (v887 x0 x1 x3) (aggp_w1 x3) (aggp_b1 x3) (mask12 x2)

def v929 : FVec F S128x128 .f32 := k0_pay81 (v209 x0 x1 x3)

def v930 : FVec F S128x1 .f32 := k0_pay82 (v226 x0 x1 x3)

abbrev r_mask13 : Rect S16x129x1 := Rect.unit (s := S16x129x1) ![13, 0, 0] S1x129x1.size inb_S16x129x1_S1x129x1_13_0_0
def mask13 : Vec F S1x129x1 .f32 := View.ld x2 r_mask13

def v958 : FVec F S129x1 .f32 := k0_pay84 (v929 x0 x1 x3) (v930 x0 x1 x3) (aggp_w0 x3) (aggp_b0 x3) (aggp_w1 x3) (aggp_b1 x3)

def v959 : FVec F S129x1 .f32 := k0_pay85 (v929 x0 x1 x3) (v930 x0 x1 x3) (aggp_w0 x3) (aggp_b0 x3) (aggp_w1 x3) (aggp_b1 x3)

def v967 : FVec F S129x1 .f32 := k0_pay86 (v929 x0 x1 x3) (v930 x0 x1 x3) (aggp_w0 x3) (aggp_b0 x3) (aggp_w1 x3) (aggp_b1 x3) (mask13 x2)

def v969 : FVec F S1x1 .f32 := k0_pay87 (v929 x0 x1 x3) (v930 x0 x1 x3) (aggp_w0 x3) (aggp_b0 x3) (aggp_w1 x3) (aggp_b1 x3) (mask13 x2)

def piece13 : FVec F S1x129x4 .f32 := k0_pay88 (v958 x0 x1 x3) (v959 x0 x1 x3) (v967 x0 x1 x2 x3) (v969 x0 x1 x2 x3)

def v1002 : FVec F S129x1 .f32 := k0_pay89 (v209 x0 x1 x3) (v226 x0 x1 x3) (aggp_w0 x3) (aggp_b0 x3) (aggp_w1 x3) (aggp_b1 x3)

def v1006 : FVec F S129x1 .f32 := k0_pay90 (v209 x0 x1 x3) (v226 x0 x1 x3) (aggp_w0 x3) (aggp_b0 x3) (aggp_w1 x3) (aggp_b1 x3)

def v1010 : FVec F S1x1 .f32 := k0_pay91 (v209 x0 x1 x3) (v226 x0 x1 x3) (aggp_w0 x3) (aggp_b0 x3) (aggp_w1 x3) (aggp_b1 x3)

abbrev r_mask14 : Rect S16x129x1 := Rect.unit (s := S16x129x1) ![14, 0, 0] S1x129x1.size inb_S16x129x1_S1x129x1_14_0_0
def mask14 : Vec F S1x129x1 .f32 := View.ld x2 r_mask14

def piece14 : FVec F S1x129x4 .f32 := k0_pay92 (v1002 x0 x1 x3) (v1006 x0 x1 x3) (v1010 x0 x1 x3) (mask14 x2)

def v1038 : FVec F S128x1 .f32 := k0_pay93 (v226 x0 x1 x3)

def v1049 : FVec F S1x256 .f32 := k0_pay94 (v209 x0 x1 x3) (aggp_w0 x3) (aggp_b0 x3)

abbrev r_mask15 : Rect S16x129x1 := Rect.unit (s := S16x129x1) ![15, 0, 0] S1x129x1.size inb_S16x129x1_S1x129x1_15_0_0
def mask15 : Vec F S1x129x1 .f32 := View.ld x2 r_mask15

def c_cst_464 : F .f32 := Scalar.ofBits .f32 0xC2CF3B8F#32

def v1056 : FVec F S129x1 .f32 := k0_pay95 (v1038 x0 x1 x3) (v1049 x0 x1 x3) (aggp_w1 x3) (aggp_b1 x3)

def v1066 : FVec F S129x1 .f32 := k0_pay96 (v1038 x0 x1 x3) (v1049 x0 x1 x3) (aggp_w1 x3) (aggp_b1 x3)

def v1067 : FVec F S129x1 .f32 := k0_pay97 (v1038 x0 x1 x3) (v1049 x0 x1 x3) (aggp_w1 x3) (aggp_b1 x3)

def v1071 : IVec S129x1 1 := k0_pay98 (mask15 x2)

def v1072 : FVec F S129x1 .f32 := (k0_pay99 (F := F))

def piece15 : FVec F S1x129x4 .f32 := k0_pay1 (v1056 x0 x1 x3) (v1066 x0 x1 x3) (v1067 x0 x1 x3) (v1071 x2) c_cst_464 v1072
abbrev r_out0 : Rect S16x129x4 := Rect.unit (s := S16x129x4) ![0, 0, 0] S1x129x4.size inb_S16x129x4_S1x129x4_0_0_0
abbrev r_out1 : Rect S16x129x4 := Rect.unit (s := S16x129x4) ![1, 0, 0] S1x129x4.size inb_S16x129x4_S1x129x4_1_0_0
abbrev r_out2 : Rect S16x129x4 := Rect.unit (s := S16x129x4) ![2, 0, 0] S1x129x4.size inb_S16x129x4_S1x129x4_2_0_0
abbrev r_out3 : Rect S16x129x4 := Rect.unit (s := S16x129x4) ![3, 0, 0] S1x129x4.size inb_S16x129x4_S1x129x4_3_0_0
abbrev r_out4 : Rect S16x129x4 := Rect.unit (s := S16x129x4) ![4, 0, 0] S1x129x4.size inb_S16x129x4_S1x129x4_4_0_0
abbrev r_out5 : Rect S16x129x4 := Rect.unit (s := S16x129x4) ![5, 0, 0] S1x129x4.size inb_S16x129x4_S1x129x4_5_0_0
abbrev r_out6 : Rect S16x129x4 := Rect.unit (s := S16x129x4) ![6, 0, 0] S1x129x4.size inb_S16x129x4_S1x129x4_6_0_0
abbrev r_out7 : Rect S16x129x4 := Rect.unit (s := S16x129x4) ![7, 0, 0] S1x129x4.size inb_S16x129x4_S1x129x4_7_0_0
abbrev r_out8 : Rect S16x129x4 := Rect.unit (s := S16x129x4) ![8, 0, 0] S1x129x4.size inb_S16x129x4_S1x129x4_8_0_0
abbrev r_out9 : Rect S16x129x4 := Rect.unit (s := S16x129x4) ![9, 0, 0] S1x129x4.size inb_S16x129x4_S1x129x4_9_0_0
abbrev r_out10 : Rect S16x129x4 := Rect.unit (s := S16x129x4) ![10, 0, 0] S1x129x4.size inb_S16x129x4_S1x129x4_10_0_0
abbrev r_out11 : Rect S16x129x4 := Rect.unit (s := S16x129x4) ![11, 0, 0] S1x129x4.size inb_S16x129x4_S1x129x4_11_0_0
abbrev r_out12 : Rect S16x129x4 := Rect.unit (s := S16x129x4) ![12, 0, 0] S1x129x4.size inb_S16x129x4_S1x129x4_12_0_0
abbrev r_out13 : Rect S16x129x4 := Rect.unit (s := S16x129x4) ![13, 0, 0] S1x129x4.size inb_S16x129x4_S1x129x4_13_0_0
abbrev r_out14 : Rect S16x129x4 := Rect.unit (s := S16x129x4) ![14, 0, 0] S1x129x4.size inb_S16x129x4_S1x129x4_14_0_0
abbrev r_out15 : Rect S16x129x4 := Rect.unit (s := S16x129x4) ![15, 0, 0] S1x129x4.size inb_S16x129x4_S1x129x4_15_0_0

def piece (b : Fin 16) (x0 : Vec F S16x256x512 .f32) (x1 : Vec F S16x2x256x256 .f32) (x2 : Vec F S16x129x1 .f32) (x3 : Vec F S3552x512 .f32) : FVec F S1x129x4 .f32 :=
  match b with
  | ⟨0, _⟩ => piece0 x0 x1 x2 x3
  | ⟨1, _⟩ => piece1 x0 x1 x2 x3
  | ⟨2, _⟩ => piece2 x0 x1 x2 x3
  | ⟨3, _⟩ => piece3 x0 x1 x2 x3
  | ⟨4, _⟩ => piece4 x0 x1 x2 x3
  | ⟨5, _⟩ => piece5 x0 x1 x2 x3
  | ⟨6, _⟩ => piece6 x0 x1 x2 x3
  | ⟨7, _⟩ => piece7 x0 x1 x2 x3
  | ⟨8, _⟩ => piece8 x0 x1 x2 x3
  | ⟨9, _⟩ => piece9 x0 x1 x2 x3
  | ⟨10, _⟩ => piece10 x0 x1 x2 x3
  | ⟨11, _⟩ => piece11 x0 x1 x2 x3
  | ⟨12, _⟩ => piece12 x0 x1 x2 x3
  | ⟨13, _⟩ => piece13 x0 x1 x2 x3
  | ⟨14, _⟩ => piece14 x0 x1 x2 x3
  | ⟨15, _⟩ => piece15 x0 x1 x2 x3
  | ⟨_ + 16, h⟩ => absurd h (Nat.not_lt.2 (Nat.le_add_left _ _))

def outBlk : S16x129x4.Idx → Elt F .f32 :=
  View.canon [⟨r_out15, piece15 x0 x1 x2 x3⟩,
    ⟨r_out14, piece14 x0 x1 x2 x3⟩,
    ⟨r_out13, piece13 x0 x1 x2 x3⟩,
    ⟨r_out12, piece12 x0 x1 x2 x3⟩,
    ⟨r_out11, piece11 x0 x1 x2 x3⟩,
    ⟨r_out10, piece10 x0 x1 x2 x3⟩,
    ⟨r_out9, piece9 x0 x1 x2 x3⟩,
    ⟨r_out8, piece8 x0 x1 x2 x3⟩,
    ⟨r_out7, piece7 x0 x1 x2 x3⟩,
    ⟨r_out6, piece6 x0 x1 x2 x3⟩,
    ⟨r_out5, piece5 x0 x1 x2 x3⟩,
    ⟨r_out4, piece4 x0 x1 x2 x3⟩,
    ⟨r_out3, piece3 x0 x1 x2 x3⟩,
    ⟨r_out2, piece2 x0 x1 x2 x3⟩,
    ⟨r_out1, piece1 x0 x1 x2 x3⟩,
    ⟨r_out0, piece0 x0 x1 x2 x3⟩]

end Cert.ReferenceIdeal.Hand

end
-- ==== Proof.RefFrameData.lean ====
/- What each window of the reference program's one region holds before and after the body runs. -/
import proofs.«144052_g2000204636238536_pallasbulk_491_38_alg».proof.Proof.RefFrameLaunch
import proofs.«144052_g2000204636238536_pallasbulk_491_38_alg».proof.Proof.RefOut

set_option maxRecDepth 16384

noncomputable section

namespace Cert.ReferenceIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ReferenceIdeal Cert.ReferenceIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outBlk (iblk m c 0 t) (iblk m c 1 t) (iblk m c 2 t) (iblk m c 3 t)
    | ⟨_ + 5, h⟩ => absurd h (Nat.not_lt.2 (Nat.le_add_left _ _))
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) :
    (dats m 0 c).after 4 t = outBlk (iblk m c 0 t) (iblk m c 1 t) (iblk m c 2 t) (iblk m c 3 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

end Cert.ReferenceIdeal.Hand

end
-- ==== Proof.RefFrameBody.lean ====
/- The reference body's triple: run on the four input blocks it leaves them as they were and the output at `outBlk` of them. -/
import proofs.«144052_g2000204636238536_pallasbulk_491_38_alg».proof.Proof.Gen.ReferenceIdeal.Launch
import proofs.«144052_g2000204636238536_pallasbulk_491_38_alg».proof.Proof.Gen.ReferenceIdeal.Skeleton
import proofs.«144052_g2000204636238536_pallasbulk_491_38_alg».proof.Proof.Gen.ReferenceIdeal.Points
import proofs.«144052_g2000204636238536_pallasbulk_491_38_alg».proof.Proof.RefOut
import Idealize.ShloMosaic.Lib.Pipeline.FrameBody
import Idealize.ShloMosaic.Lib.Ring
import Idealize.ShloMosaic.Lib.Tactic

set_option maxRecDepth 16384
set_option pp.maxSteps 5000
set_option pp.deepTerms false

noncomputable section

namespace Cert.ReferenceIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ReferenceIdeal Cert.ReferenceIdeal.Gen

variable {F : FTy → Type} [FloatOps F]

local notation "𝕄" => MT nD τ sig Unit (Elt F) ℕ (UR sig nD τ) ℕ

theorem cover_out (p15 p14 p13 p12 p11 p10 p9 p8 p7 p6 p5 p4 p3 p2 p1 p0 : Vec F S1x129x4 .f32) (y : S16x129x4.Idx) :
    ∃ pc ∈ ([⟨r_out15, p15⟩, ⟨r_out14, p14⟩, ⟨r_out13, p13⟩, ⟨r_out12, p12⟩, ⟨r_out11, p11⟩, ⟨r_out10, p10⟩, ⟨r_out9, p9⟩, ⟨r_out8, p8⟩, ⟨r_out7, p7⟩, ⟨r_out6, p6⟩, ⟨r_out5, p5⟩, ⟨r_out4, p4⟩, ⟨r_out3, p3⟩, ⟨r_out2, p2⟩, ⟨r_out1, p1⟩, ⟨r_out0, p0⟩] : List (View.Piece (Elt F) S16x129x4 .f32)), y ∈ pc.1.set :=
  View.cover_of_tiledL [⟨r_out15, p15⟩, ⟨r_out14, p14⟩, ⟨r_out13, p13⟩, ⟨r_out12, p12⟩, ⟨r_out11, p11⟩, ⟨r_out10, p10⟩, ⟨r_out9, p9⟩, ⟨r_out8, p8⟩, ⟨r_out7, p7⟩, ⟨r_out6, p6⟩, ⟨r_out5, p5⟩, ⟨r_out4, p4⟩, ⟨r_out3, p3⟩, ⟨r_out2, p2⟩, ⟨r_out1, p1⟩, ⟨r_out0, p0⟩] S1x129x4.size (by sl_kernel_rfl) y

set_option maxHeartbeats 40000000 in

theorem sound_kernel (c : Dev nD) (E : Set ℕ) (i : grid0.Coords)
    (arg1 : Memref sig .tc .vmem S16x256x512 .f32) (harg1 : arg1.IsWhole)
    (arg2 : Memref sig .tc .vmem S16x2x256x256 .f32) (harg2 : arg2.IsWhole)
    (arg3 : Memref sig .tc .vmem S16x129x1 .f32) (harg3 : arg3.IsWhole)
    (arg4 : Memref sig .tc .vmem S3552x512 .f32) (harg4 : arg4.IsWhole)
    (arg5 : Memref sig .tc .vmem S16x129x4 .f32) (harg5 : arg5.IsWhole)
    (x0 : Vec F S16x256x512 .f32) (x1 : Vec F S16x2x256x256 .f32) (x2 : Vec F S16x129x1 .f32) (x3 : Vec F S3552x512 .f32)
    (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (outBlk x0 x1 x2 x3)) -∗ K ⟨⟩))
      ⊢ wp frame (wpE (defs₀ (F := F)) Variants.none c none) E (cc0__kernel_body i arg1 harg1 arg2 harg2 arg3 harg3 arg4 harg4 arg5 harg5) K := by
  simp only [cc0__kernel_body_eq_skeleton]; unfold cc0__kernel_body_skel
  simp only [k0_part27_eq_skeleton]; unfold k0_part27_skel
  simp only [k0_part1_eq_skeleton]; unfold k0_part1_skel
  simp only [k0_part2_eq_skeleton]; unfold k0_part2_skel
  simp only [k0_part3_eq_skeleton]; unfold k0_part3_skel
  simp only [k0_part4_eq_skeleton]; unfold k0_part4_skel
  simp only [k0_part5_eq_skeleton]; unfold k0_part5_skel
  simp only [k0_part6_eq_skeleton]; unfold k0_part6_skel
  simp only [k0_part7_eq_skeleton]; unfold k0_part7_skel
  simp only [k0_part8_eq_skeleton]; unfold k0_part8_skel
  simp only [k0_part9_eq_skeleton]; unfold k0_part9_skel
  simp only [k0_part10_eq_skeleton]; unfold k0_part10_skel
  simp only [k0_part11_eq_skeleton]; unfold k0_part11_skel
  simp only [k0_part12_eq_skeleton]; unfold k0_part12_skel
  simp only [k0_part13_eq_skeleton]; unfold k0_part13_skel
  simp only [k0_part14_eq_skeleton]; unfold k0_part14_skel
  simp only [k0_part15_eq_skeleton]; unfold k0_part15_skel
  simp only [k0_part16_eq_skeleton]; unfold k0_part16_skel
  simp only [k0_part17_eq_skeleton]; unfold k0_part17_skel
  simp only [k0_part18_eq_skeleton]; unfold k0_part18_skel
  simp only [k0_part19_eq_skeleton]; unfold k0_part19_skel
  simp only [k0_part20_eq_skeleton]; unfold k0_part20_skel
  simp only [k0_part21_eq_skeleton]; unfold k0_part21_skel
  simp only [k0_part22_eq_skeleton]; unfold k0_part22_skel
  simp only [k0_part23_eq_skeleton]; unfold k0_part23_skel
  simp only [k0_part24_eq_skeleton]; unfold k0_part24_skel
  simp only [k0_part25_eq_skeleton]; unfold k0_part25_skel
  simp only [k0_part26_eq_skeleton]; unfold k0_part26_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  try dsimp only
  exact View.read_writes_eq_canon _ _ _ (cover_out _ _ _ _ _ _ _ _ _ _ _ _ _ _ _ _)

end Cert.ReferenceIdeal.Hand

end
-- ==== Proof.RefFrameFinal.lean ====
/- The reference program's result arrays, read off its one region. -/
import proofs.«144052_g2000204636238536_pallasbulk_491_38_alg».proof.Proof.RefFrameData
import Idealize.ShloMosaic.Lib.Pipeline.Value
import Idealize.ShloMosaic.Lib.ValueIdx

set_option maxRecDepth 16384

noncomputable section

namespace Cert.ReferenceIdeal.Hand

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ReferenceIdeal Cert.ReferenceIdeal.Gen

variable {F : FTy → Type} [FloatOps F]

variable (m : (ℓ : Loc nD τ sig) → Buf (Elt F) ℓ)

theorem iblk0_eq (c : Dev nD) (t : Fin cfg0.N) : (iblk m c 0 t : Vec F S16x256x512 .f32) = V m c main_v141 := by
  obtain rfl : t = t0_0 := fin_N0 t
  unfold iblk
  have hz' : (fun a => win0_0.index t0_0 a * main_v141.ty.shape.size a) = fun _ => 0 :=
    funext fun a => by fin_cases a <;> first | decide | decide +kernel
  exact Memref.read_access_unit_zero (Elt F) main_v141 hz' (fun a => by rw [congrFun hz' a]; simp) (V m c main_v141)

theorem iblk1_eq (c : Dev nD) (t : Fin cfg0.N) : (iblk m c 1 t : Vec F S16x2x256x256 .f32) = V m c main_v144 := by
  obtain rfl : t = t0_0 := fin_N0 t
  unfold iblk
  have hz' : (fun a => win0_1.index t0_0 a * main_v144.ty.shape.size a) = fun _ => 0 :=
    funext fun a => by fin_cases a <;> first | decide | decide +kernel
  exact Memref.read_access_unit_zero (Elt F) main_v144 hz' (fun a => by rw [congrFun hz' a]; simp) (V m c main_v144)

theorem iblk2_eq (c : Dev nD) (t : Fin cfg0.N) : (iblk m c 2 t : Vec F S16x129x1 .f32) = V m c main_v145 := by
  obtain rfl : t = t0_0 := fin_N0 t
  unfold iblk
  have hz' : (fun a => win0_2.index t0_0 a * main_v145.ty.shape.size a) = fun _ => 0 :=
    funext fun a => by fin_cases a <;> first | decide | decide +kernel
  exact Memref.read_access_unit_zero (Elt F) main_v145 hz' (fun a => by rw [congrFun hz' a]; simp) (V m c main_v145)

theorem iblk3_eq (c : Dev nD) (t : Fin cfg0.N) : (iblk m c 3 t : Vec F S3552x512 .f32) = V m c main_v140 := by
  obtain rfl : t = t0_0 := fin_N0 t
  unfold iblk
  have hz' : (fun a => win0_3.index t0_0 a * main_v140.ty.shape.size a) = fun _ => 0 :=
    funext fun a => by fin_cases a <;> first | decide | decide +kernel
  exact Memref.read_access_unit_zero (Elt F) main_v140 hz' (fun a => by rw [congrFun hz' a]; simp) (V m c main_v140)

theorem flushed4_eq (c : Dev nD) (t : Fin cfg0.N) :
    (dats m 0 c).flushed 4 t = ((cfg0.win 4).blk t).view.read (Elt F) (outBlk (V m c main_v141) (V m c main_v144) (V m c main_v145) (V m c main_v140)) := by
  show (cfg0.win 4).cut (grid0.coords t) ((dats m 0 c).after 4 t) = _
  rw [after0_4]
  have e : outBlk (iblk m c 0 t) (iblk m c 1 t) (iblk m c 2 t) (iblk m c 3 t) = outBlk (V m c main_v141) (V m c main_v144) (V m c main_v145) (V m c main_v140) :=
    (congrArg (fun x : Vec F S16x256x512 .f32 => outBlk x (iblk m c 1 t) (iblk m c 2 t) (iblk m c 3 t)) (iblk0_eq m c t)).trans
    ((congrArg (fun x : Vec F S16x2x256x256 .f32 => outBlk (V m c main_v141) x (iblk m c 2 t) (iblk m c 3 t)) (iblk1_eq m c t)).trans
    ((congrArg (fun x : Vec F S16x129x1 .f32 => outBlk (V m c main_v141) (V m c main_v144) x (iblk m c 3 t)) (iblk2_eq m c t)).trans
    (congrArg (fun x : Vec F S3552x512 .f32 => outBlk (V m c main_v141) (V m c main_v144) (V m c main_v145) x) (iblk3_eq m c t))))
  rw [e]
  obtain rfl : t = t0_0 := fin_N0 t
  have hz' : (fun a => win0_4.index t0_0 a * main_v146.ty.shape.size a) = fun _ => 0 :=
    funext fun a => by fin_cases a <;> first | decide | decide +kernel
  exact (Memref.read_access_unit_zero (Elt F) main_v146 hz' (fun a => by rw [congrFun hz' a]; simp) (outBlk (V m c main_v141) (V m c main_v144) (V m c main_v145) (V m c main_v140))).symm

theorem cover4 (i : S16x129x4.Idx) :
    ∃ t : Fin cfg0.N, (cfg0.win 4).flush t = true ∧ i ∈ ((cfg0.win 4).blk t).view.set :=
  ⟨t0_0, flush0_4 t0_0, by
    show i ∈ ((View.whole main_v146).slice (win0_4.rect t0_0)).set
    rw [View.set_slice_whole, Rect.mem_set_unit]
    intro a
    have h0 : (i 0 : Nat) < 16 := (i 0).isLt
    have h1 : (i 1 : Nat) < 129 := (i 1).isLt
    have h2 : (i 2 : Nat) < 4 := (i 2).isLt
    match a with
    | ⟨0, _⟩ =>
      show win0_4.index t0_0 0 * win0_4.size 0 ≤ (i 0 : Nat) ∧ (i 0 : Nat) < win0_4.index t0_0 0 * win0_4.size 0 + win0_4.xsize (grid0.coords t0_0) 0
      rw [show win0_4.index t0_0 0 * win0_4.size 0 = 0 from by decide +kernel, show win0_4.xsize (grid0.coords t0_0) 0 = 16 from by decide +kernel]; omega
    | ⟨1, _⟩ =>
      show win0_4.index t0_0 1 * win0_4.size 1 ≤ (i 1 : Nat) ∧ (i 1 : Nat) < win0_4.index t0_0 1 * win0_4.size 1 + win0_4.xsize (grid0.coords t0_0) 1
      rw [show win0_4.index t0_0 1 * win0_4.size 1 = 0 from by decide +kernel, show win0_4.xsize (grid0.coords t0_0) 1 = 129 from by decide +kernel]; omega
    | ⟨2, _⟩ =>
      show win0_4.index t0_0 2 * win0_4.size 2 ≤ (i 2 : Nat) ∧ (i 2 : Nat) < win0_4.index t0_0 2 * win0_4.size 2 + win0_4.xsize (grid0.coords t0_0) 2
      rw [show win0_4.index t0_0 2 * win0_4.size 2 = 0 from by decide +kernel, show win0_4.xsize (grid0.coords t0_0) 2 = 4 from by decide +kernel]; omega⟩

theorem final (c : Dev nD) : (dats m 0 c).arrAt 4 cfg0.N = outBlk (V m c main_v141) (V m c main_v144) (V m c main_v145) (V m c main_v140) :=
  (dats m 0 c).arrAt_eq_of_cover 4 _ (fun t _ => flushed4_eq m c t) cover4

theorem final_pre (c : Dev nD) : (dats m 0 c).arrAt 4 cfg0.N = outBlk (Vpre m c main_v141) (Vpre m c main_v144) (Vpre m c main_v145) (Vpre m c main_v140) := by
  rw [final, V_eq_Vpre, V_eq_Vpre, V_eq_Vpre, V_eq_Vpre]

theorem column_apply (X : S16x129x4.Idx → Elt F .f32) (k : Fin 4)
    (hs : S16x129x4.Slices ![0, 0, k.val] S16x129x1) (hc : S16x129x1.ShapeCasts S16x129) (i : S16x129.Idx) :
    shapeCast S16x129 (extractStridedSlice S16x129x1 ![0, 0, k.val] X hs) hc i = X (ix3 (i 0) (i 1) k) := by
  refine (shapeCast_apply _ hc i (ix3 (i 0) (i 1) (0 : Fin 1)) ?_).trans ?_
  · rw [Shape.rowMajor_val_three, Shape.rowMajor_val_two]
    show ((i 0).val * 129 + (i 1).val) * 1 + 0 = (i 0).val * 129 + (i 1).val
    omega
  · refine extractStridedSlice_apply _ X hs _ (ix3 (i 0) (i 1) k) fun a => ?_
    match a with
    | ⟨0, _⟩ => show (i 0).val = 0 + (i 0).val; omega
    | ⟨1, _⟩ => show (i 1).val = 0 + (i 1).val; omega
    | ⟨2, _⟩ => show k.val = k.val + 0; omega

theorem tail_v148 (c : Dev nD) :
    Pipeline.afterTail₀ cfgs (dats m) 0 (V0 m) [hostOps1] c main_v148
      = fun i : S16x129.Idx => outBlk (Vpre m c main_v141) (Vpre m c main_v144) (Vpre m c main_v145) (Vpre m c main_v140) (ix3 (i 0) (i 1) (0 : Fin 4)) := by
  unfold Pipeline.afterTail₀
  show StableHlo.after hostOps1 _ (Proc.devRef .tc main_v148) = _
  after_results
  rw [(Pipeline.withArrays_arr spec0 launch0.win.arr_inj c _ _ 4).trans (final_pre m c)]
  funext i
  exact column_apply _ (0 : Fin 4) _ _ i

theorem tail_v150 (c : Dev nD) :
    Pipeline.afterTail₀ cfgs (dats m) 0 (V0 m) [hostOps1] c main_v150
      = fun i : S16x129.Idx => outBlk (Vpre m c main_v141) (Vpre m c main_v144) (Vpre m c main_v145) (Vpre m c main_v140) (ix3 (i 0) (i 1) (1 : Fin 4)) := by
  unfold Pipeline.afterTail₀
  show StableHlo.after hostOps1 _ (Proc.devRef .tc main_v150) = _
  after_results
  rw [(Pipeline.withArrays_arr spec0 launch0.win.arr_inj c _ _ 4).trans (final_pre m c)]
  funext i
  exact column_apply _ (1 : Fin 4) _ _ i

theorem tail_v152 (c : Dev nD) :
    Pipeline.afterTail₀ cfgs (dats m) 0 (V0 m) [hostOps1] c main_v152
      = fun i : S16x129.Idx => outBlk (Vpre m c main_v141) (Vpre m c main_v144) (Vpre m c main_v145) (Vpre m c main_v140) (ix3 (i 0) (i 1) (2 : Fin 4)) := by
  unfold Pipeline.afterTail₀
  show StableHlo.after hostOps1 _ (Proc.devRef .tc main_v152) = _
  after_results
  rw [(Pipeline.withArrays_arr spec0 launch0.win.arr_inj c _ _ 4).trans (final_pre m c)]
  funext i
  exact column_apply _ (2 : Fin 4) _ _ i

theorem tail_v154 (c : Dev nD) :
    Pipeline.afterTail₀ cfgs (dats m) 0 (V0 m) [hostOps1] c main_v154
      = fun i : S16x129.Idx => outBlk (Vpre m c main_v141) (Vpre m c main_v144) (Vpre m c main_v145) (Vpre m c main_v140) (ix3 (i 0) (i 1) (3 : Fin 4)) := by
  unfold Pipeline.afterTail₀
  show StableHlo.after hostOps1 _ (Proc.devRef .tc main_v154) = _
  after_results
  rw [(Pipeline.withArrays_arr spec0 launch0.win.arr_inj c _ _ 4).trans (final_pre m c)]
  funext i
  exact column_apply _ (3 : Fin 4) _ _ i

end Cert.ReferenceIdeal.Hand

end
-- ==== Proof.RefFrameRun.lean ====
/- The reference program's run. -/
import proofs.«144052_g2000204636238536_pallasbulk_491_38_alg».proof.Proof.RefFrameData
import proofs.«144052_g2000204636238536_pallasbulk_491_38_alg».proof.Proof.RefFrameBody
import proofs.«144052_g2000204636238536_pallasbulk_491_38_alg».proof.Proof.RefFrameFinal

set_option maxRecDepth 16384

noncomputable section

namespace Cert.ReferenceIdeal.Hand

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ReferenceIdeal Cert.ReferenceIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t))

set_option maxHeartbeats 20000000 in

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).Φ t.succ = (dats m 0 c).Φ t.castSucc from rfl,
    show (dats m 0 c).owesAt () t.succ = (dats m 0 c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel c Set.univ (grid0.coords t) _ _ _ _ _ _ _ _ _ _ (iblk m c 0 t) (iblk m c 1 t) (iblk m c 2 t) (iblk m c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

set_option maxHeartbeats 20000000 in

theorem body_obligation (c : Dev nD) : BodyObligation (dats (F := F) m 0 c) (defs₀ (F := F)) Variants.none () Set.univ := fun t => by
  rw [bigSep_W0, bigSep_W0]
  exact sound_body m c t

set_option backward.isDefEq.respectTransparency.types false in

theorem run_main : θ_run defs (onTc (τ := τ) (main (F := F))) (s₀ m ρ)
    (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

theorem run_values : θ_run defs (onTc (τ := τ) (main (F := F))) ⟨m, fun _ => 0, ρ⟩ (fun r => ∀ c : Dev nD,
      r.2.mem ((c.tc : Thread nD τ).loc main_v148) = (fun i => outBlk (Vpre m c main_v141) (Vpre m c main_v144) (Vpre m c main_v145) (Vpre m c main_v140) (ix3 (i 0) (i 1) (0 : Fin 4)))
      ∧ r.2.mem ((c.tc : Thread nD τ).loc main_v150) = (fun i => outBlk (Vpre m c main_v141) (Vpre m c main_v144) (Vpre m c main_v145) (Vpre m c main_v140) (ix3 (i 0) (i 1) (1 : Fin 4)))
      ∧ r.2.mem ((c.tc : Thread nD τ).loc main_v152) = (fun i => outBlk (Vpre m c main_v141) (Vpre m c main_v144) (Vpre m c main_v145) (Vpre m c main_v140) (ix3 (i 0) (i 1) (2 : Fin 4)))
      ∧ r.2.mem ((c.tc : Thread nD τ).loc main_v154) = (fun i => outBlk (Vpre m c main_v141) (Vpre m c main_v144) (Vpre m c main_v145) (Vpre m c main_v140) (ix3 (i 0) (i 1) (3 : Fin 4)))
      ∧ Kept m r.2.mem c) :=
  (θ_run defs _ _).mono (fun _ h c => ⟨((h c).2 main_v148 (Pipeline.mem_restRefs_of main_v148 rfl (by decide))).trans (tail_v148 m c),
      ((h c).2 main_v150 (Pipeline.mem_restRefs_of main_v150 rfl (by decide))).trans (tail_v150 m c),
      ((h c).2 main_v152 (Pipeline.mem_restRefs_of main_v152 rfl (by decide))).trans (tail_v152 m c),
      ((h c).2 main_v154 (Pipeline.mem_restRefs_of main_v154 rfl (by decide))).trans (tail_v154 m c),
      kept_of m (dats m) h c⟩) (run_main m ρ)

end Cert.ReferenceIdeal.Hand

end
-- ==== Proof.RefValueLoads.lean ====
/- What the reference body's loads read, given what its four blocks hold. -/
import proofs.«144052_g2000204636238536_pallasbulk_491_38_alg».proof.Proof.RefOut
import proofs.«144052_g2000204636238536_pallasbulk_491_38_alg».proof.Proof.Spec
import proofs.«144052_g2000204636238536_pallasbulk_491_38_alg».proof.Proof.Rows
import Idealize.ShloMosaic.Lib.Pipeline.FrameBody
import Idealize.ShloMosaic.Lib.Pipeline.Value
import Idealize.ShloMosaic.Lib.ValueIdx

noncomputable section

namespace Cert.ReferenceIdeal.Hand

open Idealize.ShloMosaic Idealize.ShloMosaic.ValueIdx
open Cert.ReferenceIdeal Cert.ReferenceIdeal.Gen Cert.Rows

theorem ld2 {Val : EltTy → Type} {e : EltTy} {N0 N1 n0 n1 : ℕ} (X : (⟨2, ![N0, N1]⟩ : Shape).Idx → Val e) (o0 : ℕ)
    (inb : ∀ a, (![o0, 0] : Fin 2 → ℕ) a + (⟨2, ![n0, n1]⟩ : Shape).size a ≤ (⟨2, ![N0, N1]⟩ : Shape).size a)
    (k : Fin n0) (j : Fin n1) (h0 : o0 + k.val < N0) (h1 : j.val < N1) :
    View.ld X (Rect.unit (s := ⟨2, ![N0, N1]⟩) ![o0, 0] (⟨2, ![n0, n1]⟩ : Shape).size inb) (ix2 k j)
      = X (ix2 ⟨o0 + k.val, h0⟩ ⟨j.val, h1⟩) := by
  show X _ = X _
  congr 1
  funext a
  match a with
  | ⟨0, _⟩ => exact Fin.ext (by show o0 + 1 * k.val = o0 + k.val; omega)
  | ⟨1, _⟩ => exact Fin.ext (by show 0 + 1 * j.val = j.val; omega)

theorem ld2row {Val : EltTy → Type} {e : EltTy} {N0 N1 n1 : ℕ} (X : (⟨2, ![N0, N1]⟩ : Shape).Idx → Val e) (o0 : ℕ)
    (inb : ∀ a, (![o0, 0] : Fin 2 → ℕ) a + (⟨2, ![1, n1]⟩ : Shape).size a ≤ (⟨2, ![N0, N1]⟩ : Shape).size a)
    (j : Fin n1) (h0 : o0 < N0) (h1 : j.val < N1) :
    View.ld X (Rect.unit (s := ⟨2, ![N0, N1]⟩) ![o0, 0] (⟨2, ![1, n1]⟩ : Shape).size inb) (ix2 (0 : Fin 1) j)
      = X (ix2 ⟨o0, h0⟩ ⟨j.val, h1⟩) := by
  show X _ = X _
  congr 1
  funext a
  match a with
  | ⟨0, _⟩ => exact Fin.ext (by show o0 + 1 * ((0 : Fin 1) : ℕ) = o0; simp)
  | ⟨1, _⟩ => exact Fin.ext (by show 0 + 1 * j.val = j.val; omega)

theorem ld3slab {Val : EltTy → Type} {e : EltTy} {N0 N1 N2 : ℕ} (X : (⟨3, ![N0, N1, N2]⟩ : Shape).Idx → Val e) (o0 : ℕ)
    (inb : ∀ a, (![o0, 0, 0] : Fin 3 → ℕ) a + (⟨3, ![1, N1, N2]⟩ : Shape).size a ≤ (⟨3, ![N0, N1, N2]⟩ : Shape).size a)
    (b : Fin N0) (hb : b.val = o0) (s : Fin N1) (c : Fin N2) :
    View.ld X (Rect.unit (s := ⟨3, ![N0, N1, N2]⟩) ![o0, 0, 0] (⟨3, ![1, N1, N2]⟩ : Shape).size inb) (ix3 (0 : Fin 1) s c)
      = X (ix3 b s c) := by
  subst hb
  show X _ = X _
  congr 1
  funext a
  match a with
  | ⟨0, _⟩ => exact Fin.ext (by show b.val + 1 * ((0 : Fin 1) : ℕ) = b.val; simp)
  | ⟨1, _⟩ => exact Fin.ext (by show 0 + 1 * s.val = s.val; omega)
  | ⟨2, _⟩ => exact Fin.ext (by show 0 + 1 * c.val = c.val; omega)

structure Holds (A : Cert.Spec.Args) (x0 : Vec Ideal S16x256x512 .f32) (x1 : Vec Ideal S16x2x256x256 .f32)
    (x2 : Vec Ideal S16x129x1 .f32) (x3 : Vec Ideal S3552x512 .f32) : Prop where
  nodes : ∀ (b : Fin 16) (n : Fin 256) (j : Fin 512),
    x0 (ix3 b n j) = Cert.Spec.side (N := 512) (by norm_num) (A.node0 b) (A.node1 b) n j
  adjs : ∀ (b : Fin 16) (g : Fin 2) (i j : Fin 256),
    x1 (ix4 b g i j) = if g.val = 0 then A.adj0 b i j else A.adj1 b i j
  mask : ∀ (b : Fin 16) (s : Fin 129), x2 (ix3 b s (0 : Fin 1)) = A.mask b s
  w_feat0 : ∀ (k : Fin 512) (j : Fin 512), x3 (ix2 ⟨0 + k.val, by omega⟩ ⟨j.val, by omega⟩)
    = Cert.Spec.bdiag (K := 512) (N := 512) (by norm_num) (by norm_num) A.wf00 A.wf10 k j
  b_feat0 : ∀ (j : Fin 512), x3 (ix2 ⟨512, by omega⟩ ⟨j.val, by omega⟩)
    = Cert.Spec.cat (N := 512) (by norm_num) A.bf00 A.bf10 j
  w_feat1 : ∀ (k : Fin 512) (j : Fin 256), x3 (ix2 ⟨520 + k.val, by omega⟩ ⟨j.val, by omega⟩)
    = Cert.Spec.bdiag (K := 512) (N := 256) (by norm_num) (by norm_num) A.wf01 A.wf11 k j
  b_feat1 : ∀ (j : Fin 256), x3 (ix2 ⟨1032, by omega⟩ ⟨j.val, by omega⟩)
    = Cert.Spec.cat (N := 256) (by norm_num) A.bf01 A.bf11 j
  w_msg0 : ∀ (k : Fin 256) (j : Fin 512), x3 (ix2 ⟨1040 + k.val, by omega⟩ ⟨j.val, by omega⟩)
    = Cert.Spec.bdiag (K := 256) (N := 512) (by norm_num) (by norm_num) A.wm00 A.wm10 k j
  b_msg0 : ∀ (j : Fin 512), x3 (ix2 ⟨1296, by omega⟩ ⟨j.val, by omega⟩)
    = Cert.Spec.cat (N := 512) (by norm_num) A.bm00 A.bm10 j
  w_msg1 : ∀ (k : Fin 512) (j : Fin 256), x3 (ix2 ⟨1304 + k.val, by omega⟩ ⟨j.val, by omega⟩)
    = Cert.Spec.bdiag (K := 512) (N := 256) (by norm_num) (by norm_num) A.wm01 A.wm11 k j
  b_msg1 : ∀ (j : Fin 256), x3 (ix2 ⟨1816, by omega⟩ ⟨j.val, by omega⟩)
    = Cert.Spec.cat (N := 256) (by norm_num) A.bm01 A.bm11 j
  w_merge0 : ∀ (k : Fin 256) (j : Fin 256), x3 (ix2 ⟨1824 + k.val, by omega⟩ ⟨j.val, by omega⟩) = A.wg0 k j
  b_merge0 : ∀ (j : Fin 256), x3 (ix2 ⟨2080, by omega⟩ ⟨j.val, by omega⟩) = A.bg0 j
  w_merge1 : ∀ (k : Fin 256) (j : Fin 128), x3 (ix2 ⟨2088 + k.val, by omega⟩ ⟨j.val, by omega⟩) = A.wg1 k j
  b_merge1 : ∀ (j : Fin 128), x3 (ix2 ⟨2344, by omega⟩ ⟨j.val, by omega⟩) = A.bg1 j
  w_fout0 : ∀ (k : Fin 128) (j : Fin 256), x3 (ix2 ⟨2352 + k.val, by omega⟩ ⟨j.val, by omega⟩) = A.wo0 k j
  b_fout0 : ∀ (j : Fin 256), x3 (ix2 ⟨2480, by omega⟩ ⟨j.val, by omega⟩) = A.bo0 j
  w_fout1 : ∀ (k : Fin 256) (j : Fin 128), x3 (ix2 ⟨2488 + k.val, by omega⟩ ⟨j.val, by omega⟩) = A.wo1 k j
  b_fout1 : ∀ (j : Fin 128), x3 (ix2 ⟨2744, by omega⟩ ⟨j.val, by omega⟩) = A.bo1 j
  w_prio0 : ∀ (k : Fin 128) (j : Fin 256), x3 (ix2 ⟨2752 + k.val, by omega⟩ ⟨j.val, by omega⟩) = A.wp0 k j
  b_prio0 : ∀ (j : Fin 256), x3 (ix2 ⟨2880, by omega⟩ ⟨j.val, by omega⟩) = A.bp0 j
  w_prio1 : ∀ (k : Fin 256) (j : Fin 1), x3 (ix2 ⟨2888 + k.val, by omega⟩ ⟨j.val, by omega⟩) = A.wp1 k j
  b_prio1 : ∀ (j : Fin 1), x3 (ix2 ⟨3144, by omega⟩ ⟨j.val, by omega⟩) = A.bp1 j
  w_aggp0 : ∀ (k : Fin 128) (j : Fin 256), x3 (ix2 ⟨3152 + k.val, by omega⟩ ⟨j.val, by omega⟩) = A.wa0 k j
  b_aggp0 : ∀ (j : Fin 256), x3 (ix2 ⟨3280, by omega⟩ ⟨j.val, by omega⟩) = A.ba0 j
  w_aggp1 : ∀ (k : Fin 256) (j : Fin 1), x3 (ix2 ⟨3288 + k.val, by omega⟩ ⟨j.val, by omega⟩) = A.wa1 k j
  b_aggp1 : ∀ (j : Fin 1), x3 (ix2 ⟨3544, by omega⟩ ⟨j.val, by omega⟩) = A.ba1 j

variable {A : Cert.Spec.Args} {x0 : Vec Ideal S16x256x512 .f32} {x1 : Vec Ideal S16x2x256x256 .f32}
  {x2 : Vec Ideal S16x129x1 .f32} {x3 : Vec Ideal S3552x512 .f32}

theorem nodes_self (x0 : Vec Ideal S16x256x512 .f32) : nodes x0 = x0 :=
  View.ld_unit_zero (by funext a; match a with | ⟨0, _⟩ => rfl | ⟨1, _⟩ => rfl | ⟨2, _⟩ => rfl) _ x0

theorem adjs_self (x1 : Vec Ideal S16x2x256x256 .f32) : adjs x1 = x1 :=
  View.ld_unit_zero (by funext a; match a with | ⟨0, _⟩ => rfl | ⟨1, _⟩ => rfl | ⟨2, _⟩ => rfl | ⟨3, _⟩ => rfl) _ x1

theorem nodes_eq (H : Holds A x0 x1 x2 x3) (b : Fin 16) (n : Fin 256) (j : Fin 512) :
    nodes x0 (ix3 b n j) = Cert.Spec.side (N := 512) (by norm_num) (A.node0 b) (A.node1 b) n j := by
  rw [nodes_self]; exact H.nodes b n j

theorem adjs_eq (H : Holds A x0 x1 x2 x3) (b : Fin 16) (g : Fin 2) (i j : Fin 256) :
    adjs x1 (ix4 b g i j) = if g.val = 0 then A.adj0 b i j else A.adj1 b i j := by
  rw [adjs_self]; exact H.adjs b g i j

theorem feat_w0_eq (H : Holds A x0 x1 x2 x3) (k : Fin 512) (j : Fin 512) :
    feat_w0 x3 (ix2 k j) = Cert.Spec.bdiag (K := 512) (N := 512) (by norm_num) (by norm_num) A.wf00 A.wf10 k j :=
  (ld2 x3 0 _ k j _ _).trans (H.w_feat0 k j)
theorem feat_b0_eq (H : Holds A x0 x1 x2 x3) (j : Fin 512) :
    feat_b0 x3 (ix2 (0 : Fin 1) j) = Cert.Spec.cat (N := 512) (by norm_num) A.bf00 A.bf10 j :=
  (ld2row x3 512 _ j _ _).trans (H.b_feat0 j)
theorem feat_w1_eq (H : Holds A x0 x1 x2 x3) (k : Fin 512) (j : Fin 256) :
    feat_w1 x3 (ix2 k j) = Cert.Spec.bdiag (K := 512) (N := 256) (by norm_num) (by norm_num) A.wf01 A.wf11 k j :=
  (ld2 x3 520 _ k j _ _).trans (H.w_feat1 k j)
theorem feat_b1_eq (H : Holds A x0 x1 x2 x3) (j : Fin 256) :
    feat_b1 x3 (ix2 (0 : Fin 1) j) = Cert.Spec.cat (N := 256) (by norm_num) A.bf01 A.bf11 j :=
  (ld2row x3 1032 _ j _ _).trans (H.b_feat1 j)
theorem msg_w0_eq (H : Holds A x0 x1 x2 x3) (k : Fin 256) (j : Fin 512) :
    msg_w0 x3 (ix2 k j) = Cert.Spec.bdiag (K := 256) (N := 512) (by norm_num) (by norm_num) A.wm00 A.wm10 k j :=
  (ld2 x3 1040 _ k j _ _).trans (H.w_msg0 k j)
theorem msg_b0_eq (H : Holds A x0 x1 x2 x3) (j : Fin 512) :
    msg_b0 x3 (ix2 (0 : Fin 1) j) = Cert.Spec.cat (N := 512) (by norm_num) A.bm00 A.bm10 j :=
  (ld2row x3 1296 _ j _ _).trans (H.b_msg0 j)
theorem msg_w1_eq (H : Holds A x0 x1 x2 x3) (k : Fin 512) (j : Fin 256) :
    msg_w1 x3 (ix2 k j) = Cert.Spec.bdiag (K := 512) (N := 256) (by norm_num) (by norm_num) A.wm01 A.wm11 k j :=
  (ld2 x3 1304 _ k j _ _).trans (H.w_msg1 k j)
theorem msg_b1_eq (H : Holds A x0 x1 x2 x3) (j : Fin 256) :
    msg_b1 x3 (ix2 (0 : Fin 1) j) = Cert.Spec.cat (N := 256) (by norm_num) A.bm01 A.bm11 j :=
  (ld2row x3 1816 _ j _ _).trans (H.b_msg1 j)
theorem merge_w0_eq (H : Holds A x0 x1 x2 x3) (k : Fin 256) (j : Fin 256) : merge_w0 x3 (ix2 k j) = A.wg0 k j :=
  (ld2 x3 1824 _ k j _ _).trans (H.w_merge0 k j)
theorem merge_b0_eq (H : Holds A x0 x1 x2 x3) (j : Fin 256) : merge_b0 x3 (ix2 (0 : Fin 1) j) = A.bg0 j :=
  (ld2row x3 2080 _ j _ _).trans (H.b_merge0 j)
theorem merge_w1_eq (H : Holds A x0 x1 x2 x3) (k : Fin 256) (j : Fin 128) : merge_w1 x3 (ix2 k j) = A.wg1 k j :=
  (ld2 x3 2088 _ k j _ _).trans (H.w_merge1 k j)
theorem merge_b1_eq (H : Holds A x0 x1 x2 x3) (j : Fin 128) : merge_b1 x3 (ix2 (0 : Fin 1) j) = A.bg1 j :=
  (ld2row x3 2344 _ j _ _).trans (H.b_merge1 j)
theorem fout_w0_eq (H : Holds A x0 x1 x2 x3) (k : Fin 128) (j : Fin 256) : fout_w0 x3 (ix2 k j) = A.wo0 k j :=
  (ld2 x3 2352 _ k j _ _).trans (H.w_fout0 k j)
theorem fout_b0_eq (H : Holds A x0 x1 x2 x3) (j : Fin 256) : fout_b0 x3 (ix2 (0 : Fin 1) j) = A.bo0 j :=
  (ld2row x3 2480 _ j _ _).trans (H.b_fout0 j)
theorem fout_w1_eq (H : Holds A x0 x1 x2 x3) (k : Fin 256) (j : Fin 128) : fout_w1 x3 (ix2 k j) = A.wo1 k j :=
  (ld2 x3 2488 _ k j _ _).trans (H.w_fout1 k j)
theorem fout_b1_eq (H : Holds A x0 x1 x2 x3) (j : Fin 128) : fout_b1 x3 (ix2 (0 : Fin 1) j) = A.bo1 j :=
  (ld2row x3 2744 _ j _ _).trans (H.b_fout1 j)
theorem prio_w0_eq (H : Holds A x0 x1 x2 x3) (k : Fin 128) (j : Fin 256) : prio_w0 x3 (ix2 k j) = A.wp0 k j :=
  (ld2 x3 2752 _ k j _ _).trans (H.w_prio0 k j)
theorem prio_b0_eq (H : Holds A x0 x1 x2 x3) (j : Fin 256) : prio_b0 x3 (ix2 (0 : Fin 1) j) = A.bp0 j :=
  (ld2row x3 2880 _ j _ _).trans (H.b_prio0 j)
theorem prio_w1_eq (H : Holds A x0 x1 x2 x3) (k : Fin 256) (j : Fin 1) : prio_w1 x3 (ix2 k j) = A.wp1 k j :=
  (ld2 x3 2888 _ k j _ _).trans (H.w_prio1 k j)
theorem prio_b1_eq (H : Holds A x0 x1 x2 x3) (j : Fin 1) : prio_b1 x3 (ix2 (0 : Fin 1) j) = A.bp1 j :=
  (ld2row x3 3144 _ j _ _).trans (H.b_prio1 j)
theorem aggp_w0_eq (H : Holds A x0 x1 x2 x3) (k : Fin 128) (j : Fin 256) : aggp_w0 x3 (ix2 k j) = A.wa0 k j :=
  (ld2 x3 3152 _ k j _ _).trans (H.w_aggp0 k j)
theorem aggp_b0_eq (H : Holds A x0 x1 x2 x3) (j : Fin 256) : aggp_b0 x3 (ix2 (0 : Fin 1) j) = A.ba0 j :=
  (ld2row x3 3280 _ j _ _).trans (H.b_aggp0 j)
theorem aggp_w1_eq (H : Holds A x0 x1 x2 x3) (k : Fin 256) (j : Fin 1) : aggp_w1 x3 (ix2 k j) = A.wa1 k j :=
  (ld2 x3 3288 _ k j _ _).trans (H.w_aggp1 k j)
theorem aggp_b1_eq (H : Holds A x0 x1 x2 x3) (j : Fin 1) : aggp_b1 x3 (ix2 (0 : Fin 1) j) = A.ba1 j :=
  (ld2row x3 3544 _ j _ _).trans (H.b_aggp1 j)

theorem maskb0_eq (H : Holds A x0 x1 x2 x3) (s : Fin 129) : mask0 x2 (ix3 (0 : Fin 1) s (0 : Fin 1)) = A.mask 0 s :=
  (ld3slab x2 0 _ 0 rfl s 0).trans (H.mask 0 s)
theorem maskb1_eq (H : Holds A x0 x1 x2 x3) (s : Fin 129) : mask1 x2 (ix3 (0 : Fin 1) s (0 : Fin 1)) = A.mask 1 s :=
  (ld3slab x2 1 _ 1 rfl s 0).trans (H.mask 1 s)
theorem maskb2_eq (H : Holds A x0 x1 x2 x3) (s : Fin 129) : mask2 x2 (ix3 (0 : Fin 1) s (0 : Fin 1)) = A.mask 2 s :=
  (ld3slab x2 2 _ 2 rfl s 0).trans (H.mask 2 s)
theorem maskb3_eq (H : Holds A x0 x1 x2 x3) (s : Fin 129) : mask3 x2 (ix3 (0 : Fin 1) s (0 : Fin 1)) = A.mask 3 s :=
  (ld3slab x2 3 _ 3 rfl s 0).trans (H.mask 3 s)
theorem maskb4_eq (H : Holds A x0 x1 x2 x3) (s : Fin 129) : mask4 x2 (ix3 (0 : Fin 1) s (0 : Fin 1)) = A.mask 4 s :=
  (ld3slab x2 4 _ 4 rfl s 0).trans (H.mask 4 s)
theorem maskb5_eq (H : Holds A x0 x1 x2 x3) (s : Fin 129) : mask5 x2 (ix3 (0 : Fin 1) s (0 : Fin 1)) = A.mask 5 s :=
  (ld3slab x2 5 _ 5 rfl s 0).trans (H.mask 5 s)
theorem maskb6_eq (H : Holds A x0 x1 x2 x3) (s : Fin 129) : mask6 x2 (ix3 (0 : Fin 1) s (0 : Fin 1)) = A.mask 6 s :=
  (ld3slab x2 6 _ 6 rfl s 0).trans (H.mask 6 s)
theorem maskb7_eq (H : Holds A x0 x1 x2 x3) (s : Fin 129) : mask7 x2 (ix3 (0 : Fin 1) s (0 : Fin 1)) = A.mask 7 s :=
  (ld3slab x2 7 _ 7 rfl s 0).trans (H.mask 7 s)
theorem maskb8_eq (H : Holds A x0 x1 x2 x3) (s : Fin 129) : mask8 x2 (ix3 (0 : Fin 1) s (0 : Fin 1)) = A.mask 8 s :=
  (ld3slab x2 8 _ 8 rfl s 0).trans (H.mask 8 s)
theorem maskb9_eq (H : Holds A x0 x1 x2 x3) (s : Fin 129) : mask9 x2 (ix3 (0 : Fin 1) s (0 : Fin 1)) = A.mask 9 s :=
  (ld3slab x2 9 _ 9 rfl s 0).trans (H.mask 9 s)
theorem maskb10_eq (H : Holds A x0 x1 x2 x3) (s : Fin 129) : mask10 x2 (ix3 (0 : Fin 1) s (0 : Fin 1)) = A.mask 10 s :=
  (ld3slab x2 10 _ 10 rfl s 0).trans (H.mask 10 s)
theorem maskb11_eq (H : Holds A x0 x1 x2 x3) (s : Fin 129) : mask11 x2 (ix3 (0 : Fin 1) s (0 : Fin 1)) = A.mask 11 s :=
  (ld3slab x2 11 _ 11 rfl s 0).trans (H.mask 11 s)
theorem maskb12_eq (H : Holds A x0 x1 x2 x3) (s : Fin 129) : mask12 x2 (ix3 (0 : Fin 1) s (0 : Fin 1)) = A.mask 12 s :=
  (ld3slab x2 12 _ 12 rfl s 0).trans (H.mask 12 s)
theorem maskb13_eq (H : Holds A x0 x1 x2 x3) (s : Fin 129) : mask13 x2 (ix3 (0 : Fin 1) s (0 : Fin 1)) = A.mask 13 s :=
  (ld3slab x2 13 _ 13 rfl s 0).trans (H.mask 13 s)
theorem maskb14_eq (H : Holds A x0 x1 x2 x3) (s : Fin 129) : mask14 x2 (ix3 (0 : Fin 1) s (0 : Fin 1)) = A.mask 14 s :=
  (ld3slab x2 14 _ 14 rfl s 0).trans (H.mask 14 s)
theorem maskb15_eq (H : Holds A x0 x1 x2 x3) (s : Fin 129) : mask15 x2 (ix3 (0 : Fin 1) s (0 : Fin 1)) = A.mask 15 s :=
  (ld3slab x2 15 _ 15 rfl s 0).trans (H.mask 15 s)

end Cert.ReferenceIdeal.Hand

end
-- ==== Proof.SpecFused.lean ====
import proofs.«144052_g2000204636238536_pallasbulk_491_38_alg».proof.Proof.Spec

noncomputable section

namespace Cert.Spec

open Idealize.ShloMosaic

theorem side_of_lt {r a b N : ℕ} (hN : N = a + b) (x : Fin r → Fin a → E) (y : Fin r → Fin b → E)
    (i : Fin r) (j : Fin N) (h : j.val < a) : side hN x y i j = x i ⟨j.val, h⟩ := by
  unfold side; rw [dif_pos h]

theorem side_of_ge {r a b N : ℕ} (hN : N = a + b) (x : Fin r → Fin a → E) (y : Fin r → Fin b → E)
    (i : Fin r) (j : Fin N) (h : ¬ j.val < a) : side hN x y i j = y i ⟨j.val - a, by omega⟩ := by
  unfold side; rw [dif_neg h]

theorem side_castAdd {r a b : ℕ} (x : Fin r → Fin a → E) (y : Fin r → Fin b → E) (i : Fin r) (j : Fin a) :
    side rfl x y i (Fin.castAdd b j) = x i j := by
  rw [side_of_lt rfl x y i _ (show (Fin.castAdd b j).val < a from j.isLt)]
  rfl

theorem side_natAdd {r a b : ℕ} (x : Fin r → Fin a → E) (y : Fin r → Fin b → E) (i : Fin r) (j : Fin b) :
    side rfl x y i (Fin.natAdd a j) = y i j := by
  rw [side_of_ge rfl x y i _ (show ¬ (Fin.natAdd a j).val < a by simp)]
  congr 1; apply Fin.ext; simp

theorem cat_castAdd {a b : ℕ} (x : Fin a → E) (y : Fin b → E) (j : Fin a) :
    cat rfl x y (Fin.castAdd b j) = x j := by
  unfold cat; rw [dif_pos (show (Fin.castAdd b j).val < a from j.isLt)]
  rfl

theorem cat_natAdd {a b : ℕ} (x : Fin a → E) (y : Fin b → E) (j : Fin b) :
    cat rfl x y (Fin.natAdd a j) = y j := by
  unfold cat; rw [dif_neg (show ¬ (Fin.natAdd a j).val < a by simp)]
  congr 1; apply Fin.ext; simp

theorem bdiag_castAdd_castAdd {a b c d : ℕ} (w0 : Fin a → Fin b → E) (w1 : Fin c → Fin d → E) (k : Fin a) (j : Fin b) :
    bdiag rfl rfl w0 w1 (Fin.castAdd c k) (Fin.castAdd d j) = w0 k j := by
  unfold bdiag
  rw [dif_pos (show (Fin.castAdd c k).val < a from k.isLt), dif_pos (show (Fin.castAdd d j).val < b from j.isLt)]
  rfl

theorem bdiag_castAdd_natAdd {a b c d : ℕ} (w0 : Fin a → Fin b → E) (w1 : Fin c → Fin d → E) (k : Fin a) (j : Fin d) :
    bdiag rfl rfl w0 w1 (Fin.castAdd c k) (Fin.natAdd b j) = 0 := by
  unfold bdiag
  rw [dif_pos (show (Fin.castAdd c k).val < a from k.isLt), dif_neg (show ¬ (Fin.natAdd b j).val < b by simp)]

theorem bdiag_natAdd_castAdd {a b c d : ℕ} (w0 : Fin a → Fin b → E) (w1 : Fin c → Fin d → E) (k : Fin c) (j : Fin b) :
    bdiag rfl rfl w0 w1 (Fin.natAdd a k) (Fin.castAdd d j) = 0 := by
  unfold bdiag
  rw [dif_neg (show ¬ (Fin.natAdd a k).val < a by simp), dif_pos (show (Fin.castAdd d j).val < b from j.isLt)]

theorem bdiag_natAdd_natAdd {a b c d : ℕ} (w0 : Fin a → Fin b → E) (w1 : Fin c → Fin d → E) (k : Fin c) (j : Fin d) :
    bdiag rfl rfl w0 w1 (Fin.natAdd a k) (Fin.natAdd b j) = w1 k j := by
  unfold bdiag
  rw [dif_neg (show ¬ (Fin.natAdd a k).val < a by simp), dif_neg (show ¬ (Fin.natAdd b j).val < b by simp)]
  congr 1 <;> apply Fin.ext <;> simp

/-- `leaky` commutes with `side`: it touches one entry at a time. -/
theorem leaky_side {r a b N : ℕ} (hN : N = a + b) (c : E) (x : Fin r → Fin a → E) (y : Fin r → Fin b → E) :
    leaky c (side hN x y) = side hN (leaky c x) (leaky c y) := by
  funext i j
  by_cases h : j.val < a
  · rw [side_of_lt hN _ _ i j h]; unfold leaky; rw [side_of_lt hN x y i j h]
  · rw [side_of_ge hN _ _ i j h]; unfold leaky; rw [side_of_ge hN x y i j h]

/-- A block-diagonal weight keeps the halves apart: the contracted sum splits at the seam, one block zero in each half. -/
theorem dense_side {r a b c d K N : ℕ} (hK : K = a + c) (hN : N = b + d)
    (x : Fin r → Fin a → E) (y : Fin r → Fin c → E) (w0 : Fin a → Fin b → E) (w1 : Fin c → Fin d → E)
    (b0 : Fin b → E) (b1 : Fin d → E) :
    dense (side hK x y) (bdiag hK hN w0 w1) (cat hN b0 b1) = side hN (dense x w0 b0) (dense y w1 b1) := by
  subst hK; subst hN
  funext i j
  induction j using Fin.addCases with
  | left j =>
    rw [side_castAdd]
    unfold dense
    rw [Fin.sum_univ_add]
    simp only [side_castAdd, side_natAdd, bdiag_castAdd_castAdd, bdiag_natAdd_castAdd, cat_castAdd, mul_zero,
      Finset.sum_const_zero, add_zero]
  | right j =>
    rw [side_natAdd]
    unfold dense
    rw [Fin.sum_univ_add]
    simp only [side_castAdd, side_natAdd, bdiag_castAdd_natAdd, bdiag_natAdd_natAdd, cat_natAdd, mul_zero,
      Finset.sum_const_zero, zero_add]

/-- Both layers split by `dense_side` and `leaky_side`, so the fused perceptron is the pair of perceptrons. -/
theorem mlp_side {r a b c d e f K H N : ℕ} (hK : K = a + c) (hH : H = b + d) (hN : N = e + f) (s : E)
    (x : Fin r → Fin a → E) (y : Fin r → Fin c → E)
    (w0 : Fin a → Fin b → E) (w1 : Fin c → Fin d → E) (b0 : Fin b → E) (b1 : Fin d → E)
    (v0 : Fin b → Fin e → E) (v1 : Fin d → Fin f → E) (c0 : Fin e → E) (c1 : Fin f → E) :
    mlp s (side hK x y) (bdiag hK hH w0 w1) (cat hH b0 b1) (bdiag hH hN v0 v1) (cat hN c0 c1)
      = side hN (mlp s x w0 b0 v0 c0) (mlp s y w1 b1 v1 c1) := by
  unfold mlp
  rw [dense_side, leaky_side, dense_side, leaky_side]

theorem side_add {r a b N : ℕ} (hN : N = a + b) (x x' : Fin r → Fin a → E) (y y' : Fin r → Fin b → E)
    (i : Fin r) (j : Fin N) :
    side hN x y i j + side hN x' y' i j = side hN (fun i j => x i j + x' i j) (fun i j => y i j + y' i j) i j := by
  by_cases h : j.val < a
  · rw [side_of_lt hN _ _ i j h, side_of_lt hN _ _ i j h, side_of_lt hN _ _ i j h]
  · rw [side_of_ge hN _ _ i j h, side_of_ge hN _ _ i j h, side_of_ge hN _ _ i j h]

variable (A : Args)

/-- Graph 0's 128 embedding columns followed by graph 1's, after `s` steps. -/
def emb (s : ℕ) (b : Fin 16) : Fin 256 → Fin 256 → E := side (N := 256) (by norm_num) (h0 A s b) (h1 A s b)

/-- `emb` through the block-diagonal first message weights, rectifier not yet applied. -/
def msgPre0 (s : ℕ) (b : Fin 16) : Fin 256 → Fin 512 → E :=
  dense (emb A s b) (bdiag (K := 256) (N := 512) (by norm_num) (by norm_num) A.wm00 A.wm10)
    (cat (N := 512) (by norm_num) A.bm00 A.bm10)

/-- The rectified `msgPre0` through the block-diagonal second message weights, rectifier not yet applied. -/
def msgPre1 (s : ℕ) (b : Fin 16) : Fin 256 → Fin 256 → E :=
  dense (leaky slope (msgPre0 A s b)) (bdiag (K := 512) (N := 256) (by norm_num) (by norm_num) A.wm01 A.wm11)
    (cat (N := 256) (by norm_num) A.bm01 A.bm11)

/-- Each graph's messages after `s` steps. -/
def msg0 (s : ℕ) (b : Fin 16) : Fin 256 → Fin 128 → E := mlp slope (h0 A s b) A.wm00 A.bm00 A.wm01 A.bm01
def msg1 (s : ℕ) (b : Fin 16) : Fin 256 → Fin 128 → E := mlp slope (h1 A s b) A.wm10 A.bm10 A.wm11 A.bm11

/-- Rectifying `msgPre1` yields `msg0` and `msg1` in adjacent column halves. -/
theorem leaky_msgPre1 (s : ℕ) (b : Fin 16) (n j : Fin 256) :
    leaky slope (msgPre1 A s b) n j = side (N := 256) (by norm_num) (msg0 A s b) (msg1 A s b) n j := by
  unfold msgPre1 msgPre0 emb msg0 msg1
  exact congrFun (congrFun (mlp_side _ _ _ slope _ _ _ _ _ _ _ _ _ _) n) j

/-- On the node tables side by side the fused feature weights produce `emb A 0`. -/
theorem emb_zero (b : Fin 16) (n j : Fin 256) :
    mlp slope (side (N := 512) (by norm_num) (A.node0 b) (A.node1 b))
        (bdiag (K := 512) (N := 512) (by norm_num) (by norm_num) A.wf00 A.wf10) (cat (N := 512) (by norm_num) A.bf00 A.bf10)
        (bdiag (K := 512) (N := 256) (by norm_num) (by norm_num) A.wf01 A.wf11) (cat (N := 256) (by norm_num) A.bf01 A.bf11) n j
      = emb A 0 b n j := by
  unfold emb h0 h1
  exact congrFun (congrFun (mlp_side _ _ _ slope _ _ _ _ _ _ _ _ _ _) n) j

/-- Adding the spread messages half by half advances `emb` from `s` to `s + 1`. -/
theorem emb_succ (s : ℕ) (b : Fin 16) (n : Fin 256) (j : Fin 256) :
    emb A s b n j + side (N := 256) (by norm_num) (spread (A.adj0 b) (msg0 A s b)) (spread (A.adj1 b) (msg1 A s b)) n j
      = emb A (s + 1) b n j := by
  unfold emb
  rw [side_add]
  rfl

end Cert.Spec

end
-- ==== Proof.RefLayers.lean ====
import Idealize.ShloMosaic.PureOps.Ideal.Laws
import Idealize.ShloMosaic.Lib.ValueIdx
import Idealize.ShloMosaic.Lib.ValueLayout
import Idealize.ShloMosaic.Lib.StackMember
import proofs.«144052_g2000204636238536_pallasbulk_491_38_alg».proof.Proof.Spec

noncomputable section

namespace Cert.ReferenceIdeal.RV

open Idealize.ShloMosaic Idealize.ShloMosaic.ValueIdx

/-- Entry `(a, b)` of a product started from zero: the sum over `c` of `X (a, c) · W (c, b)`. -/
theorem matmul_plain_apply {m k n : ℕ} {φ₁ φ₂ : FTy} (D : DotDims ⟨2, ![m, k]⟩ ⟨2, ![k, n]⟩ ⟨2, ![m, n]⟩)
    (hD : D = DotDims.plain m k n) (prec : Option ContractPrecision)
    (X : FVec Ideal ⟨2, ![m, k]⟩ φ₁) (W : FVec Ideal ⟨2, ![k, n]⟩ φ₂) (a : Fin m) (b : Fin n) :
    matmul D prec X W (constant ⟨2, ![m, n]⟩ .f32 0x00000000#32) (ix2 a b) = ∑ c : Fin k, X (ix2 a c) * W (ix2 c b) := by
  subst hD
  show FloatOps.matmul _ prec X W _ (ix2 a b) = _
  rw [Ideal.matmul_constant_zero_apply, ← StackMember.dotGeneral_plain_apply prec X W a b]
  show _ = FloatOps.dotGeneral _ prec _ X W (ix2 a b)
  rw [Ideal.dotGeneral_apply]

/-- The same for two stacks multiplied member by member. -/
theorem matmul_stack_apply {G m k n : ℕ} {φ₁ φ₂ : FTy} (D : DotDims ⟨3, ![G, m, k]⟩ ⟨3, ![G, k, n]⟩ ⟨3, ![G, m, n]⟩)
    (w : DotDims.WF ⟨3, ![G, m, k]⟩ ⟨3, ![G, k, n]⟩ ⟨3, ![G, m, n]⟩ [2] [1] [1] [2] [0] [0])
    (hD : D = ⟨[2], [1], [1], [2], [0], [0], w⟩) (prec : Option ContractPrecision)
    (X : FVec Ideal ⟨3, ![G, m, k]⟩ φ₁) (W : FVec Ideal ⟨3, ![G, k, n]⟩ φ₂) (g : Fin G) (a : Fin m) (b : Fin n) :
    matmul D prec X W (constant ⟨3, ![G, m, n]⟩ .f32 0x00000000#32) (ix3 g a b)
      = ∑ c : Fin k, X (ix3 g a c) * W (ix3 g c b) := by
  subst hD
  show FloatOps.matmul _ prec X W _ (ix3 g a b) = _
  rw [Ideal.matmul_constant_zero_apply, ← StackMember.dotGeneral_stack_apply w prec X W g a b]
  show _ = FloatOps.dotGeneral _ prec _ X W (ix3 g a b)
  rw [Ideal.dotGeneral_apply]

/-- A product plus the bias row: row `i` needs the input on row `i` alone, known as row `i'` of a table of any height. -/
theorem dense_apply {r r' k n : ℕ} {D : DotDims ⟨2, ![r, k]⟩ ⟨2, ![k, n]⟩ ⟨2, ![r, n]⟩} (hD : D = DotDims.plain r k n)
    {hb : (⟨2, ![1, n]⟩ : Shape).Broadcasts ⟨2, ![r, n]⟩} {prec : Option ContractPrecision}
    {hw : (⟨2, ![k, n]⟩ : Shape).ShapeCasts ⟨2, ![k, n]⟩} {hv : (⟨2, ![1, n]⟩ : Shape).ShapeCasts ⟨2, ![1, n]⟩}
    {X : FVec Ideal ⟨2, ![r, k]⟩ .f32} {W : FVec Ideal ⟨2, ![k, n]⟩ .f32} {Bv : FVec Ideal ⟨2, ![1, n]⟩ .f32}
    (x : Fin r' → Fin k → EReal) {w : Fin k → Fin n → EReal} {b : Fin n → EReal} {i : Fin r} (i' : Fin r')
    (hX : ∀ l, X (ix2 i l) = x i' l) (hW : ∀ l j, W (ix2 l j) = w l j) (hB : ∀ j, Bv (ix2 (0 : Fin 1) j) = b j) (j : Fin n) :
    addf (matmul D prec X (shapeCast ⟨2, ![k, n]⟩ W hw) (constant ⟨2, ![r, n]⟩ .f32 0x00000000#32))
        (broadcastTo ⟨2, ![r, n]⟩ (shapeCast ⟨2, ![1, n]⟩ Bv hv) hb) (ix2 i j) = Cert.Spec.dense x w b i' j := by
  rw [shapeCast_self W hw, shapeCast_self Bv hv, addf_apply, matmul_plain_apply D hD, broadcastTo_1b_ab_apply, hB]
  exact congrArg (· + b j) (Finset.sum_congr rfl fun l _ => by rw [hX, hW])

/-- Entrywise `max` of a table and `c` times it is `Spec.leaky c` of what the table holds. -/
theorem leaky_apply {r r' n : ℕ} {Y : FVec Ideal ⟨2, ![r, n]⟩ .f32} {c : Ideal .f32} {y : Fin r' → Fin n → EReal}
    {i : Fin r} {i' : Fin r'} {j : Fin n} (hY : Y (ix2 i j) = y i' j) :
    maximumf Y (mulf (broadcast ⟨2, ![r, n]⟩ c) Y) (ix2 i j) = Cert.Spec.leaky c y i' j := by
  rw [maximumf_apply, mulf_apply, broadcast_apply, hY]
  unfold Cert.Spec.leaky
  rw [mul_comm]

section Layout
variable {α : Type}

theorem selfCast_at {s : Shape} (v : s.Idx → α) (h : s.ShapeCasts s) (i : s.Idx) (y : α) (hv : v i = y) :
    shapeCast s v h i = y := by
  rw [shapeCast_self]; exact hv

/-- A tall matrix `[B · R, C]` as a stack `[B, R, C]`: member `b`'s row `n` is row `b · R + n`. -/
theorem stack_rows_apply {M B R C : ℕ} (X : (⟨2, ![M, C]⟩ : Shape).Idx → α)
    (h : (⟨2, ![M, C]⟩ : Shape).ShapeCasts ⟨3, ![B, R, C]⟩) (b : Fin B) (n : Fin R) (j : Fin C) (r : Fin M)
    (hr : r.val = b.val * R + n.val) : shapeCast ⟨3, ![B, R, C]⟩ X h (ix3 b n j) = X (ix2 r j) :=
  shapeCast_apply X h _ _ (by
    rw [Shape.rowMajor_val_two, Shape.rowMajor_val_three]
    show r.val * C + j.val = (b.val * R + n.val) * C + j.val
    rw [hr])

/-- And back. -/
theorem tall_rows_apply {M B R C : ℕ} (X : (⟨3, ![B, R, C]⟩ : Shape).Idx → α)
    (h : (⟨3, ![B, R, C]⟩ : Shape).ShapeCasts ⟨2, ![M, C]⟩) (b : Fin B) (n : Fin R) (j : Fin C) (r : Fin M)
    (hr : r.val = b.val * R + n.val) : shapeCast ⟨2, ![M, C]⟩ X h (ix2 r j) = X (ix3 b n j) :=
  shapeCast_apply X h _ _ (by
    rw [Shape.rowMajor_val_two, Shape.rowMajor_val_three]
    show (b.val * R + n.val) * C + j.val = r.val * C + j.val
    rw [hr])

/-- Member `g` of the second axis of `[B, G, R, C]`, cut out and viewed as `[B, R, C]`. -/
theorem member_axis1_apply {B G R C : ℕ} (o : ℕ) (X : (⟨4, ![B, G, R, C]⟩ : Shape).Idx → α)
    (hs : (⟨4, ![B, G, R, C]⟩ : Shape).Slices ![0, o, 0, 0] ⟨4, ![B, 1, R, C]⟩)
    (hc : (⟨4, ![B, 1, R, C]⟩ : Shape).ShapeCasts ⟨3, ![B, R, C]⟩) (b : Fin B) (i : Fin R) (l : Fin C) (g : Fin G)
    (hg : g.val = o) :
    shapeCast ⟨3, ![B, R, C]⟩ (extractStridedSlice ⟨4, ![B, 1, R, C]⟩ ![0, o, 0, 0] X hs) hc (ix3 b i l) = X (ix4 b g i l) := by
  refine (shapeCast_apply _ hc (ix3 b i l) (ix4 b (0 : Fin 1) i l) ?_).trans ?_
  · rw [Shape.rowMajor_val_four, Shape.rowMajor_val_three]
    show ((b.val * 1 + 0) * R + i.val) * C + l.val = (b.val * R + i.val) * C + l.val
    rw [Nat.mul_one, Nat.add_zero]
  · exact slice4_axis1_apply o X hs b (0 : Fin 1) i l g (by rw [hg]; rfl)

/-- A block of columns of a stack. -/
theorem slice3_axis2_apply {n0 n1 n2 m : ℕ} (o : ℕ) (X : (⟨3, ![n0, n1, n2]⟩ : Shape).Idx → α)
    (h : (⟨3, ![n0, n1, n2]⟩ : Shape).Slices ![0, 0, o] ⟨3, ![n0, n1, m]⟩)
    (a : Fin n0) (b : Fin n1) (j : Fin m) (k : Fin n2) (hk : k.val = o + j.val) :
    extractStridedSlice ⟨3, ![n0, n1, m]⟩ ![0, 0, o] X h (ix3 a b j) = X (ix3 a b k) :=
  extractStridedSlice_apply _ _ _ _ _ (fun ax => by
    match ax with
    | ⟨0, _⟩ => exact (Nat.zero_add _).symm
    | ⟨1, _⟩ => exact (Nat.zero_add _).symm
    | ⟨2, _⟩ => exact hk)

/-- A column index below `n1` reads the first stack, any other the second at the index less `n1`. -/
theorem concat3_axis2_apply {B R n1 n2 N : ℕ} (hN : N = n1 + n2) (x1 : (⟨3, ![B, R, n1]⟩ : Shape).Idx → α)
    (x2 : (⟨3, ![B, R, n2]⟩ : Shape).Idx → α)
    (h : Shape.Concatenates [(⟨3, ![B, R, n1]⟩ : Shape), ⟨3, ![B, R, n2]⟩] ⟨3, ![B, R, N]⟩ 2)
    (b : Fin B) (r : Fin R) (j : Fin N) :
    concatenate ⟨3, ![B, R, N]⟩ 2 [⟨⟨3, ![B, R, n1]⟩, x1⟩, ⟨⟨3, ![B, R, n2]⟩, x2⟩] h (ix3 b r j)
      = if hj : j.val < n1 then x1 (ix3 b r ⟨j.val, hj⟩) else x2 (ix3 b r ⟨j.val - n1, by omega⟩) := by
  by_cases hj : j.val < n1
  · rw [dif_pos hj]
    exact concatenate_pair_apply_left 2 x1 x2 h (ix3 b r j) rfl (ix3 b r ⟨j.val, hj⟩) (fun ax => by
      match ax with
      | ⟨0, _⟩ => rfl
      | ⟨1, _⟩ => rfl
      | ⟨2, _⟩ => rfl)
  · rw [dif_neg hj]
    exact concatenate_pair_apply_right 2 x1 x2 h (ix3 b r j) rfl rfl (ix3 b r ⟨j.val - n1, by omega⟩) (fun ax hne => by
      match ax, hne with
      | ⟨0, _⟩, _ => rfl
      | ⟨1, _⟩, _ => rfl
      | ⟨2, _⟩, hne => exact absurd rfl hne)
      (by show j.val - n1 + n1 = j.val; omega)

end Layout

end Cert.ReferenceIdeal.RV

end
-- ==== Proof.RefPayA.lean ====
import proofs.«144052_g2000204636238536_pallasbulk_491_38_alg».proof.Proof.Gen.ReferenceIdeal.Skeleton
import proofs.«144052_g2000204636238536_pallasbulk_491_38_alg».proof.Proof.SpecFused
import proofs.«144052_g2000204636238536_pallasbulk_491_38_alg».proof.Proof.Rows
import proofs.«144052_g2000204636238536_pallasbulk_491_38_alg».proof.Proof.RefLayers

noncomputable section

namespace Cert.ReferenceIdeal.RV

open Cert.ReferenceIdeal Cert.ReferenceIdeal.Gen Cert.Rows Idealize.ShloMosaic Idealize.ShloMosaic.ValueIdx
open Cert.Spec (side spread emb msg0 msg1)

variable (A : Cert.Spec.Args)

/-- Graph `g`: member `g` of the adjacency block times the messages' 128 columns from `128 g` on. -/
theorem spread_apply (g : Fin 2) (v24 : FVec Ideal S16x2x256x256 .f32) (M : FVec Ideal S16x256x256 .f32)
    (m0 m1 : Fin 16 → Fin 256 → Fin 128 → EReal)
    (hs : S16x2x256x256.Slices ![0, g.val, 0, 0] S16x1x256x256) (hc : S16x1x256x256.ShapeCasts S16x256x256)
    (hl : S16x256x256.Slices ![0, 0, 128 * g.val] S16x256x128)
    (h24 : ∀ (b : Fin 16) (g : Fin 2) (i j : Fin 256), v24 (ix4 b g i j) = if g.val = 0 then A.adj0 b i j else A.adj1 b i j)
    (hM : ∀ (b : Fin 16) (n j : Fin 256), M (ix3 b n j) = side (N := 256) (by norm_num) (m0 b) (m1 b) n j)
    (b : Fin 16) (n : Fin 256) (j : Fin 128) :
    matmul dot_S16x256x256_S16x256x128_S16x256x128_2_1_1_2_0_0 none
        (shapeCast S16x256x256 (extractStridedSlice S16x1x256x256 ![0, g.val, 0, 0] v24 hs) hc)
        (extractStridedSlice S16x256x128 ![0, 0, 128 * g.val] M hl) (constant S16x256x128 .f32 0x00000000#32) (ix3 b n j)
      = spread (if g.val = 0 then A.adj0 b else A.adj1 b) (if g.val = 0 then m0 b else m1 b) n j := by
  refine (matmul_stack_apply _ dot_S16x256x256_S16x256x128_S16x256x128_2_1_1_2_0_0_wf rfl none _ _ b n j).trans ?_
  unfold Cert.Spec.spread
  refine Finset.sum_congr rfl fun l _ => ?_
  have hg := g.isLt
  have hj := j.isLt
  rw [member_axis1_apply g.val v24 hs hc b n l g rfl, h24,
    slice3_axis2_apply (128 * g.val) M hl b l j ⟨128 * g.val + j.val, by omega⟩ rfl, hM]
  unfold Cert.Spec.side
  by_cases h0 : g.val = 0
  · rw [if_pos h0, if_pos h0, if_pos h0, dif_pos (show 128 * g.val + j.val < 128 by omega)]
    exact congrArg (A.adj0 b n l * m0 b l ·) (Fin.ext (by show 128 * g.val + j.val = j.val; omega))
  · rw [if_neg h0, if_neg h0, if_neg h0, dif_neg (show ¬ 128 * g.val + j.val < 128 by omega)]
    exact congrArg (A.adj1 b n l * m1 b l ·) (Fin.ext (by show 128 * g.val + j.val - 128 = j.val; omega))

/-- Joining two 128-column stacks and flattening the batch axis gives `Spec.side` of their contents, row by row. -/
theorem cat_rows_apply (P0 P1 : FVec Ideal S16x256x128 .f32) (p0 p1 : Fin 16 → Fin 256 → Fin 128 → EReal)
    (hcat : Shape.Concatenates [S16x256x128, S16x256x128] S16x256x256 2) (hc : S16x256x256.ShapeCasts S4096x256)
    (hP0 : ∀ (b : Fin 16) (n : Fin 256) (j : Fin 128), P0 (ix3 b n j) = p0 b n j)
    (hP1 : ∀ (b : Fin 16) (n : Fin 256) (j : Fin 128), P1 (ix3 b n j) = p1 b n j)
    (b : Fin 16) (n : Fin 256) (j : Fin 256) :
    shapeCast S4096x256 (concatenate S16x256x256 2 [⟨S16x256x128, P0⟩, ⟨S16x256x128, P1⟩] hcat) hc (ix2 (row16 b n) j)
      = side (N := 256) (by norm_num) (p0 b) (p1 b) n j := by
  refine (tall_rows_apply _ hc b n j (row16 b n) rfl).trans ?_
  refine (concat3_axis2_apply (by norm_num : 256 = 128 + 128) P0 P1 hcat b n j).trans ?_
  unfold Cert.Spec.side
  by_cases hj : j.val < 128
  · rw [dif_pos hj, dif_pos hj, hP0]
  · rw [dif_neg hj, dif_neg hj, hP1]

/-- One message step: each adjacency applied to its own block of columns of the messages, the results joined and added. -/
theorem step_apply (s : ℕ) {v24 : FVec Ideal S16x2x256x256 .f32} {X M : FVec Ideal S4096x256 .f32}
    {hc1 : S4096x256.ShapeCasts S16x256x256}
    {hs0 : S16x2x256x256.Slices ![0, 0, 0, 0] S16x1x256x256} {hs1 : S16x2x256x256.Slices ![0, 1, 0, 0] S16x1x256x256}
    {hc2 : S16x1x256x256.ShapeCasts S16x256x256}
    {hl : S16x256x256.Slices ![0, 0, 0] S16x256x128} {hr : S16x256x256.Slices ![0, 0, 128] S16x256x128}
    {hcat : Shape.Concatenates [S16x256x128, S16x256x128] S16x256x256 2} {hc3 : S16x256x256.ShapeCasts S4096x256}
    (h24 : ∀ (b : Fin 16) (g : Fin 2) (i j : Fin 256), v24 (ix4 b g i j) = if g.val = 0 then A.adj0 b i j else A.adj1 b i j)
    (hX : ∀ (b : Fin 16) (n j : Fin 256), X (ix2 (row16 b n) j) = emb A s b n j)
    (hM : ∀ (b : Fin 16) (n j : Fin 256), M (ix2 (row16 b n) j) = side (N := 256) (by norm_num) (msg0 A s b) (msg1 A s b) n j)
    (b : Fin 16) (n j : Fin 256) :
    addf X (shapeCast S4096x256 (concatenate S16x256x256 2
        [⟨S16x256x128, matmul dot_S16x256x256_S16x256x128_S16x256x128_2_1_1_2_0_0 none
            (shapeCast S16x256x256 (extractStridedSlice S16x1x256x256 ![0, 0, 0, 0] v24 hs0) hc2)
            (extractStridedSlice S16x256x128 ![0, 0, 0] (shapeCast S16x256x256 M hc1) hl) (constant S16x256x128 .f32 0x00000000#32)⟩,
         ⟨S16x256x128, matmul dot_S16x256x256_S16x256x128_S16x256x128_2_1_1_2_0_0 none
            (shapeCast S16x256x256 (extractStridedSlice S16x1x256x256 ![0, 1, 0, 0] v24 hs1) hc2)
            (extractStridedSlice S16x256x128 ![0, 0, 128] (shapeCast S16x256x256 M hc1) hr) (constant S16x256x128 .f32 0x00000000#32)⟩]
        hcat) hc3) (ix2 (row16 b n) j)
      = emb A (s + 1) b n j :=
  (congrArg₂ (· + ·) (hX b n j) (cat_rows_apply _ _ (fun b => spread (A.adj0 b) (msg0 A s b)) (fun b => spread (A.adj1 b) (msg1 A s b)) hcat hc3
    (spread_apply A 0 v24 _ (msg0 A s) (msg1 A s) hs0 hc2 hl h24 (fun b n j => (stack_rows_apply M hc1 b n j (row16 b n) rfl).trans (hM b n j)))
    (spread_apply A 1 v24 _ (msg0 A s) (msg1 A s) hs1 hc2 hr h24 (fun b n j => (stack_rows_apply M hc1 b n j (row16 b n) rfl).trans (hM b n j)))
    b n j)).trans (Cert.Spec.emb_succ A s b n j)

/-- The 128 rows from row `256 n` lie inside the `[4096, 128]` table. -/
theorem slices_block (n : Fin 16) : S4096x128.Slices ![256 * n.val, 0] S128x128 :=
  ⟨rfl, fun a => by
    match a with
    | ⟨0, _⟩ =>
      show 256 * n.val + 128 ≤ 4096
      have := n.isLt
      omega
    | ⟨1, _⟩ =>
      show 0 + 128 ≤ 128
      omega⟩

/-- Row `128 b + s` of the sixteen row blocks end to end is row `256 b + s` of the table they are cut from. -/
theorem gather_apply (Y : FVec Ideal S4096x128 .f32) {h : Shape.Concatenates _ _ _} (b : Fin 16) (s c : Fin 128) :
    concatenate S2048x128 (0 : Fin S2048x128.rank)
      (List.ofFn fun n : Fin 16 =>
        (⟨S128x128, extractStridedSlice S128x128 ![256 * n.val, 0] Y (slices_block n)⟩ : (s : Shape) × (s.Idx → EReal)))
      h (ix2 (srow16 b s) c) = Y (ix2 (row16 b ⟨s.val, by omega⟩) c) := by
  refine (concatenate_ofFn_apply (0 : Fin S2048x128.rank)
      (fun n : Fin 16 => extractStridedSlice S128x128 ![256 * n.val, 0] Y (slices_block n)) _ rfl 128 rfl
      (ix2 (srow16 b s) c) b ?_ (ix2 s c) ?_ ?_).trans ?_
  · show (b.val * 128 + s.val) / 128 = b.val
    have := s.isLt
    omega
  · show s.val = (b.val * 128 + s.val) % 128
    have := s.isLt
    omega
  · intro a ha
    match a with
    | ⟨0, _⟩ => exact absurd rfl ha
    | ⟨1, _⟩ => rfl
  · exact slice2_axis0_apply (256 * b.val) Y (slices_block b) s c (row16 b ⟨s.val, by omega⟩)
      (by show b.val * 256 + s.val = 256 * b.val + s.val; omega)

end Cert.ReferenceIdeal.RV

end
-- ==== Proof.RefValueTrunk.lean ====
import proofs.«144052_g2000204636238536_pallasbulk_491_38_alg».proof.Proof.RefValueLoads
import proofs.«144052_g2000204636238536_pallasbulk_491_38_alg».proof.Proof.RefPayA

noncomputable section

namespace Cert.ReferenceIdeal.Hand

open Idealize.ShloMosaic Idealize.ShloMosaic.ValueIdx
open Cert.ReferenceIdeal Cert.ReferenceIdeal.Gen Cert.Rows Cert.ReferenceIdeal.RV
open Cert.Spec (side spread dense leaky slope emb msg0 msg1 msgPre0 msgPre1 gcn)

variable {A : Cert.Spec.Args} {x0 : Vec Ideal S16x256x512 .f32} {x1 : Vec Ideal S16x2x256x256 .f32}
  {x2 : Vec Ideal S16x129x1 .f32} {x3 : Vec Ideal S3552x512 .f32} (H : Holds A x0 x1 x2 x3)
include H

/-- The fused feature perceptron: the two starting embeddings side by side. -/
theorem v22_eq (b : Fin 16) (n j : Fin 256) : v22 x0 x3 (ix2 (row16 b n) j) = emb A 0 b n j := by
  unfold v22 k0_pay2
  exact (leaky_apply (dense_apply rfl _ n (fun l => leaky_apply (dense_apply rfl
      (side (N := 512) (by norm_num) (A.node0 b) (A.node1 b)) n
      (fun l' => (tall_rows_apply _ _ b n l' (row16 b n) rfl).trans (selfCast_at _ _ _ _ (nodes_eq H b n l')))
      (feat_w0_eq H) (feat_b0_eq H) l)) (feat_w1_eq H) (feat_b1_eq H) j)).trans (Cert.Spec.emb_zero A b n j)

theorem v24_eq (b : Fin 16) (g : Fin 2) (i j : Fin 256) :
    v24 x1 (ix4 b g i j) = if g.val = 0 then A.adj0 b i j else A.adj1 b i j := by
  unfold v24 k0_pay3
  exact selfCast_at _ _ _ _ (adjs_eq H b g i j)

theorem v31_eq (b : Fin 16) (n : Fin 256) (j : Fin 512) : v31 x0 x3 (ix2 (row16 b n) j) = msgPre0 A 0 b n j := by
  unfold v31 k0_pay4
  exact dense_apply rfl (emb A 0 b) n (v22_eq H b n) (msg_w0_eq H) (msg_b0_eq H) j

theorem v33_eq (b : Fin 16) (n : Fin 256) (j : Fin 512) : v33 x0 x3 (ix2 (row16 b n) j) = msgPre0 A 0 b n j * slope := by
  unfold v33 k0_pay5
  exact (congrArg (slope * ·) (v31_eq H b n j)).trans (mul_comm _ _)

/-- The first step: the first message layer and its slope multiple come as two values. -/
theorem v56_eq (b : Fin 16) (n j : Fin 256) : v56 x0 x1 x3 (ix2 (row16 b n) j) = emb A 1 b n j := by
  unfold v56 k0_pay6
  exact step_apply A 0 (v24_eq H) (v22_eq H) (fun b n j => (leaky_apply (dense_apply rfl (leaky slope (msgPre0 A 0 b)) n
    (fun l => congrArg₂ max (v31_eq H b n l) (v33_eq H b n l)) (msg_w1_eq H) (msg_b1_eq H) j)).trans
    (Cert.Spec.leaky_msgPre1 A 0 b n j)) b n j

theorem v73_eq (b : Fin 16) (n j : Fin 256) : v73 x0 x1 x3 (ix2 (row16 b n) j) = msgPre1 A 1 b n j := by
  unfold v73 k0_pay7
  exact dense_apply rfl (leaky slope (msgPre0 A 1 b)) n
    (fun l => leaky_apply (dense_apply rfl (emb A 1 b) n (v56_eq H b n) (msg_w0_eq H) (msg_b0_eq H) l))
    (msg_w1_eq H) (msg_b1_eq H) j

theorem v88_eq (b : Fin 16) (n j : Fin 256) : v88 x0 x1 x3 (ix2 (row16 b n) j) = emb A 2 b n j := by
  unfold v88 k0_pay8
  exact step_apply A 1 (v24_eq H) (v56_eq H)
    (fun b n j => (leaky_apply (v73_eq H b n j)).trans (Cert.Spec.leaky_msgPre1 A 1 b n j)) b n j

/-- The fused message perceptron on the embeddings after two steps, as a stack. -/
theorem m2_eq (b : Fin 16) (n j : Fin 256) :
    k0_pay9 (v24 x1) (v56 x0 x1 x3) (v73 x0 x1 x3) c_cst_35 (msg_w0 x3) (msg_b0 x3) (msg_w1 x3) (msg_b1 x3) (ix3 b n j)
      = side (N := 256) (by norm_num) (msg0 A 2 b) (msg1 A 2 b) n j := by
  unfold k0_pay9
  exact (stack_rows_apply _ _ b n j (row16 b n) rfl).trans ((leaky_apply (dense_apply rfl _ n (fun l => leaky_apply
    (dense_apply rfl (emb A 2 b) n (v88_eq H b n) (msg_w0_eq H) (msg_b0_eq H) l)) (msg_w1_eq H) (msg_b1_eq H) j)).trans
    (Cert.Spec.leaky_msgPre1 A 2 b n j))

theorem v113_eq (b : Fin 16) (n : Fin 256) (j : Fin 128) :
    v113 x0 x1 x3 (ix3 b n j) = spread (A.adj0 b) (msg0 A 2 b) n j := by
  unfold v113 k0_pay10
  exact spread_apply A 0 _ _ (msg0 A 2) (msg1 A 2) _ _ _ (v24_eq H) (m2_eq H) b n j

theorem v117_eq (b : Fin 16) (n : Fin 256) (j : Fin 128) :
    v117 x0 x1 x3 (ix3 b n j) = spread (A.adj1 b) (msg1 A 2 b) n j := by
  unfold v117 k0_pay11
  exact spread_apply A 1 _ _ (msg0 A 2) (msg1 A 2) _ _ _ (v24_eq H) (m2_eq H) b n j

/-- The third step's sum, the whole fourth step, and the merge perceptron's first product (no bias yet). -/
theorem v157_eq (b : Fin 16) (n j : Fin 256) :
    v157 x0 x1 x3 (ix2 (row16 b n) j) = ∑ l : Fin 256, emb A 4 b n l * A.wg0 l j := by
  have e3 : ∀ (b : Fin 16) (n j : Fin 256), addf (v88 x0 x1 x3) (shapeCast S4096x256 (concatenate S16x256x256 2
      [⟨S16x256x128, v113 x0 x1 x3⟩, ⟨S16x256x128, v117 x0 x1 x3⟩] concatenates_S16x256x128_S16x256x128_S16x256x256_d2)
      shapeCasts_S16x256x256_S4096x256) (ix2 (row16 b n) j) = emb A 3 b n j := fun b n j =>
    (congrArg₂ (· + ·) (v88_eq H b n j) (cat_rows_apply _ _ _ _ _ _ (v113_eq H) (v117_eq H) b n j)).trans
      (Cert.Spec.emb_succ A 2 b n j)
  unfold v157 k0_pay12
  refine (matmul_plain_apply _ rfl none _ _ (row16 b n) j).trans (Finset.sum_congr rfl fun l _ => ?_)
  exact congrArg₂ (· * ·) (step_apply A 3 (v24_eq H) e3 (fun b n j => (leaky_apply (dense_apply rfl _ n (fun l => leaky_apply
    (dense_apply rfl (emb A 3 b) n (e3 b n) (msg_w0_eq H) (msg_b0_eq H) l)) (msg_w1_eq H) (msg_b1_eq H) j)).trans
    (Cert.Spec.leaky_msgPre1 A 3 b n j)) b n l) (selfCast_at _ _ _ _ (merge_w0_eq H l j))

theorem v158_eq (r : Fin 4096) (j : Fin 256) : v158 x3 (ix2 r j) = A.bg0 j := by
  unfold v158 k0_pay13
  rw [shapeCast_self]
  exact (broadcastTo_1b_ab_apply _ _ r j).trans (merge_b0_eq H j)

/-- The merge perceptron, the first 128 rows of each batch element, and the output perceptron's first layer. -/
theorem v199_eq (b : Fin 16) (s : Fin 128) (j : Fin 256) : v199 x0 x1 x3 (ix2 (srow16 b s) j)
    = leaky slope (dense (fun (s : Fin 128) j => gcn A b ⟨s.val, by omega⟩ j) A.wo0 A.bo0) s j := by
  unfold v199 k0_pay14
  exact leaky_apply (dense_apply rfl (fun (s : Fin 128) j => gcn A b ⟨s.val, by omega⟩ j) s
    (fun l => (gather_apply _ b s l).trans (leaky_apply (dense_apply rfl
      (leaky slope (dense (emb A 4 b) A.wg0 A.bg0)) ⟨s.val, by omega⟩
      (fun l' => leaky_apply (congrArg₂ (· + ·) (v157_eq H b _ l') (v158_eq H _ l')))
      (merge_w1_eq H) (merge_b1_eq H) l)))
    (fout_w0_eq H) (fout_b0_eq H) j)

theorem v209_eq (b : Fin 16) (s j : Fin 128) : v209 x0 x1 x3 (ix2 (srow16 b s) j) = Cert.Spec.sw A b s j := by
  unfold v209 k0_pay16 v201 k0_pay15
  exact leaky_apply (dense_apply rfl _ s (v199_eq H b s) (fout_w1_eq H) (fout_b1_eq H) j)

theorem v226_eq (b : Fin 16) (s : Fin 128) : v226 x0 x1 x3 (ix2 (srow16 b s) (0 : Fin 1)) = Cert.Spec.sp A b s := by
  unfold v226 k0_pay17
  exact dense_apply rfl _ s (fun l => leaky_apply
    (dense_apply rfl (Cert.Spec.sw A b) s (v209_eq H b s) (prio_w0_eq H) (prio_b0_eq H) l)) (prio_w1_eq H) (prio_b1_eq H) 0

end Cert.ReferenceIdeal.Hand

end
-- ==== Proof.RefTailLemmas.lean ====
/- The operations of one batch element's tail, each read at an index. -/
import proofs.«144052_g2000204636238536_pallasbulk_491_38_alg».proof.Proof.Gen.ReferenceIdeal.Skeleton
import proofs.«144052_g2000204636238536_pallasbulk_491_38_alg».proof.Proof.Spec
import proofs.«144052_g2000204636238536_pallasbulk_491_38_alg».proof.Proof.Rows
import proofs.«144052_g2000204636238536_pallasbulk_491_38_alg».proof.Proof.RefLayers
import Idealize.ShloMosaic.PureOps.Ideal.Laws
import Idealize.ShloMosaic.Lib.ValueIdx
import Idealize.ShloMosaic.Lib.ValueLayout
import Idealize.ShloMosaic.Lib.Pipeline.Value

noncomputable section

namespace Cert.ReferenceIdeal.RV.Tail

open Cert.ReferenceIdeal Cert.ReferenceIdeal.Gen Cert.Rows Idealize.ShloMosaic Idealize.ShloMosaic.ValueIdx

theorem exp_apply {s : Shape} (a : FVec Ideal s .f32) (i : s.Idx) : exp a i = Ideal.exp (a i) := rfl
theorem log_apply {s : Shape} (a : FVec Ideal s .f32) (i : s.Idx) : log a i = Ideal.log (a i) := rfl

/-- Rows `128 b …` of the tall table of selected nodes are batch element `b`'s 128 rows. -/
theorem sw_slice_apply (V : FVec Ideal S2048x128 .f32) (o : Nat) (h : S2048x128.Slices ![o, 0] S128x128)
    (b : Fin 16) (hb : o = b.val * 128) (s j : Fin 128) :
    extractStridedSlice S128x128 ![o, 0] V h (ix2 s j) = V (ix2 (srow16 b s) j) :=
  slice2_axis0_apply o V h s j (srow16 b s) (by rw [hb]; rfl)

theorem sp_slice_apply (V : FVec Ideal S2048x1 .f32) (o : Nat) (h : S2048x1.Slices ![o, 0] S128x1)
    (b : Fin 16) (hb : o = b.val * 128) (s : Fin 128) (u : Fin 1) :
    extractStridedSlice S128x1 ![o, 0] V h (ix2 s u) = V (ix2 (srow16 b s) u) :=
  slice2_axis0_apply o V h s u (srow16 b s) (by rw [hb]; rfl)

/-- A reduction over the rows is the column's sum. -/
theorem colsum_apply (X : FVec Ideal S128x128 .f32) (h : S128x128.Reduces [0] S128) (hφ : FKind.Formats .f32)
    (hacc : (0x00000000#32 : BitVec 32) = 0x00000000#32) (j : Fin 128) :
    multiReduction .add [0] S128 X 0x00000000#32 h hφ hacc (ix1 j) = ∑ s : Fin 128, X (ix2 s j) := by
  refine (Ideal.multiReduction_add_single X 0x00000000#32 h hφ hacc (ix1 j)).trans ?_
  refine Finset.sum_congr rfl fun s _ => congrArg X ?_
  funext a
  match a with
  | ⟨0, _⟩ => rfl
  | ⟨1, _⟩ => rfl

theorem colsum_row_apply (X : FVec Ideal S128x128 .f32) (h : S128x128.Reduces [0] S128) (hφ : FKind.Formats .f32)
    (hacc : (0x00000000#32 : BitVec 32) = 0x00000000#32) (hsc : S128.ShapeCasts S1x128) (u : Fin 1) (j : Fin 128) :
    shapeCast S1x128 (multiReduction .add [0] S128 X 0x00000000#32 h hφ hacc) hsc (ix2 u j) = ∑ s : Fin 128, X (ix2 s j) :=
  (shapeCast_a_1a_apply _ hsc u j).trans (colsum_apply X h hφ hacc j)

/-- A one-row product into the zero table is the sum over the inner index. -/
theorem matmulA_apply (L : FVec Ideal S1x128 .f32) (R : FVec Ideal S128x256 .f32) (u : Fin 1) (j : Fin 256) :
    matmul dot_S1x128_S128x256_S1x256_1_0_0_1_n_n none L R (constant S1x256 .f32 0x00000000#32) (ix2 u j)
      = ∑ k : Fin 128, L (ix2 u k) * R (ix2 k j) :=
  matmul_plain_apply _ rfl none L R u j

theorem matmulB_apply (L : FVec Ideal S1x256 .f32) (R : FVec Ideal S256x1 .f32) (u : Fin 1) (j : Fin 1) :
    matmul dot_S1x256_S256x1_S1x1_1_0_0_1_n_n none L R (constant S1x1 .f32 0x00000000#32) (ix2 u j)
      = ∑ k : Fin 256, L (ix2 u k) * R (ix2 k j) :=
  matmul_plain_apply _ rfl none L R u j

/-- The aggregate head's first layer, with its leaky rectifier, on the column sums of `X`. -/
theorem aggHidden_apply (X : FVec Ideal S128x128 .f32) (W : FVec Ideal S128x256 .f32) (B : FVec Ideal S1x256 .f32)
    (hr : S128x128.Reduces [0] S128) (hφ : FKind.Formats .f32) (hacc : (0x00000000#32 : BitVec 32) = 0x00000000#32)
    (hsc : S128.ShapeCasts S1x128) (hw : S128x256.ShapeCasts S128x256) (hb : S1x256.ShapeCasts S1x256)
    (x : Fin 128 → Fin 128 → EReal) (w : Fin 128 → Fin 256 → EReal) (bb : Fin 256 → EReal)
    (hX : ∀ s j, X (ix2 s j) = x s j) (hW : ∀ k j, W (ix2 k j) = w k j) (hB : ∀ j, B (ix2 0 j) = bb j) (j : Fin 256) :
    maximumf
      (addf (matmul dot_S1x128_S128x256_S1x256_1_0_0_1_n_n none
          (shapeCast S1x128 (multiReduction .add [0] S128 X 0x00000000#32 hr hφ hacc) hsc)
          (shapeCast S128x256 W hw) (constant S1x256 .f32 0x00000000#32)) (shapeCast S1x256 B hb))
      (mulf (broadcast S1x256 (Scalar.ofBits (F := Ideal) .f32 0x3C23D70A#32))
        (addf (matmul dot_S1x128_S128x256_S1x256_1_0_0_1_n_n none
          (shapeCast S1x128 (multiReduction .add [0] S128 X 0x00000000#32 hr hφ hacc) hsc)
          (shapeCast S128x256 W hw) (constant S1x256 .f32 0x00000000#32)) (shapeCast S1x256 B hb))) (ix2 0 j)
      = Cert.Spec.leaky Cert.Spec.slope (Cert.Spec.dense (fun (_ : Fin 1) j => ∑ s : Fin 128, x s j) w bb) 0 j := by
  rw [maximumf_apply, mulf_apply, addf_apply, broadcast_apply, matmulA_apply, shapeCast_self, shapeCast_self, hB]
  have e : ∑ k : Fin 128, shapeCast S1x128 (multiReduction .add [0] S128 X 0x00000000#32 hr hφ hacc) hsc (ix2 0 k) * W (ix2 k j)
      = ∑ k : Fin 128, (∑ s : Fin 128, x s k) * w k j :=
    Finset.sum_congr rfl fun k _ => by
      rw [colsum_row_apply, hW]
      exact congrArg (· * w k j) (Finset.sum_congr rfl fun s _ => hX s k)
  rw [e]
  show max _ (Cert.Spec.slope * _) = max _ (_ * Cert.Spec.slope)
  rw [mul_comm]
  rfl

theorem aggOut_apply (H : FVec Ideal S1x256 .f32) (W1 : FVec Ideal S256x1 .f32) (B1 : FVec Ideal S1x1 .f32)
    (hw : S256x1.ShapeCasts S256x1) (hb : S1x1.ShapeCasts S1x1)
    (hh : Fin 256 → EReal) (w1 : Fin 256 → Fin 1 → EReal) (b1 : Fin 1 → EReal)
    (hH : ∀ l, H (ix2 0 l) = hh l) (hW : ∀ k j, W1 (ix2 k j) = w1 k j) (hB : ∀ j, B1 (ix2 0 j) = b1 j) :
    addf (matmul dot_S1x256_S256x1_S1x1_1_0_0_1_n_n none H (shapeCast S256x1 W1 hw) (constant S1x1 .f32 0x00000000#32))
        (shapeCast S1x1 B1 hb) (ix2 0 0)
      = (∑ l : Fin 256, hh l * w1 l 0) + b1 0 := by
  rw [addf_apply, matmulB_apply, shapeCast_self, shapeCast_self, hB]
  exact congrArg (· + b1 0) (Finset.sum_congr rfl fun l _ => by rw [hH, hW])

/-- The 129 logits: the 128 priorities with the aggregate's priority underneath. -/
theorem logits_apply (P : FVec Ideal S128x1 .f32) (T : FVec Ideal S1x1 .f32)
    (hc : Shape.Concatenates [S128x1, S1x1] S129x1 0) (s : Fin 129) :
    concatenate S129x1 0 [⟨S128x1, P⟩, ⟨S1x1, T⟩] hc (ix2 s 0)
      = if h : s.val < 128 then P (ix2 ⟨s.val, h⟩ 0) else T (ix2 0 0) := by
  by_cases h : s.val < 128
  · rw [dif_pos h]
    refine concatenate_pair_apply_left 0 P T hc (ix2 s 0) rfl (ix2 ⟨s.val, h⟩ 0) fun b => ?_
    match b with
    | ⟨0, _⟩ => rfl
    | ⟨1, _⟩ => rfl
  · rw [dif_neg h]
    refine concatenate_pair_apply_right 0 P T hc (ix2 s 0) rfl rfl (ix2 0 0) (fun b hb => ?_) ?_
    · match b with
      | ⟨0, _⟩ => exact absurd rfl hb
      | ⟨1, _⟩ => rfl
    · show 0 + 128 = s.val
      have := s.isLt
      omega

/-- A column's maximum, as a one-entry table, is the fold of `max` over its 129 entries. -/
theorem colmax_apply (V : FVec Ideal S129x1 .f32) (h : S129x1.Reduces [0] S1) (hφ : FKind.Formats .f32)
    (hacc : (0xFF800000#32 : BitVec 32) = 0xFF800000#32) (hsc : S1.ShapeCasts S1x1) (u w : Fin 1) :
    shapeCast S1x1 (multiReduction .maximumf [0] S1 V 0xFF800000#32 h hφ hacc) hsc (ix2 u w)
      = (Finset.univ : Finset (Fin 129)).fold max Cert.Spec.negInf (fun k => V (ix2 k 0)) := by
  refine (shapeCast_a_1a_apply _ hsc u w).trans ?_
  refine (Ideal.multiReduction_maximumf_single V 0xFF800000#32 h hφ hacc (ix1 w)).trans ?_
  refine congrArg (Finset.fold max Cert.Spec.negInf · Finset.univ) ?_
  funext k
  refine congrArg V ?_
  funext a
  match a with
  | ⟨0, _⟩ => rfl
  | ⟨1, _⟩ => exact Fin.ext (show w.val = 0 by omega)

theorem colsum1_apply (Q : FVec Ideal S129x1 .f32) (h : S129x1.Reduces [0] S1) (hφ : FKind.Formats .f32)
    (hacc : (0x00000000#32 : BitVec 32) = 0x00000000#32) (hsc : S1.ShapeCasts S1x1) (u w : Fin 1) :
    shapeCast S1x1 (multiReduction .add [0] S1 Q 0x00000000#32 h hφ hacc) hsc (ix2 u w) = ∑ k : Fin 129, Q (ix2 k 0) := by
  refine (shapeCast_a_1a_apply _ hsc u w).trans ?_
  refine (Ideal.multiReduction_add_single Q 0x00000000#32 h hφ hacc (ix1 w)).trans ?_
  refine Finset.sum_congr rfl fun k _ => congrArg Q ?_
  funext a
  match a with
  | ⟨0, _⟩ => rfl
  | ⟨1, _⟩ => exact Fin.ext (show w.val = 0 by omega)

theorem bcast11_apply (M : FVec Ideal S1x1 .f32) (hb : S1x1.Broadcasts S129x1) (s : Fin 129) (w : Fin 1) :
    broadcastTo S129x1 M hb (ix2 s w) = M (ix2 0 0) := by
  refine broadcastTo_apply M hb (ix2 s w) (ix2 0 0) fun a => ?_
  match a with
  | ⟨0, _⟩ => rfl
  | ⟨1, _⟩ => rfl

theorem shifted_apply (V : FVec Ideal S129x1 .f32) (M : FVec Ideal S1x1 .f32) (hb : S1x1.Broadcasts S129x1) (s : Fin 129) :
    subf V (broadcastTo S129x1 M hb) (ix2 s 0) = V (ix2 s 0) - M (ix2 0 0) := by
  rw [subf_apply, bcast11_apply]

theorem logsum_apply (Z : FVec Ideal S129x1 .f32) (h : S129x1.Reduces [0] S1) (hφ : FKind.Formats .f32)
    (hacc : (0x00000000#32 : BitVec 32) = 0x00000000#32) (hsc : S1.ShapeCasts S1x1) (u w : Fin 1) :
    log (shapeCast S1x1 (multiReduction .add [0] S1 (exp Z) 0x00000000#32 h hφ hacc) hsc) (ix2 u w)
      = Ideal.log (∑ k : Fin 129, Ideal.exp (Z (ix2 k 0))) := by
  rw [log_apply, colsum1_apply]
  rfl

/-- Shifted by its maximum, then less the logarithm of the sum of exponentials: the log-softmax. -/
theorem lsm_of_parts_apply (Z : FVec Ideal S129x1 .f32) (L : FVec Ideal S1x1 .f32) (v : Fin 129 → EReal)
    (hZ : ∀ s, Z (ix2 s 0) = v s - (Finset.univ : Finset (Fin 129)).fold max Cert.Spec.negInf v)
    (hL : L (ix2 0 0) = Ideal.log (∑ k : Fin 129, Ideal.exp (v k - (Finset.univ : Finset (Fin 129)).fold max Cert.Spec.negInf v)))
    (hb : S1x1.Broadcasts S129x1) (s : Fin 129) :
    subf Z (broadcastTo S129x1 L hb) (ix2 s 0) = Cert.Spec.lsm v s := by
  rw [shifted_apply, hZ, hL]
  rfl

theorem lsm_of_max_apply (V : FVec Ideal S129x1 .f32) (M : FVec Ideal S1x1 .f32) (v : Fin 129 → EReal)
    (hV : ∀ s, V (ix2 s 0) = v s) (hM : M (ix2 0 0) = (Finset.univ : Finset (Fin 129)).fold max Cert.Spec.negInf v)
    (hb hb' : S1x1.Broadcasts S129x1) (h : S129x1.Reduces [0] S1) (hφ : FKind.Formats .f32)
    (hacc : (0x00000000#32 : BitVec 32) = 0x00000000#32) (hsc : S1.ShapeCasts S1x1) (s : Fin 129) :
    subf (subf V (broadcastTo S129x1 M hb))
      (broadcastTo S129x1 (log (shapeCast S1x1 (multiReduction .add [0] S1 (exp (subf V (broadcastTo S129x1 M hb))) 0x00000000#32 h hφ hacc) hsc)) hb')
      (ix2 s 0) = Cert.Spec.lsm v s := by
  have hZ : ∀ s, subf V (broadcastTo S129x1 M hb) (ix2 s 0) = v s - (Finset.univ : Finset (Fin 129)).fold max Cert.Spec.negInf v :=
    fun s => by rw [shifted_apply, hV, hM]
  refine lsm_of_parts_apply _ _ v hZ ?_ hb' s
  rw [logsum_apply]
  exact congrArg Ideal.log (Finset.sum_congr rfl fun k _ => by rw [hZ])

theorem colmax_of_apply (V : FVec Ideal S129x1 .f32) (v : Fin 129 → EReal) (hV : ∀ s, V (ix2 s 0) = v s)
    (h : S129x1.Reduces [0] S1) (hφ : FKind.Formats .f32)
    (hacc : (0xFF800000#32 : BitVec 32) = 0xFF800000#32) (hsc : S1.ShapeCasts S1x1) (u w : Fin 1) :
    shapeCast S1x1 (multiReduction .maximumf [0] S1 V 0xFF800000#32 h hφ hacc) hsc (ix2 u w)
      = (Finset.univ : Finset (Fin 129)).fold max Cert.Spec.negInf v := by
  rw [colmax_apply]
  exact congrArg (Finset.fold max Cert.Spec.negInf · Finset.univ) (funext hV)

/-- The log-softmax of a column, everything computed from the column itself. -/
theorem lsm_apply (V : FVec Ideal S129x1 .f32) (v : Fin 129 → EReal) (hV : ∀ s, V (ix2 s 0) = v s)
    (hm : S129x1.Reduces [0] S1) (hφm : FKind.Formats .f32) (haccm : (0xFF800000#32 : BitVec 32) = 0xFF800000#32)
    (hscm : S1.ShapeCasts S1x1)
    (hb hb' : S1x1.Broadcasts S129x1) (h : S129x1.Reduces [0] S1) (hφ : FKind.Formats .f32)
    (hacc : (0x00000000#32 : BitVec 32) = 0x00000000#32) (hsc : S1.ShapeCasts S1x1) (s : Fin 129) :
    subf (subf V (broadcastTo S129x1 (shapeCast S1x1 (multiReduction .maximumf [0] S1 V 0xFF800000#32 hm hφm haccm) hscm) hb))
      (broadcastTo S129x1 (log (shapeCast S1x1 (multiReduction .add [0] S1
        (exp (subf V (broadcastTo S129x1 (shapeCast S1x1 (multiReduction .maximumf [0] S1 V 0xFF800000#32 hm hφm haccm) hscm) hb)))
        0x00000000#32 h hφ hacc) hsc)) hb')
      (ix2 s 0) = Cert.Spec.lsm v s :=
  lsm_of_max_apply V _ v hV (colmax_of_apply V v hV hm hφm haccm hscm 0 0) hb hb' h hφ hacc hsc s

theorem maskTerm_apply (Mk : FVec Ideal S1x129x1 .f32) (hsc : S1x129x1.ShapeCasts S129x1) (s : Fin 129) :
    select (cmpf .ogt (shapeCast S129x1 Mk hsc) (broadcast S129x1 (Scalar.ofBits (F := Ideal) .f32 0x3F000000#32)))
      (broadcast S129x1 (Scalar.ofBits (F := Ideal) .f32 0x00000000#32))
      (broadcast S129x1 (Scalar.ofBits (F := Ideal) .f32 0xC2CF3B8F#32)) (ix2 s 0)
      = Scalar.select (Ideal.cmp .ogt (Mk (ix3 0 s 0)) Cert.Spec.half) Cert.Spec.zero Cert.Spec.logEps := by
  rw [select_apply, cmpf_apply, broadcast_apply, broadcast_apply, broadcast_apply, shapeCast_1ab_ab_apply]
  rfl

/-- Adding the mask term: zero where the mask exceeds one half, the large negative constant elsewhere. -/
theorem masked_apply (A : Cert.Spec.Args) (b : Fin 16) (V : FVec Ideal S129x1 .f32) (Mk : FVec Ideal S1x129x1 .f32)
    (v : Fin 129 → EReal) (hV : ∀ s, V (ix2 s 0) = v s) (hMk : ∀ s, Mk (ix3 0 s 0) = A.mask b s)
    (hsc : S1x129x1.ShapeCasts S129x1) (s : Fin 129) :
    addf V (select (cmpf .ogt (shapeCast S129x1 Mk hsc) (broadcast S129x1 (Scalar.ofBits (F := Ideal) .f32 0x3F000000#32)))
      (broadcast S129x1 (Scalar.ofBits (F := Ideal) .f32 0x00000000#32))
      (broadcast S129x1 (Scalar.ofBits (F := Ideal) .f32 0xC2CF3B8F#32))) (ix2 s 0)
      = v s + Cert.Spec.lmask A b s := by
  rw [addf_apply, maskTerm_apply, hV, hMk]
  rfl

/-- Four columns side by side under a leading unit axis, read column by column. -/
theorem piece_apply (c0 c1 c2 c3 : FVec Ideal S129x1 .f32)
    (hc : Shape.Concatenates [S129x1, S129x1, S129x1, S129x1] S129x4 1) (hsc : S129x4.ShapeCasts S1x129x4) (s : Fin 129) :
    shapeCast S1x129x4 (concatenate S129x4 1 [⟨S129x1, c0⟩, ⟨S129x1, c1⟩, ⟨S129x1, c2⟩, ⟨S129x1, c3⟩] hc) hsc (ix3 0 s 0) = c0 (ix2 s 0)
    ∧ shapeCast S1x129x4 (concatenate S129x4 1 [⟨S129x1, c0⟩, ⟨S129x1, c1⟩, ⟨S129x1, c2⟩, ⟨S129x1, c3⟩] hc) hsc (ix3 0 s 1) = c1 (ix2 s 0)
    ∧ shapeCast S1x129x4 (concatenate S129x4 1 [⟨S129x1, c0⟩, ⟨S129x1, c1⟩, ⟨S129x1, c2⟩, ⟨S129x1, c3⟩] hc) hsc (ix3 0 s 2) = c2 (ix2 s 0)
    ∧ shapeCast S1x129x4 (concatenate S129x4 1 [⟨S129x1, c0⟩, ⟨S129x1, c1⟩, ⟨S129x1, c2⟩, ⟨S129x1, c3⟩] hc) hsc (ix3 0 s 3) = c3 (ix2 s 0) := by
  refine ⟨?_, ?_, ?_, ?_⟩
  · refine (shapeCast_ab_1ab_apply _ hsc 0 s 0).trans ?_
    refine concatenate_apply_piece (t := S129x4) 1 [⟨S129x1, c0⟩, ⟨S129x1, c1⟩, ⟨S129x1, c2⟩, ⟨S129x1, c3⟩] hc (ix2 s 0) 0 (by show (0 : ℕ) < 4; omega) S129x1 c0 rfl rfl 0 rfl (ix2 s 0) (fun b hb => ?_) rfl
    match b with
    | ⟨0, _⟩ => rfl
    | ⟨1, _⟩ => exact absurd rfl hb
  · refine (shapeCast_ab_1ab_apply _ hsc 0 s 1).trans ?_
    refine concatenate_apply_piece (t := S129x4) 1 [⟨S129x1, c0⟩, ⟨S129x1, c1⟩, ⟨S129x1, c2⟩, ⟨S129x1, c3⟩] hc (ix2 s 1) 1 (by show (1 : ℕ) < 4; omega) S129x1 c1 rfl rfl 1 rfl (ix2 s 0) (fun b hb => ?_) rfl
    match b with
    | ⟨0, _⟩ => rfl
    | ⟨1, _⟩ => exact absurd rfl hb
  · refine (shapeCast_ab_1ab_apply _ hsc 0 s 2).trans ?_
    refine concatenate_apply_piece (t := S129x4) 1 [⟨S129x1, c0⟩, ⟨S129x1, c1⟩, ⟨S129x1, c2⟩, ⟨S129x1, c3⟩] hc (ix2 s 2) 2 (by show (2 : ℕ) < 4; omega) S129x1 c2 rfl rfl 2 rfl (ix2 s 0) (fun b hb => ?_) rfl
    match b with
    | ⟨0, _⟩ => rfl
    | ⟨1, _⟩ => exact absurd rfl hb
  · refine (shapeCast_ab_1ab_apply _ hsc 0 s 3).trans ?_
    refine concatenate_apply_piece (t := S129x4) 1 [⟨S129x1, c0⟩, ⟨S129x1, c1⟩, ⟨S129x1, c2⟩, ⟨S129x1, c3⟩] hc (ix2 s 3) 3 (by show (3 : ℕ) < 4; omega) S129x1 c3 rfl rfl 3 rfl (ix2 s 0) (fun b hb => ?_) rfl
    match b with
    | ⟨0, _⟩ => rfl
    | ⟨1, _⟩ => exact absurd rfl hb

/-- The aggregate head's hidden row of batch element `b`, from a table that holds its output rows. -/
theorem hiddenOf_apply (A : Cert.Spec.Args) (b : Fin 16) (X : FVec Ideal S128x128 .f32) (W : FVec Ideal S128x256 .f32)
    (B : FVec Ideal S1x256 .f32)
    (hr : S128x128.Reduces [0] S128) (hφ : FKind.Formats .f32) (hacc : (0x00000000#32 : BitVec 32) = 0x00000000#32)
    (hsc : S128.ShapeCasts S1x128) (hw : S128x256.ShapeCasts S128x256) (hb : S1x256.ShapeCasts S1x256)
    (hX : ∀ s j, X (ix2 s j) = Cert.Spec.sw A b s j) (hW : ∀ k j, W (ix2 k j) = A.wa0 k j) (hB : ∀ j, B (ix2 0 j) = A.ba0 j)
    (j : Fin 256) :
    maximumf
      (addf (matmul dot_S1x128_S128x256_S1x256_1_0_0_1_n_n none
          (shapeCast S1x128 (multiReduction .add [0] S128 X 0x00000000#32 hr hφ hacc) hsc)
          (shapeCast S128x256 W hw) (constant S1x256 .f32 0x00000000#32)) (shapeCast S1x256 B hb))
      (mulf (broadcast S1x256 (Scalar.ofBits (F := Ideal) .f32 0x3C23D70A#32))
        (addf (matmul dot_S1x128_S128x256_S1x256_1_0_0_1_n_n none
          (shapeCast S1x128 (multiReduction .add [0] S128 X 0x00000000#32 hr hφ hacc) hsc)
          (shapeCast S128x256 W hw) (constant S1x256 .f32 0x00000000#32)) (shapeCast S1x256 B hb))) (ix2 0 j)
      = Cert.Spec.leaky Cert.Spec.slope (Cert.Spec.dense (Cert.Spec.agg A b) A.wa0 A.ba0) 0 j :=
  aggHidden_apply X W B hr hφ hacc hsc hw hb (Cert.Spec.sw A b) A.wa0 A.ba0 hX hW hB j

/-- Batch element `b`'s logits, from its priorities and the aggregate head's hidden row. -/
theorem logitsOf_apply (A : Cert.Spec.Args) (b : Fin 16) (P : FVec Ideal S128x1 .f32) (H : FVec Ideal S1x256 .f32)
    (W1 : FVec Ideal S256x1 .f32) (B1 : FVec Ideal S1x1 .f32)
    (hw : S256x1.ShapeCasts S256x1) (hb : S1x1.ShapeCasts S1x1) (hc : Shape.Concatenates [S128x1, S1x1] S129x1 0)
    (hP : ∀ s, P (ix2 s 0) = Cert.Spec.sp A b s)
    (hH : ∀ j, H (ix2 0 j) = Cert.Spec.leaky Cert.Spec.slope (Cert.Spec.dense (Cert.Spec.agg A b) A.wa0 A.ba0) 0 j)
    (hW1 : ∀ k j, W1 (ix2 k j) = A.wa1 k j) (hB1 : ∀ j, B1 (ix2 0 j) = A.ba1 j) (s : Fin 129) :
    concatenate S129x1 0 [⟨S128x1, P⟩, ⟨S1x1,
        addf (matmul dot_S1x256_S256x1_S1x1_1_0_0_1_n_n none H (shapeCast S256x1 W1 hw) (constant S1x1 .f32 0x00000000#32))
          (shapeCast S1x1 B1 hb)⟩] hc (ix2 s 0)
      = Cert.Spec.pv A b s := by
  rw [logits_apply]
  unfold Cert.Spec.pv
  by_cases h : s.val < 128
  · rw [dif_pos h, dif_pos h, hP]
  · rw [dif_neg h, dif_neg h,
      aggOut_apply H W1 B1 hw hb _ A.wa1 A.ba1 hH hW1 hB1]
    rfl

/-- A packed piece holds batch element `b`'s four results when its four columns do. -/
theorem pieceOf_apply (A : Cert.Spec.Args) (b : Fin 16) (c0 c1 c2 c3 : FVec Ideal S129x1 .f32)
    (hc : Shape.Concatenates [S129x1, S129x1, S129x1, S129x1] S129x4 1) (hsc : S129x4.ShapeCasts S1x129x4)
    (h0 : ∀ s, c0 (ix2 s 0) = Cert.Spec.logPi A b s) (h1 : ∀ s, c1 (ix2 s 0) = Cert.Spec.pi A b s)
    (h2 : ∀ s, c2 (ix2 s 0) = Cert.Spec.mlogPi A b s) (h3 : ∀ s, c3 (ix2 s 0) = Cert.Spec.mpi A b s) (s : Fin 129) :
    shapeCast S1x129x4 (concatenate S129x4 1 [⟨S129x1, c0⟩, ⟨S129x1, c1⟩, ⟨S129x1, c2⟩, ⟨S129x1, c3⟩] hc) hsc (ix3 0 s 0) = Cert.Spec.logPi A b s
    ∧ shapeCast S1x129x4 (concatenate S129x4 1 [⟨S129x1, c0⟩, ⟨S129x1, c1⟩, ⟨S129x1, c2⟩, ⟨S129x1, c3⟩] hc) hsc (ix3 0 s 1) = Cert.Spec.pi A b s
    ∧ shapeCast S1x129x4 (concatenate S129x4 1 [⟨S129x1, c0⟩, ⟨S129x1, c1⟩, ⟨S129x1, c2⟩, ⟨S129x1, c3⟩] hc) hsc (ix3 0 s 2) = Cert.Spec.mlogPi A b s
    ∧ shapeCast S1x129x4 (concatenate S129x4 1 [⟨S129x1, c0⟩, ⟨S129x1, c1⟩, ⟨S129x1, c2⟩, ⟨S129x1, c3⟩] hc) hsc (ix3 0 s 3) = Cert.Spec.mpi A b s := by
  obtain ⟨e0, e1, e2, e3⟩ := piece_apply c0 c1 c2 c3 hc hsc s
  exact ⟨e0.trans (h0 s), e1.trans (h1 s), e2.trans (h2 s), e3.trans (h3 s)⟩

theorem expOf_apply (C : FVec Ideal S129x1 .f32) (f : Fin 129 → EReal) (hC : ∀ s, C (ix2 s 0) = f s) (s : Fin 129) :
    exp C (ix2 s 0) = Ideal.exp (f s) := by
  rw [exp_apply, hC]

end Cert.ReferenceIdeal.RV.Tail

end
-- ==== Proof.RefValueTail.lean ====
/-
  Each batch element's stored piece of the reference body holds that element's four result columns.
-/
import proofs.«144052_g2000204636238536_pallasbulk_491_38_alg».proof.Proof.RefValueLoads
import proofs.«144052_g2000204636238536_pallasbulk_491_38_alg».proof.Proof.RefTailLemmas

noncomputable section

namespace Cert.ReferenceIdeal.Hand

open Idealize.ShloMosaic Idealize.ShloMosaic.ValueIdx
open Cert.ReferenceIdeal Cert.ReferenceIdeal.Gen Cert.Rows Cert.ReferenceIdeal.RV.Tail
open Cert.Spec (logPi pi mlogPi mpi pv lmask sw sp agg leaky slope dense negInf)

/-- `p` holds batch element `b`'s four result columns. -/
def IsPiece (A : Cert.Spec.Args) (b : Fin 16) (p : FVec Ideal S1x129x4 .f32) : Prop :=
  ∀ s : Fin 129, p (ix3 (0 : Fin 1) s (0 : Fin 4)) = logPi A b s ∧ p (ix3 (0 : Fin 1) s (1 : Fin 4)) = pi A b s
    ∧ p (ix3 (0 : Fin 1) s (2 : Fin 4)) = mlogPi A b s ∧ p (ix3 (0 : Fin 1) s (3 : Fin 4)) = mpi A b s

/-- The logits moved so that their largest is zero. -/
def shiftCol (V : FVec Ideal S129x1 .f32) : FVec Ideal S129x1 .f32 :=
  subf V (broadcastTo S129x1 (shapeCast S1x1 (multiReduction .maximumf [0] S1 V 0xFF800000#32 reduces_S129x1_S1 (.inl rfl) rfl)
    shapeCasts_S1_S1x1) broadcasts_S1x1_S129x1)

/-- The log of the summed exponentials of a column, as a one-entry table. -/
def logSumCol (Z : FVec Ideal S129x1 .f32) : FVec Ideal S1x1 .f32 :=
  log (shapeCast S1x1 (multiReduction .add [0] S1 (exp Z) 0x00000000#32 reduces_S129x1_S1 (.inl rfl) rfl) shapeCasts_S1_S1x1)

section Shapes

variable (A : Cert.Spec.Args) (b : Fin 16) (X : FVec Ideal S128x128 .f32) (P : FVec Ideal S128x1 .f32)
  (Hd : FVec Ideal S1x256 .f32) (W0 : Vec Ideal S128x256 .f32) (B0 : Vec Ideal S1x256 .f32)
  (W1 : Vec Ideal S256x1 .f32) (B1 : Vec Ideal S1x1 .f32) (Mk : Vec Ideal S1x129x1 .f32)
  (V : FVec Ideal S129x1 .f32)
  (hX : ∀ s j, X (ix2 s j) = sw A b s j) (hP : ∀ s, P (ix2 s (0 : Fin 1)) = sp A b s)
  (hH : ∀ j, Hd (ix2 (0 : Fin 1) j) = leaky slope (dense (agg A b) A.wa0 A.ba0) 0 j)
  (hW0 : ∀ k j, W0 (ix2 k j) = A.wa0 k j) (hB0 : ∀ j, B0 (ix2 (0 : Fin 1) j) = A.ba0 j)
  (hW1 : ∀ k j, W1 (ix2 k j) = A.wa1 k j) (hB1 : ∀ j, B1 (ix2 (0 : Fin 1) j) = A.ba1 j)
  (hMk : ∀ s, Mk (ix3 (0 : Fin 1) s (0 : Fin 1)) = A.mask b s)
  (hV : ∀ s, V (ix2 s (0 : Fin 1)) = pv A b s)

section
include hP hH hW1 hB1 hMk

/-- The tail in one value: from the priorities and the aggregate head's hidden row. -/
theorem pieceS3 : IsPiece A b (k0_pay35 (F := Ideal) P Hd W1 B1 Mk) := by
  have hV := fun s => logitsOf_apply A b P Hd W1 B1 shapeCasts_S256x1_S256x1 shapeCasts_S1x1_S1x1
    concatenates_S128x1_S1x1_S129x1_d0 hP hH hW1 hB1 s
  intro s
  unfold k0_pay35
  refine pieceOf_apply A b _ _ _ _ _ _ ?_ ?_ ?_ ?_ s
  · exact fun s => lsm_apply _ (pv A b) hV _ _ _ _ _ _ _ _ _ _ s
  · exact fun s => expOf_apply _ _ (fun s => lsm_apply _ (pv A b) hV _ _ _ _ _ _ _ _ _ _ s) s
  · exact fun s => lsm_apply _ (fun s => pv A b s + lmask A b s)
      (fun s => masked_apply A b _ Mk (pv A b) hV hMk _ s) _ _ _ _ _ _ _ _ _ _ s
  · exact fun s => expOf_apply _ _ (fun s => lsm_apply _ (fun s => pv A b s + lmask A b s)
      (fun s => masked_apply A b _ Mk (pv A b) hV hMk _ s) _ _ _ _ _ _ _ _ _ _ s) s

end

section
include hX hP hW0 hB0 hW1 hB1 hMk

/-- The tail cut after the log-softmax, its exponential, the masked logits and their maximum. -/
theorem pieceS8 : IsPiece A b (k0_pay28 (F := Ideal) (k0_pay24 X P W0 B0 W1 B1) (k0_pay25 X P W0 B0 W1 B1)
    (k0_pay26 X P W0 B0 W1 B1 Mk) (k0_pay27 X P W0 B0 W1 B1 Mk)) := by
  have hV : ∀ s, k0_pay23 (F := Ideal) X P W0 B0 W1 B1 (ix2 s (0 : Fin 1)) = pv A b s := fun s => by
    unfold k0_pay23
    exact logitsOf_apply A b P _ W1 B1 _ _ _ hP (fun j => hiddenOf_apply A b X W0 B0 _ _ _ _ _ _ hX hW0 hB0 j) hW1 hB1 s
  have hL : ∀ s, k0_pay24 (F := Ideal) X P W0 B0 W1 B1 (ix2 s (0 : Fin 1)) = logPi A b s := fun s => by
    unfold k0_pay24
    exact lsm_apply _ (pv A b) hV _ _ _ _ _ _ _ _ _ _ s
  have hE : ∀ s, k0_pay25 (F := Ideal) X P W0 B0 W1 B1 (ix2 s (0 : Fin 1)) = pi A b s := fun s => by
    unfold k0_pay25
    exact expOf_apply _ _ hL s
  have hM : ∀ s, k0_pay26 (F := Ideal) X P W0 B0 W1 B1 Mk (ix2 s (0 : Fin 1)) = pv A b s + lmask A b s := fun s => by
    unfold k0_pay26
    exact masked_apply A b _ Mk (pv A b) hV hMk _ s
  have hT : k0_pay27 (F := Ideal) X P W0 B0 W1 B1 Mk (ix2 (0 : Fin 1) (0 : Fin 1))
      = (Finset.univ : Finset (Fin 129)).fold max negInf (fun s => pv A b s + lmask A b s) := by
    unfold k0_pay27
    exact colmax_of_apply _ _ hM _ _ _ _ 0 0
  intro s
  unfold k0_pay28
  refine pieceOf_apply A b _ _ _ _ _ _ hL hE ?_ ?_ s
  · exact fun s => lsm_of_max_apply _ _ _ hM hT _ _ _ _ _ _ s
  · exact fun s => expOf_apply _ _ (fun s => lsm_of_max_apply _ _ _ hM hT _ _ _ _ _ _ s) s

end

section
include hV hMk

/-- The tail cut after the logits, the shifted logits and the logarithm of their exponentials' sum. -/
theorem pieceS4 : IsPiece A b (k0_pay32 (F := Ideal) V (shiftCol V) (logSumCol (shiftCol V)) Mk) := by
  have hZ : ∀ s, shiftCol V (ix2 s (0 : Fin 1)) = pv A b s - (Finset.univ : Finset (Fin 129)).fold max negInf (pv A b) :=
    fun s => by
      unfold shiftCol
      rw [shifted_apply, hV s, colmax_of_apply V (pv A b) hV]
  have hL : logSumCol (shiftCol V) (ix2 (0 : Fin 1) (0 : Fin 1)) = Ideal.log (∑ k : Fin 129,
      Ideal.exp (pv A b k - (Finset.univ : Finset (Fin 129)).fold max negInf (pv A b))) := by
    unfold logSumCol
    rw [logsum_apply]
    exact congrArg Ideal.log (Finset.sum_congr rfl fun k _ => by rw [hZ k])
  intro s
  unfold k0_pay32
  refine pieceOf_apply A b _ _ _ _ _ _ ?_ ?_ ?_ ?_ s
  · exact fun s => lsm_of_parts_apply _ _ (pv A b) hZ hL _ s
  · exact fun s => expOf_apply _ _ (fun s => lsm_of_parts_apply _ _ (pv A b) hZ hL _ s) s
  · exact fun s => lsm_apply _ (fun s => pv A b s + lmask A b s)
      (fun s => masked_apply A b V Mk (pv A b) hV hMk _ s) _ _ _ _ _ _ _ _ _ _ s
  · exact fun s => expOf_apply _ _ (fun s => lsm_apply _ (fun s => pv A b s + lmask A b s)
      (fun s => masked_apply A b V Mk (pv A b) hV hMk _ s) _ _ _ _ _ _ _ _ _ _ s) s

end

end Shapes

variable {A : Cert.Spec.Args} {x0 : Vec Ideal S16x256x512 .f32} {x1 : Vec Ideal S16x2x256x256 .f32}
  {x2 : Vec Ideal S16x129x1 .f32} {x3 : Vec Ideal S3552x512 .f32}
  (H : Holds A x0 x1 x2 x3)
  (h209 : ∀ (b : Fin 16) (s j : Fin 128), v209 x0 x1 x3 (ix2 (srow16 b s) j) = sw A b s j)
  (h226 : ∀ (b : Fin 16) (s : Fin 128), v226 x0 x1 x3 (ix2 (srow16 b s) (0 : Fin 1)) = sp A b s)
include H h209 h226

/-- Rows `128 b …` of the table of selected nodes' outputs are batch element `b`'s. -/
theorem swRows (b : Fin 16) (o : ℕ) (hs : S2048x128.Slices ![o, 0] S128x128) (ho : o = b.val * 128) (s j : Fin 128) :
    extractStridedSlice S128x128 ![o, 0] (v209 x0 x1 x3) hs (ix2 s j) = sw A b s j :=
  (sw_slice_apply _ o hs b ho s j).trans (h209 b s j)

/-- The same rows of the priority column. -/
theorem spRows (b : Fin 16) (o : ℕ) (hs : S2048x1.Slices ![o, 0] S128x1) (ho : o = b.val * 128) (s : Fin 128) :
    extractStridedSlice S128x1 ![o, 0] (v226 x0 x1 x3) hs (ix2 s (0 : Fin 1)) = sp A b s :=
  (sp_slice_apply _ o hs b ho s 0).trans (h226 b s)

theorem tail_piece0 : IsPiece A 0 (piece0 x0 x1 x2 x3) :=
  pieceS3 A 0 (v228 x0 x1 x3) (v239 x0 x1 x3) (aggp_w1 x3) (aggp_b1 x3) (mask0 x2)
    (fun s => by unfold v228 k0_pay18; exact spRows H h209 h226 0 0 _ rfl s)
    (fun j => by unfold v239 k0_pay19; exact hiddenOf_apply A 0 _ _ _ _ _ _ _ _ _ (swRows H h209 h226 0 0 _ rfl) (aggp_w0_eq H) (aggp_b0_eq H) j)
    (aggp_w1_eq H) (aggp_b1_eq H) (maskb0_eq H)

theorem tail_piece1 : IsPiece A 1 (piece1 x0 x1 x2 x3) :=
  pieceS8 A 1 (v281 x0 x1 x3) (v282 x0 x1 x3) (aggp_w0 x3) (aggp_b0 x3) (aggp_w1 x3) (aggp_b1 x3) (mask1 x2)
    (fun s j => by unfold v281 k0_pay21; exact swRows H h209 h226 1 128 _ rfl s j)
    (fun s => by unfold v282 k0_pay22; exact spRows H h209 h226 1 128 _ rfl s)
    (aggp_w0_eq H) (aggp_b0_eq H) (aggp_w1_eq H) (aggp_b1_eq H) (maskb1_eq H)

theorem tail_piece2 : IsPiece A 2 (piece2 x0 x1 x2 x3) :=
  pieceS4 A 2 (mask2 x2) (v354 x0 x1 x3) (maskb2_eq H) fun s => by
    unfold v354 k0_pay29
    exact logitsOf_apply A 2 _ _ _ _ _ _ _ (spRows H h209 h226 2 256 _ rfl)
      (fun j => hiddenOf_apply A 2 _ _ _ _ _ _ _ _ _ (swRows H h209 h226 2 256 _ rfl) (aggp_w0_eq H) (aggp_b0_eq H) j)
      (aggp_w1_eq H) (aggp_b1_eq H) s

theorem tail_piece3 : IsPiece A 3 (piece3 x0 x1 x2 x3) :=
  pieceS3 A 3 (v390 x0 x1 x3) (v401 x0 x1 x3) (aggp_w1 x3) (aggp_b1 x3) (mask3 x2)
    (fun s => by unfold v390 k0_pay33; exact spRows H h209 h226 3 384 _ rfl s)
    (fun j => by unfold v401 k0_pay34; exact hiddenOf_apply A 3 _ _ _ _ _ _ _ _ _ (swRows H h209 h226 3 384 _ rfl) (aggp_w0_eq H) (aggp_b0_eq H) j)
    (aggp_w1_eq H) (aggp_b1_eq H) (maskb3_eq H)

theorem tail_piece4 : IsPiece A 4 (piece4 x0 x1 x2 x3) :=
  pieceS8 A 4 (v443 x0 x1 x3) (v444 x0 x1 x3) (aggp_w0 x3) (aggp_b0 x3) (aggp_w1 x3) (aggp_b1 x3) (mask4 x2)
    (fun s j => by unfold v443 k0_pay36; exact swRows H h209 h226 4 512 _ rfl s j)
    (fun s => by unfold v444 k0_pay37; exact spRows H h209 h226 4 512 _ rfl s)
    (aggp_w0_eq H) (aggp_b0_eq H) (aggp_w1_eq H) (aggp_b1_eq H) (maskb4_eq H)

theorem tail_piece5 : IsPiece A 5 (piece5 x0 x1 x2 x3) :=
  pieceS4 A 5 (mask5 x2) (v516 x0 x1 x3) (maskb5_eq H) fun s => by
    unfold v516 k0_pay44
    exact logitsOf_apply A 5 _ _ _ _ _ _ _ (spRows H h209 h226 5 640 _ rfl)
      (fun j => hiddenOf_apply A 5 _ _ _ _ _ _ _ _ _ (swRows H h209 h226 5 640 _ rfl) (aggp_w0_eq H) (aggp_b0_eq H) j)
      (aggp_w1_eq H) (aggp_b1_eq H) s

theorem tail_piece6 : IsPiece A 6 (piece6 x0 x1 x2 x3) :=
  pieceS3 A 6 (v552 x0 x1 x3) (v563 x0 x1 x3) (aggp_w1 x3) (aggp_b1 x3) (mask6 x2)
    (fun s => by unfold v552 k0_pay48; exact spRows H h209 h226 6 768 _ rfl s)
    (fun j => by unfold v563 k0_pay49; exact hiddenOf_apply A 6 _ _ _ _ _ _ _ _ _ (swRows H h209 h226 6 768 _ rfl) (aggp_w0_eq H) (aggp_b0_eq H) j)
    (aggp_w1_eq H) (aggp_b1_eq H) (maskb6_eq H)

theorem tail_piece7 : IsPiece A 7 (piece7 x0 x1 x2 x3) :=
  pieceS8 A 7 (v605 x0 x1 x3) (v606 x0 x1 x3) (aggp_w0 x3) (aggp_b0 x3) (aggp_w1 x3) (aggp_b1 x3) (mask7 x2)
    (fun s j => by unfold v605 k0_pay51; exact swRows H h209 h226 7 896 _ rfl s j)
    (fun s => by unfold v606 k0_pay52; exact spRows H h209 h226 7 896 _ rfl s)
    (aggp_w0_eq H) (aggp_b0_eq H) (aggp_w1_eq H) (aggp_b1_eq H) (maskb7_eq H)

theorem tail_piece8 : IsPiece A 8 (piece8 x0 x1 x2 x3) :=
  pieceS4 A 8 (mask8 x2) (v678 x0 x1 x3) (maskb8_eq H) fun s => by
    unfold v678 k0_pay59
    exact logitsOf_apply A 8 _ _ _ _ _ _ _ (spRows H h209 h226 8 1024 _ rfl)
      (fun j => hiddenOf_apply A 8 _ _ _ _ _ _ _ _ _ (swRows H h209 h226 8 1024 _ rfl) (aggp_w0_eq H) (aggp_b0_eq H) j)
      (aggp_w1_eq H) (aggp_b1_eq H) s

theorem tail_piece9 : IsPiece A 9 (piece9 x0 x1 x2 x3) :=
  pieceS3 A 9 (v714 x0 x1 x3) (v725 x0 x1 x3) (aggp_w1 x3) (aggp_b1 x3) (mask9 x2)
    (fun s => by unfold v714 k0_pay63; exact spRows H h209 h226 9 1152 _ rfl s)
    (fun j => by unfold v725 k0_pay64; exact hiddenOf_apply A 9 _ _ _ _ _ _ _ _ _ (swRows H h209 h226 9 1152 _ rfl) (aggp_w0_eq H) (aggp_b0_eq H) j)
    (aggp_w1_eq H) (aggp_b1_eq H) (maskb9_eq H)

theorem tail_piece10 : IsPiece A 10 (piece10 x0 x1 x2 x3) :=
  pieceS8 A 10 (v767 x0 x1 x3) (v768 x0 x1 x3) (aggp_w0 x3) (aggp_b0 x3) (aggp_w1 x3) (aggp_b1 x3) (mask10 x2)
    (fun s j => by unfold v767 k0_pay66; exact swRows H h209 h226 10 1280 _ rfl s j)
    (fun s => by unfold v768 k0_pay67; exact spRows H h209 h226 10 1280 _ rfl s)
    (aggp_w0_eq H) (aggp_b0_eq H) (aggp_w1_eq H) (aggp_b1_eq H) (maskb10_eq H)

theorem tail_piece11 : IsPiece A 11 (piece11 x0 x1 x2 x3) :=
  pieceS4 A 11 (mask11 x2) (v840 x0 x1 x3) (maskb11_eq H) fun s => by
    unfold v840 k0_pay74
    exact logitsOf_apply A 11 _ _ _ _ _ _ _ (spRows H h209 h226 11 1408 _ rfl)
      (fun j => hiddenOf_apply A 11 _ _ _ _ _ _ _ _ _ (swRows H h209 h226 11 1408 _ rfl) (aggp_w0_eq H) (aggp_b0_eq H) j)
      (aggp_w1_eq H) (aggp_b1_eq H) s

theorem tail_piece12 : IsPiece A 12 (piece12 x0 x1 x2 x3) :=
  pieceS3 A 12 (v876 x0 x1 x3) (v887 x0 x1 x3) (aggp_w1 x3) (aggp_b1 x3) (mask12 x2)
    (fun s => by unfold v876 k0_pay78; exact spRows H h209 h226 12 1536 _ rfl s)
    (fun j => by unfold v887 k0_pay79; exact hiddenOf_apply A 12 _ _ _ _ _ _ _ _ _ (swRows H h209 h226 12 1536 _ rfl) (aggp_w0_eq H) (aggp_b0_eq H) j)
    (aggp_w1_eq H) (aggp_b1_eq H) (maskb12_eq H)

theorem tail_piece13 : IsPiece A 13 (piece13 x0 x1 x2 x3) :=
  pieceS8 A 13 (v929 x0 x1 x3) (v930 x0 x1 x3) (aggp_w0 x3) (aggp_b0 x3) (aggp_w1 x3) (aggp_b1 x3) (mask13 x2)
    (fun s j => by unfold v929 k0_pay81; exact swRows H h209 h226 13 1664 _ rfl s j)
    (fun s => by unfold v930 k0_pay82; exact spRows H h209 h226 13 1664 _ rfl s)
    (aggp_w0_eq H) (aggp_b0_eq H) (aggp_w1_eq H) (aggp_b1_eq H) (maskb13_eq H)

theorem tail_piece14 : IsPiece A 14 (piece14 x0 x1 x2 x3) :=
  pieceS4 A 14 (mask14 x2) (v1002 x0 x1 x3) (maskb14_eq H) fun s => by
    unfold v1002 k0_pay89
    exact logitsOf_apply A 14 _ _ _ _ _ _ _ (spRows H h209 h226 14 1792 _ rfl)
      (fun j => hiddenOf_apply A 14 _ _ _ _ _ _ _ _ _ (swRows H h209 h226 14 1792 _ rfl) (aggp_w0_eq H) (aggp_b0_eq H) j)
      (aggp_w1_eq H) (aggp_b1_eq H) s

/-- The last element's tail is cut after the logits, their log-softmax, its exponential and the mask's comparison. -/
theorem tail_piece15 : IsPiece A 15 (piece15 x0 x1 x2 x3) := by
  have hV : ∀ s, v1056 x0 x1 x3 (ix2 s (0 : Fin 1)) = pv A 15 s := fun s => by
    unfold v1056 k0_pay95
    exact logitsOf_apply A 15 _ _ _ _ _ _ _
      (fun s => by unfold v1038 k0_pay93; exact spRows H h209 h226 15 1920 _ rfl s)
      (fun j => by unfold v1049 k0_pay94; exact hiddenOf_apply A 15 _ _ _ _ _ _ _ _ _ (swRows H h209 h226 15 1920 _ rfl) (aggp_w0_eq H) (aggp_b0_eq H) j)
      (aggp_w1_eq H) (aggp_b1_eq H) s
  have hL : ∀ s, v1066 x0 x1 x3 (ix2 s (0 : Fin 1)) = logPi A 15 s := fun s => by
    unfold v1066 k0_pay96
    exact lsm_apply _ (pv A 15) hV _ _ _ _ _ _ _ _ _ _ s
  intro s
  unfold piece15 k0_pay1
  refine pieceOf_apply A 15 _ _ _ _ _ _ hL (fun s => by unfold v1067 k0_pay97; exact expOf_apply _ _ hL s) ?_ ?_ s
  · exact fun s => lsm_apply _ (fun s => pv A 15 s + lmask A 15 s)
      (fun s => masked_apply A 15 _ (mask15 x2) (pv A 15) hV (maskb15_eq H) _ s) _ _ _ _ _ _ _ _ _ _ s
  · exact fun s => expOf_apply _ _ (fun s => lsm_apply _ (fun s => pv A 15 s + lmask A 15 s)
      (fun s => masked_apply A 15 _ (mask15 x2) (pv A 15) hV (maskb15_eq H) _ s) _ _ _ _ _ _ _ _ _ _ s) s

theorem piece_spec : ∀ b : Fin 16, IsPiece A b (piece b x0 x1 x2 x3) := fun b =>
  match b with
  | ⟨0, _⟩ => tail_piece0 H h209 h226
  | ⟨1, _⟩ => tail_piece1 H h209 h226
  | ⟨2, _⟩ => tail_piece2 H h209 h226
  | ⟨3, _⟩ => tail_piece3 H h209 h226
  | ⟨4, _⟩ => tail_piece4 H h209 h226
  | ⟨5, _⟩ => tail_piece5 H h209 h226
  | ⟨6, _⟩ => tail_piece6 H h209 h226
  | ⟨7, _⟩ => tail_piece7 H h209 h226
  | ⟨8, _⟩ => tail_piece8 H h209 h226
  | ⟨9, _⟩ => tail_piece9 H h209 h226
  | ⟨10, _⟩ => tail_piece10 H h209 h226
  | ⟨11, _⟩ => tail_piece11 H h209 h226
  | ⟨12, _⟩ => tail_piece12 H h209 h226
  | ⟨13, _⟩ => tail_piece13 H h209 h226
  | ⟨14, _⟩ => tail_piece14 H h209 h226
  | ⟨15, _⟩ => tail_piece15 H h209 h226
  | ⟨_ + 16, h⟩ => absurd h (Nat.not_lt.2 (Nat.le_add_left _ _))

end Cert.ReferenceIdeal.Hand

end
-- ==== Proof.RefFramePieces.lean ====
/- The reference's output block as one function of its sixteen stored pieces. -/
import proofs.«144052_g2000204636238536_pallasbulk_491_38_alg».proof.Proof.RefOut
import Idealize.ShloMosaic.Lib.Pipeline.Value
import Idealize.ShloMosaic.Lib.ValueIdx

noncomputable section

namespace Cert.ReferenceIdeal.Hand

open Idealize.ShloMosaic Idealize.ShloMosaic.ValueIdx
open Cert.ReferenceIdeal Cert.ReferenceIdeal.Gen

variable {F : FTy → Type} [FloatOps F]

private theorem outBlk_cover (p0 p1 p2 p3 p4 p5 p6 p7 p8 p9 p10 p11 p12 p13 p14 p15 : FVec F S1x129x4 .f32) (y : S16x129x4.Idx) :
    ∃ pc ∈ ([⟨r_out15, p15⟩, ⟨r_out14, p14⟩, ⟨r_out13, p13⟩, ⟨r_out12, p12⟩, ⟨r_out11, p11⟩, ⟨r_out10, p10⟩, ⟨r_out9, p9⟩, ⟨r_out8, p8⟩, ⟨r_out7, p7⟩, ⟨r_out6, p6⟩, ⟨r_out5, p5⟩, ⟨r_out4, p4⟩, ⟨r_out3, p3⟩, ⟨r_out2, p2⟩, ⟨r_out1, p1⟩, ⟨r_out0, p0⟩] : List (View.Piece (Elt F) S16x129x4 .f32)), y ∈ pc.1.set :=
  View.cover_of_tiled ([⟨r_out15, p15⟩, ⟨r_out14, p14⟩, ⟨r_out13, p13⟩, ⟨r_out12, p12⟩, ⟨r_out11, p11⟩, ⟨r_out10, p10⟩, ⟨r_out9, p9⟩, ⟨r_out8, p8⟩, ⟨r_out7, p7⟩, ⟨r_out6, p6⟩, ⟨r_out5, p5⟩, ⟨r_out4, p4⟩, ⟨r_out3, p3⟩, ⟨r_out2, p2⟩, ⟨r_out1, p1⟩, ⟨r_out0, p0⟩] : List (View.Piece (Elt F) S16x129x4 .f32)) S1x129x4.size (by rfl) y

theorem emb_out (j : ℕ) (hj : j < 16) (inb : ∀ a, (![j, 0, 0] : Fin 3 → ℕ) a + S1x129x4.size a ≤ S16x129x4.size a)
    (s : Fin 129) (k : Fin 4) :
    (Rect.unit (s := S16x129x4) ![j, 0, 0] S1x129x4.size inb).emb (ix3 (0 : Fin 1) s k) = ix3 (⟨j, hj⟩ : Fin 16) s k := by
  funext a
  apply Fin.ext
  rw [Rect.emb_apply]
  match a with
  | ⟨0, _⟩ => show j + 1 * 0 = j; omega
  | ⟨1, _⟩ => show 0 + 1 * s.val = s.val; omega
  | ⟨2, _⟩ => show 0 + 1 * k.val = k.val; omega

theorem outBlk_apply (x0 : Vec F S16x256x512 .f32) (x1 : Vec F S16x2x256x256 .f32) (x2 : Vec F S16x129x1 .f32)
    (x3 : Vec F S3552x512 .f32) (b : Fin 16) (s : Fin 129) (k : Fin 4) :
    outBlk x0 x1 x2 x3 (ix3 b s k) = piece b x0 x1 x2 x3 (ix3 (0 : Fin 1) s k) := by
  have step : ∀ (j : ℕ) (hj : j < 16) (inb : ∀ a, (![j, 0, 0] : Fin 3 → ℕ) a + S1x129x4.size a ≤ S16x129x4.size a)
      (x : S1x129x4.Idx), piece (⟨j, hj⟩ : Fin 16) x0 x1 x2 x3 x
        = (fun i : S16x129x4.Idx => piece (i 0) x0 x1 x2 x3 (ix3 (0 : Fin 1) (i 1) (i 2)))
          ((Rect.unit (s := S16x129x4) ![j, 0, 0] S1x129x4.size inb).emb x) := by
    intro j hj inb x
    obtain ⟨a, s', k', rfl⟩ : ∃ (a : Fin 1) (s' : Fin 129) (k' : Fin 4), x = ix3 a s' k' := ⟨x 0, x 1, x 2, eq_ix3 x⟩
    obtain rfl : a = 0 := Subsingleton.elim _ _
    rw [emb_out j hj inb s' k']
  unfold outBlk
  refine View.canon_apply_of_pieces
    (fun i : S16x129x4.Idx => piece (i 0) x0 x1 x2 x3 (ix3 (0 : Fin 1) (i 1) (i 2))) _ ?_ (ix3 b s k)
    (outBlk_cover _ _ _ _ _ _ _ _ _ _ _ _ _ _ _ _ (ix3 b s k))
  intro pc hpc
  rcases List.mem_cons.mp hpc with rfl | hpc
  · exact fun x => step 15 (by decide) inb_S16x129x4_S1x129x4_15_0_0 x
  rcases List.mem_cons.mp hpc with rfl | hpc
  · exact fun x => step 14 (by decide) inb_S16x129x4_S1x129x4_14_0_0 x
  rcases List.mem_cons.mp hpc with rfl | hpc
  · exact fun x => step 13 (by decide) inb_S16x129x4_S1x129x4_13_0_0 x
  rcases List.mem_cons.mp hpc with rfl | hpc
  · exact fun x => step 12 (by decide) inb_S16x129x4_S1x129x4_12_0_0 x
  rcases List.mem_cons.mp hpc with rfl | hpc
  · exact fun x => step 11 (by decide) inb_S16x129x4_S1x129x4_11_0_0 x
  rcases List.mem_cons.mp hpc with rfl | hpc
  · exact fun x => step 10 (by decide) inb_S16x129x4_S1x129x4_10_0_0 x
  rcases List.mem_cons.mp hpc with rfl | hpc
  · exact fun x => step 9 (by decide) inb_S16x129x4_S1x129x4_9_0_0 x
  rcases List.mem_cons.mp hpc with rfl | hpc
  · exact fun x => step 8 (by decide) inb_S16x129x4_S1x129x4_8_0_0 x
  rcases List.mem_cons.mp hpc with rfl | hpc
  · exact fun x => step 7 (by decide) inb_S16x129x4_S1x129x4_7_0_0 x
  rcases List.mem_cons.mp hpc with rfl | hpc
  · exact fun x => step 6 (by decide) inb_S16x129x4_S1x129x4_6_0_0 x
  rcases List.mem_cons.mp hpc with rfl | hpc
  · exact fun x => step 5 (by decide) inb_S16x129x4_S1x129x4_5_0_0 x
  rcases List.mem_cons.mp hpc with rfl | hpc
  · exact fun x => step 4 (by decide) inb_S16x129x4_S1x129x4_4_0_0 x
  rcases List.mem_cons.mp hpc with rfl | hpc
  · exact fun x => step 3 (by decide) inb_S16x129x4_S1x129x4_3_0_0 x
  rcases List.mem_cons.mp hpc with rfl | hpc
  · exact fun x => step 2 (by decide) inb_S16x129x4_S1x129x4_2_0_0 x
  rcases List.mem_cons.mp hpc with rfl | hpc
  · exact fun x => step 1 (by decide) inb_S16x129x4_S1x129x4_1_0_0 x
  rcases List.mem_cons.mp hpc with rfl | hpc
  · exact fun x => step 0 (by decide) inb_S16x129x4_S1x129x4_0_0_0 x
  nomatch hpc

end Cert.ReferenceIdeal.Hand

end
-- ==== Proof.RefInputs.lean ====
/- The node tables side by side, the adjacency tables stacked and the mask column, where the reference's region is entered. -/
import proofs.«144052_g2000204636238536_pallasbulk_491_38_alg».proof.Proof.RefEntry
import Idealize.ShloMosaic.Lib.StableHlo.Run
import Idealize.ShloMosaic.Lib.Pipeline.Value
import Idealize.ShloMosaic.Lib.ValueIdx

set_option maxRecDepth 16384

noncomputable section

namespace Cert.ReferenceIdeal.Hand

open Idealize.ShloMosaic Idealize.ShloMosaic.TcCoe Idealize.ShloMosaic.ValueIdx
open Cert.ReferenceIdeal Cert.ReferenceIdeal.Gen

namespace Inputs

theorem after_two {τ : Topo} {sig : RefSig} {Val : EltTy → Type} (l₁ l₂ : List (HloOp τ sig Val))
    (V : Valuation τ sig Val) : StableHlo.after (l₁ ++ l₂) V = StableHlo.after l₂ (StableHlo.after l₁ V) := by
  induction l₁ generalizing V with
  | nil => rfl
  | cons op l ih => simp only [List.cons_append, StableHlo.after_cons, ih]

variable {F : FTy → Type} [FloatOps F]

abbrev lastOps : List (HloOp τ sig (Elt F)) :=
  [ StableHlo.binary main_arg0 main_arg1 main_v141 ((fun a b => concatenate S16x256x512 2 [⟨S16x256x256, a⟩, ⟨S16x256x256, b⟩] concatenates_S16x256x256_S16x256x256_S16x256x512_d2) : (⟨S16x256x256, .f32⟩ : BufTy).Contents (Elt F) → (⟨S16x256x256, .f32⟩ : BufTy).Contents (Elt F) → (⟨S16x256x512, .f32⟩ : BufTy).Contents (Elt F)),
    StableHlo.unary main_arg2 main_v142 (broadcastInDim S16x1x256x256 ![0, 2, 3] bcast_S16x256x256_S16x1x256x256_0_2_3 : (⟨S16x256x256, .f32⟩ : BufTy).Contents (Elt F) → (⟨S16x1x256x256, .f32⟩ : BufTy).Contents (Elt F)),
    StableHlo.unary main_arg3 main_v143 (broadcastInDim S16x1x256x256 ![0, 2, 3] bcast_S16x256x256_S16x1x256x256_0_2_3 : (⟨S16x256x256, .f32⟩ : BufTy).Contents (Elt F) → (⟨S16x1x256x256, .f32⟩ : BufTy).Contents (Elt F)),
    StableHlo.binary main_v142 main_v143 main_v144 ((fun a b => concatenate S16x2x256x256 1 [⟨S16x1x256x256, a⟩, ⟨S16x1x256x256, b⟩] concatenates_S16x1x256x256_S16x1x256x256_S16x2x256x256_d1) : (⟨S16x1x256x256, .f32⟩ : BufTy).Contents (Elt F) → (⟨S16x1x256x256, .f32⟩ : BufTy).Contents (Elt F) → (⟨S16x2x256x256, .f32⟩ : BufTy).Contents (Elt F)),
    StableHlo.reshape main_arg4 main_v145 rfl shapeCasts_S16x129_S16x129x1 ]

theorem hostOps0_cut : (hostOps0 : List (HloOp τ sig (Elt F))) = hostOps0.take 217 ++ lastOps :=
  (List.take_append_drop 217 hostOps0).symm.trans (congrArg (hostOps0.take 217 ++ ·) rfl)

theorem writes_past_args : (hostOps0 : List (HloOp τ sig (Elt F))).Forall fun op =>
    ∀ d ∈ op.writes, ∃ y : Ref sig .tc, d = Proc.devRef .tc y ∧ 37 ≤ y.idx.val := by
  simp only [List.Forall]
  repeat' apply And.intro
  all_goals exact fun d hd => ⟨_, Finset.mem_singleton.mp hd, by decide⟩

theorem arg_after_take (V : Valuation τ sig (Elt F)) (k : ℕ) (r : Ref sig .tc) (hr : r.idx.val < 37) :
    StableHlo.after ((hostOps0 : List (HloOp τ sig (Elt F))).take k) V (Proc.devRef .tc r) = V (Proc.devRef .tc r) :=
  StableHlo.after_of_forall_not_mem _ _ fun op hop hb => by
    obtain ⟨y, hy, hge⟩ := (List.forall_iff_forall_mem.mp writes_past_args) op (List.mem_of_mem_take hop) _ hb
    obtain rfl : r = y := Proc.devRef_injective _ hy
    omega

variable (m : (ℓ : Loc nD τ sig) → Buf (Elt Ideal) ℓ)

abbrev Vmid (c : Dev nD) : Valuation τ sig (Elt Ideal) :=
  StableHlo.after ((hostOps0 : List (HloOp τ sig (Elt Ideal))).take 217) (fun b => m (c, b))

theorem Vpre_cut (c : Dev nD) (r : Ref sig .tc) :
    Vpre m c r = StableHlo.after lastOps (Vmid m c) (Proc.devRef .tc r) :=
  (congrFun (congrArg (fun l => StableHlo.after l (fun b => m (c, b))) hostOps0_cut) (Proc.devRef .tc r)).trans
    (congrFun (after_two _ _ _) _)

theorem Vmid_arg (c : Dev nD) (r : Ref sig .tc) (hr : r.idx.val < 37) :
    Vmid m c (Proc.devRef .tc r) = m ((c : Thread nD τ).loc r) :=
  arg_after_take _ 217 r hr

theorem last_nodes (W : Valuation τ sig (Elt Ideal)) :
    (StableHlo.after lastOps W (Proc.devRef .tc main_v141) : S16x256x512.Idx → EReal)
      = concatenate S16x256x512 2 [⟨S16x256x256, (W (Proc.devRef .tc main_arg0) : S16x256x256.Idx → EReal)⟩,
          ⟨S16x256x256, (W (Proc.devRef .tc main_arg1) : S16x256x256.Idx → EReal)⟩]
          concatenates_S16x256x256_S16x256x256_S16x256x512_d2 := by
  dsimp only [lastOps]; after_results

theorem last_adjs (W : Valuation τ sig (Elt Ideal)) :
    (StableHlo.after lastOps W (Proc.devRef .tc main_v144) : S16x2x256x256.Idx → EReal)
      = concatenate S16x2x256x256 1
          [⟨S16x1x256x256, broadcastInDim S16x1x256x256 ![0, 2, 3] bcast_S16x256x256_S16x1x256x256_0_2_3
              (W (Proc.devRef .tc main_arg2) : S16x256x256.Idx → EReal)⟩,
           ⟨S16x1x256x256, broadcastInDim S16x1x256x256 ![0, 2, 3] bcast_S16x256x256_S16x1x256x256_0_2_3
              (W (Proc.devRef .tc main_arg3) : S16x256x256.Idx → EReal)⟩]
          concatenates_S16x1x256x256_S16x1x256x256_S16x2x256x256_d1 := by
  dsimp only [lastOps]; after_results

theorem last_mask (W : Valuation τ sig (Elt Ideal)) :
    (StableHlo.after lastOps W (Proc.devRef .tc main_v145) : S16x129x1.Idx → EReal)
      = shapeCast S16x129x1 (W (Proc.devRef .tc main_arg4) : S16x129.Idx → EReal) shapeCasts_S16x129_S16x129x1 := by
  dsimp only [lastOps]; after_results; rfl

end Inputs

theorem nodecat_eq (m : (ℓ : Loc nD τ sig) → Buf (Elt Ideal) ℓ) (c : Dev nD) (b : Fin 16) (n : Fin 256) (j : Fin 512) :
    (Vpre m c main_v141 : S16x256x512.Idx → EReal) (ix3 b n j)
      = Cert.Spec.side (N := 512) (by norm_num) ((refArgs m c).node0 b) ((refArgs m c).node1 b) n j := by
  have e : (Vpre m c main_v141 : S16x256x512.Idx → EReal)
      = concatenate S16x256x512 2
          [⟨S16x256x256, (m ((c.tc : Thread nD τ).loc main_arg0) : S16x256x256.Idx → EReal)⟩,
           ⟨S16x256x256, (m ((c.tc : Thread nD τ).loc main_arg1) : S16x256x256.Idx → EReal)⟩]
          concatenates_S16x256x256_S16x256x256_S16x256x512_d2 := by
    rw [Inputs.Vpre_cut, Inputs.last_nodes, Inputs.Vmid_arg m c main_arg0 (by decide),
      Inputs.Vmid_arg m c main_arg1 (by decide)]
  rw [e]
  by_cases h : j.val < 256
  ·
    have hs : Cert.Spec.side (N := 512) (by norm_num) ((refArgs m c).node0 b) ((refArgs m c).node1 b) n j
        = m ((c.tc : Thread nD τ).loc main_arg0) (ix3 b n (⟨j.val, h⟩ : Fin 256)) := by
      simp only [Cert.Spec.side, dif_pos h]; rfl
    rw [hs]
    exact concatenate_pair_apply_left (t := S16x256x512) (s₁ := S16x256x256) (s₂ := S16x256x256) (2 : Fin 3) _ _ _
      (ix3 b n j) rfl (ix3 b n (⟨j.val, h⟩ : Fin 256))
      (fun a => by match a with | ⟨0, _⟩ => rfl | ⟨1, _⟩ => rfl | ⟨2, _⟩ => rfl)
  ·
    have hj : j.val - 256 < 256 := by omega
    have hs : Cert.Spec.side (N := 512) (by norm_num) ((refArgs m c).node0 b) ((refArgs m c).node1 b) n j
        = m ((c.tc : Thread nD τ).loc main_arg1) (ix3 b n (⟨j.val - 256, hj⟩ : Fin 256)) := by
      simp only [Cert.Spec.side, dif_neg h]; rfl
    rw [hs]
    exact concatenate_pair_apply_right (t := S16x256x512) (s₁ := S16x256x256) (s₂ := S16x256x256) (2 : Fin 3) _ _ _
      (ix3 b n j) rfl rfl (ix3 b n (⟨j.val - 256, hj⟩ : Fin 256))
      (fun a ha => by match a with | ⟨0, _⟩ => rfl | ⟨1, _⟩ => rfl | ⟨2, _⟩ => exact absurd rfl ha)
      (by show j.val - 256 + 256 = j.val; omega)

theorem adjstack_eq (m : (ℓ : Loc nD τ sig) → Buf (Elt Ideal) ℓ) (c : Dev nD) (b : Fin 16) (g : Fin 2) (i j : Fin 256) :
    (Vpre m c main_v144 : S16x2x256x256.Idx → EReal) (ix4 b g i j)
      = if g.val = 0 then (refArgs m c).adj0 b i j else (refArgs m c).adj1 b i j := by
  have e : (Vpre m c main_v144 : S16x2x256x256.Idx → EReal)
      = concatenate S16x2x256x256 1
          [⟨S16x1x256x256, broadcastInDim S16x1x256x256 ![0, 2, 3] bcast_S16x256x256_S16x1x256x256_0_2_3
              (m ((c.tc : Thread nD τ).loc main_arg2) : S16x256x256.Idx → EReal)⟩,
           ⟨S16x1x256x256, broadcastInDim S16x1x256x256 ![0, 2, 3] bcast_S16x256x256_S16x1x256x256_0_2_3
              (m ((c.tc : Thread nD τ).loc main_arg3) : S16x256x256.Idx → EReal)⟩]
          concatenates_S16x1x256x256_S16x1x256x256_S16x2x256x256_d1 := by
    rw [Inputs.Vpre_cut, Inputs.last_adjs, Inputs.Vmid_arg m c main_arg2 (by decide),
      Inputs.Vmid_arg m c main_arg3 (by decide)]
  rw [e]

  have hb : ∀ x : S16x256x256.Idx → EReal,
      broadcastInDim S16x1x256x256 ![0, 2, 3] bcast_S16x256x256_S16x1x256x256_0_2_3 x (ix4 b (0 : Fin 1) i j)
        = x (ix3 b i j) := fun x =>
    broadcastInDim_apply _ _ x (ix4 b (0 : Fin 1) i j) (ix3 b i j) (fun a => by
      match a with
      | ⟨0, _⟩ => exact (if_neg (by decide : ¬ (16 : ℕ) = 1)).symm
      | ⟨1, _⟩ => exact (if_neg (by decide : ¬ (256 : ℕ) = 1)).symm
      | ⟨2, _⟩ => exact (if_neg (by decide : ¬ (256 : ℕ) = 1)).symm)
  by_cases hg : g.val = 0
  ·
    rw [if_pos hg]
    obtain rfl : g = 0 := Fin.ext hg
    refine (concatenate_pair_apply_left (t := S16x2x256x256) (s₁ := S16x1x256x256) (s₂ := S16x1x256x256) (1 : Fin 4) _ _ _
      (ix4 b (0 : Fin 2) i j) rfl (ix4 b (0 : Fin 1) i j)
      (fun a => by match a with | ⟨0, _⟩ => rfl | ⟨1, _⟩ => rfl | ⟨2, _⟩ => rfl | ⟨3, _⟩ => rfl)).trans ?_
    exact hb _
  ·
    rw [if_neg hg]
    obtain rfl : g = 1 := Fin.ext (by have := g.isLt; omega)
    refine (concatenate_pair_apply_right (t := S16x2x256x256) (s₁ := S16x1x256x256) (s₂ := S16x1x256x256) (1 : Fin 4) _ _ _
      (ix4 b (1 : Fin 2) i j) rfl rfl (ix4 b (0 : Fin 1) i j)
      (fun a ha => by
        match a with
        | ⟨0, _⟩ => rfl
        | ⟨1, _⟩ => exact absurd rfl ha
        | ⟨2, _⟩ => rfl
        | ⟨3, _⟩ => rfl)
      rfl).trans ?_
    exact hb _

theorem mask3_eq (m : (ℓ : Loc nD τ sig) → Buf (Elt Ideal) ℓ) (c : Dev nD) (b : Fin 16) (s : Fin 129) :
    (Vpre m c main_v145 : S16x129x1.Idx → EReal) (ix3 b s 0) = (refArgs m c).mask b s := by
  have e : (Vpre m c main_v145 : S16x129x1.Idx → EReal)
      = shapeCast S16x129x1 (m ((c.tc : Thread nD τ).loc main_arg4) : S16x129.Idx → EReal) shapeCasts_S16x129_S16x129x1 := by
    rw [Inputs.Vpre_cut, Inputs.last_mask, Inputs.Vmid_arg m c main_arg4 (by decide)]
  rw [e]

  refine shapeCast_apply _ _ (ix3 b s (0 : Fin 1)) (ix2 b s) ?_
  rw [Shape.rowMajor_val_two, Shape.rowMajor_val_three]
  show b.val * 129 + s.val = (b.val * 129 + s.val) * 1 + 0
  omega

end Cert.ReferenceIdeal.Hand

end
-- ==== Proof.LibScatterSet.lean ====
import Idealize.ShloMosaic.PureOps.ShapeOps
import Idealize.ShloMosaic.Lib.ValueIdx

namespace Idealize.ShloMosaic.ScatterSet

open Idealize.ShloMosaic Idealize.ShloMosaic.ValueIdx

variable {α : Type} {s si u : Shape} {w : ℕ}

/-- What the `n`-th update index does to a table: it replaces the entry where it lands, and nothing when it lands nowhere. -/
def setStep (d : ScatterDims s si u) (idx : IVec si w) (upd : u.Idx → α) (r : s.Idx → α) (n : Fin u.numel) : s.Idx → α :=
  match d.resultIdx? (u.rowMajor.symm n) idx with
  | some i => fun i' => if i' = i then upd (u.rowMajor.symm n) else r i'
  | none => r

theorem setStep_of_miss (d : ScatterDims s si u) (idx : IVec si w) (upd : u.Idx → α) (r : s.Idx → α) (n : Fin u.numel)
    (i : s.Idx) (h : d.resultIdx? (u.rowMajor.symm n) idx ≠ some i) : setStep d idx upd r n i = r i := by
  unfold setStep
  cases h0 : d.resultIdx? (u.rowMajor.symm n) idx with
  | none => rfl
  | some i0 => exact if_neg fun e => h (by rw [h0, e])

theorem foldl_setStep_of_miss (d : ScatterDims s si u) (idx : IVec si w) (upd : u.Idx → α) (i : s.Idx)
    (l : List (Fin u.numel)) (r : s.Idx → α) (h : ∀ n ∈ l, d.resultIdx? (u.rowMajor.symm n) idx ≠ some i) :
    l.foldl (setStep d idx upd) r i = r i := by
  induction l generalizing r with
  | nil => rfl
  | cons n l ih =>
    rw [List.foldl_cons, ih _ (fun m hm => h m (List.mem_cons_of_mem _ hm))]
    exact setStep_of_miss d idx upd r n i (h n List.mem_cons_self)

/-- The last step of the list that lands at `i` decides the element there; if only `n0` lands, it is `n0`'s update. -/
theorem foldl_setStep_of_hit (d : ScatterDims s si u) (idx : IVec si w) (upd : u.Idx → α) (i : s.Idx) (n0 : Fin u.numel)
    (l : List (Fin u.numel)) (r : s.Idx → α) (hmem : n0 ∈ l)
    (hit : d.resultIdx? (u.rowMajor.symm n0) idx = some i)
    (huniq : ∀ n ∈ l, d.resultIdx? (u.rowMajor.symm n) idx = some i → n = n0) :
    l.foldl (setStep d idx upd) r i = upd (u.rowMajor.symm n0) := by
  induction l generalizing r with
  | nil => cases hmem
  | cons n l ih =>
    rw [List.foldl_cons]
    by_cases hl : n0 ∈ l
    · exact ih _ hl (fun m hm => huniq m (List.mem_cons_of_mem _ hm))
    · obtain rfl : n0 = n := (List.mem_cons.1 hmem).resolve_right hl
      rw [foldl_setStep_of_miss d idx upd i l _ (fun m hm e => hl ((huniq m (List.mem_cons_of_mem _ hm) e) ▸ hm))]
      simp [setStep, hit]

/-- If the update indices landing at `i` are exactly `j hp` for `hp : P`, the scatter has `upd (j hp)` at `i` under `P`, else the operand's element. -/
theorem scatter_set_apply_dite (d : ScatterDims s si u) (x : s.Idx → α) (idx : IVec si w) (upd : u.Idx → α) (i : s.Idx)
    (P : Prop) [Decidable P] (j : P → u.Idx)
    (hland : ∀ j', d.resultIdx? j' idx = some i ↔ ∃ hp : P, j' = j hp) :
    Host.scatter d (fun _ b => b) x idx upd i = if hp : P then upd (j hp) else x i := by
  show (List.finRange u.numel).foldl (setStep d idx upd) x i = _
  by_cases hp : P
  · rw [dif_pos hp, foldl_setStep_of_hit d idx upd i (u.rowMajor (j hp)) _ x (List.mem_finRange _)
      (by rw [Equiv.symm_apply_apply]; exact (hland _).2 ⟨hp, rfl⟩)
      (fun n _ hn => by obtain ⟨_, e⟩ := (hland _).1 hn; rw [← e, Equiv.apply_symm_apply]), Equiv.symm_apply_apply]
  · rw [dif_neg hp]
    exact foldl_setStep_of_miss d idx upd i _ x (fun n _ hn => hp ((hland _).1 hn).1)

/-- Landing at `i` means: on each axis the start and the window coordinate add up to `i`'s coordinate. -/
theorem resultIdx?_eq_some_iff (d : ScatterDims s si u) (j : u.Idx) (idx : IVec si w) (i : s.Idx) :
    d.resultIdx? j idx = some i ↔ ∀ a, d.start j idx a + (d.window j a : ℤ) = ((i a).val : ℤ) := by
  unfold ScatterDims.resultIdx?
  split
  · rename_i h
    constructor
    · intro e a
      have hv : (d.start j idx a + (d.window j a : ℤ)).toNat = (i a).val := congrArg Fin.val (congrFun (Option.some.inj e) a)
      have := (h a).1
      omega
    · intro e
      congr 1
      funext a
      apply Fin.ext
      have := e a
      show (d.start j idx a + (d.window j a : ℤ)).toNat = (i a).val
      omega
  · rename_i h
    refine ⟨nofun, fun e => (h fun a => ?_).elim⟩
    have := e a
    have := (i a).isLt
    constructor <;> omega

section rank2

variable {R C h wd n : ℕ}

/-- With a rank-1 index operand, the start on the axis listed `k`-th is the operand's `k`-th entry as a signed integer. -/
theorem start_of_idxOf (d : ScatterDims s ⟨1, ![n]⟩ u) (hiv : d.indexVectorDim = 0) (j : u.Idx) (idx : IVec ⟨1, ![n]⟩ w)
    (a : Fin s.rank) (k : Fin n) (ha : a ∈ d.scatterDimsToOperandDims) (hk : d.scatterDimsToOperandDims.idxOf a = k.val) :
    d.start j idx a = (idx (ix1 k)).toInt := by
  unfold ScatterDims.start
  rw [dif_pos ha]
  refine congrArg (fun t => (idx t).toInt) (funext fun b => ?_)
  match b with
  | ⟨0, _⟩ =>
    apply Fin.ext
    unfold ScatterDims.siIdx
    rw [dif_pos (by rw [hiv])]
    exact hk

/-- The update's indices are `e a b` for the window coordinates `(a, b)` below `(h, wd)`, and `e a b` lands at `(r0 + a, c0 + b)`. -/
structure SetsAt (d : ScatterDims ⟨2, ![R, C]⟩ si u) (idx : IVec si w) (r0 c0 : ℕ) (e : Fin h → Fin wd → u.Idx) : Prop where
  start : ∀ j, d.start j idx (0 : Fin 2) = r0 ∧ d.start j idx (1 : Fin 2) = c0
  window : ∀ a b, d.window (e a b) (0 : Fin 2) = a.val ∧ d.window (e a b) (1 : Fin 2) = b.val
  surj : ∀ j, ∃ a b, j = e a b

variable {d : ScatterDims ⟨2, ![R, C]⟩ si u} {idx : IVec si w} {r0 c0 : ℕ} {e : Fin h → Fin wd → u.Idx}

/-- Inside the window the table reads the update at the offset, outside it what it held. -/
theorem SetsAt.apply (H : SetsAt d idx r0 c0 e) (x : (⟨2, ![R, C]⟩ : Shape).Idx → α) (upd : u.Idx → α) (i : Fin R) (k : Fin C) :
    Host.scatter d (fun _ b => b) x idx upd (ix2 i k)
      = if hw : r0 ≤ i.val ∧ i.val < r0 + h ∧ c0 ≤ k.val ∧ k.val < c0 + wd
        then upd (e ⟨i.val - r0, by omega⟩ ⟨k.val - c0, by omega⟩) else x (ix2 i k) := by
  refine scatter_set_apply_dite d x idx upd (ix2 i k) _ (fun hw => e ⟨i.val - r0, by omega⟩ ⟨k.val - c0, by omega⟩) fun j' => ?_
  rw [resultIdx?_eq_some_iff]
  constructor
  · obtain ⟨a, b, rfl⟩ := H.surj j'
    intro hl
    have e0 := hl (0 : Fin 2)
    have e1 := hl (1 : Fin 2)
    rw [(H.start _).1, (H.window a b).1] at e0
    rw [(H.start _).2, (H.window a b).2] at e1
    have := a.isLt
    have := b.isLt
    have e0' : r0 + a.val = i.val := by exact_mod_cast e0
    have e1' : c0 + b.val = k.val := by exact_mod_cast e1
    exact ⟨by omega, congrArg₂ e (Fin.ext (by show a.val = i.val - r0; omega)) (Fin.ext (by show b.val = k.val - c0; omega))⟩
  · rintro ⟨hw, rfl⟩ a
    match a with
    | ⟨0, _⟩ =>
      show d.start _ idx (0 : Fin 2) + (d.window _ (0 : Fin 2) : ℤ) = (i.val : ℤ)
      rw [(H.start _).1, (H.window _ _).1]
      show (r0 : ℤ) + ((i.val - r0 : ℕ) : ℤ) = (i.val : ℤ)
      omega
    | ⟨1, _⟩ =>
      show d.start _ idx (1 : Fin 2) + (d.window _ (1 : Fin 2) : ℤ) = (k.val : ℤ)
      rw [(H.start _).2, (H.window _ _).2]
      show (c0 : ℤ) + ((k.val - c0 : ℕ) : ℤ) = (k.val : ℤ)
      omega

private theorem mem2_0 : (0 : Fin 2) ∈ ([0, 1] : List (Fin 2)) := by decide
private theorem mem2_1 : (1 : Fin 2) ∈ ([0, 1] : List (Fin 2)) := by decide
private theorem idxOf2_0 : ([0, 1] : List (Fin 2)).idxOf 0 = ((0 : Fin 2) : ℕ) := by decide
private theorem idxOf2_1 : ([0, 1] : List (Fin 2)).idxOf 1 = ((1 : Fin 2) : ℕ) := by decide
private theorem mem1_0 : (0 : Fin 2) ∈ ([0] : List (Fin 2)) := by decide
private theorem idxOf1_0 : ([0] : List (Fin 2)).idxOf 0 = ((0 : Fin 1) : ℕ) := by decide
private theorem not_mem1_1 : (1 : Fin 2) ∉ ([0] : List (Fin 2)) := by decide

/-- The start read off a two-entry index, both axes scattered. -/
theorem start_two (d : ScatterDims ⟨2, ![R, C]⟩ ⟨1, ![2]⟩ u) (hsd : d.scatterDimsToOperandDims = [0, 1])
    (hiv : d.indexVectorDim = 0) (idx : IVec ⟨1, ![2]⟩ w) (r0 c0 : ℕ)
    (hidx : (idx (ix1 0)).toInt = r0 ∧ (idx (ix1 1)).toInt = c0) (j : u.Idx) :
    d.start j idx (0 : Fin 2) = r0 ∧ d.start j idx (1 : Fin 2) = c0 :=
  ⟨(start_of_idxOf d hiv j idx (0 : Fin 2) 0 (by rw [hsd]; exact mem2_0) (by rw [hsd]; exact idxOf2_0)).trans hidx.1,
   (start_of_idxOf d hiv j idx (1 : Fin 2) 1 (by rw [hsd]; exact mem2_1) (by rw [hsd]; exact idxOf2_1)).trans hidx.2⟩

/-- The start read off a one-entry index, the row axis scattered: the column start is `0`. -/
theorem start_one (d : ScatterDims ⟨2, ![R, C]⟩ ⟨1, ![1]⟩ u) (hsd : d.scatterDimsToOperandDims = [0])
    (hiv : d.indexVectorDim = 0) (idx : IVec ⟨1, ![1]⟩ w) (r0 : ℕ) (hidx : (idx (ix1 0)).toInt = r0) (j : u.Idx) :
    d.start j idx (0 : Fin 2) = r0 ∧ d.start j idx (1 : Fin 2) = (0 : ℕ) := by
  refine ⟨(start_of_idxOf d hiv j idx (0 : Fin 2) 0 (by rw [hsd]; exact mem1_0) (by rw [hsd]; exact idxOf1_0)).trans hidx, ?_⟩
  unfold ScatterDims.start
  rw [dif_neg (by rw [hsd]; exact not_mem1_1)]
  rfl

/-- When both axes of the update are window axes, index `(a, b)` has window coordinates `(a, b)`. -/
theorem window_block (d : ScatterDims ⟨2, ![R, C]⟩ si ⟨2, ![h, wd]⟩)
    (huw : d.updateWindowDims = [0, 1]) (hiw : d.insertedWindowDims = []) (a : Fin h) (b : Fin wd) :
    d.window (ix2 a b) (0 : Fin 2) = a.val ∧ d.window (ix2 a b) (1 : Fin 2) = b.val := by
  obtain ⟨uw, iw, sd, iv, wf⟩ := d
  dsimp only at huw hiw
  subst huw hiw
  exact ⟨rfl, rfl⟩

/-- When the update is one row (the row axis inserted), index `b` has window coordinates `(0, b)`. -/
theorem window_row (d : ScatterDims ⟨2, ![R, C]⟩ si ⟨1, ![wd]⟩)
    (huw : d.updateWindowDims = [0]) (hiw : d.insertedWindowDims = [0]) (a : Fin 1) (b : Fin wd) :
    d.window (ix1 b) (0 : Fin 2) = a.val ∧ d.window (ix1 b) (1 : Fin 2) = b.val := by
  obtain ⟨uw, iw, sd, iv, wf⟩ := d
  dsimp only at huw hiw
  subst huw hiw
  exact ⟨(Fin.val_eq_zero a).symm, rfl⟩

/-- A block set at `(r0, c0)`, the start a two-entry index. -/
theorem SetsAt.block2 (d : ScatterDims ⟨2, ![R, C]⟩ ⟨1, ![2]⟩ ⟨2, ![h, wd]⟩)
    (huw : d.updateWindowDims = [0, 1]) (hiw : d.insertedWindowDims = []) (hsd : d.scatterDimsToOperandDims = [0, 1])
    (hiv : d.indexVectorDim = 0) {idx : IVec ⟨1, ![2]⟩ w} {r0 c0 : ℕ}
    (hidx : (idx (ix1 0)).toInt = r0 ∧ (idx (ix1 1)).toInt = c0) : SetsAt d idx r0 c0 (ix2 (n0 := h) (n1 := wd)) :=
  ⟨start_two d hsd hiv idx r0 c0 hidx, window_block d huw hiw, fun j => ⟨j 0, j 1, eq_ix2 j⟩⟩

/-- A block of rows set at row `r0` from column `0`, the start a one-entry index. -/
theorem SetsAt.block1 (d : ScatterDims ⟨2, ![R, C]⟩ ⟨1, ![1]⟩ ⟨2, ![h, wd]⟩)
    (huw : d.updateWindowDims = [0, 1]) (hiw : d.insertedWindowDims = []) (hsd : d.scatterDimsToOperandDims = [0])
    (hiv : d.indexVectorDim = 0) {idx : IVec ⟨1, ![1]⟩ w} {r0 : ℕ}
    (hidx : (idx (ix1 0)).toInt = r0) : SetsAt d idx r0 0 (ix2 (n0 := h) (n1 := wd)) :=
  ⟨start_one d hsd hiv idx r0 hidx, window_block d huw hiw, fun j => ⟨j 0, j 1, eq_ix2 j⟩⟩

/-- A row piece set at `(r0, c0)`, the start a two-entry index. -/
theorem SetsAt.row2 (d : ScatterDims ⟨2, ![R, C]⟩ ⟨1, ![2]⟩ ⟨1, ![wd]⟩)
    (huw : d.updateWindowDims = [0]) (hiw : d.insertedWindowDims = [0]) (hsd : d.scatterDimsToOperandDims = [0, 1])
    (hiv : d.indexVectorDim = 0) {idx : IVec ⟨1, ![2]⟩ w} {r0 c0 : ℕ}
    (hidx : (idx (ix1 0)).toInt = r0 ∧ (idx (ix1 1)).toInt = c0) : SetsAt d idx r0 c0 (fun (_ : Fin 1) (b : Fin wd) => ix1 b) :=
  ⟨start_two d hsd hiv idx r0 c0 hidx, window_row d huw hiw, fun j => ⟨0, j 0, eq_ix1 j⟩⟩

/-- A row set at row `r0` from column `0`, the start a one-entry index. -/
theorem SetsAt.row1 (d : ScatterDims ⟨2, ![R, C]⟩ ⟨1, ![1]⟩ ⟨1, ![wd]⟩)
    (huw : d.updateWindowDims = [0]) (hiw : d.insertedWindowDims = [0]) (hsd : d.scatterDimsToOperandDims = [0])
    (hiv : d.indexVectorDim = 0) {idx : IVec ⟨1, ![1]⟩ w} {r0 : ℕ}
    (hidx : (idx (ix1 0)).toInt = r0) : SetsAt d idx r0 0 (fun (_ : Fin 1) (b : Fin wd) => ix1 b) :=
  ⟨start_one d hsd hiv idx r0 hidx, window_row d huw hiw, fun j => ⟨0, j 0, eq_ix1 j⟩⟩

end rank2

end Idealize.ShloMosaic.ScatterSet
-- ==== Proof.RefSlabCat.lean ====
import proofs.«144052_g2000204636238536_pallasbulk_491_38_alg».proof.Proof.RefEntry
import proofs.«144052_g2000204636238536_pallasbulk_491_38_alg».proof.Proof.LibScatterSet
import Idealize.ShloMosaic.Lib.StableHlo.Run
import Idealize.ShloMosaic.Lib.Pipeline.Value

set_option maxRecDepth 16384

noncomputable section

namespace Cert.ReferenceIdeal.Hand

open Idealize.ShloMosaic Idealize.ShloMosaic.TcCoe Idealize.ShloMosaic.ValueIdx Idealize.ShloMosaic.ScatterSet
open Cert.ReferenceIdeal Cert.ReferenceIdeal.Gen

/-- The operations of `l₁ ++ l₂` act as those of `l₁` followed by those of `l₂`. -/
theorem after_append {τ : Topo} {sig : RefSig} {Val : EltTy → Type} (l₁ l₂ : List (HloOp τ sig Val)) (V : Valuation τ sig Val) :
    StableHlo.after (l₁ ++ l₂) V = StableHlo.after l₂ (StableHlo.after l₁ V) := by
  induction l₁ generalizing V with
  | nil => rfl
  | cons op l ih => simp only [List.cons_append, StableHlo.after_cons, ih]

/-- The arrays each of the four stretches of host operations writes. -/
abbrev W0 : List (Ref sig .tc) := [main_cst, main_v0, main_c, main_v1, main_c_0, main_v2, main_v3, main_v4, main_c_1, main_v5, main_c_2, main_v6, main_v7, main_v8, main_v9, main_cst_3, main_v10, main_c_4, main_v11, main_c_5, main_v12, main_v13, main_v14, main_c_6, main_v15, main_c_7, main_v16, main_v17, main_v18, main_v19, main_cst_8, main_v20, main_c_9, main_v21, main_c_10, main_v22, main_v23, main_v24, main_c_11, main_v25, main_c_12, main_v26, main_v27, main_v28, main_v29, main_cst_13, main_v30, main_c_14, main_v31, main_c_15, main_v32, main_v33, main_v34, main_c_16, main_v35, main_c_17, main_v36, main_v37, main_v38, main_v39]
abbrev W1 : List (Ref sig .tc) := [main_cst_18, main_v40, main_c_19, main_v41, main_v42, main_c_20, main_v43, main_v44, main_cst_21, main_v45, main_c_22, main_v46, main_c_23, main_v47, main_v48, main_v49, main_c_24, main_v50, main_c_25, main_v51, main_v52, main_v53, main_cst_26, main_v54, main_c_27, main_v55, main_v56, main_c_28, main_v57, main_v58, main_cst_29, main_v59, main_c_30, main_v60, main_c_31, main_v61, main_v62, main_v63, main_c_32, main_v64, main_c_33, main_v65, main_v66, main_v67, main_cst_34, main_v68, main_c_35, main_v69, main_c_36, main_v70, main_v71, main_v72, main_c_37, main_v73, main_c_38, main_v74, main_v75, main_v76, main_cst_39, main_v77]
abbrev W2 : List (Ref sig .tc) := [main_c_40, main_v78, main_c_41, main_v79, main_v80, main_v81, main_c_42, main_v82, main_c_43, main_v83, main_v84, main_v85, main_cst_44, main_v86, main_c_45, main_v87, main_c_46, main_v88, main_v89, main_v90, main_c_47, main_v91, main_c_48, main_v92, main_v93, main_v94, main_cst_49, main_v95, main_c_50, main_v96, main_c_51, main_v97, main_v98, main_v99, main_c_52, main_v100, main_c_53, main_v101, main_v102, main_v103, main_cst_54, main_v104, main_c_55, main_v105, main_c_56, main_v106, main_v107, main_v108, main_c_57, main_v109, main_c_58, main_v110, main_v111, main_v112, main_cst_59, main_v113, main_c_60, main_v114, main_c_61, main_v115]
abbrev W3 : List (Ref sig .tc) := [main_v116, main_v117, main_c_62, main_v118, main_c_63, main_v119, main_v120, main_v121, main_cst_64, main_v122, main_c_65, main_v123, main_c_66, main_v124, main_v125, main_v126, main_c_67, main_v127, main_c_68, main_v128, main_v129, main_v130, main_cst_69, main_v131, main_c_70, main_v132, main_c_71, main_v133, main_v134, main_v135, main_c_72, main_v136, main_c_73, main_v137, main_v138, main_v139, main_v140, main_v141, main_v142, main_v143, main_v144, main_v145]

section writes
variable {F : FTy → Type} [FloatOps F]

theorem part0_writes : (main_part0_ops0 : List (HloOp τ sig (Elt F))).Forall fun op => op.writes ⊆ (W0.map (Proc.devRef (τ := τ) .tc)).toFinset := by
  simp only [List.Forall, StableHlo.nullary_writes, StableHlo.unary_writes, StableHlo.binary_writes, StableHlo.ternary_writes, StableHlo.reshape_writes, StableHlo.nary_writes, Finset.singleton_subset_iff, List.mem_toFinset]
  repeat' apply And.intro
  all_goals exact List.mem_map_of_mem (by decide)
theorem part1_writes : (main_part1_ops0 : List (HloOp τ sig (Elt F))).Forall fun op => op.writes ⊆ (W1.map (Proc.devRef (τ := τ) .tc)).toFinset := by
  simp only [List.Forall, StableHlo.nullary_writes, StableHlo.unary_writes, StableHlo.binary_writes, StableHlo.ternary_writes, StableHlo.reshape_writes, StableHlo.nary_writes, Finset.singleton_subset_iff, List.mem_toFinset]
  repeat' apply And.intro
  all_goals exact List.mem_map_of_mem (by decide)
theorem part2_writes : (main_part2_ops0 : List (HloOp τ sig (Elt F))).Forall fun op => op.writes ⊆ (W2.map (Proc.devRef (τ := τ) .tc)).toFinset := by
  simp only [List.Forall, StableHlo.nullary_writes, StableHlo.unary_writes, StableHlo.binary_writes, StableHlo.ternary_writes, StableHlo.reshape_writes, StableHlo.nary_writes, Finset.singleton_subset_iff, List.mem_toFinset]
  repeat' apply And.intro
  all_goals exact List.mem_map_of_mem (by decide)
theorem part3_writes : (main_part3_ops0 : List (HloOp τ sig (Elt F))).Forall fun op => op.writes ⊆ (W3.map (Proc.devRef (τ := τ) .tc)).toFinset := by
  simp only [List.Forall, StableHlo.nullary_writes, StableHlo.unary_writes, StableHlo.binary_writes, StableHlo.ternary_writes, StableHlo.reshape_writes, StableHlo.nary_writes, Finset.singleton_subset_iff, List.mem_toFinset]
  repeat' apply And.intro
  all_goals exact List.mem_map_of_mem (by decide)

end writes

variable (m : (ℓ : Loc nD τ sig) → Buf (Elt Ideal) ℓ) (c : Dev nD)

/-- The arrays of `c` once one, two and three of the stretches have run. -/
abbrev Vp0 : Valuation τ sig (Elt Ideal) := StableHlo.after main_part0_ops0 (fun b => m (c, b))
abbrev Vp1 : Valuation τ sig (Elt Ideal) := StableHlo.after main_part1_ops0 (Vp0 m c)
abbrev Vp2 : Valuation τ sig (Elt Ideal) := StableHlo.after main_part2_ops0 (Vp1 m c)

/-- The host program is the four stretches in a row, so the entry arrays are what the fourth leaves of the third's. -/
theorem Vpre_parts (r : Ref sig .tc) : Vpre m c r = StableHlo.after main_part3_ops0 (Vp2 m c) (Proc.devRef .tc r) := by
  show StableHlo.after (main_part0_ops0 ++ (main_part1_ops0 ++ (main_part2_ops0 ++ main_part3_ops0))) (fun b => m (c, b)) _ = _
  rw [after_append, after_append, after_append]

/-- Stretches that do not write an array can be skipped when reading it at the entry. -/
theorem Vpre_eq_Vp2 (r : Ref sig .tc) (h : r ∉ W3) : Vpre m c r = Vp2 m c (Proc.devRef .tc r) :=
  (Vpre_parts m c r).trans (StableHlo.after_of_writes_sub main_part3_ops0 _ part3_writes h)
theorem Vpre_eq_Vp1 (r : Ref sig .tc) (h : r ∉ W2 ++ W3) : Vpre m c r = Vp1 m c (Proc.devRef .tc r) :=
  (Vpre_eq_Vp2 m c r fun h' => h (List.mem_append_right _ h')).trans
    (StableHlo.after_of_writes_sub main_part2_ops0 _ part2_writes fun h' => h (List.mem_append_left _ h'))
theorem Vpre_eq_Vp0 (r : Ref sig .tc) (h : r ∉ W1 ++ (W2 ++ W3)) : Vpre m c r = Vp0 m c (Proc.devRef .tc r) :=
  (Vpre_eq_Vp1 m c r fun h' => h (List.mem_append_right _ h')).trans
    (StableHlo.after_of_writes_sub main_part1_ops0 _ part1_writes fun h' => h (List.mem_append_left _ h'))

/-- An array no stretch writes holds, after each of the first three, its initial contents. -/
theorem launch (r : Ref sig .tc) (h : r ∉ W0 ++ (W1 ++ W2)) :
    Vp0 m c (Proc.devRef .tc r) = m ((c : Thread nD τ).loc r) ∧ Vp1 m c (Proc.devRef .tc r) = m ((c : Thread nD τ).loc r)
      ∧ Vp2 m c (Proc.devRef .tc r) = m ((c : Thread nD τ).loc r) := by
  have e0 := StableHlo.after_of_writes_sub main_part0_ops0 (fun b => m (c, b)) part0_writes fun h' => h (List.mem_append_left _ h')
  have e1 := (StableHlo.after_of_writes_sub main_part1_ops0 (Vp0 m c) part1_writes
    fun h' => h (List.mem_append_right _ (List.mem_append_left _ h'))).trans e0
  exact ⟨e0, e1, (StableHlo.after_of_writes_sub main_part2_ops0 (Vp1 m c) part2_writes
    fun h' => h (List.mem_append_right _ (List.mem_append_right _ h'))).trans e1⟩

/-- The twelve padded blocks, in the order in which they are joined. -/
abbrev pieces (X : Valuation τ sig (Elt Ideal)) : List ((s : Shape) × (s.Idx → EReal)) :=
  [⟨S520x512, X (Proc.devRef .tc main_v44)⟩, ⟨S520x512, X (Proc.devRef .tc main_v53)⟩, ⟨S264x512, X (Proc.devRef .tc main_v58)⟩,
   ⟨S520x512, X (Proc.devRef .tc main_v67)⟩, ⟨S264x512, X (Proc.devRef .tc main_v76)⟩, ⟨S264x512, X (Proc.devRef .tc main_v85)⟩,
   ⟨S136x512, X (Proc.devRef .tc main_v94)⟩, ⟨S264x512, X (Proc.devRef .tc main_v103)⟩, ⟨S136x512, X (Proc.devRef .tc main_v112)⟩,
   ⟨S264x512, X (Proc.devRef .tc main_v121)⟩, ⟨S136x512, X (Proc.devRef .tc main_v130)⟩, ⟨S264x512, X (Proc.devRef .tc main_v139)⟩]

set_option maxHeartbeats 4000000 in
/-- The join that makes the slab is among the last six host operations, and these write none of the twelve blocks it joins. -/
theorem slab_cat : (Vpre m c main_v140 : S3552x512.Idx → EReal)
    = concatenate S3552x512 0 (pieces (StableHlo.after hostOps0 fun b => m (c, b)))
        concatenates_S520x512_S520x512_S264x512_S520x512_S264x512_S264x512_S136x512_S264x512_S136x512_S264x512_S136x512_S264x512_S3552x512_d0 := by
  have e : ∀ X : Valuation τ sig (Elt Ideal),
      (StableHlo.after (main_part3_ops0.drop 36) X (Proc.devRef .tc main_v140) : S3552x512.Idx → EReal)
        = concatenate S3552x512 0 (pieces (StableHlo.after (main_part3_ops0.drop 36) X))
            concatenates_S520x512_S520x512_S264x512_S520x512_S264x512_S264x512_S136x512_S264x512_S136x512_S264x512_S136x512_S264x512_S3552x512_d0 := by
    intro X
    dsimp only [main_part3_ops0, List.drop, pieces]
    after_results
    rfl
  have hv : StableHlo.after hostOps0 (fun b => m (c, b))
      = StableHlo.after (main_part3_ops0.drop 36) (StableHlo.after (main_part3_ops0.take 36) (Vp2 m c)) := by
    rw [← after_append, List.take_append_drop]
    show StableHlo.after (main_part0_ops0 ++ (main_part1_ops0 ++ (main_part2_ops0 ++ main_part3_ops0))) (fun b => m (c, b)) = _
    rw [after_append, after_append, after_append]
  show (StableHlo.after hostOps0 (fun b => m (c, b)) (Proc.devRef .tc main_v140) : S3552x512.Idx → EReal) = _
  rw [hv]
  exact e _

/-- Slab row `off + k` is row `k` of the padded block that starts at row `off`. -/
theorem slab_row (n : Fin 12) {H : ℕ} (B : (⟨2, ![H, 512]⟩ : Shape).Idx → EReal)
    (hB : (pieces (StableHlo.after hostOps0 fun b => m (c, b)))[n.val]'n.isLt = ⟨_, B⟩) (off : ℕ)
    (hoff : ((((pieces (StableHlo.after hostOps0 fun b => m (c, b))).take n.val).map (·.1)).map fun s : Shape =>
      if h : s.rank = S3552x512.rank then s.size ((0 : Fin S3552x512.rank).cast h.symm) else 0).sum = off)
    (k : Fin H) (j : Fin 512) (h : off + k.val < 3552) :
    (Vpre m c main_v140 : S3552x512.Idx → EReal) (ix2 ⟨off + k.val, h⟩ j) = B (ix2 k j) := by
  rw [slab_cat]
  exact concatenate_apply_piece (0 : Fin S3552x512.rank) (pieces (StableHlo.after hostOps0 fun b => m (c, b))) _ _ n.val n.isLt _ B hB rfl off hoff (ix2 k j)
    (fun b hb => by match b with | ⟨0, _⟩ => exact absurd rfl hb | ⟨1, _⟩ => rfl) rfl

/-- A padded block `B` holds the weight `wt` from its origin on and the bias `bs` in the row under the weight. -/
structure Pads {H n p : ℕ} (B : (⟨2, ![H, 512]⟩ : Shape).Idx → EReal) (wt : (⟨2, ![n, p]⟩ : Shape).Idx → EReal)
    (bs : (⟨1, ![p]⟩ : Shape).Idx → EReal) : Prop where
  lt : n < H
  le : p ≤ 512
  w : ∀ (k : Fin n) (j : Fin p), B (ix2 ⟨k.val, k.isLt.trans lt⟩ ⟨j.val, Nat.lt_of_lt_of_le j.isLt le⟩) = wt (ix2 k j)
  b : ∀ j : Fin p, B (ix2 ⟨n, lt⟩ ⟨j.val, Nat.lt_of_lt_of_le j.isLt le⟩) = bs (ix1 j)

/-- A table into which the weight is set at the origin and then the bias as a row piece right under it is such a block. -/
theorem pads_of_sets {H n p : ℕ} {s1 s2 : Shape} {dw : ScatterDims ⟨2, ![H, 512]⟩ s1 ⟨2, ![n, p]⟩}
    {db : ScatterDims ⟨2, ![H, 512]⟩ s2 ⟨1, ![p]⟩} {i1 : IVec s1 32} {i2 : IVec s2 32}
    (hw : SetsAt dw i1 0 0 (ix2 (n0 := n) (n1 := p))) (hb : SetsAt db i2 n 0 (fun (_ : Fin 1) (b : Fin p) => ix1 b))
    (lt : n < H) (le : p ≤ 512) (z : (⟨2, ![H, 512]⟩ : Shape).Idx → EReal) (wt : (⟨2, ![n, p]⟩ : Shape).Idx → EReal)
    (bs : (⟨1, ![p]⟩ : Shape).Idx → EReal) :
    Pads (Host.scatter db (fun _ b => b) (Host.scatter dw (fun _ b => b) z i1 wt) i2 bs) wt bs where
  lt := lt
  le := le
  w k j := by
    have hk := k.isLt
    have hj := j.isLt
    refine (hb.apply _ _ _ _).trans ((dif_neg ?_).trans ((hw.apply _ _ _ _).trans (dif_pos ?_)))
    · dsimp only; omega
    · dsimp only; omega
  b j := by
    have hj := j.isLt
    refine (hb.apply _ _ _ _).trans (dif_pos ?_)
    dsimp only; omega

variable {m c}

/-- The slab's rows from `off` on hold padded block `n`: its weight rows, then its bias row. -/
theorem Pads.slab_w {H q p : ℕ} {B : (⟨2, ![H, 512]⟩ : Shape).Idx → EReal} {wt : (⟨2, ![q, p]⟩ : Shape).Idx → EReal}
    {bs : (⟨1, ![p]⟩ : Shape).Idx → EReal} (P : Pads B wt bs) (n : Fin 12) (off : ℕ)
    (hB : (pieces (StableHlo.after hostOps0 fun b => m (c, b)))[n.val]'n.isLt = ⟨_, B⟩)
    (hoff : ((((pieces (StableHlo.after hostOps0 fun b => m (c, b))).take n.val).map (·.1)).map fun s : Shape =>
      if h : s.rank = S3552x512.rank then s.size ((0 : Fin S3552x512.rank).cast h.symm) else 0).sum = off)
    (k : Fin q) (j : Fin p) (h1 : off + k.val < 3552) (h2 : j.val < 512) :
    (Vpre m c main_v140 : S3552x512.Idx → EReal) (ix2 ⟨off + k.val, h1⟩ ⟨j.val, h2⟩) = wt (ix2 k j) :=
  (slab_row m c n B hB off hoff ⟨k.val, k.isLt.trans P.lt⟩ ⟨j.val, h2⟩ h1).trans (P.w k j)

theorem Pads.slab_b {H q p : ℕ} {B : (⟨2, ![H, 512]⟩ : Shape).Idx → EReal} {wt : (⟨2, ![q, p]⟩ : Shape).Idx → EReal}
    {bs : (⟨1, ![p]⟩ : Shape).Idx → EReal} (P : Pads B wt bs) (n : Fin 12) (off : ℕ)
    (hB : (pieces (StableHlo.after hostOps0 fun b => m (c, b)))[n.val]'n.isLt = ⟨_, B⟩)
    (hoff : ((((pieces (StableHlo.after hostOps0 fun b => m (c, b))).take n.val).map (·.1)).map fun s : Shape =>
      if h : s.rank = S3552x512.rank then s.size ((0 : Fin S3552x512.rank).cast h.symm) else 0).sum = off)
    (j : Fin p) (h1 : off + q < 3552) (h2 : j.val < 512) :
    (Vpre m c main_v140 : S3552x512.Idx → EReal) (ix2 ⟨off + q, h1⟩ ⟨j.val, h2⟩) = bs (ix1 j) :=
  (slab_row m c n B hB off hoff ⟨q, P.lt⟩ ⟨j.val, h2⟩ h1).trans (P.b j)

/-- Entry `j` of a join of two rows is the first row's entry when `j` is below its length, else the second's at `j` less that length. -/
theorem cat_of_join {a b N : ℕ} (hN : N = a + b) (x : (⟨1, ![a]⟩ : Shape).Idx → EReal) (y : (⟨1, ![b]⟩ : Shape).Idx → EReal)
    (h : Shape.Concatenates [(⟨1, ![a]⟩ : Shape), ⟨1, ![b]⟩] ⟨1, ![N]⟩ 0) (j : Fin N) :
    concatenate (⟨1, ![N]⟩ : Shape) 0 [⟨⟨1, ![a]⟩, x⟩, ⟨⟨1, ![b]⟩, y⟩] h (ix1 j)
      = Cert.Spec.cat hN (fun i => x (ix1 i)) (fun i => y (ix1 i)) j := by
  unfold Cert.Spec.cat
  by_cases hj : j.val < a
  · rw [dif_pos hj]
    exact concatenate_pair_apply_left (0 : Fin 1) x y h (ix1 j) rfl (ix1 ⟨j.val, hj⟩)
      (fun b => by match b with | ⟨0, _⟩ => rfl)
  · rw [dif_neg hj]
    exact concatenate_pair_apply_right (0 : Fin 1) x y h (ix1 j) rfl rfl (ix1 ⟨j.val - a, by omega⟩)
      (fun b hb => by match b with | ⟨0, _⟩ => exact absurd rfl hb)
      (by show (j.val - a) + a = j.val; omega)

/-- A fused layer: the weight table `fw` is the block-diagonal table of the two graphs' weights, the bias row `fb` their biases end to end. -/
structure Fuses {a b a' b' K N : ℕ} (hK : K = a + a') (hN : N = b + b') (fw : (⟨2, ![K, N]⟩ : Shape).Idx → EReal)
    (fb : (⟨1, ![N]⟩ : Shape).Idx → EReal) (w0 : (⟨2, ![a, b]⟩ : Shape).Idx → EReal) (w1 : (⟨2, ![a', b']⟩ : Shape).Idx → EReal)
    (b0 : (⟨1, ![b]⟩ : Shape).Idx → EReal) (b1 : (⟨1, ![b']⟩ : Shape).Idx → EReal) : Prop where
  w : ∀ k j, fw (ix2 k j) = Cert.Spec.bdiag hK hN (fun x y => w0 (ix2 x y)) (fun x y => w1 (ix2 x y)) k j
  b : ∀ j, fb (ix1 j) = Cert.Spec.cat hN (fun i => b0 (ix1 i)) (fun i => b1 (ix1 i)) j

/-- Two blocks set into a table of zeros, the second right below and right of the first, and two rows joined. -/
theorem fuses_of_sets {a b a' b' K N : ℕ} (hK : K = a + a') (hN : N = b + b') {si : Shape}
    {d0 : ScatterDims ⟨2, ![K, N]⟩ si ⟨2, ![a, b]⟩} {d1 : ScatterDims ⟨2, ![K, N]⟩ si ⟨2, ![a', b']⟩} {i0 i1 : IVec si 32}
    (h0 : SetsAt d0 i0 0 0 (ix2 (n0 := a) (n1 := b))) (h1 : SetsAt d1 i1 a b (ix2 (n0 := a') (n1 := b')))
    (z : (⟨2, ![K, N]⟩ : Shape).Idx → EReal) (hz : ∀ i, z i = 0) (w0 : (⟨2, ![a, b]⟩ : Shape).Idx → EReal)
    (w1 : (⟨2, ![a', b']⟩ : Shape).Idx → EReal) (b0 : (⟨1, ![b]⟩ : Shape).Idx → EReal) (b1 : (⟨1, ![b']⟩ : Shape).Idx → EReal)
    (h : Shape.Concatenates [(⟨1, ![b]⟩ : Shape), ⟨1, ![b']⟩] ⟨1, ![N]⟩ 0) :
    Fuses hK hN (Host.scatter d1 (fun _ b => b) (Host.scatter d0 (fun _ b => b) z i0 w0) i1 w1)
      (concatenate (⟨1, ![N]⟩ : Shape) 0 [⟨⟨1, ![b]⟩, b0⟩, ⟨⟨1, ![b']⟩, b1⟩] h) w0 w1 b0 b1 where
  w k j := by
    rw [h1.apply, h0.apply, hz]
    unfold Cert.Spec.bdiag
    split_ifs <;> first | rfl | (exfalso; omega)
  b := cat_of_join hN b0 b1 h

end Cert.ReferenceIdeal.Hand

end
-- ==== Proof.RefSlabA_h.lean ====
import proofs.«144052_g2000204636238536_pallasbulk_491_38_alg».proof.Proof.RefSlabCat

set_option maxRecDepth 16384

noncomputable section

namespace Cert.ReferenceIdeal.Hand

open Idealize.ShloMosaic Idealize.ShloMosaic.TcCoe Idealize.ShloMosaic.ValueIdx Idealize.ShloMosaic.ScatterSet
open Cert.ReferenceIdeal Cert.ReferenceIdeal.Gen

variable (m : (ℓ : Loc nD τ sig) → Buf (Elt Ideal) ℓ) (c : Dev nD)

set_option maxHeartbeats 4000000 in
/-- The feature perceptron's first layer: the fused weight is two blocks set into zeros, the fused bias two rows joined. -/
theorem fuse_feat0 : Fuses (a := 256) (b := 256) (a' := 256) (b' := 256) (K := 512) (N := 512) rfl rfl
    (Vpre m c main_v8 : S512x512.Idx → EReal) (Vpre m c main_v9 : S512.Idx → EReal)
    (m ((c : Thread nD τ).loc main_arg5)) (m ((c : Thread nD τ).loc main_arg9)) (m ((c : Thread nD τ).loc main_arg6)) (m ((c : Thread nD τ).loc main_arg10)) := by
  rw [Vpre_eq_Vp0 m c main_v8 (by decide), Vpre_eq_Vp0 m c main_v9 (by decide)]
  dsimp only [Vp0, main_part0_ops0]
  after_results_simp
  refine fuses_of_sets rfl rfl ?_ ?_ _ (fun _ => Ideal.ofBits_zero_f32) _ _ _ _ _
  · exact .block2 _ rfl rfl rfl rfl ⟨rfl, rfl⟩
  · exact .block2 _ rfl rfl rfl rfl ⟨rfl, rfl⟩

set_option maxHeartbeats 4000000 in
/-- Its padded block: the fused weight set from the origin, the fused bias in the row under it. -/
theorem pad_feat0 : Pads (Vpre m c main_v44 : S520x512.Idx → EReal) (Vpre m c main_v8 : S512x512.Idx → EReal)
    (Vpre m c main_v9 : S512.Idx → EReal) := by
  rw [Vpre_eq_Vp1 m c main_v44 (by decide), Vpre_eq_Vp0 m c main_v8 (by decide), Vpre_eq_Vp0 m c main_v9 (by decide)]
  dsimp only [Vp1]
  generalize Vp0 m c = X
  dsimp only [main_part1_ops0]
  after_results_simp
  refine pads_of_sets ?_ ?_ (by decide) (by decide) _ _ _
  · exact .block1 _ rfl rfl rfl rfl rfl
  · exact .row1 _ rfl rfl rfl rfl rfl

theorem slab_feat0_w (k : Fin 512) (j : Fin 512) :
    (Vpre m c main_v140 : S3552x512.Idx → EReal) (ix2 ⟨0 + k.val, by omega⟩ ⟨j.val, by omega⟩)
      = Cert.Spec.bdiag (K := 512) (N := 512) (by norm_num) (by norm_num) (refArgs m c).wf00 (refArgs m c).wf10 k j :=
  ((pad_feat0 m c).slab_w 0 0 rfl rfl k j _ _).trans ((fuse_feat0 m c).w k j)

theorem slab_feat0_b (j : Fin 512) :
    (Vpre m c main_v140 : S3552x512.Idx → EReal) (ix2 ⟨0 + 512, by omega⟩ ⟨j.val, by omega⟩)
      = Cert.Spec.cat (N := 512) (by norm_num) (refArgs m c).bf00 (refArgs m c).bf10 j :=
  ((pad_feat0 m c).slab_b 0 0 rfl rfl j _ _).trans ((fuse_feat0 m c).b j)

set_option maxHeartbeats 4000000 in
/-- The feature perceptron's second layer: the fused weight is two blocks set into zeros, the fused bias two rows joined. -/
theorem fuse_feat1 : Fuses (a := 256) (b := 128) (a' := 256) (b' := 128) (K := 512) (N := 256) rfl rfl
    (Vpre m c main_v18 : S512x256.Idx → EReal) (Vpre m c main_v19 : S256.Idx → EReal)
    (m ((c : Thread nD τ).loc main_arg7)) (m ((c : Thread nD τ).loc main_arg11)) (m ((c : Thread nD τ).loc main_arg8)) (m ((c : Thread nD τ).loc main_arg12)) := by
  rw [Vpre_eq_Vp0 m c main_v18 (by decide), Vpre_eq_Vp0 m c main_v19 (by decide)]
  dsimp only [Vp0, main_part0_ops0]
  after_results_simp
  refine fuses_of_sets rfl rfl ?_ ?_ _ (fun _ => Ideal.ofBits_zero_f32) _ _ _ _ _
  · exact .block2 _ rfl rfl rfl rfl ⟨rfl, rfl⟩
  · exact .block2 _ rfl rfl rfl rfl ⟨rfl, rfl⟩

set_option maxHeartbeats 4000000 in
/-- Its padded block: the fused weight set from the origin, the fused bias in the row under it. -/
theorem pad_feat1 : Pads (Vpre m c main_v53 : S520x512.Idx → EReal) (Vpre m c main_v18 : S512x256.Idx → EReal)
    (Vpre m c main_v19 : S256.Idx → EReal) := by
  rw [Vpre_eq_Vp1 m c main_v53 (by decide), Vpre_eq_Vp0 m c main_v18 (by decide), Vpre_eq_Vp0 m c main_v19 (by decide)]
  dsimp only [Vp1]
  generalize Vp0 m c = X
  dsimp only [main_part1_ops0]
  after_results_simp
  refine pads_of_sets ?_ ?_ (by decide) (by decide) _ _ _
  · exact .block2 _ rfl rfl rfl rfl ⟨rfl, rfl⟩
  · exact .row2 _ rfl rfl rfl rfl ⟨rfl, rfl⟩

theorem slab_feat1_w (k : Fin 512) (j : Fin 256) :
    (Vpre m c main_v140 : S3552x512.Idx → EReal) (ix2 ⟨520 + k.val, by omega⟩ ⟨j.val, by omega⟩)
      = Cert.Spec.bdiag (K := 512) (N := 256) (by norm_num) (by norm_num) (refArgs m c).wf01 (refArgs m c).wf11 k j :=
  ((pad_feat1 m c).slab_w 1 520 rfl rfl k j _ _).trans ((fuse_feat1 m c).w k j)

theorem slab_feat1_b (j : Fin 256) :
    (Vpre m c main_v140 : S3552x512.Idx → EReal) (ix2 ⟨520 + 512, by omega⟩ ⟨j.val, by omega⟩)
      = Cert.Spec.cat (N := 256) (by norm_num) (refArgs m c).bf01 (refArgs m c).bf11 j :=
  ((pad_feat1 m c).slab_b 1 520 rfl rfl j _ _).trans ((fuse_feat1 m c).b j)

end Cert.ReferenceIdeal.Hand

end
-- ==== Proof.RefSlabA_g.lean ====
import proofs.«144052_g2000204636238536_pallasbulk_491_38_alg».proof.Proof.RefSlabCat

set_option maxRecDepth 16384

noncomputable section

namespace Cert.ReferenceIdeal.Hand

open Idealize.ShloMosaic Idealize.ShloMosaic.TcCoe Idealize.ShloMosaic.ValueIdx Idealize.ShloMosaic.ScatterSet
open Cert.ReferenceIdeal Cert.ReferenceIdeal.Gen

variable (m : (ℓ : Loc nD τ sig) → Buf (Elt Ideal) ℓ) (c : Dev nD)

set_option maxHeartbeats 4000000 in
/-- The message perceptron's first layer: the fused weight is two blocks set into zeros, the fused bias two rows joined. -/
theorem fuse_msg0 : Fuses (a := 128) (b := 256) (a' := 128) (b' := 256) (K := 256) (N := 512) rfl rfl
    (Vpre m c main_v28 : S256x512.Idx → EReal) (Vpre m c main_v29 : S512.Idx → EReal)
    (m ((c : Thread nD τ).loc main_arg13)) (m ((c : Thread nD τ).loc main_arg17)) (m ((c : Thread nD τ).loc main_arg14)) (m ((c : Thread nD τ).loc main_arg18)) := by
  rw [Vpre_eq_Vp0 m c main_v28 (by decide), Vpre_eq_Vp0 m c main_v29 (by decide)]
  dsimp only [Vp0, main_part0_ops0]
  after_results_simp
  refine fuses_of_sets rfl rfl ?_ ?_ _ (fun _ => Ideal.ofBits_zero_f32) _ _ _ _ _
  · exact .block2 _ rfl rfl rfl rfl ⟨rfl, rfl⟩
  · exact .block2 _ rfl rfl rfl rfl ⟨rfl, rfl⟩

set_option maxHeartbeats 4000000 in
/-- Its padded block: the fused weight set from the origin, the fused bias in the row under it. -/
theorem pad_msg0 : Pads (Vpre m c main_v58 : S264x512.Idx → EReal) (Vpre m c main_v28 : S256x512.Idx → EReal)
    (Vpre m c main_v29 : S512.Idx → EReal) := by
  rw [Vpre_eq_Vp1 m c main_v58 (by decide), Vpre_eq_Vp0 m c main_v28 (by decide), Vpre_eq_Vp0 m c main_v29 (by decide)]
  dsimp only [Vp1]
  generalize Vp0 m c = X
  dsimp only [main_part1_ops0]
  after_results_simp
  refine pads_of_sets ?_ ?_ (by decide) (by decide) _ _ _
  · exact .block1 _ rfl rfl rfl rfl rfl
  · exact .row1 _ rfl rfl rfl rfl rfl

theorem slab_msg0_w (k : Fin 256) (j : Fin 512) :
    (Vpre m c main_v140 : S3552x512.Idx → EReal) (ix2 (⟨1040 + k.val, by omega⟩ : Fin 3552) (⟨j.val, by omega⟩ : Fin 512))
      = Cert.Spec.bdiag (K := 256) (N := 512) (by norm_num) (by norm_num) (refArgs m c).wm00 (refArgs m c).wm10 k j :=
  ((pad_msg0 m c).slab_w 2 1040 rfl rfl k j _ _).trans ((fuse_msg0 m c).w k j)

theorem slab_msg0_b (j : Fin 512) :
    (Vpre m c main_v140 : S3552x512.Idx → EReal) (ix2 (⟨1296, by omega⟩ : Fin 3552) (⟨j.val, by omega⟩ : Fin 512))
      = Cert.Spec.cat (N := 512) (by norm_num) (refArgs m c).bm00 (refArgs m c).bm10 j :=
  ((pad_msg0 m c).slab_b 2 1040 rfl rfl j _ _).trans ((fuse_msg0 m c).b j)

set_option maxHeartbeats 4000000 in
/-- The message perceptron's second layer: the fused weight is two blocks set into zeros, the fused bias two rows joined. -/
theorem fuse_msg1 : Fuses (a := 256) (b := 128) (a' := 256) (b' := 128) (K := 512) (N := 256) rfl rfl
    (Vpre m c main_v38 : S512x256.Idx → EReal) (Vpre m c main_v39 : S256.Idx → EReal)
    (m ((c : Thread nD τ).loc main_arg15)) (m ((c : Thread nD τ).loc main_arg19)) (m ((c : Thread nD τ).loc main_arg16)) (m ((c : Thread nD τ).loc main_arg20)) := by
  rw [Vpre_eq_Vp0 m c main_v38 (by decide), Vpre_eq_Vp0 m c main_v39 (by decide)]
  dsimp only [Vp0, main_part0_ops0]
  after_results_simp
  refine fuses_of_sets rfl rfl ?_ ?_ _ (fun _ => Ideal.ofBits_zero_f32) _ _ _ _ _
  · exact .block2 _ rfl rfl rfl rfl ⟨rfl, rfl⟩
  · exact .block2 _ rfl rfl rfl rfl ⟨rfl, rfl⟩

set_option maxHeartbeats 4000000 in
/-- Its padded block: the fused weight set from the origin, the fused bias in the row under it. -/
theorem pad_msg1 : Pads (Vpre m c main_v67 : S520x512.Idx → EReal) (Vpre m c main_v38 : S512x256.Idx → EReal)
    (Vpre m c main_v39 : S256.Idx → EReal) := by
  rw [Vpre_eq_Vp1 m c main_v67 (by decide), Vpre_eq_Vp0 m c main_v38 (by decide), Vpre_eq_Vp0 m c main_v39 (by decide)]
  dsimp only [Vp1]
  generalize Vp0 m c = X
  dsimp only [main_part1_ops0]
  after_results_simp
  refine pads_of_sets ?_ ?_ (by decide) (by decide) _ _ _
  · exact .block2 _ rfl rfl rfl rfl ⟨rfl, rfl⟩
  · exact .row2 _ rfl rfl rfl rfl ⟨rfl, rfl⟩

theorem slab_msg1_w (k : Fin 512) (j : Fin 256) :
    (Vpre m c main_v140 : S3552x512.Idx → EReal) (ix2 (⟨1304 + k.val, by omega⟩ : Fin 3552) (⟨j.val, by omega⟩ : Fin 512))
      = Cert.Spec.bdiag (K := 512) (N := 256) (by norm_num) (by norm_num) (refArgs m c).wm01 (refArgs m c).wm11 k j :=
  ((pad_msg1 m c).slab_w 3 1304 rfl rfl k j _ _).trans ((fuse_msg1 m c).w k j)

theorem slab_msg1_b (j : Fin 256) :
    (Vpre m c main_v140 : S3552x512.Idx → EReal) (ix2 (⟨1816, by omega⟩ : Fin 3552) (⟨j.val, by omega⟩ : Fin 512))
      = Cert.Spec.cat (N := 256) (by norm_num) (refArgs m c).bm01 (refArgs m c).bm11 j :=
  ((pad_msg1 m c).slab_b 3 1304 rfl rfl j _ _).trans ((fuse_msg1 m c).b j)

end Cert.ReferenceIdeal.Hand

end
-- ==== Proof.RefSlabB.lean ====
import proofs.«144052_g2000204636238536_pallasbulk_491_38_alg».proof.Proof.RefSlabCat

set_option maxRecDepth 16384

noncomputable section

namespace Cert.ReferenceIdeal.Hand

open Idealize.ShloMosaic Idealize.ShloMosaic.TcCoe Idealize.ShloMosaic.ValueIdx Idealize.ShloMosaic.ScatterSet
open Cert.ReferenceIdeal Cert.ReferenceIdeal.Gen

variable (m : (ℓ : Loc nD τ sig) → Buf (Elt Ideal) ℓ) (c : Dev nD)

set_option maxHeartbeats 4000000 in
/-- The merge perceptron's first layer: the weight set from the origin of its padded block, the bias in the row under it. -/
theorem pad_merge0 : Pads (Vpre m c main_v76 : S264x512.Idx → EReal) (m ((c : Thread nD τ).loc main_arg21) : S256x256.Idx → EReal)
    (m ((c : Thread nD τ).loc main_arg22) : S256.Idx → EReal) := by
  rw [Vpre_eq_Vp1 m c main_v76 (by decide), ← (launch m c main_arg21 (by decide)).1, ← (launch m c main_arg22 (by decide)).1]
  dsimp only [Vp1]
  generalize Vp0 m c = X
  dsimp only [main_part1_ops0]
  after_results_simp
  refine pads_of_sets ?_ ?_ (by decide) (by decide) _ _ _
  · exact .block2 _ rfl rfl rfl rfl ⟨rfl, rfl⟩
  · exact .row2 _ rfl rfl rfl rfl ⟨rfl, rfl⟩

theorem slab_merge0_w (k : Fin 256) (j : Fin 256) :
    (Vpre m c main_v140 : S3552x512.Idx → EReal) (ix2 (⟨1824 + k.val, by omega⟩ : Fin 3552) (⟨j.val, by omega⟩ : Fin 512))
      = (refArgs m c).wg0 k j :=
  (pad_merge0 m c).slab_w 4 1824 rfl rfl k j _ _

theorem slab_merge0_b (j : Fin 256) :
    (Vpre m c main_v140 : S3552x512.Idx → EReal) (ix2 (⟨1824 + 256, by omega⟩ : Fin 3552) (⟨j.val, by omega⟩ : Fin 512))
      = (refArgs m c).bg0 j :=
  (pad_merge0 m c).slab_b 4 1824 rfl rfl j _ _

set_option maxHeartbeats 4000000 in
/-- The merge perceptron's second layer: the weight set from the origin of its padded block, the bias in the row under it. -/
theorem pad_merge1 : Pads (Vpre m c main_v85 : S264x512.Idx → EReal) (m ((c : Thread nD τ).loc main_arg23) : S256x128.Idx → EReal)
    (m ((c : Thread nD τ).loc main_arg24) : S128.Idx → EReal) := by
  rw [Vpre_eq_Vp2 m c main_v85 (by decide), ← (launch m c main_arg23 (by decide)).2.1, ← (launch m c main_arg24 (by decide)).2.1]
  dsimp only [Vp2]
  generalize Vp1 m c = X
  dsimp only [main_part2_ops0]
  after_results_simp
  refine pads_of_sets ?_ ?_ (by decide) (by decide) _ _ _
  · exact .block2 _ rfl rfl rfl rfl ⟨rfl, rfl⟩
  · exact .row2 _ rfl rfl rfl rfl ⟨rfl, rfl⟩

theorem slab_merge1_w (k : Fin 256) (j : Fin 128) :
    (Vpre m c main_v140 : S3552x512.Idx → EReal) (ix2 (⟨2088 + k.val, by omega⟩ : Fin 3552) (⟨j.val, by omega⟩ : Fin 512))
      = (refArgs m c).wg1 k j :=
  (pad_merge1 m c).slab_w 5 2088 rfl rfl k j _ _

theorem slab_merge1_b (j : Fin 128) :
    (Vpre m c main_v140 : S3552x512.Idx → EReal) (ix2 (⟨2088 + 256, by omega⟩ : Fin 3552) (⟨j.val, by omega⟩ : Fin 512))
      = (refArgs m c).bg1 j :=
  (pad_merge1 m c).slab_b 5 2088 rfl rfl j _ _

set_option maxHeartbeats 4000000 in
/-- The output perceptron's first layer: the weight set from the origin of its padded block, the bias in the row under it. -/
theorem pad_fout0 : Pads (Vpre m c main_v94 : S136x512.Idx → EReal) (m ((c : Thread nD τ).loc main_arg25) : S128x256.Idx → EReal)
    (m ((c : Thread nD τ).loc main_arg26) : S256.Idx → EReal) := by
  rw [Vpre_eq_Vp2 m c main_v94 (by decide), ← (launch m c main_arg25 (by decide)).2.1, ← (launch m c main_arg26 (by decide)).2.1]
  dsimp only [Vp2]
  generalize Vp1 m c = X
  dsimp only [main_part2_ops0]
  after_results_simp
  refine pads_of_sets ?_ ?_ (by decide) (by decide) _ _ _
  · exact .block2 _ rfl rfl rfl rfl ⟨rfl, rfl⟩
  · exact .row2 _ rfl rfl rfl rfl ⟨rfl, rfl⟩

theorem slab_fout0_w (k : Fin 128) (j : Fin 256) :
    (Vpre m c main_v140 : S3552x512.Idx → EReal) (ix2 (⟨2352 + k.val, by omega⟩ : Fin 3552) (⟨j.val, by omega⟩ : Fin 512))
      = (refArgs m c).wo0 k j :=
  (pad_fout0 m c).slab_w 6 2352 rfl rfl k j _ _

theorem slab_fout0_b (j : Fin 256) :
    (Vpre m c main_v140 : S3552x512.Idx → EReal) (ix2 (⟨2352 + 128, by omega⟩ : Fin 3552) (⟨j.val, by omega⟩ : Fin 512))
      = (refArgs m c).bo0 j :=
  (pad_fout0 m c).slab_b 6 2352 rfl rfl j _ _

set_option maxHeartbeats 4000000 in
/-- The output perceptron's second layer: the weight set from the origin of its padded block, the bias in the row under it. -/
theorem pad_fout1 : Pads (Vpre m c main_v103 : S264x512.Idx → EReal) (m ((c : Thread nD τ).loc main_arg27) : S256x128.Idx → EReal)
    (m ((c : Thread nD τ).loc main_arg28) : S128.Idx → EReal) := by
  rw [Vpre_eq_Vp2 m c main_v103 (by decide), ← (launch m c main_arg27 (by decide)).2.1, ← (launch m c main_arg28 (by decide)).2.1]
  dsimp only [Vp2]
  generalize Vp1 m c = X
  dsimp only [main_part2_ops0]
  after_results_simp
  refine pads_of_sets ?_ ?_ (by decide) (by decide) _ _ _
  · exact .block2 _ rfl rfl rfl rfl ⟨rfl, rfl⟩
  · exact .row2 _ rfl rfl rfl rfl ⟨rfl, rfl⟩

theorem slab_fout1_w (k : Fin 256) (j : Fin 128) :
    (Vpre m c main_v140 : S3552x512.Idx → EReal) (ix2 (⟨2488 + k.val, by omega⟩ : Fin 3552) (⟨j.val, by omega⟩ : Fin 512))
      = (refArgs m c).wo1 k j :=
  (pad_fout1 m c).slab_w 7 2488 rfl rfl k j _ _

theorem slab_fout1_b (j : Fin 128) :
    (Vpre m c main_v140 : S3552x512.Idx → EReal) (ix2 (⟨2488 + 256, by omega⟩ : Fin 3552) (⟨j.val, by omega⟩ : Fin 512))
      = (refArgs m c).bo1 j :=
  (pad_fout1 m c).slab_b 7 2488 rfl rfl j _ _

end Cert.ReferenceIdeal.Hand

end
-- ==== Proof.RefSlabB_a.lean ====
import proofs.«144052_g2000204636238536_pallasbulk_491_38_alg».proof.Proof.RefSlabCat

set_option maxRecDepth 16384

noncomputable section

namespace Cert.ReferenceIdeal.Hand

open Idealize.ShloMosaic Idealize.ShloMosaic.TcCoe Idealize.ShloMosaic.ValueIdx Idealize.ShloMosaic.ScatterSet
open Cert.ReferenceIdeal Cert.ReferenceIdeal.Gen

variable (m : (ℓ : Loc nD τ sig) → Buf (Elt Ideal) ℓ) (c : Dev nD)

/-- The priority head's first layer: the weight set from the origin of its padded block, the bias in the row under it. -/
theorem pad_prio0 : Pads (Vpre m c main_v112 : S136x512.Idx → EReal) (m ((c : Thread nD τ).loc main_arg29) : S128x256.Idx → EReal)
    (m ((c : Thread nD τ).loc main_arg30) : S256.Idx → EReal) := by
  rw [Vpre_eq_Vp2 m c main_v112 (by decide), ← (launch m c main_arg29 (by decide)).2.1, ← (launch m c main_arg30 (by decide)).2.1]
  dsimp only [Vp2]
  generalize Vp1 m c = X
  dsimp only [main_part2_ops0]
  after_results_simp
  refine pads_of_sets ?_ ?_ (by decide) (by decide) _ _ _
  · exact .block2 _ rfl rfl rfl rfl ⟨rfl, rfl⟩
  · exact .row2 _ rfl rfl rfl rfl ⟨rfl, rfl⟩

theorem slab_prio0_w (k : Fin 128) (j : Fin 256) :
    (Vpre m c main_v140 : S3552x512.Idx → EReal) (ix2 (⟨2752 + k.val, by omega⟩ : Fin 3552) (⟨j.val, by omega⟩ : Fin 512))
      = (refArgs m c).wp0 k j :=
  (pad_prio0 m c).slab_w 8 2752 rfl rfl k j _ _

theorem slab_prio0_b (j : Fin 256) :
    (Vpre m c main_v140 : S3552x512.Idx → EReal) (ix2 (⟨2752 + 128, by omega⟩ : Fin 3552) (⟨j.val, by omega⟩ : Fin 512))
      = (refArgs m c).bp0 j :=
  (pad_prio0 m c).slab_b 8 2752 rfl rfl j _ _

/-- The priority head's second layer: as the others, the weight's start index being two words an earlier stretch left, both `0`. -/
theorem pad_prio1 : Pads (Vpre m c main_v121 : S264x512.Idx → EReal) (m ((c : Thread nD τ).loc main_arg31) : S256x1.Idx → EReal)
    (m ((c : Thread nD τ).loc main_arg32) : S1.Idx → EReal) := by
  have h : ∀ Y : Valuation τ sig (Elt Ideal),
      (StableHlo.after main_part2_ops0 Y (Proc.devRef .tc main_v114) : S1.Idx → BitVec 32)
          = broadcastInDim S1 ![] Gen.bcast_S_S1 (constantI S_ 32 0#32)
        ∧ (StableHlo.after main_part2_ops0 Y (Proc.devRef .tc main_v115) : S1.Idx → BitVec 32)
          = broadcastInDim S1 ![] Gen.bcast_S_S1 (constantI S_ 32 0#32) := by
    intro Y
    constructor <;> (dsimp only [main_part2_ops0]; after_results)
  obtain ⟨h4, h5⟩ := h (Vp1 m c)
  rw [Vpre_parts m c main_v121, ← (launch m c main_arg31 (by decide)).2.2, ← (launch m c main_arg32 (by decide)).2.2]
  dsimp only [Vp2]
  generalize StableHlo.after main_part2_ops0 (Vp1 m c) = X at h4 h5 ⊢
  dsimp only [main_part3_ops0]
  after_results_simp
  rw [h4, h5]
  refine pads_of_sets ?_ ?_ (by decide) (by decide) _ _ _
  · exact .block2 _ rfl rfl rfl rfl ⟨rfl, rfl⟩
  · exact .row2 _ rfl rfl rfl rfl ⟨rfl, rfl⟩

theorem slab_prio1_w (k : Fin 256) (j : Fin 1) :
    (Vpre m c main_v140 : S3552x512.Idx → EReal) (ix2 (⟨2888 + k.val, by omega⟩ : Fin 3552) (⟨j.val, by omega⟩ : Fin 512))
      = (refArgs m c).wp1 k j :=
  (pad_prio1 m c).slab_w 9 2888 rfl rfl k j _ _

theorem slab_prio1_b (j : Fin 1) :
    (Vpre m c main_v140 : S3552x512.Idx → EReal) (ix2 (⟨2888 + 256, by omega⟩ : Fin 3552) (⟨j.val, by omega⟩ : Fin 512))
      = (refArgs m c).bp1 j :=
  (pad_prio1 m c).slab_b 9 2888 rfl rfl j _ _

/-- The aggregate head's first layer: the weight set from the origin of its padded block, the bias in the row under it. -/
theorem pad_aggp0 : Pads (Vpre m c main_v130 : S136x512.Idx → EReal) (m ((c : Thread nD τ).loc main_arg33) : S128x256.Idx → EReal)
    (m ((c : Thread nD τ).loc main_arg34) : S256.Idx → EReal) := by
  rw [Vpre_parts m c main_v130, ← (launch m c main_arg33 (by decide)).2.2, ← (launch m c main_arg34 (by decide)).2.2]
  generalize Vp2 m c = X
  dsimp only [main_part3_ops0]
  after_results_simp
  refine pads_of_sets ?_ ?_ (by decide) (by decide) _ _ _
  · exact .block2 _ rfl rfl rfl rfl ⟨rfl, rfl⟩
  · exact .row2 _ rfl rfl rfl rfl ⟨rfl, rfl⟩

theorem slab_aggp0_w (k : Fin 128) (j : Fin 256) :
    (Vpre m c main_v140 : S3552x512.Idx → EReal) (ix2 (⟨3152 + k.val, by omega⟩ : Fin 3552) (⟨j.val, by omega⟩ : Fin 512))
      = (refArgs m c).wa0 k j :=
  (pad_aggp0 m c).slab_w 10 3152 rfl rfl k j _ _

theorem slab_aggp0_b (j : Fin 256) :
    (Vpre m c main_v140 : S3552x512.Idx → EReal) (ix2 (⟨3152 + 128, by omega⟩ : Fin 3552) (⟨j.val, by omega⟩ : Fin 512))
      = (refArgs m c).ba0 j :=
  (pad_aggp0 m c).slab_b 10 3152 rfl rfl j _ _

/-- The aggregate head's second layer: the weight set from the origin of its padded block, the bias in the row under it. -/
theorem pad_aggp1 : Pads (Vpre m c main_v139 : S264x512.Idx → EReal) (m ((c : Thread nD τ).loc main_arg35) : S256x1.Idx → EReal)
    (m ((c : Thread nD τ).loc main_arg36) : S1.Idx → EReal) := by
  rw [Vpre_parts m c main_v139, ← (launch m c main_arg35 (by decide)).2.2, ← (launch m c main_arg36 (by decide)).2.2]
  generalize Vp2 m c = X
  dsimp only [main_part3_ops0]
  after_results_simp
  refine pads_of_sets ?_ ?_ (by decide) (by decide) _ _ _
  · exact .block2 _ rfl rfl rfl rfl ⟨rfl, rfl⟩
  · exact .row2 _ rfl rfl rfl rfl ⟨rfl, rfl⟩

/-- The eleven blocks above the last one are 3288 rows high together. -/
theorem off11 : ((((pieces (StableHlo.after hostOps0 fun b => m (c, b))).take 11).map (·.1)).map fun s : Shape =>
      if h : s.rank = S3552x512.rank then s.size ((0 : Fin S3552x512.rank).cast h.symm) else 0).sum = 3288 := by
  simp only [pieces, List.take_succ_cons, List.take_zero, List.map_cons, List.map_nil, List.sum_cons, List.sum_nil]
  rfl

theorem slab_aggp1_w (k : Fin 256) (j : Fin 1) :
    (Vpre m c main_v140 : S3552x512.Idx → EReal) (ix2 (⟨3288 + k.val, by omega⟩ : Fin 3552) (⟨j.val, by omega⟩ : Fin 512))
      = (refArgs m c).wa1 k j :=
  (pad_aggp1 m c).slab_w 11 3288 rfl (off11 m c) k j _ _

theorem slab_aggp1_b (j : Fin 1) :
    (Vpre m c main_v140 : S3552x512.Idx → EReal) (ix2 (⟨3288 + 256, by omega⟩ : Fin 3552) (⟨j.val, by omega⟩ : Fin 512))
      = (refArgs m c).ba1 j :=
  (pad_aggp1 m c).slab_b 11 3288 rfl (off11 m c) j _ _

end Cert.ReferenceIdeal.Hand

end
-- ==== Proof.RefValue.lean ====
/- The reference's output block holds, at (b, s, ·), batch element b's four results. -/
import proofs.«144052_g2000204636238536_pallasbulk_491_38_alg».proof.Proof.RefValueTrunk
import proofs.«144052_g2000204636238536_pallasbulk_491_38_alg».proof.Proof.RefValueTail
import proofs.«144052_g2000204636238536_pallasbulk_491_38_alg».proof.Proof.RefFramePieces
import proofs.«144052_g2000204636238536_pallasbulk_491_38_alg».proof.Proof.RefInputs
import proofs.«144052_g2000204636238536_pallasbulk_491_38_alg».proof.Proof.RefSlabA_h
import proofs.«144052_g2000204636238536_pallasbulk_491_38_alg».proof.Proof.RefSlabA_g
import proofs.«144052_g2000204636238536_pallasbulk_491_38_alg».proof.Proof.RefSlabB
import proofs.«144052_g2000204636238536_pallasbulk_491_38_alg».proof.Proof.RefSlabB_a

noncomputable section

namespace Cert.ReferenceIdeal.Hand

open Idealize.ShloMosaic Idealize.ShloMosaic.TcCoe Idealize.ShloMosaic.ValueIdx
open Cert.ReferenceIdeal Cert.ReferenceIdeal.Gen Cert.Rows

theorem holds_pre (m : (ℓ : Loc nD τ sig) → Buf (Elt Ideal) ℓ) (c : Dev nD) :
    Holds (refArgs m c) (Vpre m c main_v141) (Vpre m c main_v144) (Vpre m c main_v145) (Vpre m c main_v140) where
  nodes := nodecat_eq m c
  adjs := adjstack_eq m c
  mask := mask3_eq m c
  w_feat0 := slab_feat0_w m c
  b_feat0 := slab_feat0_b m c
  w_feat1 := slab_feat1_w m c
  b_feat1 := slab_feat1_b m c
  w_msg0 := slab_msg0_w m c
  b_msg0 := slab_msg0_b m c
  w_msg1 := slab_msg1_w m c
  b_msg1 := slab_msg1_b m c
  w_merge0 := slab_merge0_w m c
  b_merge0 := slab_merge0_b m c
  w_merge1 := slab_merge1_w m c
  b_merge1 := slab_merge1_b m c
  w_fout0 := slab_fout0_w m c
  b_fout0 := slab_fout0_b m c
  w_fout1 := slab_fout1_w m c
  b_fout1 := slab_fout1_b m c
  w_prio0 := slab_prio0_w m c
  b_prio0 := slab_prio0_b m c
  w_prio1 := slab_prio1_w m c
  b_prio1 := slab_prio1_b m c
  w_aggp0 := slab_aggp0_w m c
  b_aggp0 := slab_aggp0_b m c
  w_aggp1 := slab_aggp1_w m c
  b_aggp1 := slab_aggp1_b m c

theorem piece_pre (m : (ℓ : Loc nD τ sig) → Buf (Elt Ideal) ℓ) (c : Dev nD) (b : Fin 16) :
    IsPiece (refArgs m c) b (piece b (Vpre m c main_v141) (Vpre m c main_v144) (Vpre m c main_v145) (Vpre m c main_v140)) :=
  piece_spec (holds_pre m c) (v209_eq (holds_pre m c)) (v226_eq (holds_pre m c)) b

theorem outBlk_spec (m : (ℓ : Loc nD τ sig) → Buf (Elt Ideal) ℓ) (c : Dev nD) (b : Fin 16) (s : Fin 129) :
    outBlk (Vpre m c main_v141) (Vpre m c main_v144) (Vpre m c main_v145) (Vpre m c main_v140) (ix3 b s (0 : Fin 4))
        = Cert.Spec.logPi (refArgs m c) b s
      ∧ outBlk (Vpre m c main_v141) (Vpre m c main_v144) (Vpre m c main_v145) (Vpre m c main_v140) (ix3 b s (1 : Fin 4))
        = Cert.Spec.pi (refArgs m c) b s
      ∧ outBlk (Vpre m c main_v141) (Vpre m c main_v144) (Vpre m c main_v145) (Vpre m c main_v140) (ix3 b s (2 : Fin 4))
        = Cert.Spec.mlogPi (refArgs m c) b s
      ∧ outBlk (Vpre m c main_v141) (Vpre m c main_v144) (Vpre m c main_v145) (Vpre m c main_v140) (ix3 b s (3 : Fin 4))
        = Cert.Spec.mpi (refArgs m c) b s :=
  have P := piece_pre m c b s
  ⟨(outBlk_apply _ _ _ _ b s 0).trans P.1, (outBlk_apply _ _ _ _ b s 1).trans P.2.1,
    (outBlk_apply _ _ _ _ b s 2).trans P.2.2.1, (outBlk_apply _ _ _ _ b s 3).trans P.2.2.2⟩

end Cert.ReferenceIdeal.Hand

end
-- ==== Proof.lean ====
/- The claim: both programs end with the four results at the four functions of Proof/Spec.lean of the shared arguments. -/
import proofs.«144052_g2000204636238536_pallasbulk_491_38_alg».proof.Defs
import proofs.«144052_g2000204636238536_pallasbulk_491_38_alg».proof.Proof.Gen.Kernel
import proofs.«144052_g2000204636238536_pallasbulk_491_38_alg».proof.Proof.Gen.KernelIdeal
import proofs.«144052_g2000204636238536_pallasbulk_491_38_alg».proof.Proof.Gen.ReferenceIdeal
import proofs.«144052_g2000204636238536_pallasbulk_491_38_alg».proof.Proof.Gen.Pre_finite_inputs
import proofs.«144052_g2000204636238536_pallasbulk_491_38_alg».proof.Proof.KernelFrameP
import proofs.«144052_g2000204636238536_pallasbulk_491_38_alg».proof.Proof.KernelIdealFrameP
import proofs.«144052_g2000204636238536_pallasbulk_491_38_alg».proof.Proof.KerValueRun
import proofs.«144052_g2000204636238536_pallasbulk_491_38_alg».proof.Proof.RefFrameRun
import proofs.«144052_g2000204636238536_pallasbulk_491_38_alg».proof.Proof.RefValue
import Idealize.ShloMosaic.Adequacy
import Idealize.ShloMosaic.Init

set_option maxRecDepth 16384

noncomputable section

namespace Cert.Proof

open Idealize.ShloMosaic Idealize.ShloMosaic.TcCoe Idealize.ShloMosaic.ValueIdx Idealize.SL.Sem

theorem frame_p : Cert.frame_Kernel := fun m ρ _ => Cert.Kernel.Gen.frame m ρ
theorem frame_pi : Cert.frame_KernelIdeal := fun m ρ _ => Cert.KernelIdeal.Gen.frame m ρ
theorem frame_ri : Cert.frame_ReferenceIdeal := fun m ρ _ =>
  Cert.ReferenceIdeal.Hand.frame_of m ρ (Cert.ReferenceIdeal.Hand.dats m) (Cert.ReferenceIdeal.Hand.run_main m ρ)

theorem algebraic : Cert.algebraic_KernelIdeal_ReferenceIdeal := by
  intro m ρ m' ρ' _ hagree
  refine ⟨fun c i => Cert.Spec.logPi (Cert.KernelIdeal.KV.kerArgs m c) (i 0) (i 1),
    fun c i => Cert.Spec.pi (Cert.KernelIdeal.KV.kerArgs m c) (i 0) (i 1),
    fun c i => Cert.Spec.mlogPi (Cert.KernelIdeal.KV.kerArgs m c) (i 0) (i 1),
    fun c i => Cert.Spec.mpi (Cert.KernelIdeal.KV.kerArgs m c) (i 0) (i 1),
    (θ_run Cert.KernelIdeal.defs _ _).mono (fun r h c => ⟨(h c).1.trans (Cert.KernelIdeal.KV.final37 m c),
      (h c).2.1.trans (Cert.KernelIdeal.KV.final38 m c), (h c).2.2.1.trans (Cert.KernelIdeal.KV.final39 m c),
      (h c).2.2.2.1.trans (Cert.KernelIdeal.KV.final40 m c), (h c).2.2.2.2⟩) (Cert.KernelIdeal.Value.run_blocks m ρ), ?_⟩
  refine (θ_run Cert.ReferenceIdeal.defs _ _).mono (fun r h c => ?_) (Cert.ReferenceIdeal.Hand.run_values m' ρ')
  have hA : Cert.ReferenceIdeal.Hand.refArgs m' c = Cert.KernelIdeal.KV.kerArgs m c := by
    simp only [Cert.ReferenceIdeal.Hand.refArgs, Cert.KernelIdeal.KV.kerArgs, hagree c]
  obtain ⟨h0, h1, h2, h3, hrest⟩ := h c
  refine ⟨h0.trans ?_, h1.trans ?_, h2.trans ?_, h3.trans ?_, hrest⟩
  · funext i; rw [(Cert.ReferenceIdeal.Hand.outBlk_spec m' c (i 0) (i 1)).1, hA]
  · funext i; rw [(Cert.ReferenceIdeal.Hand.outBlk_spec m' c (i 0) (i 1)).2.1, hA]
  · funext i; rw [(Cert.ReferenceIdeal.Hand.outBlk_spec m' c (i 0) (i 1)).2.2.1, hA]
  · funext i; rw [(Cert.ReferenceIdeal.Hand.outBlk_spec m' c (i 0) (i 1)).2.2.2, hA]

theorem claim : Cert.Claim :=
  ⟨Cert.Kernel.Gen.facts, Cert.KernelIdeal.Gen.facts, Cert.ReferenceIdeal.Gen.facts, Cert.Pre_finite_inputs.Gen.facts,
    frame_p, frame_pi, frame_ri, trivial, algebraic⟩

end Cert.Proof

end
